-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part3 {F : FTy → Type} [FloatOps F] (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  main_v53

def fn_part2 {F : FTy → Type} [FloatOps F] (main_arg9 : FVec F S3x64x64 .f32) (main_arg10 : FVec F S3x64 .f32) (main_arg11 : FVec F S3x64 .f32) (main_arg12 : FVec F S3x64 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_v48 main_v49 main_v50

def fn_part1 {F : FTy → Type} [FloatOps F] (main_arg6 : FVec F S64 .f32) (main_arg7 : FVec F S3x64x64 .f32) (main_arg8 : FVec F S3x64 .f32) (main_arg9 : FVec F S3x64x64 .f32) (main_arg10 : FVec F S3x64 .f32) (main_arg11 : FVec F S3x64 .f32) (main_arg12 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64 .f32) (main_arg6 : FVec F S64 .f32) (main_arg7 : FVec F S3x64x64 .f32) (main_arg8 : FVec F S3x64 .f32) (main_arg9 : FVec F S3x64x64 .f32) (main_arg10 : FVec F S3x64 .f32) (main_arg11 : FVec F S3x64 .f32) (main_arg12 : FVec F S3x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S512x1 : Shape := ⟨2, ![512, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S512x64 : Shape := ⟨2, ![512, 64]⟩
abbrev S5000x1 : Shape := ⟨2, ![5000, 1]⟩
abbrev S1x512 : Shape := ⟨2, ![1, 512]⟩
abbrev S5000x512 : Shape := ⟨2, ![5000, 512]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x512x64 : Shape := ⟨3, ![1, 512, 64]⟩
abbrev S4x512x64 : Shape := ⟨3, ![4, 512, 64]⟩

abbrev nBuf : Space → Nat
  | .hbm => 262
  | .vmem => 80
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64, .f32⟩
  | 6 => ⟨S64, .f32⟩
  | 7 => ⟨S3x64x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S1x800000, .i32⟩
  | 14 => ⟨S800000, .i32⟩
  | 15 => ⟨S1x800000, .i32⟩
  | 16 => ⟨S800000, .i32⟩
  | 17 => ⟨S50000x1, .i32⟩
  | 18 => ⟨S_, .f32⟩
  | 19 => ⟨S50000x1, .f32⟩
  | 20 => ⟨S_, .f32⟩
  | 21 => ⟨S512x1, .f32⟩
  | 22 => ⟨S50000x1, .i32⟩
  | 23 => ⟨S512x1, .f32⟩
  | 24 => ⟨S_, .f32⟩
  | 25 => ⟨S512x1, .f32⟩
  | 26 => ⟨S512x1, .f32⟩
  | 27 => ⟨S1x64, .f32⟩
  | 28 => ⟨S1x64, .f32⟩
  | 29 => ⟨S1x64, .f32⟩
  | 30 => ⟨S50000x64, .f32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S_, .i32⟩
  | 38 => ⟨S_, .f32⟩
  | 39 => ⟨S64, .f32⟩
  | 40 => ⟨S1x64, .f32⟩
  | 41 => ⟨S_, .f32⟩
  | 42 => ⟨S1x64, .f32⟩
  | 43 => ⟨S1x64, .f32⟩
  | 44 => ⟨S50000x64, .f32⟩
  | 45 => ⟨S50000x64, .f32⟩
  | 46 => ⟨S50000x64, .f32⟩
  | 47 => ⟨S_, .f32⟩
  | 48 => ⟨S_, .f32⟩
  | 49 => ⟨S_, .f32⟩
  | 50 => ⟨S_, .f32⟩
  | 51 => ⟨S64, .f32⟩
  | 52 => ⟨S1x64, .f32⟩
  | 53 => ⟨S1x64, .f32⟩
  | 54 => ⟨S1x64, .f32⟩
  | 55 => ⟨S_, .f32⟩
  | 56 => ⟨S_, .i1⟩
  | 57 => ⟨S_, .f32⟩
  | 58 => ⟨S_, .f32⟩
  | 59 => ⟨S1x64, .f32⟩
  | 60 => ⟨S1x64, .f32⟩
  | 61 => ⟨S50000x64, .f32⟩
  | 62 => ⟨S512x64, .f32⟩
  | 63 => ⟨S512x64, .f32⟩
  | 64 => ⟨S512x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S1x64x64, .f32⟩
  | 79 => ⟨S64x64, .f32⟩
  | 80 => ⟨S1x64, .f32⟩
  | 81 => ⟨S64, .f32⟩
  | 82 => ⟨S1x64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S50000x64, .f32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S50000x64, .f32⟩
  | 103 => ⟨S50000x64, .f32⟩
  | 104 => ⟨S50000x64, .f32⟩
  | 105 => ⟨S_, .f32⟩
  | 106 => ⟨S_, .f32⟩
  | 107 => ⟨S_, .f32⟩
  | 108 => ⟨S_, .f32⟩
  | 109 => ⟨S64, .f32⟩
  | 110 => ⟨S1x64, .f32⟩
  | 111 => ⟨S1x64, .f32⟩
  | 112 => ⟨S1x64, .f32⟩
  | 113 => ⟨S_, .f32⟩
  | 114 => ⟨S_, .i1⟩
  | 115 => ⟨S_, .f32⟩
  | 116 => ⟨S_, .f32⟩
  | 117 => ⟨S1x64, .f32⟩
  | 118 => ⟨S1x64, .f32⟩
  | 119 => ⟨S1x64, .f32⟩
  | 120 => ⟨S64, .f32⟩
  | 121 => ⟨S1x64, .f32⟩
  | 122 => ⟨S1x64, .f32⟩
  | 123 => ⟨S64, .f32⟩
  | 124 => ⟨S1x64, .f32⟩
  | 125 => ⟨S50000x64, .f32⟩
  | 126 => ⟨S512x64, .f32⟩
  | 127 => ⟨S512x64, .f32⟩
  | _ => ⟨S50000x128, .f32⟩

abbrev hbmTy0_1 (i : Nat) : BufTy := match i % 128 with
  | 0 => ⟨S512x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S1x64x64, .f32⟩
  | 15 => ⟨S64x64, .f32⟩
  | 16 => ⟨S1x64, .f32⟩
  | 17 => ⟨S64, .f32⟩
  | 18 => ⟨S1x64, .f32⟩
  | 19 => ⟨S1x64x64, .f32⟩
  | 20 => ⟨S64x64, .f32⟩
  | 21 => ⟨S1x64, .f32⟩
  | 22 => ⟨S64, .f32⟩
  | 23 => ⟨S1x64, .f32⟩
  | 24 => ⟨S50000x64, .f32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S50000x64, .f32⟩
  | 39 => ⟨S50000x64, .f32⟩
  | 40 => ⟨S50000x64, .f32⟩
  | 41 => ⟨S_, .f32⟩
  | 42 => ⟨S_, .f32⟩
  | 43 => ⟨S_, .f32⟩
  | 44 => ⟨S_, .f32⟩
  | 45 => ⟨S64, .f32⟩
  | 46 => ⟨S1x64, .f32⟩
  | 47 => ⟨S1x64, .f32⟩
  | 48 => ⟨S1x64, .f32⟩
  | 49 => ⟨S_, .f32⟩
  | 50 => ⟨S_, .i1⟩
  | 51 => ⟨S_, .f32⟩
  | 52 => ⟨S_, .f32⟩
  | 53 => ⟨S1x64, .f32⟩
  | 54 => ⟨S1x64, .f32⟩
  | 55 => ⟨S1x64, .f32⟩
  | 56 => ⟨S64, .f32⟩
  | 57 => ⟨S1x64, .f32⟩
  | 58 => ⟨S1x64, .f32⟩
  | 59 => ⟨S64, .f32⟩
  | 60 => ⟨S1x64, .f32⟩
  | 61 => ⟨S50000x64, .f32⟩
  | 62 => ⟨S512x64, .f32⟩
  | 63 => ⟨S512x64, .f32⟩
  | 64 => ⟨S512x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S1x64x64, .f32⟩
  | 79 => ⟨S64x64, .f32⟩
  | 80 => ⟨S1x64, .f32⟩
  | 81 => ⟨S64, .f32⟩
  | 82 => ⟨S1x64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S50000x64, .f32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S_, .i32⟩
  | 96 => ⟨S_, .f32⟩
  | 97 => ⟨S64, .f32⟩
  | 98 => ⟨S1x64, .f32⟩
  | 99 => ⟨S_, .f32⟩
  | 100 => ⟨S1x64, .f32⟩
  | 101 => ⟨S1x64, .f32⟩
  | 102 => ⟨S50000x64, .f32⟩
  | 103 => ⟨S50000x64, .f32⟩
  | 104 => ⟨S50000x64, .f32⟩
  | 105 => ⟨S_, .f32⟩
  | 106 => ⟨S_, .f32⟩
  | 107 => ⟨S_, .f32⟩
  | 108 => ⟨S_, .f32⟩
  | 109 => ⟨S64, .f32⟩
  | 110 => ⟨S1x64, .f32⟩
  | 111 => ⟨S1x64, .f32⟩
  | 112 => ⟨S1x64, .f32⟩
  | 113 => ⟨S_, .f32⟩
  | 114 => ⟨S_, .i1⟩
  | 115 => ⟨S_, .f32⟩
  | 116 => ⟨S_, .f32⟩
  | 117 => ⟨S1x64, .f32⟩
  | 118 => ⟨S1x64, .f32⟩
  | 119 => ⟨S1x64, .f32⟩
  | 120 => ⟨S64, .f32⟩
  | 121 => ⟨S1x64, .f32⟩
  | 122 => ⟨S1x64, .f32⟩
  | 123 => ⟨S64, .f32⟩
  | 124 => ⟨S1x64, .f32⟩
  | 125 => ⟨S50000x64, .f32⟩
  | 126 => ⟨S512x64, .f32⟩
  | 127 => ⟨S512x64, .f32⟩
  | _ => ⟨S50000x128, .f32⟩

abbrev hbmTy0_2 (i : Nat) : BufTy := match i % 128 with
  | 0 => ⟨S512x64, .f32⟩
  | 1 => ⟨S1x512x64, .f32⟩
  | 2 => ⟨S1x512x64, .f32⟩
  | 3 => ⟨S1x512x64, .f32⟩
  | 4 => ⟨S1x512x64, .f32⟩
  | 5 => ⟨S4x512x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x1, .i32⟩
  | .local _ .vmem, ⟨13, _⟩ => ⟨S5000x1, .i32⟩
  | .local _ .vmem, ⟨14, _⟩ => ⟨S5000x64, .f32⟩
  | .local _ .vmem, ⟨15, _⟩ => ⟨S5000x64, .f32⟩
  | .local _ .vmem, ⟨16, _⟩ => ⟨S512x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S1x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S5000x1, .i32⟩
  | .local _ .vmem, ⟨34, _⟩ => ⟨S5000x1, .i32⟩
  | .local _ .vmem, ⟨35, _⟩ => ⟨S5000x64, .f32⟩
  | .local _ .vmem, ⟨36, _⟩ => ⟨S5000x64, .f32⟩
  | .local _ .vmem, ⟨37, _⟩ => ⟨S512x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S5000x1, .i32⟩
  | .local _ .vmem, ⟨55, _⟩ => ⟨S5000x1, .i32⟩
  | .local _ .vmem, ⟨56, _⟩ => ⟨S5000x64, .f32⟩
  | .local _ .vmem, ⟨57, _⟩ => ⟨S5000x64, .f32⟩
  | .local _ .vmem, ⟨58, _⟩ => ⟨S512x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S64x64, .f32⟩
  | .local _ .vmem, ⟨64, _⟩ => ⟨S1x64, .f32⟩
  | .local _ .vmem, ⟨65, _⟩ => ⟨S64x64, .f32⟩
  | .local _ .vmem, ⟨66, _⟩ => ⟨S1x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S1x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S5000x1, .i32⟩
  | .local _ .vmem, ⟨76, _⟩ => ⟨S5000x1, .i32⟩
  | .local _ .vmem, ⟨77, _⟩ => ⟨S5000x64, .f32⟩
  | .local _ .vmem, ⟨78, _⟩ => ⟨S5000x64, .f32⟩
  | .local _ .vmem, ⟨79, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v19 : Ref sig .tc := ⟨.hbm, 60, rfl⟩
abbrev main_v20_0 : Ref sig .tc := ⟨.hbm, 61, rfl⟩
abbrev main_v20_1 : Ref sig .tc := ⟨.hbm, 62, rfl⟩
abbrev main_v21 : Ref sig .tc := ⟨.hbm, 63, rfl⟩
abbrev main_v22 : Ref sig .tc := ⟨.hbm, 64, rfl⟩
abbrev main_c_4 : Ref sig .tc := ⟨.hbm, 65, rfl⟩
abbrev main_v23 : Ref sig .tc := ⟨.hbm, 66, rfl⟩
abbrev main_v24 : Ref sig .tc := ⟨.hbm, 67, rfl⟩
abbrev main_c_5 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_6 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_7 : Ref sig .tc := ⟨.hbm, 89, rfl⟩
abbrev main_v44 : Ref sig .tc := ⟨.hbm, 90, rfl⟩
abbrev main_v45 : Ref sig .tc := ⟨.hbm, 91, rfl⟩
abbrev main_cst_8 : Ref sig .tc := ⟨.hbm, 92, rfl⟩
abbrev main_v46 : Ref sig .tc := ⟨.hbm, 93, rfl⟩
abbrev main_v47 : Ref sig .tc := ⟨.hbm, 94, rfl⟩
abbrev main_c_9 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_v12 : Ref sig .tc := ⟨.hbm, 112, rfl⟩
abbrev main_call1_cst_3 : Ref sig .tc := ⟨.hbm, 113, rfl⟩
abbrev main_call1_v13 : Ref sig .tc := ⟨.hbm, 114, rfl⟩
abbrev main_call1_cst_4 : Ref sig .tc := ⟨.hbm, 115, rfl⟩
abbrev main_call1_call0_v0 : Ref sig .tc := ⟨.hbm, 116, rfl⟩
abbrev main_call1_call0_v1 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55_0 : Ref sig .tc := ⟨.hbm, 125, rfl⟩
abbrev main_v55_1 : Ref sig .tc := ⟨.hbm, 126, rfl⟩
abbrev main_v56 : Ref sig .tc := ⟨.hbm, 127, rfl⟩
abbrev main_v57 : Ref sig .tc := ⟨.hbm, 128, rfl⟩
abbrev main_c_10 : Ref sig .tc := ⟨.hbm, 129, rfl⟩
abbrev main_v58 : Ref sig .tc := ⟨.hbm, 130, rfl⟩
abbrev main_v59 : Ref sig .tc := ⟨.hbm, 131, rfl⟩
abbrev main_c_11 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_cst_12 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_13 : Ref sig .tc := ⟨.hbm, 153, rfl⟩
abbrev main_v79 : Ref sig .tc := ⟨.hbm, 154, rfl⟩
abbrev main_v80 : Ref sig .tc := ⟨.hbm, 155, rfl⟩
abbrev main_cst_14 : Ref sig .tc := ⟨.hbm, 156, rfl⟩
abbrev main_v81 : Ref sig .tc := ⟨.hbm, 157, rfl⟩
abbrev main_v82 : Ref sig .tc := ⟨.hbm, 158, rfl⟩
abbrev main_c_15 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_cst_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_cst_1 : Ref sig .tc := ⟨.hbm, 170, rfl⟩
abbrev main_call2_v8 : Ref sig .tc := ⟨.hbm, 171, rfl⟩
abbrev main_call2_cst_2 : Ref sig .tc := ⟨.hbm, 172, rfl⟩
abbrev main_call2_v9 : Ref sig .tc := ⟨.hbm, 173, rfl⟩
abbrev main_call2_v10 : Ref sig .tc := ⟨.hbm, 174, rfl⟩
abbrev main_call2_v11 : Ref sig .tc := ⟨.hbm, 175, rfl⟩
abbrev main_call2_v12 : Ref sig .tc := ⟨.hbm, 176, rfl⟩
abbrev main_call2_cst_3 : Ref sig .tc := ⟨.hbm, 177, rfl⟩
abbrev main_call2_v13 : Ref sig .tc := ⟨.hbm, 178, rfl⟩
abbrev main_call2_cst_4 : Ref sig .tc := ⟨.hbm, 179, rfl⟩
abbrev main_call2_call0_v0 : Ref sig .tc := ⟨.hbm, 180, rfl⟩
abbrev main_call2_call0_v1 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90_0 : Ref sig .tc := ⟨.hbm, 189, rfl⟩
abbrev main_v90_1 : Ref sig .tc := ⟨.hbm, 190, rfl⟩
abbrev main_v91 : Ref sig .tc := ⟨.hbm, 191, rfl⟩
abbrev main_v92 : Ref sig .tc := ⟨.hbm, 192, rfl⟩
abbrev main_c_16 : Ref sig .tc := ⟨.hbm, 193, rfl⟩
abbrev main_v93 : Ref sig .tc := ⟨.hbm, 194, rfl⟩
abbrev main_v94 : Ref sig .tc := ⟨.hbm, 195, rfl⟩
abbrev main_c_17 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_cst_18 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_cst_19 : Ref sig .tc := ⟨.hbm, 217, rfl⟩
abbrev main_v114 : Ref sig .tc := ⟨.hbm, 218, rfl⟩
abbrev main_v115 : Ref sig .tc := ⟨.hbm, 219, rfl⟩
abbrev main_cst_20 : Ref sig .tc := ⟨.hbm, 220, rfl⟩
abbrev main_v116 : Ref sig .tc := ⟨.hbm, 221, rfl⟩
abbrev main_v117 : Ref sig .tc := ⟨.hbm, 222, rfl⟩
abbrev main_c_21 : Ref sig .tc := ⟨.hbm, 223, rfl⟩
abbrev main_call3_cst : Ref sig .tc := ⟨.hbm, 224, rfl⟩
abbrev main_call3_v0 : Ref sig .tc := ⟨.hbm, 225, rfl⟩
abbrev main_call3_v1 : Ref sig .tc := ⟨.hbm, 226, rfl⟩
abbrev main_call3_cst_0 : Ref sig .tc := ⟨.hbm, 227, rfl⟩
abbrev main_call3_v2 : Ref sig .tc := ⟨.hbm, 228, rfl⟩
abbrev main_call3_v3 : Ref sig .tc := ⟨.hbm, 229, rfl⟩
abbrev main_call3_v4 : Ref sig .tc := ⟨.hbm, 230, rfl⟩
abbrev main_call3_v5 : Ref sig .tc := ⟨.hbm, 231, rfl⟩
abbrev main_call3_v6 : Ref sig .tc := ⟨.hbm, 232, rfl⟩
abbrev main_call3_v7 : Ref sig .tc := ⟨.hbm, 233, rfl⟩
abbrev main_call3_cst_1 : Ref sig .tc := ⟨.hbm, 234, rfl⟩
abbrev main_call3_v8 : Ref sig .tc := ⟨.hbm, 235, rfl⟩
abbrev main_call3_cst_2 : Ref sig .tc := ⟨.hbm, 236, rfl⟩
abbrev main_call3_v9 : Ref sig .tc := ⟨.hbm, 237, rfl⟩
abbrev main_call3_v10 : Ref sig .tc := ⟨.hbm, 238, rfl⟩
abbrev main_call3_v11 : Ref sig .tc := ⟨.hbm, 239, rfl⟩
abbrev main_call3_v12 : Ref sig .tc := ⟨.hbm, 240, rfl⟩
abbrev main_call3_cst_3 : Ref sig .tc := ⟨.hbm, 241, rfl⟩
abbrev main_call3_v13 : Ref sig .tc := ⟨.hbm, 242, rfl⟩
abbrev main_call3_cst_4 : Ref sig .tc := ⟨.hbm, 243, rfl⟩
abbrev main_call3_call0_v0 : Ref sig .tc := ⟨.hbm, 244, rfl⟩
abbrev main_call3_call0_v1 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_v123 : Ref sig .tc := ⟨.hbm, 251, rfl⟩
abbrev main_v124 : Ref sig .tc := ⟨.hbm, 252, rfl⟩
abbrev main_v125_0 : Ref sig .tc := ⟨.hbm, 253, rfl⟩
abbrev main_v125_1 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_v130 : Ref sig .tc := ⟨.hbm, 259, rfl⟩
abbrev main_v131 : Ref sig .tc := ⟨.hbm, 260, rfl⟩
abbrev main_v132 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc5_stg6_0 : Ref sig .tc := ⟨.vmem, 56, rfl⟩
abbrev cc5_stg6_1 : Ref sig .tc := ⟨.vmem, 57, rfl⟩
abbrev cc5_stg7_0 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg6_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg5_1 : Ref sig .tc := ⟨.vmem, 76, rfl⟩
abbrev cc7_stg6_0 : Ref sig .tc := ⟨.vmem, 77, rfl⟩
abbrev cc7_stg6_1 : Ref sig .tc := ⟨.vmem, 78, rfl⟩
abbrev cc7_stg7_0 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc3_sem7_0 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54
abbrev cc5_sem5_1 : DmaSem sig := 55
abbrev cc5_sem6_0 : DmaSem sig := 56
abbrev cc5_sem6_1 : DmaSem sig := 57
abbrev cc5_sem7_0 : DmaSem sig := 58
abbrev cc6_sem0_0 : DmaSem sig := 59
abbrev cc6_sem0_1 : DmaSem sig := 60
abbrev cc6_sem1_0 : DmaSem sig := 61
abbrev cc6_sem1_1 : DmaSem sig := 62
abbrev cc6_sem2_0 : DmaSem sig := 63
abbrev cc6_sem3_0 : DmaSem sig := 64
abbrev cc6_sem4_0 : DmaSem sig := 65
abbrev cc6_sem5_0 : DmaSem sig := 66
abbrev cc6_sem6_0 : DmaSem sig := 67
abbrev cc6_sem6_1 : DmaSem sig := 68
abbrev cc7_sem0_0 : DmaSem sig := 69
abbrev cc7_sem0_1 : DmaSem sig := 70
abbrev cc7_sem1_0 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem5_1 : DmaSem sig := 76
abbrev cc7_sem6_0 : DmaSem sig := 77
abbrev cc7_sem6_1 : DmaSem sig := 78
abbrev cc7_sem7_0 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S512x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S512x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x1 .i32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S512x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x1 .i32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S512x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S50000x1 : S_.BroadcastsInDim S50000x1 (![] : Fin 0 → Fin S50000x1.rank)
  bcast_S_S512x1 : S_.BroadcastsInDim S512x1 (![] : Fin 0 → Fin S512x1.rank)
  bcast_S50000_S50000x1_0 : S50000.BroadcastsInDim S50000x1 (![0] : Fin 1 → Fin S50000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S50000x64_S64_d0 : S50000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  inb_S512x64_S512x64_0_0 : ∀ a, (![0, 0] : Fin 2 → Nat) a + S512x64.size a ≤ S512x64.size a
  h_S512x64 : 0 < S512x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  shapeCasts_S512x64_S512x64 : S512x64.ShapeCasts S512x64
  bcast_S512x1_S512x64_0_1 : S512x1.BroadcastsInDim S512x64 (![0, 1] : Fin 2 → Fin S512x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S512x64_S1x512x64_1_2 : S512x64.BroadcastsInDim S1x512x64 (![1, 2] : Fin 2 → Fin S1x512x64.rank)
  concatenates_S1x512x64_S1x512x64_S1x512x64_S1x512x64_S4x512x64_d0 : Shape.Concatenates [S1x512x64, S1x512x64, S1x512x64, S1x512x64] S4x512x64 0
  scatter_S512x1_S50000x1_S50000x1_1_0_0_1_wf : ScatterDims.WF S512x1 S50000x1 S50000x1 [1] [0] [0] 1
  dot_S5000x128_S128x64_S5000x64_1_0_0_1_n_n_wf : DotDims.WF S5000x128 S128x64 S5000x64 [1] [0] [0] [1] [] []
  dot_S5000x512_S5000x64_S512x64_0_0_1_1_n_n_wf : DotDims.WF S5000x512 S5000x64 S512x64 [0] [0] [1] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .i32 = 32 ∨ (Rect.block (s := S50000x1) S5000x1.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x64.size a ≤ S512x64.size a
  hwx1_7 : ∀ i : grid1.Coords, EltTy.bits .f32 = 32 ∨ (Rect.block (s := S512x64) S512x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S50000x1.size a
  hwx3_5 : ∀ i : grid3.Coords, EltTy.bits .i32 = 32 ∨ (Rect.block (s := S50000x1) S5000x1.size (cc3_transform_5 i) (hinb3_5 i)).WholeWords (EltTy.packing .i32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x64.size a ≤ S512x64.size a
  hwx3_7 : ∀ i : grid3.Coords, EltTy.bits .f32 = 32 ∨ (Rect.block (s := S512x64) S512x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x1.size a ≤ S50000x1.size a
  hwx5_5 : ∀ i : grid5.Coords, EltTy.bits .i32 = 32 ∨ (Rect.block (s := S50000x1) S5000x1.size (cc5_transform_5 i) (hinb5_5 i)).WholeWords (EltTy.packing .i32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x64.size a ≤ S512x64.size a
  hwx5_7 : ∀ i : grid5.Coords, EltTy.bits .f32 = 32 ∨ (Rect.block (s := S512x64) S512x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x1.size a ≤ S50000x1.size a
  hwx7_5 : ∀ i : grid7.Coords, EltTy.bits .i32 = 32 ∨ (Rect.block (s := S50000x1) S5000x1.size (cc7_transform_5 i) (hinb7_5 i)).WholeWords (EltTy.packing .i32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S50000x64.size a
  hwx7_6 : ∀ i : grid7.Coords, EltTy.bits .f32 = 32 ∨ (Rect.block (s := S50000x64) S5000x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S512x64.size a ≤ S512x64.size a
  hwx7_7 : ∀ i : grid7.Coords, EltTy.bits .f32 = 32 ∨ (Rect.block (s := S512x64) S512x64.size (cc7_transform_7 i) (hinb7_7 i)).WholeWords (EltTy.packing .f32)

variable [Facts₀]

def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S5000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v20_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20_1) S512x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S5000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v55_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v55_1) S512x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v55_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v74) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v77) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v78) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v4) S5000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v90_0) S5000x64.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v90_1) S512x64.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v90_0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v104) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v107) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v109) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v113) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v113) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v121) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v124) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v117) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v118) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v4) S5000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v125_0) S5000x64.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v125_1) S512x64.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S50000x64 : Shape := ⟨2, ![50000, 64]⟩
abbrev S1x64 : Shape := ⟨2, ![1, 64]⟩
abbrev S_ : Shape := ⟨0, ![]⟩
abbrev S512x64 : Shape := ⟨2, ![512, 64]⟩
abbrev S50000x1 : Shape := ⟨2, ![50000, 1]⟩
abbrev S512x1 : Shape := ⟨2, ![512, 1]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩
abbrev S1x512x64 : Shape := ⟨3, ![1, 512, 64]⟩
abbrev S4x512x64 : Shape := ⟨3, ![4, 512, 64]⟩

abbrev nBuf : Space → Nat
  | .hbm => 382
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64, .f32⟩
  | 6 => ⟨S64, .f32⟩
  | 7 => ⟨S3x64x64, .f32⟩
  | 8 => ⟨S3x64, .f32⟩
  | 9 => ⟨S3x64x64, .f32⟩
  | 10 => ⟨S3x64, .f32⟩
  | 11 => ⟨S3x64, .f32⟩
  | 12 => ⟨S3x64, .f32⟩
  | 13 => ⟨S1x800000, .i32⟩
  | 14 => ⟨S800000, .i32⟩
  | 15 => ⟨S1x800000, .i32⟩
  | 16 => ⟨S800000, .i32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S64, .f32⟩
  | 23 => ⟨S_, .f32⟩
  | 24 => ⟨S64, .f32⟩
  | 25 => ⟨S64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S50000x64, .f32⟩
  | 34 => ⟨S50000x64, .f32⟩
  | 35 => ⟨S50000x64, .f32⟩
  | 36 => ⟨S_, .f32⟩
  | 37 => ⟨S_, .f32⟩
  | 38 => ⟨S_, .f32⟩
  | 39 => ⟨S_, .f32⟩
  | 40 => ⟨S64, .f32⟩
  | 41 => ⟨S64, .f32⟩
  | 42 => ⟨S64, .f32⟩
  | 43 => ⟨S_, .f32⟩
  | 44 => ⟨S_, .i1⟩
  | 45 => ⟨S_, .f32⟩
  | 46 => ⟨S_, .f32⟩
  | 47 => ⟨S64, .f32⟩
  | 48 => ⟨S64, .f32⟩
  | 49 => ⟨S1x64, .f32⟩
  | 50 => ⟨S50000x64, .f32⟩
  | 51 => ⟨S50000x64, .f32⟩
  | 52 => ⟨S_, .f32⟩
  | 53 => ⟨S64, .f32⟩
  | 54 => ⟨S64, .f32⟩
  | 55 => ⟨S64, .f32⟩
  | 56 => ⟨S1x64, .f32⟩
  | 57 => ⟨S50000x64, .f32⟩
  | 58 => ⟨S50000x64, .f32⟩
  | 59 => ⟨S1x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S512x64, .f32⟩
  | 67 => ⟨S50000x1, .i32⟩
  | 68 => ⟨S512x64, .f32⟩
  | 69 => ⟨S_, .f32⟩
  | 70 => ⟨S50000x1, .f32⟩
  | 71 => ⟨S_, .f32⟩
  | 72 => ⟨S512x1, .f32⟩
  | 73 => ⟨S50000x1, .i32⟩
  | 74 => ⟨S512x1, .f32⟩
  | 75 => ⟨S_, .f32⟩
  | 76 => ⟨S512x1, .f32⟩
  | 77 => ⟨S512x1, .f32⟩
  | 78 => ⟨S512x64, .f32⟩
  | 79 => ⟨S512x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S50000x64, .f32⟩
  | 94 => ⟨S1x64x64, .f32⟩
  | 95 => ⟨S64x64, .f32⟩
  | 96 => ⟨S50000x64, .f32⟩
  | 97 => ⟨S1x64, .f32⟩
  | 98 => ⟨S64, .f32⟩
  | 99 => ⟨S1x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S1x64x64, .f32⟩
  | 106 => ⟨S64x64, .f32⟩
  | 107 => ⟨S50000x64, .f32⟩
  | 108 => ⟨S1x64, .f32⟩
  | 109 => ⟨S64, .f32⟩
  | 110 => ⟨S1x64, .f32⟩
  | 111 => ⟨S50000x64, .f32⟩
  | 112 => ⟨S50000x64, .f32⟩
  | 113 => ⟨S1x64, .f32⟩
  | 114 => ⟨S64, .f32⟩
  | 115 => ⟨S1x64, .f32⟩
  | 116 => ⟨S64, .f32⟩
  | 117 => ⟨S_, .f32⟩
  | 118 => ⟨S64, .f32⟩
  | 119 => ⟨S_, .f32⟩
  | 120 => ⟨S64, .f32⟩
  | 121 => ⟨S64, .f32⟩
  | 122 => ⟨S_, .i32⟩
  | 123 => ⟨S_, .f32⟩
  | 124 => ⟨S64, .f32⟩
  | 125 => ⟨S1x64, .f32⟩
  | 126 => ⟨S_, .f32⟩
  | 127 => ⟨S1x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | 3 => ⟨S50000x64, .f32⟩
  | 4 => ⟨S_, .f32⟩
  | 5 => ⟨S_, .f32⟩
  | 6 => ⟨S_, .f32⟩
  | 7 => ⟨S_, .f32⟩
  | 8 => ⟨S64, .f32⟩
  | 9 => ⟨S64, .f32⟩
  | 10 => ⟨S64, .f32⟩
  | 11 => ⟨S_, .f32⟩
  | 12 => ⟨S_, .i1⟩
  | 13 => ⟨S_, .f32⟩
  | 14 => ⟨S_, .f32⟩
  | 15 => ⟨S64, .f32⟩
  | 16 => ⟨S64, .f32⟩
  | 17 => ⟨S1x64, .f32⟩
  | 18 => ⟨S50000x64, .f32⟩
  | 19 => ⟨S50000x64, .f32⟩
  | 20 => ⟨S_, .f32⟩
  | 21 => ⟨S64, .f32⟩
  | 22 => ⟨S64, .f32⟩
  | 23 => ⟨S64, .f32⟩
  | 24 => ⟨S1x64, .f32⟩
  | 25 => ⟨S50000x64, .f32⟩
  | 26 => ⟨S50000x64, .f32⟩
  | 27 => ⟨S1x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S_, .f32⟩
  | 37 => ⟨S512x64, .f32⟩
  | 38 => ⟨S50000x1, .i32⟩
  | 39 => ⟨S512x64, .f32⟩
  | 40 => ⟨S_, .f32⟩
  | 41 => ⟨S50000x1, .f32⟩
  | 42 => ⟨S_, .f32⟩
  | 43 => ⟨S512x1, .f32⟩
  | 44 => ⟨S50000x1, .i32⟩
  | 45 => ⟨S512x1, .f32⟩
  | 46 => ⟨S_, .f32⟩
  | 47 => ⟨S512x1, .f32⟩
  | 48 => ⟨S512x1, .f32⟩
  | 49 => ⟨S512x64, .f32⟩
  | 50 => ⟨S512x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x64, .f32⟩
  | 65 => ⟨S1x64x64, .f32⟩
  | 66 => ⟨S64x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S1x64x64, .f32⟩
  | 77 => ⟨S64x64, .f32⟩
  | 78 => ⟨S50000x64, .f32⟩
  | 79 => ⟨S1x64, .f32⟩
  | 80 => ⟨S64, .f32⟩
  | 81 => ⟨S1x64, .f32⟩
  | 82 => ⟨S50000x64, .f32⟩
  | 83 => ⟨S50000x64, .f32⟩
  | 84 => ⟨S1x64, .f32⟩
  | 85 => ⟨S64, .f32⟩
  | 86 => ⟨S1x64, .f32⟩
  | 87 => ⟨S64, .f32⟩
  | 88 => ⟨S_, .f32⟩
  | 89 => ⟨S64, .f32⟩
  | 90 => ⟨S_, .f32⟩
  | 91 => ⟨S64, .f32⟩
  | 92 => ⟨S64, .f32⟩
  | 93 => ⟨S_, .i32⟩
  | 94 => ⟨S_, .f32⟩
  | 95 => ⟨S64, .f32⟩
  | 96 => ⟨S1x64, .f32⟩
  | 97 => ⟨S_, .f32⟩
  | 98 => ⟨S1x64, .f32⟩
  | 99 => ⟨S1x64, .f32⟩
  | 100 => ⟨S50000x64, .f32⟩
  | 101 => ⟨S50000x64, .f32⟩
  | 102 => ⟨S50000x64, .f32⟩
  | 103 => ⟨S_, .f32⟩
  | 104 => ⟨S_, .f32⟩
  | 105 => ⟨S_, .f32⟩
  | 106 => ⟨S_, .f32⟩
  | 107 => ⟨S64, .f32⟩
  | 108 => ⟨S64, .f32⟩
  | 109 => ⟨S64, .f32⟩
  | 110 => ⟨S_, .f32⟩
  | 111 => ⟨S_, .i1⟩
  | 112 => ⟨S_, .f32⟩
  | 113 => ⟨S_, .f32⟩
  | 114 => ⟨S64, .f32⟩
  | 115 => ⟨S64, .f32⟩
  | 116 => ⟨S1x64, .f32⟩
  | 117 => ⟨S50000x64, .f32⟩
  | 118 => ⟨S50000x64, .f32⟩
  | 119 => ⟨S_, .f32⟩
  | 120 => ⟨S64, .f32⟩
  | 121 => ⟨S64, .f32⟩
  | 122 => ⟨S64, .f32⟩
  | 123 => ⟨S1x64, .f32⟩
  | 124 => ⟨S50000x64, .f32⟩
  | 125 => ⟨S50000x64, .f32⟩
  | 126 => ⟨S1x64, .f32⟩
  | 127 => ⟨S50000x64, .f32⟩
  | _ => ⟨S50000x128, .f32⟩

abbrev hbmTy0_2 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S_, .f32⟩
  | 8 => ⟨S512x64, .f32⟩
  | 9 => ⟨S50000x1, .i32⟩
  | 10 => ⟨S512x64, .f32⟩
  | 11 => ⟨S_, .f32⟩
  | 12 => ⟨S50000x1, .f32⟩
  | 13 => ⟨S_, .f32⟩
  | 14 => ⟨S512x1, .f32⟩
  | 15 => ⟨S50000x1, .i32⟩
  | 16 => ⟨S512x1, .f32⟩
  | 17 => ⟨S_, .f32⟩
  | 18 => ⟨S512x1, .f32⟩
  | 19 => ⟨S512x1, .f32⟩
  | 20 => ⟨S512x64, .f32⟩
  | 21 => ⟨S512x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x64, .f32⟩
  | 36 => ⟨S1x64x64, .f32⟩
  | 37 => ⟨S64x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S_, .f32⟩
  | 45 => ⟨S50000x64, .f32⟩
  | 46 => ⟨S50000x64, .f32⟩
  | 47 => ⟨S1x64x64, .f32⟩
  | 48 => ⟨S64x64, .f32⟩
  | 49 => ⟨S50000x64, .f32⟩
  | 50 => ⟨S1x64, .f32⟩
  | 51 => ⟨S64, .f32⟩
  | 52 => ⟨S1x64, .f32⟩
  | 53 => ⟨S50000x64, .f32⟩
  | 54 => ⟨S50000x64, .f32⟩
  | 55 => ⟨S1x64, .f32⟩
  | 56 => ⟨S64, .f32⟩
  | 57 => ⟨S1x64, .f32⟩
  | 58 => ⟨S64, .f32⟩
  | 59 => ⟨S_, .f32⟩
  | 60 => ⟨S64, .f32⟩
  | 61 => ⟨S_, .f32⟩
  | 62 => ⟨S64, .f32⟩
  | 63 => ⟨S64, .f32⟩
  | 64 => ⟨S_, .i32⟩
  | 65 => ⟨S_, .f32⟩
  | 66 => ⟨S64, .f32⟩
  | 67 => ⟨S1x64, .f32⟩
  | 68 => ⟨S_, .f32⟩
  | 69 => ⟨S1x64, .f32⟩
  | 70 => ⟨S1x64, .f32⟩
  | 71 => ⟨S50000x64, .f32⟩
  | 72 => ⟨S50000x64, .f32⟩
  | 73 => ⟨S50000x64, .f32⟩
  | 74 => ⟨S_, .f32⟩
  | 75 => ⟨S_, .f32⟩
  | 76 => ⟨S_, .f32⟩
  | 77 => ⟨S_, .f32⟩
  | 78 => ⟨S64, .f32⟩
  | 79 => ⟨S64, .f32⟩
  | 80 => ⟨S64, .f32⟩
  | 81 => ⟨S_, .f32⟩
  | 82 => ⟨S_, .i1⟩
  | 83 => ⟨S_, .f32⟩
  | 84 => ⟨S_, .f32⟩
  | 85 => ⟨S64, .f32⟩
  | 86 => ⟨S64, .f32⟩
  | 87 => ⟨S1x64, .f32⟩
  | 88 => ⟨S50000x64, .f32⟩
  | 89 => ⟨S50000x64, .f32⟩
  | 90 => ⟨S_, .f32⟩
  | 91 => ⟨S64, .f32⟩
  | 92 => ⟨S64, .f32⟩
  | 93 => ⟨S64, .f32⟩
  | 94 => ⟨S1x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S_, .f32⟩
  | 107 => ⟨S512x64, .f32⟩
  | 108 => ⟨S50000x1, .i32⟩
  | 109 => ⟨S512x64, .f32⟩
  | 110 => ⟨S_, .f32⟩
  | 111 => ⟨S50000x1, .f32⟩
  | 112 => ⟨S_, .f32⟩
  | 113 => ⟨S512x1, .f32⟩
  | 114 => ⟨S50000x1, .i32⟩
  | 115 => ⟨S512x1, .f32⟩
  | 116 => ⟨S_, .f32⟩
  | 117 => ⟨S512x1, .f32⟩
  | 118 => ⟨S512x1, .f32⟩
  | 119 => ⟨S512x64, .f32⟩
  | 120 => ⟨S512x64, .f32⟩
  | 121 => ⟨S1x512x64, .f32⟩
  | 122 => ⟨S1x512x64, .f32⟩
  | 123 => ⟨S1x512x64, .f32⟩
  | 124 => ⟨S1x512x64, .f32⟩
  | 125 => ⟨S4x512x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_2 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_3 : Ref sig .tc := ⟨.hbm, 69, rfl⟩
abbrev main_v30 : Ref sig .tc := ⟨.hbm, 70, rfl⟩
abbrev main_cst_4 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_5 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_6 : Ref sig .tc := ⟨.hbm, 80, rfl⟩
abbrev main_v38 : Ref sig .tc := ⟨.hbm, 81, rfl⟩
abbrev main_v39 : Ref sig .tc := ⟨.hbm, 82, rfl⟩
abbrev main_c_7 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_8 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_call1_cst : Ref sig .tc := ⟨.hbm, 102, rfl⟩
abbrev main_call1_v0 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_9 : Ref sig .tc := ⟨.hbm, 117, rfl⟩
abbrev main_v70 : Ref sig .tc := ⟨.hbm, 118, rfl⟩
abbrev main_cst_10 : Ref sig .tc := ⟨.hbm, 119, rfl⟩
abbrev main_v71 : Ref sig .tc := ⟨.hbm, 120, rfl⟩
abbrev main_v72 : Ref sig .tc := ⟨.hbm, 121, rfl⟩
abbrev main_c_11 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_cst_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_cst_1 : Ref sig .tc := ⟨.hbm, 133, rfl⟩
abbrev main_call2_v8 : Ref sig .tc := ⟨.hbm, 134, rfl⟩
abbrev main_call2_cst_2 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_cst_3 : Ref sig .tc := ⟨.hbm, 139, rfl⟩
abbrev main_call2_v12 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_12 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_call3_cst : Ref sig .tc := ⟨.hbm, 161, rfl⟩
abbrev main_call3_v0 : Ref sig .tc := ⟨.hbm, 162, rfl⟩
abbrev main_v89 : Ref sig .tc := ⟨.hbm, 163, rfl⟩
abbrev main_cst_13 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_cst_14 : Ref sig .tc := ⟨.hbm, 168, rfl⟩
abbrev main_v93 : Ref sig .tc := ⟨.hbm, 169, rfl⟩
abbrev main_cst_15 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_cst_16 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_c_17 : Ref sig .tc := ⟨.hbm, 179, rfl⟩
abbrev main_v101 : Ref sig .tc := ⟨.hbm, 180, rfl⟩
abbrev main_v102 : Ref sig .tc := ⟨.hbm, 181, rfl⟩
abbrev main_c_18 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_19 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_call4_cst : Ref sig .tc := ⟨.hbm, 201, rfl⟩
abbrev main_call4_v0 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_cst_20 : Ref sig .tc := ⟨.hbm, 216, rfl⟩
abbrev main_v133 : Ref sig .tc := ⟨.hbm, 217, rfl⟩
abbrev main_cst_21 : Ref sig .tc := ⟨.hbm, 218, rfl⟩
abbrev main_v134 : Ref sig .tc := ⟨.hbm, 219, rfl⟩
abbrev main_v135 : Ref sig .tc := ⟨.hbm, 220, rfl⟩
abbrev main_c_22 : Ref sig .tc := ⟨.hbm, 221, rfl⟩
abbrev main_call5_cst : Ref sig .tc := ⟨.hbm, 222, rfl⟩
abbrev main_call5_v0 : Ref sig .tc := ⟨.hbm, 223, rfl⟩
abbrev main_call5_v1 : Ref sig .tc := ⟨.hbm, 224, rfl⟩
abbrev main_call5_cst_0 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_call5_v5 : Ref sig .tc := ⟨.hbm, 229, rfl⟩
abbrev main_call5_v6 : Ref sig .tc := ⟨.hbm, 230, rfl⟩
abbrev main_call5_v7 : Ref sig .tc := ⟨.hbm, 231, rfl⟩
abbrev main_call5_cst_1 : Ref sig .tc := ⟨.hbm, 232, rfl⟩
abbrev main_call5_v8 : Ref sig .tc := ⟨.hbm, 233, rfl⟩
abbrev main_call5_cst_2 : Ref sig .tc := ⟨.hbm, 234, rfl⟩
abbrev main_call5_v9 : Ref sig .tc := ⟨.hbm, 235, rfl⟩
abbrev main_call5_v10 : Ref sig .tc := ⟨.hbm, 236, rfl⟩
abbrev main_call5_v11 : Ref sig .tc := ⟨.hbm, 237, rfl⟩
abbrev main_call5_cst_3 : Ref sig .tc := ⟨.hbm, 238, rfl⟩
abbrev main_call5_v12 : Ref sig .tc := ⟨.hbm, 239, rfl⟩
abbrev main_call5_cst_4 : Ref sig .tc := ⟨.hbm, 240, rfl⟩
abbrev main_call5_call0_v0 : Ref sig .tc := ⟨.hbm, 241, rfl⟩
abbrev main_call5_call0_v1 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_cst_23 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_call6_cst : Ref sig .tc := ⟨.hbm, 260, rfl⟩
abbrev main_call6_v0 : Ref sig .tc := ⟨.hbm, 261, rfl⟩
abbrev main_v152 : Ref sig .tc := ⟨.hbm, 262, rfl⟩
abbrev main_cst_24 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_cst_25 : Ref sig .tc := ⟨.hbm, 267, rfl⟩
abbrev main_v156 : Ref sig .tc := ⟨.hbm, 268, rfl⟩
abbrev main_cst_26 : Ref sig .tc := ⟨.hbm, 269, rfl⟩
abbrev main_v157 : Ref sig .tc := ⟨.hbm, 270, rfl⟩
abbrev main_v158 : Ref sig .tc := ⟨.hbm, 271, rfl⟩
abbrev main_v159 : Ref sig .tc := ⟨.hbm, 272, rfl⟩
abbrev main_cst_27 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_c_28 : Ref sig .tc := ⟨.hbm, 278, rfl⟩
abbrev main_v164 : Ref sig .tc := ⟨.hbm, 279, rfl⟩
abbrev main_v165 : Ref sig .tc := ⟨.hbm, 280, rfl⟩
abbrev main_c_29 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_cst_30 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_call7_cst : Ref sig .tc := ⟨.hbm, 300, rfl⟩
abbrev main_call7_v0 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_cst_31 : Ref sig .tc := ⟨.hbm, 315, rfl⟩
abbrev main_v196 : Ref sig .tc := ⟨.hbm, 316, rfl⟩
abbrev main_cst_32 : Ref sig .tc := ⟨.hbm, 317, rfl⟩
abbrev main_v197 : Ref sig .tc := ⟨.hbm, 318, rfl⟩
abbrev main_v198 : Ref sig .tc := ⟨.hbm, 319, rfl⟩
abbrev main_c_33 : Ref sig .tc := ⟨.hbm, 320, rfl⟩
abbrev main_call8_cst : Ref sig .tc := ⟨.hbm, 321, rfl⟩
abbrev main_call8_v0 : Ref sig .tc := ⟨.hbm, 322, rfl⟩
abbrev main_call8_v1 : Ref sig .tc := ⟨.hbm, 323, rfl⟩
abbrev main_call8_cst_0 : Ref sig .tc := ⟨.hbm, 324, rfl⟩
abbrev main_call8_v2 : Ref sig .tc := ⟨.hbm, 325, rfl⟩
abbrev main_call8_v3 : Ref sig .tc := ⟨.hbm, 326, rfl⟩
abbrev main_call8_v4 : Ref sig .tc := ⟨.hbm, 327, rfl⟩
abbrev main_call8_v5 : Ref sig .tc := ⟨.hbm, 328, rfl⟩
abbrev main_call8_v6 : Ref sig .tc := ⟨.hbm, 329, rfl⟩
abbrev main_call8_v7 : Ref sig .tc := ⟨.hbm, 330, rfl⟩
abbrev main_call8_cst_1 : Ref sig .tc := ⟨.hbm, 331, rfl⟩
abbrev main_call8_v8 : Ref sig .tc := ⟨.hbm, 332, rfl⟩
abbrev main_call8_cst_2 : Ref sig .tc := ⟨.hbm, 333, rfl⟩
abbrev main_call8_v9 : Ref sig .tc := ⟨.hbm, 334, rfl⟩
abbrev main_call8_v10 : Ref sig .tc := ⟨.hbm, 335, rfl⟩
abbrev main_call8_v11 : Ref sig .tc := ⟨.hbm, 336, rfl⟩
abbrev main_call8_cst_3 : Ref sig .tc := ⟨.hbm, 337, rfl⟩
abbrev main_call8_v12 : Ref sig .tc := ⟨.hbm, 338, rfl⟩
abbrev main_call8_cst_4 : Ref sig .tc := ⟨.hbm, 339, rfl⟩
abbrev main_call8_call0_v0 : Ref sig .tc := ⟨.hbm, 340, rfl⟩
abbrev main_call8_call0_v1 : Ref sig .tc := ⟨.hbm, 341, rfl⟩
abbrev main_v199 : Ref sig .tc := ⟨.hbm, 342, rfl⟩
abbrev main_v200 : Ref sig .tc := ⟨.hbm, 343, rfl⟩
abbrev main_v201 : Ref sig .tc := ⟨.hbm, 344, rfl⟩
abbrev main_v202 : Ref sig .tc := ⟨.hbm, 345, rfl⟩
abbrev main_cst_34 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_call9_cst : Ref sig .tc := ⟨.hbm, 359, rfl⟩
abbrev main_call9_v0 : Ref sig .tc := ⟨.hbm, 360, rfl⟩
abbrev main_v215 : Ref sig .tc := ⟨.hbm, 361, rfl⟩
abbrev main_cst_35 : Ref sig .tc := ⟨.hbm, 362, rfl⟩
abbrev main_v216 : Ref sig .tc := ⟨.hbm, 363, rfl⟩
abbrev main_v217 : Ref sig .tc := ⟨.hbm, 364, rfl⟩
abbrev main_v218 : Ref sig .tc := ⟨.hbm, 365, rfl⟩
abbrev main_cst_36 : Ref sig .tc := ⟨.hbm, 366, rfl⟩
abbrev main_v219 : Ref sig .tc := ⟨.hbm, 367, rfl⟩
abbrev main_cst_37 : Ref sig .tc := ⟨.hbm, 368, rfl⟩
abbrev main_v220 : Ref sig .tc := ⟨.hbm, 369, rfl⟩
abbrev main_v221 : Ref sig .tc := ⟨.hbm, 370, rfl⟩
abbrev main_v222 : Ref sig .tc := ⟨.hbm, 371, rfl⟩
abbrev main_cst_38 : Ref sig .tc := ⟨.hbm, 372, rfl⟩
abbrev main_v223 : Ref sig .tc := ⟨.hbm, 373, rfl⟩
abbrev main_v224 : Ref sig .tc := ⟨.hbm, 374, rfl⟩
abbrev main_v225 : Ref sig .tc := ⟨.hbm, 375, rfl⟩
abbrev main_v226 : Ref sig .tc := ⟨.hbm, 376, rfl⟩
abbrev main_v227 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_v231 : Ref sig .tc := ⟨.hbm, 381, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S512x64_S1x512x64_1_2 : S512x64.BroadcastsInDim S1x512x64 (![1, 2] : Fin 2 → Fin S1x512x64.rank)
  concatenates_S1x512x64_S1x512x64_S1x512x64_S1x512x64_S4x512x64_d0 : Shape.Concatenates [S1x512x64, S1x512x64, S1x512x64, S1x512x64] S4x512x64 0
  dot_S50000x128_S128x64_S50000x64_1_0_0_1_n_n_wf : DotDims.WF S50000x128 S128x64 S50000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Base.lean ====
import proofs.«421327_j56599079026905_1_alg».proof.Proof.Gen.Kernel.Launch

noncomputable section

namespace Cert.Kernel.Hand

open Cert.Kernel
open Idealize.ShloMosaic Idealize.ShloMosaic.TcCoe Idealize.SL.Sem

/-- What the buffers hold when a region is entered: the parameter every region's proof data are stated at. -/
abbrev Entry (F : FTy → Type) := (c : Dev nD) → (b : Ref sig .tc) → Buf (Elt F) ((c : Thread nD τ).loc b)

end Cert.Kernel.Hand

end
-- ==== Proof.K.Reg0.lean ====
import proofs.«421327_j56599079026905_1_alg».proof.Proof.K.Base
import proofs.«421327_j56599079026905_1_alg».proof.Proof.Gen.Kernel.Skeleton
import proofs.«421327_j56599079026905_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0

variable (V : Entry F)

/-- Window `w`'s block at point `t` of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-- What the body stores: x·Wt + bt of the three blocks it loads, over the whole block. -/
def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

set_option maxHeartbeats 1000000 in
/-- The body, run on whole memrefs holding `x0 x1 x2`, leaves them as they were and the output at `out0_3` of them. -/
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ fun y => View.cover_of_tiled _ S5000x64.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Φ_eq0 (c : Dev nD) (i : Fin (cfg0.N + 1)) : (dat0 V c).Φ i = Pipeline.ΦA spec0 c := by
  dsimp only [dat0]
theorem q_eq0 (c : Dev nD) (w : Fin cfg0.W) : (dat0 V c).q w = fullShare := by
  dsimp only [dat0]
theorem owed_eq0 (c : Dev nD) (i : Fin (cfg0.N + 1)) : (dat0 V c).owed i = 0 := by
  dsimp only [dat0]

theorem after0_3 (c : Dev nD) (t : Fin cfg0.N) : (dat0 V c).after 3 t = out0_3 (iblk0 V c 0 t) (iblk0 V c 1 t) (iblk0 V c 2 t) := by dsimp only [dat0]

/-- The body leaves every input window's block in place, and the window holds it at every point. -/
theorem inputs0 (c : Dev nD) (t : Fin cfg0.N) :
    ((dat0 V c).after 0 t = iblk0 V c 0 t ∧ ∀ d, (dat0 V c).before 0 t d = iblk0 V c 0 t)
    ∧ ((dat0 V c).after 1 t = iblk0 V c 1 t ∧ ∀ d, (dat0 V c).before 1 t d = iblk0 V c 1 t)
    ∧ ((dat0 V c).after 2 t = iblk0 V c 2 t ∧ ∀ d, (dat0 V c).before 2 t d = iblk0 V c 2 t) := by
  refine ⟨?_, ?_, ?_⟩ <;>
  exact ⟨by dsimp only [dat0], fun d => ((dat0 V c).before_in_eq_fetched _ rfl (fun _ => rfl) (fun _ _ _ => rfl)
    (fun t => by dsimp only [dat0, Dat.blockOf, iblk0]) t d).trans (by dsimp only [dat0, Dat.fetched, Dat.blockOf, iblk0]; rfl)⟩

/-- The body at any point: the inputs hold their blocks, so the kernel's triple applies; the rest passes through unread. -/
theorem body_obligation0 (c : Dev nD) : BodyObligation (dat0 (F := F) V c) (defs₀ (F := F)) Variants.none () Set.univ := fun t => by
  rw [bigSep_W0, bigSep_W0]
  obtain ⟨⟨a0, b0⟩, ⟨a1, b1⟩, a2, b2⟩ := inputs0 V c t
  simp only [b0, b1, b2, a0, a1, a2, after0_3, Φ_eq0]
  rw [show (dat0 V c).owesAt () t.succ = (dat0 V c).owesAt () t.castSucc from rfl]
  show _ ⊢ wp _ _ _ (bodyAt0 t) _
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro H
  iframe

end Region0

end Cert.Kernel.Hand

end
-- ==== Proof.K.Reg1RunA.lean ====
import proofs.«421327_j56599079026905_1_alg».proof.Proof.K.Base
import proofs.«421327_j56599079026905_1_alg».proof.Proof.Gen.Kernel.Skeleton
import proofs.«421327_j56599079026905_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev VO1_6 : View sig .tc .vmem S5000x64 .f32 := (Memref.whole cc1_stg6_0 : Memref sig .tc .vmem S5000x64 .f32).view
abbrev VO1_7 : View sig .tc .vmem S512x64 .f32 := (Memref.whole cc1_stg7_0 : Memref sig .tc .vmem S512x64 .f32).view

abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x64 .f32 := win1_7.stage (cfg1.slots t 7)
abbrev hs1_7 (t : Fin cfg1.N) : (ms1_7 t).IsWhole := hstage1_7 ((cfg1.slots t 7).cast nbuf1_7)

set_option maxHeartbeats 1000000 in

noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : cond1_0 i)
    (x0 : Vec F S5000x64 .f32) (x1 x2 x3 x4 : Vec F S1x64 .f32) (x5 : Vec F S5000x1 .i32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__bn_pool_kernel i arg1 harg1 arg2 harg2 arg3 harg3 arg4 harg4 arg5 harg5 arg6 harg6 arg7 harg7 arg8 harg8) K } := by
  refine ⟨?_, ?_, fun E K => ?run⟩
  case run =>
    simp only [cc1__bn_pool_kernel_eq_skeleton]; unfold cc1__bn_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.K.Reg1RunB.lean ====
import proofs.«421327_j56599079026905_1_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : ¬cond1_0 i)
    (x0 : Vec F S5000x64 .f32) (x1 x2 x3 x4 : Vec F S1x64 .f32) (x5 : Vec F S5000x1 .i32) (xo7 : Vec F S512x64 .f32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__bn_pool_kernel i arg1 harg1 arg2 harg2 arg3 harg3 arg4 harg4 arg5 harg5 arg6 harg6 arg7 harg7 arg8 harg8) K } := by
  refine ⟨?_, ?_, fun E K => ?run⟩
  case run =>
    simp only [cc1__bn_pool_kernel_eq_skeleton]; unfold cc1__bn_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.K.Reg1.lean ====
import proofs.«421327_j56599079026905_1_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (t : Fin cfg1.N) (x0 : Vec F S5000x64 .f32) (x1 x2 x3 x4 : Vec F S1x64 .f32) (x5 : Vec F S5000x1 .i32)
  (xo7 : Vec F S512x64 .f32)

/-- The body's run at point `t`: when `t` opens a group of ten points, -/
abbrev run1_A (h0 : t.val % 10 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) x0 x1 x2 x3 x4 x5
/-- and when it does not (the pool block is then found at `xo7`). -/
abbrev run1_B (h0 : ¬t.val % 10 = 0) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) x0 x1 x2 x3 x4 x5 xo7

theorem cover1_A_6 (h0 : t.val % 10 = 0) (y : S5000x64.Idx) : ∃ pc ∈ (run1_A c t x0 x1 x2 x3 x4 x5 h0).1, y ∈ pc.1.set :=
  View.cover_of_tiledL (run1_A c t x0 x1 x2 x3 x4 x5 h0).1 S5000x64.size (by sl_kernel_rfl) y
theorem cover1_A_7 (h0 : t.val % 10 = 0) (y : S512x64.Idx) : ∃ pc ∈ (run1_A c t x0 x1 x2 x3 x4 x5 h0).2.1, y ∈ pc.1.set :=
  View.cover_of_tiledL (run1_A c t x0 x1 x2 x3 x4 x5 h0).2.1 S512x64.size (by sl_kernel_rfl) y
theorem cover1_B_6 (h0 : ¬t.val % 10 = 0) (y : S5000x64.Idx) : ∃ pc ∈ (run1_B c t x0 x1 x2 x3 x4 x5 xo7 h0).1, y ∈ pc.1.set :=
  View.cover_of_tiledL (run1_B c t x0 x1 x2 x3 x4 x5 xo7 h0).1 S5000x64.size (by sl_kernel_rfl) y
theorem cover1_B_7 (h0 : ¬t.val % 10 = 0) (y : S512x64.Idx) : ∃ pc ∈ (run1_B c t x0 x1 x2 x3 x4 x5 xo7 h0).2.1, y ∈ pc.1.set :=
  View.cover_of_tiledL (run1_B c t x0 x1 x2 x3 x4 x5 xo7 h0).2.1 S512x64.size (by sl_kernel_rfl) y

/-- What a point leaves of each output block: the run's pieces read back. -/
def out1_A_6 (h0 : t.val % 10 = 0) : Vec F S5000x64 .f32 := VO1_6.read (Elt F) (VO1_6.writes (Elt F) VO1_6.junk (run1_A c t x0 x1 x2 x3 x4 x5 h0).1)
def out1_A_7 (h0 : t.val % 10 = 0) : Vec F S512x64 .f32 := VO1_7.read (Elt F) (VO1_7.writes (Elt F) VO1_7.junk (run1_A c t x0 x1 x2 x3 x4 x5 h0).2.1)
def out1_B_6 (h0 : ¬t.val % 10 = 0) : Vec F S5000x64 .f32 := VO1_6.read (Elt F) (VO1_6.writes (Elt F) VO1_6.junk (run1_B c t x0 x1 x2 x3 x4 x5 xo7 h0).1)
def out1_B_7 (h0 : ¬t.val % 10 = 0) : Vec F S512x64 .f32 := VO1_7.read (Elt F) (VO1_7.writes (Elt F) VO1_7.junk (run1_B c t x0 x1 x2 x3 x4 x5 xo7 h0).2.1)

end

/-- The two output blocks after the body at position `n`: the pool block accumulates over what the point before left, and
    starts afresh at the first point. -/
def outsAt1 (c : Dev nD) : (n : ℕ) → n < cfg1.N → Vec F S5000x64 .f32 × Vec F S512x64 .f32
  | 0, hn => (out1_A_6 c ⟨0, hn⟩ (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (Nat.zero_mod _), out1_A_7 c ⟨0, hn⟩ (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (Nat.zero_mod _))
  | n + 1, hn =>
    if h0 : (n + 1) % 10 = 0 then
      (out1_A_6 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) h0, out1_A_7 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) h0)
    else
      (out1_B_6 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2 h0,
       out1_B_7 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2 h0)

theorem outsAt1_A (c : Dev nD) (t : Fin cfg1.N) (h0 : t.val % 10 = 0) :
    outsAt1 V c t.val t.isLt = (out1_A_6 c t (iblk1 V c 0 t) (iblk1 V c 1 t) (iblk1 V c 2 t) (iblk1 V c 3 t) (iblk1 V c 4 t) (iblk1 V c 5 t) h0, out1_A_7 c t (iblk1 V c 0 t) (iblk1 V c 1 t) (iblk1 V c 2 t) (iblk1 V c 3 t) (iblk1 V c 4 t) (iblk1 V c 5 t) h0) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt =
      (out1_B_6 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0,
       out1_B_7 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt1_A_6 (c : Dev nD) (t : Fin cfg1.N) (h0 : t.val % 10 = 0) :
    (outsAt1 V c t.val t.isLt).1 = out1_A_6 c t (iblk1 V c 0 t) (iblk1 V c 1 t) (iblk1 V c 2 t) (iblk1 V c 3 t) (iblk1 V c 4 t) (iblk1 V c 5 t) h0 := fst_of_eq_mk (outsAt1_A V c t h0)
theorem outsAt1_A_7 (c : Dev nD) (t : Fin cfg1.N) (h0 : t.val % 10 = 0) :
    (outsAt1 V c t.val t.isLt).2 = out1_A_7 c t (iblk1 V c 0 t) (iblk1 V c 1 t) (iblk1 V c 2 t) (iblk1 V c 3 t) (iblk1 V c 4 t) (iblk1 V c 5 t) h0 := snd_of_eq_mk (outsAt1_A V c t h0)
theorem outsAt1_B_6 (c : Dev nD) (t : Fin cfg1.N) (h0 : ¬t.val % 10 = 0) :
    (outsAt1 V c t.val t.isLt).1
      = out1_B_6 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0 :=
  fst_of_eq_mk (outsAt1_B V c t h0)
theorem outsAt1_B_7 (c : Dev nD) (t : Fin cfg1.N) (h0 : ¬t.val % 10 = 0) :
    (outsAt1 V c t.val t.isLt).2
      = out1_B_7 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0 :=
  snd_of_eq_mk (outsAt1_B V c t h0)

/-- The region's proof data entered at `V`: the arrays as found, every input at its block after each point and the two
    outputs at `outsAt1`; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem Φ_eq1 (c : Dev nD) (i : Fin (cfg1.N + 1)) : (dat1 V c).Φ i = Pipeline.ΦA spec1 c := by
  dsimp only [dat1]
theorem q_eq1 (c : Dev nD) (w : Fin cfg1.W) : (dat1 V c).q w = fullShare := by
  dsimp only [dat1]
theorem owed_eq1 (c : Dev nD) (i : Fin (cfg1.N + 1)) : (dat1 V c).owed i = 0 := by
  dsimp only [dat1]

theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- The body leaves every input window's block in place, and the window holds it at every point. -/
theorem inputs1 (c : Dev nD) (t : Fin cfg1.N) :
    ((dat1 V c).after 0 t = iblk1 V c 0 t ∧ ∀ d, (dat1 V c).before 0 t d = iblk1 V c 0 t)
    ∧ ((dat1 V c).after 1 t = iblk1 V c 1 t ∧ ∀ d, (dat1 V c).before 1 t d = iblk1 V c 1 t)
    ∧ ((dat1 V c).after 2 t = iblk1 V c 2 t ∧ ∀ d, (dat1 V c).before 2 t d = iblk1 V c 2 t)
    ∧ ((dat1 V c).after 3 t = iblk1 V c 3 t ∧ ∀ d, (dat1 V c).before 3 t d = iblk1 V c 3 t)
    ∧ ((dat1 V c).after 4 t = iblk1 V c 4 t ∧ ∀ d, (dat1 V c).before 4 t d = iblk1 V c 4 t)
    ∧ ((dat1 V c).after 5 t = iblk1 V c 5 t ∧ ∀ d, (dat1 V c).before 5 t d = iblk1 V c 5 t) := by
  refine ⟨?_, ?_, ?_, ?_, ?_, ?_⟩ <;>
  exact ⟨by dsimp only [dat1], fun d => ((dat1 V c).before_in_eq_fetched _ rfl (fun _ => rfl) (fun _ _ _ => rfl)
    (fun t => by dsimp only [dat1, Dat.blockOf, iblk1]) t d).trans (by dsimp only [dat1, Dat.fetched, Dat.blockOf, iblk1]; rfl)⟩

/-- Past the first point the pool block is found at what the point before left. -/
theorem before1_7_B (c : Dev nD) (t : Fin cfg1.N) (h0 : ¬t.val % 10 = 0) (d) :
    (dat1 V c).before 7 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 7 rfl t (by omega) (Bool.eq_false_iff.mpr fun h => by have := (flush1_7 _).mp h; dsimp only at this; omega)
    (fun _ => rfl) (fun _ _ => rfl)]
  dsimp only [dat1]

set_option maxHeartbeats 1600000 in
/-- The body at any point: the inputs are at their blocks, the point's case decides which run applies, and each output's
    pieces cover its block, so they read back the same through any whole view. -/
theorem body_obligation1 (c : Dev nD) : BodyObligation (dat1 (F := F) V c) (defs₀ (F := F)) Variants.none () Set.univ := fun t => by
  rw [bigSep_W1, bigSep_W1]
  obtain ⟨⟨a0, b0⟩, ⟨a1, b1⟩, ⟨a2, b2⟩, ⟨a3, b3⟩, ⟨a4, b4⟩, a5, b5⟩ := inputs1 V c t
  simp only [b0, b1, b2, b3, b4, b5, a0, a1, a2, a3, a4, a5, after1_6, after1_7, Φ_eq1]
  rw [show (dat1 V c).owesAt () t.succ = (dat1 V c).owesAt () t.castSucc from rfl]
  show _ ⊢ wp _ _ _ (bodyAt1 t) _
  unfold bodyAt1
  by_cases h0 : t.val % 10 = 0
  · rw [outsAt1_A_6 V c t h0, outsAt1_A_7 V c t h0]
    unfold out1_A_6 out1_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1_A c t (iblk1 V c 0 t) (iblk1 V c 1 t) (iblk1 V c 2 t) (iblk1 V c 3 t) (iblk1 V c 4 t) (iblk1 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover1_A_6 c t _ _ _ _ _ _ h0)
    unfold owns; iexists _; isplitr
    swap; · iexact H7
    ipureintro; exact View.read_writes_of_cover _ _ _ _ _ (cover1_A_7 c t _ _ _ _ _ _ h0)
  · rw [outsAt1_B_6 V c t h0, outsAt1_B_7 V c t h0]
    simp only [before1_7_B V c t h0]
    unfold out1_B_6 out1_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1_B c t (iblk1 V c 0 t) (iblk1 V c 1 t) (iblk1 V c 2 t) (iblk1 V c 3 t) (iblk1 V c 4 t) (iblk1 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover1_B_6 c t _ _ _ _ _ _ _ h0)
    unfold owns; iexists _; isplitr
    swap; · iexact H7
    ipureintro; exact View.read_writes_of_cover _ _ _ _ _ (cover1_B_7 c t _ _ _ _ _ _ _ h0)

end

end Cert.Kernel.Hand

end
-- ==== Proof.K.Reg2.lean ====
import proofs.«421327_j56599079026905_1_alg».proof.Proof.K.Base
import proofs.«421327_j56599079026905_1_alg».proof.Proof.Gen.Kernel.Skeleton
import proofs.«421327_j56599079026905_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region

variable (V : Entry F)

/-- Window `w`'s block at point `t` of the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

/-- What the body stores: the perceptron of the six blocks it loads, over the whole block. -/
def out2_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r2_a, k2_pay1 (View.ld x0 r2_a) (View.ld x1 r2_a) (View.ld x2 r2_b) (View.ld x3 r2_c) (View.ld x4 r2_b) (View.ld x5 r2_c)⟩]

set_option maxHeartbeats 1000000 in
/-- The body, run on whole memrefs holding `x0 … x5`, leaves them as they were and the output at `out2_6` of them. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => View.cover_of_tiled _ S5000x64.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem Φ_eq2 (c : Dev nD) (i : Fin (cfg2.N + 1)) : (dat2 V c).Φ i = Pipeline.ΦA spec2 c := by
  dsimp only [dat2]
theorem q_eq2 (c : Dev nD) (w : Fin cfg2.W) : (dat2 V c).q w = fullShare := by
  dsimp only [dat2]
theorem owed_eq2 (c : Dev nD) (i : Fin (cfg2.N + 1)) : (dat2 V c).owed i = 0 := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- The body leaves every input window's block in place, and the window holds it at every point. -/
theorem inputs2 (c : Dev nD) (t : Fin cfg2.N) :
    ((dat2 V c).after 0 t = iblk2 V c 0 t ∧ ∀ d, (dat2 V c).before 0 t d = iblk2 V c 0 t)
    ∧ ((dat2 V c).after 1 t = iblk2 V c 1 t ∧ ∀ d, (dat2 V c).before 1 t d = iblk2 V c 1 t)
    ∧ ((dat2 V c).after 2 t = iblk2 V c 2 t ∧ ∀ d, (dat2 V c).before 2 t d = iblk2 V c 2 t)
    ∧ ((dat2 V c).after 3 t = iblk2 V c 3 t ∧ ∀ d, (dat2 V c).before 3 t d = iblk2 V c 3 t)
    ∧ ((dat2 V c).after 4 t = iblk2 V c 4 t ∧ ∀ d, (dat2 V c).before 4 t d = iblk2 V c 4 t)
    ∧ ((dat2 V c).after 5 t = iblk2 V c 5 t ∧ ∀ d, (dat2 V c).before 5 t d = iblk2 V c 5 t) := by
  refine ⟨?_, ?_, ?_, ?_, ?_, ?_⟩ <;>
  exact ⟨by dsimp only [dat2], fun d => ((dat2 V c).before_in_eq_fetched _ rfl (fun _ => rfl) (fun _ _ _ => rfl)
    (fun t => by dsimp only [dat2, Dat.blockOf, iblk2]) t d).trans (by dsimp only [dat2, Dat.fetched, Dat.blockOf, iblk2]; rfl)⟩

/-- The body at any point: the inputs hold their blocks, so the kernel's triple applies; the rest passes through unread. -/
theorem body_obligation2 (c : Dev nD) : BodyObligation (dat2 (F := F) V c) (defs₀ (F := F)) Variants.none () Set.univ := fun t => by
  rw [bigSep_W2, bigSep_W2]
  obtain ⟨⟨a0, b0⟩, ⟨a1, b1⟩, ⟨a2, b2⟩, ⟨a3, b3⟩, ⟨a4, b4⟩, a5, b5⟩ := inputs2 V c t
  simp only [b0, b1, b2, b3, b4, b5, a0, a1, a2, a3, a4, a5, after2_6, Φ_eq2]
  rw [show (dat2 V c).owesAt () t.succ = (dat2 V c).owesAt () t.castSucc from rfl]
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro H
  iframe

end Region

end Cert.Kernel.Hand

end
-- ==== Proof.K.Reg3RunA.lean ====
import proofs.«421327_j56599079026905_1_alg».proof.Proof.K.Base
import proofs.«421327_j56599079026905_1_alg».proof.Proof.Gen.Kernel.Skeleton
import proofs.«421327_j56599079026905_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 10 = 0 :=
  (by decide +kernel : ∀ t : Fin grid3.N, cond3_0 (grid3.coords t) ↔ t.val % 10 = 0)

abbrev VO3_6 : View sig .tc .vmem S5000x64 .f32 := (Memref.whole cc3_stg6_0 : Memref sig .tc .vmem S5000x64 .f32).view
abbrev VO3_7 : View sig .tc .vmem S512x64 .f32 := (Memref.whole cc3_stg7_0 : Memref sig .tc .vmem S512x64 .f32).view

abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S5000x64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x64 .f32 := win3_7.stage (cfg3.slots t 7)
abbrev hs3_7 (t : Fin cfg3.N) : (ms3_7 t).IsWhole := hstage3_7 ((cfg3.slots t 7).cast nbuf3_7)

set_option maxHeartbeats 1000000 in

noncomputable def kernelRun3_A (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : cond3_0 i)
    (x0 : Vec F S5000x64 .f32) (x1 x2 x3 x4 : Vec F S1x64 .f32) (x5 : Vec F S5000x1 .i32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc3__bn_pool_kernel i arg1 harg1 arg2 harg2 arg3 harg3 arg4 harg4 arg5 harg5 arg6 harg6 arg7 harg7 arg8 harg8) K } := by
  refine ⟨?_, ?_, fun E K => ?run⟩
  case run =>
    simp only [cc3__bn_pool_kernel_eq_skeleton]; unfold cc3__bn_pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.K.Reg3RunB.lean ====
import proofs.«421327_j56599079026905_1_alg».proof.Proof.K.Reg3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun3_B (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : ¬cond3_0 i)
    (x0 : Vec F S5000x64 .f32) (x1 x2 x3 x4 : Vec F S1x64 .f32) (x5 : Vec F S5000x1 .i32) (xo7 : Vec F S512x64 .f32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc3__bn_pool_kernel i arg1 harg1 arg2 harg2 arg3 harg3 arg4 harg4 arg5 harg5 arg6 harg6 arg7 harg7 arg8 harg8) K } := by
  refine ⟨?_, ?_, fun E K => ?run⟩
  case run =>
    simp only [cc3__bn_pool_kernel_eq_skeleton]; unfold cc3__bn_pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.Kernel.Hand

end
-- ==== Proof.K.Reg3.lean ====
import proofs.«421327_j56599079026905_1_alg».proof.Proof.K.Reg3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section
variable (c : Dev nD) (t : Fin cfg3.N) (x0 : Vec F S5000x64 .f32) (x1 x2 x3 x4 : Vec F S1x64 .f32) (x5 : Vec F S5000x1 .i32)
  (xo7 : Vec F S512x64 .f32)

/-- The body's run at point `t`: when `t` opens a group of ten points, -/
abbrev run3_A (h0 : t.val % 10 = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) x0 x1 x2 x3 x4 x5
/-- and when it does not (the pool block is then found at `xo7`). -/
abbrev run3_B (h0 : ¬t.val % 10 = 0) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) x0 x1 x2 x3 x4 x5 xo7

theorem cover3_A_6 (h0 : t.val % 10 = 0) (y : S5000x64.Idx) : ∃ pc ∈ (run3_A c t x0 x1 x2 x3 x4 x5 h0).1, y ∈ pc.1.set :=
  View.cover_of_tiledL (run3_A c t x0 x1 x2 x3 x4 x5 h0).1 S5000x64.size (by sl_kernel_rfl) y
theorem cover3_A_7 (h0 : t.val % 10 = 0) (y : S512x64.Idx) : ∃ pc ∈ (run3_A c t x0 x1 x2 x3 x4 x5 h0).2.1, y ∈ pc.1.set :=
  View.cover_of_tiledL (run3_A c t x0 x1 x2 x3 x4 x5 h0).2.1 S512x64.size (by sl_kernel_rfl) y
theorem cover3_B_6 (h0 : ¬t.val % 10 = 0) (y : S5000x64.Idx) : ∃ pc ∈ (run3_B c t x0 x1 x2 x3 x4 x5 xo7 h0).1, y ∈ pc.1.set :=
  View.cover_of_tiledL (run3_B c t x0 x1 x2 x3 x4 x5 xo7 h0).1 S5000x64.size (by sl_kernel_rfl) y
theorem cover3_B_7 (h0 : ¬t.val % 10 = 0) (y : S512x64.Idx) : ∃ pc ∈ (run3_B c t x0 x1 x2 x3 x4 x5 xo7 h0).2.1, y ∈ pc.1.set :=
  View.cover_of_tiledL (run3_B c t x0 x1 x2 x3 x4 x5 xo7 h0).2.1 S512x64.size (by sl_kernel_rfl) y

/-- What a point leaves of each output block: the run's pieces read back. -/
def out3_A_6 (h0 : t.val % 10 = 0) : Vec F S5000x64 .f32 := VO3_6.read (Elt F) (VO3_6.writes (Elt F) VO3_6.junk (run3_A c t x0 x1 x2 x3 x4 x5 h0).1)
def out3_A_7 (h0 : t.val % 10 = 0) : Vec F S512x64 .f32 := VO3_7.read (Elt F) (VO3_7.writes (Elt F) VO3_7.junk (run3_A c t x0 x1 x2 x3 x4 x5 h0).2.1)
def out3_B_6 (h0 : ¬t.val % 10 = 0) : Vec F S5000x64 .f32 := VO3_6.read (Elt F) (VO3_6.writes (Elt F) VO3_6.junk (run3_B c t x0 x1 x2 x3 x4 x5 xo7 h0).1)
def out3_B_7 (h0 : ¬t.val % 10 = 0) : Vec F S512x64 .f32 := VO3_7.read (Elt F) (VO3_7.writes (Elt F) VO3_7.junk (run3_B c t x0 x1 x2 x3 x4 x5 xo7 h0).2.1)

end

/-- The two output blocks after the body at position `n`: the pool block accumulates over what the point before left, and
    starts afresh at the first point. -/
def outsAt3 (c : Dev nD) : (n : ℕ) → n < cfg3.N → Vec F S5000x64 .f32 × Vec F S512x64 .f32
  | 0, hn => (out3_A_6 c ⟨0, hn⟩ (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (Nat.zero_mod _), out3_A_7 c ⟨0, hn⟩ (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (Nat.zero_mod _))
  | n + 1, hn =>
    if h0 : (n + 1) % 10 = 0 then
      (out3_A_6 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) h0, out3_A_7 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) h0)
    else
      (out3_B_6 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2 h0,
       out3_B_7 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2 h0)

theorem outsAt3_A (c : Dev nD) (t : Fin cfg3.N) (h0 : t.val % 10 = 0) :
    outsAt3 V c t.val t.isLt = (out3_A_6 c t (iblk3 V c 0 t) (iblk3 V c 1 t) (iblk3 V c 2 t) (iblk3 V c 3 t) (iblk3 V c 4 t) (iblk3 V c 5 t) h0, out3_A_7 c t (iblk3 V c 0 t) (iblk3 V c 1 t) (iblk3 V c 2 t) (iblk3 V c 3 t) (iblk3 V c 4 t) (iblk3 V c 5 t) h0) := by
  obtain ⟨n, hn⟩ := t
  cases n with
  | zero => exact rfl
  | succ n => exact (dif_pos h0).trans rfl

theorem outsAt3_B (c : Dev nD) (t : Fin cfg3.N) (h0 : ¬t.val % 10 = 0) :
    outsAt3 V c t.val t.isLt =
      (out3_B_6 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0,
       out3_B_7 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt3_A_6 (c : Dev nD) (t : Fin cfg3.N) (h0 : t.val % 10 = 0) :
    (outsAt3 V c t.val t.isLt).1 = out3_A_6 c t (iblk3 V c 0 t) (iblk3 V c 1 t) (iblk3 V c 2 t) (iblk3 V c 3 t) (iblk3 V c 4 t) (iblk3 V c 5 t) h0 := fst_of_eq_mk (outsAt3_A V c t h0)
theorem outsAt3_A_7 (c : Dev nD) (t : Fin cfg3.N) (h0 : t.val % 10 = 0) :
    (outsAt3 V c t.val t.isLt).2 = out3_A_7 c t (iblk3 V c 0 t) (iblk3 V c 1 t) (iblk3 V c 2 t) (iblk3 V c 3 t) (iblk3 V c 4 t) (iblk3 V c 5 t) h0 := snd_of_eq_mk (outsAt3_A V c t h0)
theorem outsAt3_B_6 (c : Dev nD) (t : Fin cfg3.N) (h0 : ¬t.val % 10 = 0) :
    (outsAt3 V c t.val t.isLt).1
      = out3_B_6 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0 :=
  fst_of_eq_mk (outsAt3_B V c t h0)
theorem outsAt3_B_7 (c : Dev nD) (t : Fin cfg3.N) (h0 : ¬t.val % 10 = 0) :
    (outsAt3 V c t.val t.isLt).2
      = out3_B_7 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0 :=
  snd_of_eq_mk (outsAt3_B V c t h0)

/-- The region's proof data entered at `V`: the arrays as found, every input at its block after each point and the two
    outputs at `outsAt3`; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]
theorem Φ_eq3 (c : Dev nD) (i : Fin (cfg3.N + 1)) : (dat3 V c).Φ i = Pipeline.ΦA spec3 c := by
  dsimp only [dat3]
theorem q_eq3 (c : Dev nD) (w : Fin cfg3.W) : (dat3 V c).q w = fullShare := by
  dsimp only [dat3]
theorem owed_eq3 (c : Dev nD) (i : Fin (cfg3.N + 1)) : (dat3 V c).owed i = 0 := by
  dsimp only [dat3]

theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2 := by dsimp only [dat3]

/-- The body leaves every input window's block in place, and the window holds it at every point. -/
theorem inputs3 (c : Dev nD) (t : Fin cfg3.N) :
    ((dat3 V c).after 0 t = iblk3 V c 0 t ∧ ∀ d, (dat3 V c).before 0 t d = iblk3 V c 0 t)
    ∧ ((dat3 V c).after 1 t = iblk3 V c 1 t ∧ ∀ d, (dat3 V c).before 1 t d = iblk3 V c 1 t)
    ∧ ((dat3 V c).after 2 t = iblk3 V c 2 t ∧ ∀ d, (dat3 V c).before 2 t d = iblk3 V c 2 t)
    ∧ ((dat3 V c).after 3 t = iblk3 V c 3 t ∧ ∀ d, (dat3 V c).before 3 t d = iblk3 V c 3 t)
    ∧ ((dat3 V c).after 4 t = iblk3 V c 4 t ∧ ∀ d, (dat3 V c).before 4 t d = iblk3 V c 4 t)
    ∧ ((dat3 V c).after 5 t = iblk3 V c 5 t ∧ ∀ d, (dat3 V c).before 5 t d = iblk3 V c 5 t) := by
  refine ⟨?_, ?_, ?_, ?_, ?_, ?_⟩ <;>
  exact ⟨by dsimp only [dat3], fun d => ((dat3 V c).before_in_eq_fetched _ rfl (fun _ => rfl) (fun _ _ _ => rfl)
    (fun t => by dsimp only [dat3, Dat.blockOf, iblk3]) t d).trans (by dsimp only [dat3, Dat.fetched, Dat.blockOf, iblk3]; rfl)⟩

/-- Past the first point the pool block is found at what the point before left. -/
theorem before3_7_B (c : Dev nD) (t : Fin cfg3.N) (h0 : ¬t.val % 10 = 0) (d) :
    (dat3 V c).before 7 t d = (outsAt3 V c (t.val - 1) (Nat.lt_of_le_of_lt (Nat.sub_le _ _) t.isLt)).2 := by
  have hN : t.val < 10 := lt_of_lt_of_eq t.isLt (show cfg3.N = 10 from N_3)
  rw [Dat.before_out_kept _ 7 rfl t (by omega) (Bool.eq_false_iff.mpr fun h => by have := (flush3_7 _).mp h; dsimp only at this; omega)
    (fun _ => rfl) (fun _ _ => rfl)]
  dsimp only [dat3]

set_option maxHeartbeats 1600000 in
/-- The body at any point: the inputs are at their blocks, the point's case decides which run applies, and each output's
    pieces cover its block, so they read back the same through any whole view. -/
theorem body_obligation3 (c : Dev nD) : BodyObligation (dat3 (F := F) V c) (defs₀ (F := F)) Variants.none () Set.univ := fun t => by
  rw [bigSep_W3, bigSep_W3]
  obtain ⟨⟨a0, b0⟩, ⟨a1, b1⟩, ⟨a2, b2⟩, ⟨a3, b3⟩, ⟨a4, b4⟩, a5, b5⟩ := inputs3 V c t
  simp only [b0, b1, b2, b3, b4, b5, a0, a1, a2, a3, a4, a5, after3_6, after3_7, Φ_eq3]
  rw [show (dat3 V c).owesAt () t.succ = (dat3 V c).owesAt () t.castSucc from rfl]
  show _ ⊢ wp _ _ _ (bodyAt3 t) _
  unfold bodyAt3
  by_cases h0 : t.val % 10 = 0
  · rw [outsAt3_A_6 V c t h0, outsAt3_A_7 V c t h0]
    unfold out3_A_6 out3_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run3_A c t (iblk3 V c 0 t) (iblk3 V c 1 t) (iblk3 V c 2 t) (iblk3 V c 3 t) (iblk3 V c 4 t) (iblk3 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover3_A_6 c t _ _ _ _ _ _ h0)
    unfold owns; iexists _; isplitr
    swap; · iexact H7
    ipureintro; exact View.read_writes_of_cover _ _ _ _ _ (cover3_A_7 c t _ _ _ _ _ _ h0)
  · rw [outsAt3_B_6 V c t h0, outsAt3_B_7 V c t h0]
    simp only [before3_7_B V c t h0]
    unfold out3_B_6 out3_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run3_B c t (iblk3 V c 0 t) (iblk3 V c 1 t) (iblk3 V c 2 t) (iblk3 V c 3 t) (iblk3 V c 4 t) (iblk3 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover3_B_6 c t _ _ _ _ _ _ _ h0)
    unfold owns; iexists _; isplitr
    swap; · iexact H7
    ipureintro; exact View.read_writes_of_cover _ _ _ _ _ (cover3_B_7 c t _ _ _ _ _ _ _ h0)

end

end Cert.Kernel.Hand

end
-- ==== Proof.K.Reg4.lean ====
import proofs.«421327_j56599079026905_1_alg».proof.Proof.K.Base
import proofs.«421327_j56599079026905_1_alg».proof.Proof.Gen.Kernel.Skeleton
import proofs.«421327_j56599079026905_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region

variable (V : Entry F)

/-- Window `w`'s block at point `t` of the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S5000x64 := Rect.unit (s := S5000x64) ![0, 0] S5000x64.size inb_S5000x64_S5000x64_0_0
abbrev r4_b : Rect S64x64 := Rect.unit (s := S64x64) ![0, 0] S64x64.size inb_S64x64_S64x64_0_0
abbrev r4_c : Rect S1x64 := Rect.unit (s := S1x64) ![0, 0] S1x64.size inb_S1x64_S1x64_0_0

/-- What the body stores: the perceptron of the six blocks it loads, over the whole block. -/
def out4_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r4_a, k4_pay1 (View.ld x0 r4_a) (View.ld x1 r4_a) (View.ld x2 r4_b) (View.ld x3 r4_c) (View.ld x4 r4_b) (View.ld x5 r4_c)⟩]

set_option maxHeartbeats 1000000 in
/-- The body, run on whole memrefs holding `x0 … x5`, leaves them as they were and the output at `out4_6` of them. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => View.cover_of_tiled _ S5000x64.size (by rfl) y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem Φ_eq4 (c : Dev nD) (i : Fin (cfg4.N + 1)) : (dat4 V c).Φ i = Pipeline.ΦA spec4 c := by
  dsimp only [dat4]
theorem q_eq4 (c : Dev nD) (w : Fin cfg4.W) : (dat4 V c).q w = fullShare := by
  dsimp only [dat4]
theorem owed_eq4 (c : Dev nD) (i : Fin (cfg4.N + 1)) : (dat4 V c).owed i = 0 := by
  dsimp only [dat4]

theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- The body leaves every input window's block in place, and the window holds it at every point. -/
theorem inputs4 (c : Dev nD) (t : Fin cfg4.N) :
    ((dat4 V c).after 0 t = iblk4 V c 0 t ∧ ∀ d, (dat4 V c).before 0 t d = iblk4 V c 0 t)
    ∧ ((dat4 V c).after 1 t = iblk4 V c 1 t ∧ ∀ d, (dat4 V c).before 1 t d = iblk4 V c 1 t)
    ∧ ((dat4 V c).after 2 t = iblk4 V c 2 t ∧ ∀ d, (dat4 V c).before 2 t d = iblk4 V c 2 t)
    ∧ ((dat4 V c).after 3 t = iblk4 V c 3 t ∧ ∀ d, (dat4 V c).before 3 t d = iblk4 V c 3 t)
    ∧ ((dat4 V c).after 4 t = iblk4 V c 4 t ∧ ∀ d, (dat4 V c).before 4 t d = iblk4 V c 4 t)
    ∧ ((dat4 V c).after 5 t = iblk4 V c 5 t ∧ ∀ d, (dat4 V c).before 5 t d = iblk4 V c 5 t) := by
  refine ⟨?_, ?_, ?_, ?_, ?_, ?_⟩ <;>
  exact ⟨by dsimp only [dat4], fun d => ((dat4 V c).before_in_eq_fetched _ rfl (fun _ => rfl) (fun _ _ _ => rfl)
    (fun t => by dsimp only [dat4, Dat.blockOf, iblk4]) t d).trans (by dsimp only [dat4, Dat.fetched, Dat.blockOf, iblk4]; rfl)⟩

/-- The body at any point: the inputs hold their blocks, so the kernel's triple applies; the rest passes through unread. -/
theorem body_obligation4 (c : Dev nD) : BodyObligation (dat4 (F := F) V c) (defs₀ (F := F)) Variants.none () Set.univ := fun t => by
  rw [bigSep_W4, bigSep_W4]
  obtain ⟨⟨a0, b0⟩, ⟨a1, b1⟩, ⟨a2, b2⟩, ⟨a3, b3⟩, ⟨a4, b4⟩, a5, b5⟩ := inputs4 V c t
  simp only [b0, b1, b2, b3, b4, b5, a0, a1, a2, a3, a4, a5, after4_6, Φ_eq4]
  rw [show (dat4 V c).owesAt () t.succ = (dat4 V c).owesAt () t.castSucc from rfl]
  show _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  iframe H0 H1 H2 H3 H4 H5
  isplitl [H6]; · iexists _; iexact H6
  iintro H
  iframe

end Region

end Cert.Kernel.Hand

end
-- ==== Proof.K.Reg5RunA.lean ====
/- This region's kernel function is region 3's definition printed again, so the region takes region 3's runs; here are only
   its own condition and the names of its blocks' places. -/
import proofs.«421327_j56599079026905_1_alg».proof.Proof.K.Reg3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 10 = 0 :=
  (by decide +kernel : ∀ t : Fin grid5.N, cond5_0 (grid5.coords t) ↔ t.val % 10 = 0)

abbrev VO5_6 : View sig .tc .vmem S5000x64 .f32 := (Memref.whole cc5_stg6_0 : Memref sig .tc .vmem S5000x64 .f32).view
abbrev VO5_7 : View sig .tc .vmem S512x64 .f32 := (Memref.whole cc5_stg7_0 : Memref sig .tc .vmem S512x64 .f32).view

abbrev ms5_0 (t : Fin cfg5.N) : Memref sig .tc .vmem S5000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S5000x1 .i32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S5000x64 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S512x64 .f32 := win5_7.stage (cfg5.slots t 7)
abbrev hs5_7 (t : Fin cfg5.N) : (ms5_7 t).IsWhole := hstage5_7 ((cfg5.slots t 7).cast nbuf5_7)

end Cert.Kernel.Hand

end
-- ==== Proof.K.Reg5.lean ====
import proofs.«421327_j56599079026905_1_alg».proof.Proof.K.Reg5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

section
variable (c : Dev nD) (t : Fin cfg5.N) (x0 : Vec F S5000x64 .f32) (x1 x2 x3 x4 : Vec F S1x64 .f32) (x5 : Vec F S5000x1 .i32)
  (xo7 : Vec F S512x64 .f32)

/-- The body's run at point `t`: when `t` opens a group of ten points, -/
abbrev run5_A (h0 : t.val % 10 = 0) :=
  kernelRun3_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) x0 x1 x2 x3 x4 x5
/-- and when it does not (the pool block is then found at `xo7`). -/
abbrev run5_B (h0 : ¬t.val % 10 = 0) :=
  kernelRun3_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) x0 x1 x2 x3 x4 x5 xo7

theorem cover5_A_6 (h0 : t.val % 10 = 0) (y : S5000x64.Idx) : ∃ pc ∈ (run5_A c t x0 x1 x2 x3 x4 x5 h0).1, y ∈ pc.1.set :=
  View.cover_of_tiledL (run5_A c t x0 x1 x2 x3 x4 x5 h0).1 S5000x64.size (by sl_kernel_rfl) y
theorem cover5_A_7 (h0 : t.val % 10 = 0) (y : S512x64.Idx) : ∃ pc ∈ (run5_A c t x0 x1 x2 x3 x4 x5 h0).2.1, y ∈ pc.1.set :=
  View.cover_of_tiledL (run5_A c t x0 x1 x2 x3 x4 x5 h0).2.1 S512x64.size (by sl_kernel_rfl) y
theorem cover5_B_6 (h0 : ¬t.val % 10 = 0) (y : S5000x64.Idx) : ∃ pc ∈ (run5_B c t x0 x1 x2 x3 x4 x5 xo7 h0).1, y ∈ pc.1.set :=
  View.cover_of_tiledL (run5_B c t x0 x1 x2 x3 x4 x5 xo7 h0).1 S5000x64.size (by sl_kernel_rfl) y
theorem cover5_B_7 (h0 : ¬t.val % 10 = 0) (y : S512x64.Idx) : ∃ pc ∈ (run5_B c t x0 x1 x2 x3 x4 x5 xo7 h0).2.1, y ∈ pc.1.set :=
  View.cover_of_tiledL (run5_B c t x0 x1 x2 x3 x4 x5 xo7 h0).2.1 S512x64.size (by sl_kernel_rfl) y

/-- What a point leaves of each output block: the run's pieces read back. -/
def out5_A_6 (h0 : t.val % 10 = 0) : Vec F S5000x64 .f32 := VO5_6.read (Elt F) (VO5_6.writes (Elt F) VO5_6.junk (run5_A c t x0 x1 x2 x3 x4 x5 h0).1)
def out5_A_7 (h0 : t.val % 10 = 0) : Vec F S512x64 .f32 := VO5_7.read (Elt F) (VO5_7.writes (Elt F) VO5_7.junk (run5_A c t x0 x1 x2 x3 x4 x5 h0).2.1)
def out5_B_6 (h0 : ¬t.val % 10 = 0) : Vec F S5000x64 .f32 := VO5_6.read (Elt F) (VO5_6.writes (Elt F) VO5_6.junk (run5_B c t x0 x1 x2 x3 x4 x5 xo7 h0).1)
def out5_B_7 (h0 : ¬t.val % 10 = 0) : Vec F S512x64 .f32 := VO5_7.read (Elt F) (VO5_7.writes (Elt F) VO5_7.junk (run5_B c t x0 x1 x2 x3 x4 x5 xo7 h0).2.1)

end

/-- The two output blocks after the body at position `n`: the pool block accumulates over what the point before left, and
    starts afresh at the first point. -/
def outsAt5 (c : Dev nD) : (n : ℕ) → n < cfg5.N → Vec F S5000x64 .f32 × Vec F S512x64 .f32
  | 0, hn => (out5_A_6 c ⟨0, hn⟩ (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (Nat.zero_mod _), out5_A_7 c ⟨0, hn⟩ (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (Nat.zero_mod _))
  | n + 1, hn =>
    if h0 : (n + 1) % 10 = 0 then
      (out5_A_6 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) h0, out5_A_7 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) h0)
    else
      (out5_B_6 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2 h0,
       out5_B_7 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2 h0)

theorem outsAt5_A (c : Dev nD) (t : Fin cfg5.N) (h0 : t.val % 10 = 0) :
    outsAt5 V c t.val t.isLt = (out5_A_6 c t (iblk5 V c 0 t) (iblk5 V c 1 t) (iblk5 V c 2 t) (iblk5 V c 3 t) (iblk5 V c 4 t) (iblk5 V c 5 t) h0, out5_A_7 c t (iblk5 V c 0 t) (iblk5 V c 1 t) (iblk5 V c 2 t) (iblk5 V c 3 t) (iblk5 V c 4 t) (iblk5 V c 5 t) h0) := by
  obtain ⟨n, hn⟩ := t
  cases n with
  | zero => exact rfl
  | succ n => exact (dif_pos h0).trans rfl

theorem outsAt5_B (c : Dev nD) (t : Fin cfg5.N) (h0 : ¬t.val % 10 = 0) :
    outsAt5 V c t.val t.isLt =
      (out5_B_6 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0,
       out5_B_7 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt5_A_6 (c : Dev nD) (t : Fin cfg5.N) (h0 : t.val % 10 = 0) :
    (outsAt5 V c t.val t.isLt).1 = out5_A_6 c t (iblk5 V c 0 t) (iblk5 V c 1 t) (iblk5 V c 2 t) (iblk5 V c 3 t) (iblk5 V c 4 t) (iblk5 V c 5 t) h0 := fst_of_eq_mk (outsAt5_A V c t h0)
theorem outsAt5_A_7 (c : Dev nD) (t : Fin cfg5.N) (h0 : t.val % 10 = 0) :
    (outsAt5 V c t.val t.isLt).2 = out5_A_7 c t (iblk5 V c 0 t) (iblk5 V c 1 t) (iblk5 V c 2 t) (iblk5 V c 3 t) (iblk5 V c 4 t) (iblk5 V c 5 t) h0 := snd_of_eq_mk (outsAt5_A V c t h0)
theorem outsAt5_B_6 (c : Dev nD) (t : Fin cfg5.N) (h0 : ¬t.val % 10 = 0) :
    (outsAt5 V c t.val t.isLt).1
      = out5_B_6 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0 :=
  fst_of_eq_mk (outsAt5_B V c t h0)
theorem outsAt5_B_7 (c : Dev nD) (t : Fin cfg5.N) (h0 : ¬t.val % 10 = 0) :
    (outsAt5 V c t.val t.isLt).2
      = out5_B_7 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0 :=
  snd_of_eq_mk (outsAt5_B V c t h0)

/-- The region's proof data entered at `V`: the arrays as found, every input at its block after each point and the two
    outputs at `outsAt5`; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2
  Φ _ := Pipeline.ΦA spec5 c
  q _ := fullShare
  owed _ := 0

theorem A_eq5 (c : Dev nD) (w : Fin cfg5.W) : (dat5 V c).A w = V c (Pipeline.arrRef spec5 w) := by
  dsimp only [dat5]
theorem Φ_eq5 (c : Dev nD) (i : Fin (cfg5.N + 1)) : (dat5 V c).Φ i = Pipeline.ΦA spec5 c := by
  dsimp only [dat5]
theorem q_eq5 (c : Dev nD) (w : Fin cfg5.W) : (dat5 V c).q w = fullShare := by
  dsimp only [dat5]
theorem owed_eq5 (c : Dev nD) (i : Fin (cfg5.N + 1)) : (dat5 V c).owed i = 0 := by
  dsimp only [dat5]

theorem after5_6 (c : Dev nD) (t : Fin cfg5.N) : (dat5 V c).after 6 t = (outsAt5 V c t.val t.isLt).1 := by dsimp only [dat5]
theorem after5_7 (c : Dev nD) (t : Fin cfg5.N) : (dat5 V c).after 7 t = (outsAt5 V c t.val t.isLt).2 := by dsimp only [dat5]

/-- The body leaves every input window's block in place, and the window holds it at every point. -/
theorem inputs5 (c : Dev nD) (t : Fin cfg5.N) :
    ((dat5 V c).after 0 t = iblk5 V c 0 t ∧ ∀ d, (dat5 V c).before 0 t d = iblk5 V c 0 t)
    ∧ ((dat5 V c).after 1 t = iblk5 V c 1 t ∧ ∀ d, (dat5 V c).before 1 t d = iblk5 V c 1 t)
    ∧ ((dat5 V c).after 2 t = iblk5 V c 2 t ∧ ∀ d, (dat5 V c).before 2 t d = iblk5 V c 2 t)
    ∧ ((dat5 V c).after 3 t = iblk5 V c 3 t ∧ ∀ d, (dat5 V c).before 3 t d = iblk5 V c 3 t)
    ∧ ((dat5 V c).after 4 t = iblk5 V c 4 t ∧ ∀ d, (dat5 V c).before 4 t d = iblk5 V c 4 t)
    ∧ ((dat5 V c).after 5 t = iblk5 V c 5 t ∧ ∀ d, (dat5 V c).before 5 t d = iblk5 V c 5 t) := by
  refine ⟨?_, ?_, ?_, ?_, ?_, ?_⟩ <;>
  exact ⟨by dsimp only [dat5], fun d => ((dat5 V c).before_in_eq_fetched _ rfl (fun _ => rfl) (fun _ _ _ => rfl)
    (fun t => by dsimp only [dat5, Dat.blockOf, iblk5]) t d).trans (by dsimp only [dat5, Dat.fetched, Dat.blockOf, iblk5]; rfl)⟩

/-- Past the first point the pool block is found at what the point before left. -/
theorem before5_7_B (c : Dev nD) (t : Fin cfg5.N) (h0 : ¬t.val % 10 = 0) (d) :
    (dat5 V c).before 7 t d = (outsAt5 V c (t.val - 1) (Nat.lt_of_le_of_lt (Nat.sub_le _ _) t.isLt)).2 := by
  have hN : t.val < 10 := lt_of_lt_of_eq t.isLt (show cfg5.N = 10 from N_5)
  rw [Dat.before_out_kept _ 7 rfl t (by omega) (Bool.eq_false_iff.mpr fun h => by have := (flush5_7 _).mp h; dsimp only at this; omega)
    (fun _ => rfl) (fun _ _ => rfl)]
  dsimp only [dat5]

set_option maxHeartbeats 1600000 in
/-- The body at any point: the inputs are at their blocks, the point's case decides which run applies, and each output's
    pieces cover its block, so they read back the same through any whole view. -/
theorem body_obligation5 (c : Dev nD) : BodyObligation (dat5 (F := F) V c) (defs₀ (F := F)) Variants.none () Set.univ := fun t => by
  rw [bigSep_W5, bigSep_W5]
  obtain ⟨⟨a0, b0⟩, ⟨a1, b1⟩, ⟨a2, b2⟩, ⟨a3, b3⟩, ⟨a4, b4⟩, a5, b5⟩ := inputs5 V c t
  simp only [b0, b1, b2, b3, b4, b5, a0, a1, a2, a3, a4, a5, after5_6, after5_7, Φ_eq5]
  rw [show (dat5 V c).owesAt () t.succ = (dat5 V c).owesAt () t.castSucc from rfl]
  show _ ⊢ wp _ _ _ (bodyAt5 t) _
  unfold bodyAt5
  by_cases h0 : t.val % 10 = 0
  · rw [outsAt5_A_6 V c t h0, outsAt5_A_7 V c t h0]
    unfold out5_A_6 out5_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run5_A c t (iblk5 V c 0 t) (iblk5 V c 1 t) (iblk5 V c 2 t) (iblk5 V c 3 t) (iblk5 V c 4 t) (iblk5 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover5_A_6 c t _ _ _ _ _ _ h0)
    unfold owns; iexists _; isplitr
    swap; · iexact H7
    ipureintro; exact View.read_writes_of_cover _ _ _ _ _ (cover5_A_7 c t _ _ _ _ _ _ h0)
  · rw [outsAt5_B_6 V c t h0, outsAt5_B_7 V c t h0]
    simp only [before5_7_B V c t h0]
    unfold out5_B_6 out5_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run5_B c t (iblk5 V c 0 t) (iblk5 V c 1 t) (iblk5 V c 2 t) (iblk5 V c 3 t) (iblk5 V c 4 t) (iblk5 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover5_B_6 c t _ _ _ _ _ _ _ h0)
    unfold owns; iexists _; isplitr
    swap; · iexact H7
    ipureintro; exact View.read_writes_of_cover _ _ _ _ _ (cover5_B_7 c t _ _ _ _ _ _ _ h0)

end

end Cert.Kernel.Hand

end
-- ==== Proof.K.Reg6.lean ====
import proofs.«421327_j56599079026905_1_alg».proof.Proof.K.Base
import proofs.«421327_j56599079026905_1_alg».proof.Proof.Gen.Kernel.Skeleton
import proofs.«421327_j56599079026905_1_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region

variable (V : Entry F)

/-- Window `w`'s block at point `t` of the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_a : Rect S5000x64 := Rect.unit (s := S5000x64) ![0, 0] S5000x64.size inb_S5000x64_S5000x64_0_0
abbrev r6_b : Rect S64x64 := Rect.unit (s := S64x64) ![0, 0] S64x64.size inb_S64x64_S64x64_0_0
abbrev r6_c : Rect S1x64 := Rect.unit (s := S1x64) ![0, 0] S1x64.size inb_S1x64_S1x64_0_0

/-- What the body stores: the perceptron of the six blocks it loads, over the whole block. -/
def out6_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r6_a, k6_pay1 (View.ld x0 r6_a) (View.ld x1 r6_a) (View.ld x2 r6_b) (View.ld x3 r6_c) (View.ld x4 r6_b) (View.ld x5 r6_c)⟩]

set_option maxHeartbeats 1000000 in
/-- The body, run on whole memrefs holding `x0 … x5`, leaves them as they were and the output at `out6_6` of them. -/
theorem sound_kernel6 (c : Dev nD) (E : Set ℕ) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6__mlp_kernel i arg1 harg1 arg2 harg2 arg3 harg3 arg4 harg4 arg5 harg5 arg6 harg6 arg7 harg7) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => View.cover_of_tiled _ S5000x64.size (by rfl) y

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem Φ_eq6 (c : Dev nD) (i : Fin (cfg6.N + 1)) : (dat6 V c).Φ i = Pipeline.ΦA spec6 c := by
  dsimp only [dat6]
theorem q_eq6 (c : Dev nD) (w : Fin cfg6.W) : (dat6 V c).q w = fullShare := by
  dsimp only [dat6]
theorem owed_eq6 (c : Dev nD) (i : Fin (cfg6.N + 1)) : (dat6 V c).owed i = 0 := by
  dsimp only [dat6]

theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- The body leaves every input window's block in place, and the window holds it at every point. -/
theorem inputs6 (c : Dev nD) (t : Fin cfg6.N) :
    ((dat6 V c).after 0 t = iblk6 V c 0 t ∧ ∀ d, (dat6 V c).before 0 t d = iblk6 V c 0 t)
    ∧ ((dat6 V c).after 1 t = iblk6 V c 1 t ∧ ∀ d, (dat6 V c).before 1 t d = iblk6 V c 1 t)
    ∧ ((dat6 V c).after 2 t = iblk6 V c 2 t ∧ ∀ d, (dat6 V c).before 2 t d = iblk6 V c 2 t)
    ∧ ((dat6 V c).after 3 t = iblk6 V c 3 t ∧ ∀ d, (dat6 V c).before 3 t d = iblk6 V c 3 t)
    ∧ ((dat6 V c).after 4 t = iblk6 V c 4 t ∧ ∀ d, (dat6 V c).before 4 t d = iblk6 V c 4 t)
    ∧ ((dat6 V c).after 5 t = iblk6 V c 5 t ∧ ∀ d, (dat6 V c).before 5 t d = iblk6 V c 5 t) := by
  refine ⟨?_, ?_, ?_, ?_, ?_, ?_⟩ <;>
  exact ⟨by dsimp only [dat6], fun d => ((dat6 V c).before_in_eq_fetched _ rfl (fun _ => rfl) (fun _ _ _ => rfl)
    (fun t => by dsimp only [dat6, Dat.blockOf, iblk6]) t d).trans (by dsimp only [dat6, Dat.fetched, Dat.blockOf, iblk6]; rfl)⟩

/-- The body at any point: the inputs hold their blocks, so the kernel's triple applies; the rest passes through unread. -/
theorem body_obligation6 (c : Dev nD) : BodyObligation (dat6 (F := F) V c) (defs₀ (F := F)) Variants.none () Set.univ := fun t => by
  rw [bigSep_W6, bigSep_W6]
  obtain ⟨⟨a0, b0⟩, ⟨a1, b1⟩, ⟨a2, b2⟩, ⟨a3, b3⟩, ⟨a4, b4⟩, a5, b5⟩ := inputs6 V c t
  simp only [b0, b1, b2, b3, b4, b5, a0, a1, a2, a3, a4, a5, after6_6, Φ_eq6]
  rw [show (dat6 V c).owesAt () t.succ = (dat6 V c).owesAt () t.castSucc from rfl]
  show _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  iframe H0 H1 H2 H3 H4 H5
  isplitl [H6]; · iexists _; iexact H6
  iintro H
  iframe

end Region

end Cert.Kernel.Hand

end
-- ==== Proof.K.Reg7RunA.lean ====
/- This region's kernel function is region 3's definition printed again, so the region takes region 3's runs; here are only
   its own condition and the names of its blocks' places. -/
import proofs.«421327_j56599079026905_1_alg».proof.Proof.K.Reg3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val % 10 = 0 :=
  (by decide +kernel : ∀ t : Fin grid7.N, cond7_0 (grid7.coords t) ↔ t.val % 10 = 0)

abbrev VO7_6 : View sig .tc .vmem S5000x64 .f32 := (Memref.whole cc7_stg6_0 : Memref sig .tc .vmem S5000x64 .f32).view
abbrev VO7_7 : View sig .tc .vmem S512x64 .f32 := (Memref.whole cc7_stg7_0 : Memref sig .tc .vmem S512x64 .f32).view

abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S5000x1 .i32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S5000x64 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S512x64 .f32 := win7_7.stage (cfg7.slots t 7)
abbrev hs7_7 (t : Fin cfg7.N) : (ms7_7 t).IsWhole := hstage7_7 ((cfg7.slots t 7).cast nbuf7_7)

end Cert.Kernel.Hand

end
-- ==== Proof.K.Reg7.lean ====
import proofs.«421327_j56599079026905_1_alg».proof.Proof.K.Reg7RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

section
variable (c : Dev nD) (t : Fin cfg7.N) (x0 : Vec F S5000x64 .f32) (x1 x2 x3 x4 : Vec F S1x64 .f32) (x5 : Vec F S5000x1 .i32)
  (xo7 : Vec F S512x64 .f32)

/-- The body's run at point `t`: when `t` opens a group of ten points, -/
abbrev run7_A (h0 : t.val % 10 = 0) :=
  kernelRun3_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) x0 x1 x2 x3 x4 x5
/-- and when it does not (the pool block is then found at `xo7`). -/
abbrev run7_B (h0 : ¬t.val % 10 = 0) :=
  kernelRun3_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) x0 x1 x2 x3 x4 x5 xo7

theorem cover7_A_6 (h0 : t.val % 10 = 0) (y : S5000x64.Idx) : ∃ pc ∈ (run7_A c t x0 x1 x2 x3 x4 x5 h0).1, y ∈ pc.1.set :=
  View.cover_of_tiledL (run7_A c t x0 x1 x2 x3 x4 x5 h0).1 S5000x64.size (by sl_kernel_rfl) y
theorem cover7_A_7 (h0 : t.val % 10 = 0) (y : S512x64.Idx) : ∃ pc ∈ (run7_A c t x0 x1 x2 x3 x4 x5 h0).2.1, y ∈ pc.1.set :=
  View.cover_of_tiledL (run7_A c t x0 x1 x2 x3 x4 x5 h0).2.1 S512x64.size (by sl_kernel_rfl) y
theorem cover7_B_6 (h0 : ¬t.val % 10 = 0) (y : S5000x64.Idx) : ∃ pc ∈ (run7_B c t x0 x1 x2 x3 x4 x5 xo7 h0).1, y ∈ pc.1.set :=
  View.cover_of_tiledL (run7_B c t x0 x1 x2 x3 x4 x5 xo7 h0).1 S5000x64.size (by sl_kernel_rfl) y
theorem cover7_B_7 (h0 : ¬t.val % 10 = 0) (y : S512x64.Idx) : ∃ pc ∈ (run7_B c t x0 x1 x2 x3 x4 x5 xo7 h0).2.1, y ∈ pc.1.set :=
  View.cover_of_tiledL (run7_B c t x0 x1 x2 x3 x4 x5 xo7 h0).2.1 S512x64.size (by sl_kernel_rfl) y

/-- What a point leaves of each output block: the run's pieces read back. -/
def out7_A_6 (h0 : t.val % 10 = 0) : Vec F S5000x64 .f32 := VO7_6.read (Elt F) (VO7_6.writes (Elt F) VO7_6.junk (run7_A c t x0 x1 x2 x3 x4 x5 h0).1)
def out7_A_7 (h0 : t.val % 10 = 0) : Vec F S512x64 .f32 := VO7_7.read (Elt F) (VO7_7.writes (Elt F) VO7_7.junk (run7_A c t x0 x1 x2 x3 x4 x5 h0).2.1)
def out7_B_6 (h0 : ¬t.val % 10 = 0) : Vec F S5000x64 .f32 := VO7_6.read (Elt F) (VO7_6.writes (Elt F) VO7_6.junk (run7_B c t x0 x1 x2 x3 x4 x5 xo7 h0).1)
def out7_B_7 (h0 : ¬t.val % 10 = 0) : Vec F S512x64 .f32 := VO7_7.read (Elt F) (VO7_7.writes (Elt F) VO7_7.junk (run7_B c t x0 x1 x2 x3 x4 x5 xo7 h0).2.1)

end

/-- The two output blocks after the body at position `n`: the pool block accumulates over what the point before left, and
    starts afresh at the first point. -/
def outsAt7 (c : Dev nD) : (n : ℕ) → n < cfg7.N → Vec F S5000x64 .f32 × Vec F S512x64 .f32
  | 0, hn => (out7_A_6 c ⟨0, hn⟩ (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (Nat.zero_mod _), out7_A_7 c ⟨0, hn⟩ (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (Nat.zero_mod _))
  | n + 1, hn =>
    if h0 : (n + 1) % 10 = 0 then
      (out7_A_6 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) h0, out7_A_7 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) h0)
    else
      (out7_B_6 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2 h0,
       out7_B_7 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2 h0)

theorem outsAt7_A (c : Dev nD) (t : Fin cfg7.N) (h0 : t.val % 10 = 0) :
    outsAt7 V c t.val t.isLt = (out7_A_6 c t (iblk7 V c 0 t) (iblk7 V c 1 t) (iblk7 V c 2 t) (iblk7 V c 3 t) (iblk7 V c 4 t) (iblk7 V c 5 t) h0, out7_A_7 c t (iblk7 V c 0 t) (iblk7 V c 1 t) (iblk7 V c 2 t) (iblk7 V c 3 t) (iblk7 V c 4 t) (iblk7 V c 5 t) h0) := by
  obtain ⟨n, hn⟩ := t
  cases n with
  | zero => exact rfl
  | succ n => exact (dif_pos h0).trans rfl

theorem outsAt7_B (c : Dev nD) (t : Fin cfg7.N) (h0 : ¬t.val % 10 = 0) :
    outsAt7 V c t.val t.isLt =
      (out7_B_6 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0,
       out7_B_7 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt7_A_6 (c : Dev nD) (t : Fin cfg7.N) (h0 : t.val % 10 = 0) :
    (outsAt7 V c t.val t.isLt).1 = out7_A_6 c t (iblk7 V c 0 t) (iblk7 V c 1 t) (iblk7 V c 2 t) (iblk7 V c 3 t) (iblk7 V c 4 t) (iblk7 V c 5 t) h0 := fst_of_eq_mk (outsAt7_A V c t h0)
theorem outsAt7_A_7 (c : Dev nD) (t : Fin cfg7.N) (h0 : t.val % 10 = 0) :
    (outsAt7 V c t.val t.isLt).2 = out7_A_7 c t (iblk7 V c 0 t) (iblk7 V c 1 t) (iblk7 V c 2 t) (iblk7 V c 3 t) (iblk7 V c 4 t) (iblk7 V c 5 t) h0 := snd_of_eq_mk (outsAt7_A V c t h0)
theorem outsAt7_B_6 (c : Dev nD) (t : Fin cfg7.N) (h0 : ¬t.val % 10 = 0) :
    (outsAt7 V c t.val t.isLt).1
      = out7_B_6 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0 :=
  fst_of_eq_mk (outsAt7_B V c t h0)
theorem outsAt7_B_7 (c : Dev nD) (t : Fin cfg7.N) (h0 : ¬t.val % 10 = 0) :
    (outsAt7 V c t.val t.isLt).2
      = out7_B_7 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0 :=
  snd_of_eq_mk (outsAt7_B V c t h0)

/-- The region's proof data entered at `V`: the arrays as found, every input at its block after each point and the two
    outputs at `outsAt7`; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := by
  dsimp only [dat7]
theorem Φ_eq7 (c : Dev nD) (i : Fin (cfg7.N + 1)) : (dat7 V c).Φ i = Pipeline.ΦA spec7 c := by
  dsimp only [dat7]
theorem q_eq7 (c : Dev nD) (w : Fin cfg7.W) : (dat7 V c).q w = fullShare := by
  dsimp only [dat7]
theorem owed_eq7 (c : Dev nD) (i : Fin (cfg7.N + 1)) : (dat7 V c).owed i = 0 := by
  dsimp only [dat7]

theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2 := by dsimp only [dat7]

/-- The body leaves every input window's block in place, and the window holds it at every point. -/
theorem inputs7 (c : Dev nD) (t : Fin cfg7.N) :
    ((dat7 V c).after 0 t = iblk7 V c 0 t ∧ ∀ d, (dat7 V c).before 0 t d = iblk7 V c 0 t)
    ∧ ((dat7 V c).after 1 t = iblk7 V c 1 t ∧ ∀ d, (dat7 V c).before 1 t d = iblk7 V c 1 t)
    ∧ ((dat7 V c).after 2 t = iblk7 V c 2 t ∧ ∀ d, (dat7 V c).before 2 t d = iblk7 V c 2 t)
    ∧ ((dat7 V c).after 3 t = iblk7 V c 3 t ∧ ∀ d, (dat7 V c).before 3 t d = iblk7 V c 3 t)
    ∧ ((dat7 V c).after 4 t = iblk7 V c 4 t ∧ ∀ d, (dat7 V c).before 4 t d = iblk7 V c 4 t)
    ∧ ((dat7 V c).after 5 t = iblk7 V c 5 t ∧ ∀ d, (dat7 V c).before 5 t d = iblk7 V c 5 t) := by
  refine ⟨?_, ?_, ?_, ?_, ?_, ?_⟩ <;>
  exact ⟨by dsimp only [dat7], fun d => ((dat7 V c).before_in_eq_fetched _ rfl (fun _ => rfl) (fun _ _ _ => rfl)
    (fun t => by dsimp only [dat7, Dat.blockOf, iblk7]) t d).trans (by dsimp only [dat7, Dat.fetched, Dat.blockOf, iblk7]; rfl)⟩

/-- Past the first point the pool block is found at what the point before left. -/
theorem before7_7_B (c : Dev nD) (t : Fin cfg7.N) (h0 : ¬t.val % 10 = 0) (d) :
    (dat7 V c).before 7 t d = (outsAt7 V c (t.val - 1) (Nat.lt_of_le_of_lt (Nat.sub_le _ _) t.isLt)).2 := by
  have hN : t.val < 10 := lt_of_lt_of_eq t.isLt (show cfg7.N = 10 from N_7)
  rw [Dat.before_out_kept _ 7 rfl t (by omega) (Bool.eq_false_iff.mpr fun h => by have := (flush7_7 _).mp h; dsimp only at this; omega)
    (fun _ => rfl) (fun _ _ => rfl)]
  dsimp only [dat7]

set_option maxHeartbeats 1600000 in
/-- The body at any point: the inputs are at their blocks, the point's case decides which run applies, and each output's
    pieces cover its block, so they read back the same through any whole view. -/
theorem body_obligation7 (c : Dev nD) : BodyObligation (dat7 (F := F) V c) (defs₀ (F := F)) Variants.none () Set.univ := fun t => by
  rw [bigSep_W7, bigSep_W7]
  obtain ⟨⟨a0, b0⟩, ⟨a1, b1⟩, ⟨a2, b2⟩, ⟨a3, b3⟩, ⟨a4, b4⟩, a5, b5⟩ := inputs7 V c t
  simp only [b0, b1, b2, b3, b4, b5, a0, a1, a2, a3, a4, a5, after7_6, after7_7, Φ_eq7]
  rw [show (dat7 V c).owesAt () t.succ = (dat7 V c).owesAt () t.castSucc from rfl]
  show _ ⊢ wp _ _ _ (bodyAt7 t) _
  unfold bodyAt7
  by_cases h0 : t.val % 10 = 0
  · rw [outsAt7_A_6 V c t h0, outsAt7_A_7 V c t h0]
    unfold out7_A_6 out7_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run7_A c t (iblk7 V c 0 t) (iblk7 V c 1 t) (iblk7 V c 2 t) (iblk7 V c 3 t) (iblk7 V c 4 t) (iblk7 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover7_A_6 c t _ _ _ _ _ _ h0)
    unfold owns; iexists _; isplitr
    swap; · iexact H7
    ipureintro; exact View.read_writes_of_cover _ _ _ _ _ (cover7_A_7 c t _ _ _ _ _ _ h0)
  · rw [outsAt7_B_6 V c t h0, outsAt7_B_7 V c t h0]
    simp only [before7_7_B V c t h0]
    unfold out7_B_6 out7_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run7_B c t (iblk7 V c 0 t) (iblk7 V c 1 t) (iblk7 V c 2 t) (iblk7 V c 3 t) (iblk7 V c 4 t) (iblk7 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover7_B_6 c t _ _ _ _ _ _ _ h0)
    unfold owns; iexists _; isplitr
    swap; · iexact H7
    ipureintro; exact View.read_writes_of_cover _ _ _ _ _ (cover7_B_7 c t _ _ _ _ _ _ _ h0)

end

end Cert.Kernel.Hand

end
-- ==== Proof.K.Chain.lean ====
import proofs.«421327_j56599079026905_1_alg».proof.Proof.K.Reg0
import proofs.«421327_j56599079026905_1_alg».proof.Proof.K.Reg1
import proofs.«421327_j56599079026905_1_alg».proof.Proof.K.Reg2
import proofs.«421327_j56599079026905_1_alg».proof.Proof.K.Reg3
import proofs.«421327_j56599079026905_1_alg».proof.Proof.K.Reg4
import proofs.«421327_j56599079026905_1_alg».proof.Proof.K.Reg5
import proofs.«421327_j56599079026905_1_alg».proof.Proof.K.Reg6
import proofs.«421327_j56599079026905_1_alg».proof.Proof.K.Reg7
import proofs.«421327_j56599079026905_1_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
theorem W1_of (c : Dev nD) (r : Ref sig .tc) (h : r ∉ hostOps0_W) : W1 m c r = W0 m c r :=
  StableHlo.after_of_writes_sub hostOps0 _ hostOps0_writes h
abbrev E1 : Entry F := fun c b => W1 m c b

def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 : Dev nD → Valuation τ sig (Elt F) := fun c => StableHlo.after hostOps1 (W2 m c)
theorem W3_of (c : Dev nD) (r : Ref sig .tc) (h : r ∉ hostOps1_W) : W3 m c r = W2 m c r :=
  StableHlo.after_of_writes_sub hostOps1 _ hostOps1_writes h

abbrev W4 : Dev nD → Valuation τ sig (Elt F) := fun c => StableHlo.after hostOps1_1 (W3 m c)
theorem W4_of (c : Dev nD) (r : Ref sig .tc) (h : r ∉ hostOps1_1_W) : W4 m c r = W3 m c r :=
  StableHlo.after_of_writes_sub hostOps1_1 _ hostOps1_1_writes h
abbrev E4 : Entry F := fun c b => W4 m c b

def W5 (c : Dev nD) : Valuation τ sig (Elt F) :=
  Pipeline.withArrays spec1 c (W4 m c) fun w => (dat1 (E4 m) c).arrAt w cfg1.N
theorem W5_arr (c : Dev nD) (w : Fin cfg1.W) :
    W5 m c (Proc.devRef .tc (Pipeline.arrRef spec1 w)) = (dat1 (E4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb

abbrev W6 : Dev nD → Valuation τ sig (Elt F) := fun c => StableHlo.after hostOps2 (W5 m c)
theorem W6_of (c : Dev nD) (r : Ref sig .tc) (h : r ∉ hostOps2_W) : W6 m c r = W5 m c r :=
  StableHlo.after_of_writes_sub hostOps2 _ hostOps2_writes h
abbrev E6 : Entry F := fun c b => W6 m c b

def W7 (c : Dev nD) : Valuation τ sig (Elt F) :=
  Pipeline.withArrays spec2 c (W6 m c) fun w => (dat2 (E6 m) c).arrAt w cfg2.N
theorem W7_arr (c : Dev nD) (w : Fin cfg2.W) :
    W7 m c (Proc.devRef .tc (Pipeline.arrRef spec2 w)) = (dat2 (E6 m) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb

abbrev W8 : Dev nD → Valuation τ sig (Elt F) := fun c => StableHlo.after hostOps3 (W7 m c)
theorem W8_of (c : Dev nD) (r : Ref sig .tc) (h : r ∉ hostOps3_W) : W8 m c r = W7 m c r :=
  StableHlo.after_of_writes_sub hostOps3 _ hostOps3_writes h

abbrev W9 : Dev nD → Valuation τ sig (Elt F) := fun c => StableHlo.after hostOps3_1 (W8 m c)
theorem W9_of (c : Dev nD) (r : Ref sig .tc) (h : r ∉ hostOps3_1_W) : W9 m c r = W8 m c r :=
  StableHlo.after_of_writes_sub hostOps3_1 _ hostOps3_1_writes h

abbrev W10 : Dev nD → Valuation τ sig (Elt F) := fun c => StableHlo.after hostOps3_2 (W9 m c)
theorem W10_of (c : Dev nD) (r : Ref sig .tc) (h : r ∉ hostOps3_2_W) : W10 m c r = W9 m c r :=
  StableHlo.after_of_writes_sub hostOps3_2 _ hostOps3_2_writes h
abbrev E10 : Entry F := fun c b => W10 m c b

def W11 (c : Dev nD) : Valuation τ sig (Elt F) :=
  Pipeline.withArrays spec3 c (W10 m c) fun w => (dat3 (E10 m) c).arrAt w cfg3.N
theorem W11_arr (c : Dev nD) (w : Fin cfg3.W) :
    W11 m c (Proc.devRef .tc (Pipeline.arrRef spec3 w)) = (dat3 (E10 m) c).arrAt w cfg3.N :=
  Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) :=
  Pipeline.withArrays_of_ne spec3 c _ _ b hb

abbrev W12 : Dev nD → Valuation τ sig (Elt F) := fun c => StableHlo.after hostOps4 (W11 m c)
theorem W12_of (c : Dev nD) (r : Ref sig .tc) (h : r ∉ hostOps4_W) : W12 m c r = W11 m c r :=
  StableHlo.after_of_writes_sub hostOps4 _ hostOps4_writes h
abbrev E12 : Entry F := fun c b => W12 m c b

def W13 (c : Dev nD) : Valuation τ sig (Elt F) :=
  Pipeline.withArrays spec4 c (W12 m c) fun w => (dat4 (E12 m) c).arrAt w cfg4.N
theorem W13_arr (c : Dev nD) (w : Fin cfg4.W) :
    W13 m c (Proc.devRef .tc (Pipeline.arrRef spec4 w)) = (dat4 (E12 m) c).arrAt w cfg4.N :=
  Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) :=
  Pipeline.withArrays_of_ne spec4 c _ _ b hb

abbrev W14 : Dev nD → Valuation τ sig (Elt F) := fun c => StableHlo.after hostOps5 (W13 m c)
theorem W14_of (c : Dev nD) (r : Ref sig .tc) (h : r ∉ hostOps5_W) : W14 m c r = W13 m c r :=
  StableHlo.after_of_writes_sub hostOps5 _ hostOps5_writes h

abbrev W15 : Dev nD → Valuation τ sig (Elt F) := fun c => StableHlo.after hostOps5_1 (W14 m c)
theorem W15_of (c : Dev nD) (r : Ref sig .tc) (h : r ∉ hostOps5_1_W) : W15 m c r = W14 m c r :=
  StableHlo.after_of_writes_sub hostOps5_1 _ hostOps5_1_writes h

abbrev W16 : Dev nD → Valuation τ sig (Elt F) := fun c => StableHlo.after hostOps5_2 (W15 m c)
theorem W16_of (c : Dev nD) (r : Ref sig .tc) (h : r ∉ hostOps5_2_W) : W16 m c r = W15 m c r :=
  StableHlo.after_of_writes_sub hostOps5_2 _ hostOps5_2_writes h
abbrev E16 : Entry F := fun c b => W16 m c b

def W17 (c : Dev nD) : Valuation τ sig (Elt F) :=
  Pipeline.withArrays spec5 c (W16 m c) fun w => (dat5 (E16 m) c).arrAt w cfg5.N
theorem W17_arr (c : Dev nD) (w : Fin cfg5.W) :
    W17 m c (Proc.devRef .tc (Pipeline.arrRef spec5 w)) = (dat5 (E16 m) c).arrAt w cfg5.N :=
  Pipeline.withArrays_arr spec5 launch5.win.arr_inj c _ _ w
theorem W17_of_ne (c : Dev nD) (b : Ref sig .tc) (hb : ∀ w, Pipeline.arrRef spec5 w ≠ b) :
    W17 m c (Proc.devRef .tc b) = W16 m c (Proc.devRef .tc b) :=
  Pipeline.withArrays_of_ne spec5 c _ _ b hb

abbrev W18 : Dev nD → Valuation τ sig (Elt F) := fun c => StableHlo.after hostOps6 (W17 m c)
theorem W18_of (c : Dev nD) (r : Ref sig .tc) (h : r ∉ hostOps6_W) : W18 m c r = W17 m c r :=
  StableHlo.after_of_writes_sub hostOps6 _ hostOps6_writes h
abbrev E18 : Entry F := fun c b => W18 m c b

def W19 (c : Dev nD) : Valuation τ sig (Elt F) :=
  Pipeline.withArrays spec6 c (W18 m c) fun w => (dat6 (E18 m) c).arrAt w cfg6.N
theorem W19_arr (c : Dev nD) (w : Fin cfg6.W) :
    W19 m c (Proc.devRef .tc (Pipeline.arrRef spec6 w)) = (dat6 (E18 m) c).arrAt w cfg6.N :=
  Pipeline.withArrays_arr spec6 launch6.win.arr_inj c _ _ w
theorem W19_of_ne (c : Dev nD) (b : Ref sig .tc) (hb : ∀ w, Pipeline.arrRef spec6 w ≠ b) :
    W19 m c (Proc.devRef .tc b) = W18 m c (Proc.devRef .tc b) :=
  Pipeline.withArrays_of_ne spec6 c _ _ b hb

abbrev W20 : Dev nD → Valuation τ sig (Elt F) := fun c => StableHlo.after hostOps7 (W19 m c)
theorem W20_of (c : Dev nD) (r : Ref sig .tc) (h : r ∉ hostOps7_W) : W20 m c r = W19 m c r :=
  StableHlo.after_of_writes_sub hostOps7 _ hostOps7_writes h

abbrev W21 : Dev nD → Valuation τ sig (Elt F) := fun c => StableHlo.after hostOps7_1 (W20 m c)
theorem W21_of (c : Dev nD) (r : Ref sig .tc) (h : r ∉ hostOps7_1_W) : W21 m c r = W20 m c r :=
  StableHlo.after_of_writes_sub hostOps7_1 _ hostOps7_1_writes h

abbrev W22 : Dev nD → Valuation τ sig (Elt F) := fun c => StableHlo.after hostOps7_2 (W21 m c)
theorem W22_of (c : Dev nD) (r : Ref sig .tc) (h : r ∉ hostOps7_2_W) : W22 m c r = W21 m c r :=
  StableHlo.after_of_writes_sub hostOps7_2 _ hostOps7_2_writes h
abbrev E22 : Entry F := fun c b => W22 m c b

def W23 (c : Dev nD) : Valuation τ sig (Elt F) :=
  Pipeline.withArrays spec7 c (W22 m c) fun w => (dat7 (E22 m) c).arrAt w cfg7.N
theorem W23_arr (c : Dev nD) (w : Fin cfg7.W) :
    W23 m c (Proc.devRef .tc (Pipeline.arrRef spec7 w)) = (dat7 (E22 m) c).arrAt w cfg7.N :=
  Pipeline.withArrays_arr spec7 launch7.win.arr_inj c _ _ w
theorem W23_of_ne (c : Dev nD) (b : Ref sig .tc) (hb : ∀ w, Pipeline.arrRef spec7 w ≠ b) :
    W23 m c (Proc.devRef .tc b) = W22 m c (Proc.devRef .tc b) :=
  Pipeline.withArrays_of_ne spec7 c _ _ b hb

abbrev W24 : Dev nD → Valuation τ sig (Elt F) := fun c => StableHlo.after hostOps8 (W23 m c)
theorem W24_of (c : Dev nD) (r : Ref sig .tc) (h : r ∉ hostOps8_W) : W24 m c r = W23 m c r :=
  StableHlo.after_of_writes_sub hostOps8 _ hostOps8_writes h

/-- Pipeline `p`'s proof data, at what its region is entered with. -/
def pdats : (p : Fin 8) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E4 m) c
  | ⟨2, _⟩ => fun c => dat2 (E6 m) c
  | ⟨3, _⟩ => fun c => dat3 (E10 m) c
  | ⟨4, _⟩ => fun c => dat4 (E12 m) c
  | ⟨5, _⟩ => fun c => dat5 (E16 m) c
  | ⟨6, _⟩ => fun c => dat6 (E18 m) c
  | ⟨7, _⟩ => fun c => dat7 (E22 m) c

end Cert.Kernel.Hand

end
-- ==== Proof.K.Regs.lean ====
import proofs.«421327_j56599079026905_1_alg».proof.Proof.K.Chain
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The array of no output window holds after the region what it held before. -/
theorem keep_of {cfg : Cfg sig Λ₀} {c : Dev nD} {dat : Dat τ (Elt F) Unit ℕ (UR sig nD τ) ℕ cfg c} {V V' : Valuation τ sig (Elt F)}
    (harr : ∀ w, V' (Pipeline.arrRef cfg.spec w) = dat.arrAt w cfg.N)
    (hne : ∀ b : Ref sig .tc, (∀ w, Pipeline.arrRef cfg.spec w ≠ b) → V' b = V b)
    (hA : ∀ w, dat.A w = V (Pipeline.arrRef cfg.spec w)) (r : Ref sig .tc)
    (h : ∀ w, Pipeline.arrRef cfg.spec w = r → (cfg.win w).isOut = false) : V' r = V r := by
  by_cases hr : ∃ w, Pipeline.arrRef cfg.spec w = r
  · obtain ⟨w, rfl⟩ := hr
    rw [harr, Pipeline.Dat.arrAt_in dat w (h w rfl) cfg.N, hA]
  · exact hne r fun w e => hr ⟨w, e⟩

/-- A region as a segment between the thread states at `V` and at `V'`, which is `V` with the region's arrays at their final contents. -/
def regSeg {p : Fin 8} (lf : Pipeline.LaunchFacts (nD := nD) (τ := τ) cfgs p) (V V' : Dev nD → Valuation τ sig (Elt F))
    (hb : ∀ c, BodyObligation (pdats m p c) (defs₀ (F := F)) 𝒱₀ () Set.univ)
    (hΦ : ∀ c i, (pdats m p c).Φ i = Pipeline.ΦA (cfgs p).spec c) (hq : ∀ c w, (pdats m p c).q w = fullShare)
    (h0 : ∀ c i, (pdats m p c).owed i = 0) (hrec : ∀ c, (pdats m p c).recorded 0 = Set.univ)
    (hA : ∀ c w, (pdats m p c).A w = V c (Pipeline.arrRef (cfgs p).spec w))
    (hV' : ∀ c, V' c = Pipeline.withArrays (cfgs p).spec c (V c) fun w => (pdats m p c).arrAt w (cfgs p).N) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := T V
  post := T V'
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c 0, hrec c]
      icases HO with ⟨%S, HO⟩; iexists S; isplitr; · ipureintro; exact fun _ _ => Or.inl trivial
      iexact HO
    isplitl [Hp]; · iexact Hp
    iexact Hrest
  hin c := by
    rw [hΦ c 0]; unfold Pipeline.ΦA
    iintro ⟨Hp, -, Hr⟩; isplitl [Hr] <;> iassumption
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N)
      (fun w => ((congrFun (hV' c) _).trans (Pipeline.withArrays_arr (cfgs p).spec lf.win.arr_inj c (V c) (fun w => (pdats m p c).arrAt w (cfgs p).N) w)).symm)
      (fun b hb => (congrFun (hV' c) _).trans (Pipeline.withArrays_of_ne (cfgs p).spec c (V c) (fun w => (pdats m p c).arrAt w (cfgs p).N) b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c (Fin.last _)]
    icases HO with ⟨%S, -, HO⟩; iexists S; iexact HO

theorem W2_keep (c : Dev nD) (r : Ref sig .tc)
    (h : ∀ w : Fin cfg0.W, Pipeline.arrRef spec0 w = r → (cfg0.win w).isOut = false) : W2 m c r = W1 m c r :=
  keep_of (W2_arr m c) (W2_of_ne m c) (A_eq0 _ c) r h

def reg0 : Pipeline.RegionSeg (pcfgs (F := F)) adm (pdats m) () defs₀ 𝒱₀ L lv 0 :=
  regSeg m launch0 (W1 m) (W2 m) (body_obligation0 _) (Φ_eq0 _) (q_eq0 _) (owed_eq0 _)
    (fun _ => rfl) (A_eq0 _) fun _ => rfl

theorem W5_keep (c : Dev nD) (r : Ref sig .tc)
    (h : ∀ w : Fin cfg1.W, Pipeline.arrRef spec1 w = r → (cfg1.win w).isOut = false) : W5 m c r = W4 m c r :=
  keep_of (W5_arr m c) (W5_of_ne m c) (A_eq1 _ c) r h

def reg1 : Pipeline.RegionSeg (pcfgs (F := F)) adm (pdats m) () defs₀ 𝒱₀ L lv 1 :=
  regSeg m launch1 (W4 m) (W5 m) (body_obligation1 _) (Φ_eq1 _) (q_eq1 _) (owed_eq1 _)
    (fun _ => rfl) (A_eq1 _) fun _ => rfl

theorem W7_keep (c : Dev nD) (r : Ref sig .tc)
    (h : ∀ w : Fin cfg2.W, Pipeline.arrRef spec2 w = r → (cfg2.win w).isOut = false) : W7 m c r = W6 m c r :=
  keep_of (W7_arr m c) (W7_of_ne m c) (A_eq2 _ c) r h

def reg2 : Pipeline.RegionSeg (pcfgs (F := F)) adm (pdats m) () defs₀ 𝒱₀ L lv 2 :=
  regSeg m launch2 (W6 m) (W7 m) (body_obligation2 _) (Φ_eq2 _) (q_eq2 _) (owed_eq2 _)
    (fun _ => rfl) (A_eq2 _) fun _ => rfl

theorem W11_keep (c : Dev nD) (r : Ref sig .tc)
    (h : ∀ w : Fin cfg3.W, Pipeline.arrRef spec3 w = r → (cfg3.win w).isOut = false) : W11 m c r = W10 m c r :=
  keep_of (W11_arr m c) (W11_of_ne m c) (A_eq3 _ c) r h

def reg3 : Pipeline.RegionSeg (pcfgs (F := F)) adm (pdats m) () defs₀ 𝒱₀ L lv 3 :=
  regSeg m launch3 (W10 m) (W11 m) (body_obligation3 _) (Φ_eq3 _) (q_eq3 _) (owed_eq3 _)
    (fun _ => rfl) (A_eq3 _) fun _ => rfl

theorem W13_keep (c : Dev nD) (r : Ref sig .tc)
    (h : ∀ w : Fin cfg4.W, Pipeline.arrRef spec4 w = r → (cfg4.win w).isOut = false) : W13 m c r = W12 m c r :=
  keep_of (W13_arr m c) (W13_of_ne m c) (A_eq4 _ c) r h

def reg4 : Pipeline.RegionSeg (pcfgs (F := F)) adm (pdats m) () defs₀ 𝒱₀ L lv 4 :=
  regSeg m launch4 (W12 m) (W13 m) (body_obligation4 _) (Φ_eq4 _) (q_eq4 _) (owed_eq4 _)
    (fun _ => rfl) (A_eq4 _) fun _ => rfl

theorem W17_keep (c : Dev nD) (r : Ref sig .tc)
    (h : ∀ w : Fin cfg5.W, Pipeline.arrRef spec5 w = r → (cfg5.win w).isOut = false) : W17 m c r = W16 m c r :=
  keep_of (W17_arr m c) (W17_of_ne m c) (A_eq5 _ c) r h

def reg5 : Pipeline.RegionSeg (pcfgs (F := F)) adm (pdats m) () defs₀ 𝒱₀ L lv 5 :=
  regSeg m launch5 (W16 m) (W17 m) (body_obligation5 _) (Φ_eq5 _) (q_eq5 _) (owed_eq5 _)
    (fun _ => rfl) (A_eq5 _) fun _ => rfl

theorem W19_keep (c : Dev nD) (r : Ref sig .tc)
    (h : ∀ w : Fin cfg6.W, Pipeline.arrRef spec6 w = r → (cfg6.win w).isOut = false) : W19 m c r = W18 m c r :=
  keep_of (W19_arr m c) (W19_of_ne m c) (A_eq6 _ c) r h

def reg6 : Pipeline.RegionSeg (pcfgs (F := F)) adm (pdats m) () defs₀ 𝒱₀ L lv 6 :=
  regSeg m launch6 (W18 m) (W19 m) (body_obligation6 _) (Φ_eq6 _) (q_eq6 _) (owed_eq6 _)
    (fun _ => rfl) (A_eq6 _) fun _ => rfl

theorem W23_keep (c : Dev nD) (r : Ref sig .tc)
    (h : ∀ w : Fin cfg7.W, Pipeline.arrRef spec7 w = r → (cfg7.win w).isOut = false) : W23 m c r = W22 m c r :=
  keep_of (W23_arr m c) (W23_of_ne m c) (A_eq7 _ c) r h

def reg7 : Pipeline.RegionSeg (pcfgs (F := F)) adm (pdats m) () defs₀ 𝒱₀ L lv 7 :=
  regSeg m launch7 (W22 m) (W23 m) (body_obligation7 _) (Φ_eq7 _) (q_eq7 _) (owed_eq7 _)
    (fun _ => rfl) (A_eq7 _) fun _ => rfl

end Cert.Kernel.Hand

end
-- ==== Proof.K.RunTab.lean ====
import proofs.«421327_j56599079026905_1_alg».proof.Proof.K.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)),
    .host (hseg hostOps3_1 hostOps3_1_sub hostOps3_1_fresh (W8 m)),
    .host (hseg hostOps3_2 hostOps3_2_sub hostOps3_2_fresh (W9 m)),
    .region (reg3 m),
    .host (hseg hostOps4 hostOps4_sub hostOps4_fresh (W11 m)),
    .region (reg4 m),
    .host (hseg hostOps5 hostOps5_sub hostOps5_fresh (W13 m)),
    .host (hseg hostOps5_1 hostOps5_1_sub hostOps5_1_fresh (W14 m)),
    .host (hseg hostOps5_2 hostOps5_2_sub hostOps5_2_fresh (W15 m)),
    .region (reg5 m),
    .host (hseg hostOps6 hostOps6_sub hostOps6_fresh (W17 m)),
    .region (reg6 m),
    .host (hseg hostOps7 hostOps7_sub hostOps7_fresh (W19 m)),
    .host (hseg hostOps7_1 hostOps7_1_sub hostOps7_1_fresh (W20 m)),
    .host (hseg hostOps7_2 hostOps7_2_sub hostOps7_2_fresh (W21 m)),
    .region (reg7 m),
    .host (hseg hostOps8 hostOps8_sub hostOps8_fresh (W23 m)) ]

theorem segs_prog : (segs m).map Pipeline.Seg.prog = [
    StableHlo.seq hostOps0,
    Prog.lift (.customCall (Pipeline.entry 0) ()),
    StableHlo.seq hostOps1,
    StableHlo.seq hostOps1_1,
    Prog.lift (.customCall (Pipeline.entry 1) ()),
    StableHlo.seq hostOps2,
    Prog.lift (.customCall (Pipeline.entry 2) ()),
    StableHlo.seq hostOps3,
    StableHlo.seq hostOps3_1,
    StableHlo.seq hostOps3_2,
    Prog.lift (.customCall (Pipeline.entry 3) ()),
    StableHlo.seq hostOps4,
    Prog.lift (.customCall (Pipeline.entry 4) ()),
    StableHlo.seq hostOps5,
    StableHlo.seq hostOps5_1,
    StableHlo.seq hostOps5_2,
    Prog.lift (.customCall (Pipeline.entry 5) ()),
    StableHlo.seq hostOps6,
    Prog.lift (.customCall (Pipeline.entry 6) ()),
    StableHlo.seq hostOps7,
    StableHlo.seq hostOps7_1,
    StableHlo.seq hostOps7_2,
    Prog.lift (.customCall (Pipeline.entry 7) ()),
    StableHlo.seq hostOps8 ] := rfl

theorem segs_nodup : (Pipeline.Seg.pipes (segs m)).Nodup := by
  simp only [segs, Pipeline.Seg.pipes_host, Pipeline.Seg.pipes_region, Pipeline.Seg.pipes_nil]; decide

/-- No output window of the pipeline has `r` as its array. -/
def NoOut (cfg : Cfg sig Λ₀) (r : Ref sig .tc) : Prop := ∀ w, Pipeline.arrRef cfg.spec w = r → (cfg.win w).isOut = false
instance (cfg : Cfg sig Λ₀) (r : Ref sig .tc) : Decidable (NoOut cfg r) := by unfold NoOut; infer_instance

/-- No item of @main changes `r`: it is in no host stretch's write set and is no output window's array. -/
abbrev Unwritten (r : Ref sig .tc) : Prop :=
  r ∉ hostOps0_W ∧ NoOut cfg0 r ∧ r ∉ hostOps1_W ∧ r ∉ hostOps1_1_W ∧ NoOut cfg1 r ∧ r ∉ hostOps2_W ∧ NoOut cfg2 r ∧ r ∉ hostOps3_W ∧ r ∉ hostOps3_1_W ∧ r ∉ hostOps3_2_W ∧ NoOut cfg3 r ∧ r ∉ hostOps4_W ∧ NoOut cfg4 r ∧ r ∉ hostOps5_W ∧ r ∉ hostOps5_1_W ∧ r ∉ hostOps5_2_W ∧ NoOut cfg5 r ∧ r ∉ hostOps6_W ∧ NoOut cfg6 r ∧ r ∉ hostOps7_W ∧ r ∉ hostOps7_1_W ∧ r ∉ hostOps7_2_W ∧ NoOut cfg7 r ∧ r ∉ hostOps8_W

/-- Such a buffer ends as launched: item by item its contents stay what they were. -/
theorem W24_unwritten (c : Dev nD) (r : Ref sig .tc) (h : Unwritten r) : W24 m c r = m ((c : Thread nD τ).loc r) := by
  obtain ⟨h0, h1, h2, h3, h4, h5, h6, h7, h8, h9, h10, h11, h12, h13, h14, h15, h16, h17, h18, h19, h20, h21, h22, h23⟩ := h
  exact (W24_of m c r h23).trans <| (W23_keep m c r h22).trans <| (W22_of m c r h21).trans <| (W21_of m c r h20).trans <| (W20_of m c r h19).trans <| (W19_keep m c r h18).trans <| (W18_of m c r h17).trans <| (W17_keep m c r h16).trans <| (W16_of m c r h15).trans <| (W15_of m c r h14).trans <| (W14_of m c r h13).trans <| (W13_keep m c r h12).trans <| (W12_of m c r h11).trans <| (W11_keep m c r h10).trans <| (W10_of m c r h9).trans <| (W9_of m c r h8).trans <| (W8_of m c r h7).trans <| (W7_keep m c r h6).trans <| (W6_of m c r h5).trans <| (W5_keep m c r h4).trans <| (W4_of m c r h3).trans <| (W3_of m c r h2).trans <| (W2_keep m c r h1).trans <| (W1_of m c r h0)

end Cert.Kernel.Hand

end
-- ==== Proof.K.Run.lean ====
import proofs.«421327_j56599079026905_1_alg».proof.Proof.K.RunTab

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The generator register is dropped at the end; the debt, nothing, stays. -/
theorem R_owes (c : Dev nD) : (R (F := F) c) ⊢ iprop(∃ W, owes (c : Thread nD τ) (0 : CellTallies nD τ sig Unit) W) := by
  iintro ⟨-, HO⟩; iexact HO

set_option backward.isDefEq.respectTransparency.types false in
/-- Every weakly fair execution of @main terminates with each unscoped buffer at the last boundary's contents. -/
theorem run_all (ρ : Dev nD → PrngReg) :
    θ_run (defs (F := F)) (onTc (τ := τ) (main (F := F))) ⟨m, fun _ => 0, ρ⟩
      (fun r => ∀ c : Dev nD, ∀ b ∈ Pipeline.ucRefs τ sig, r.2.mem ((c : Thread nD τ).1, b) = W24 m c b) :=
  Pipeline.θ_run_regions_kit (pcfgs (F := F)) adm (pdats m) () cellOf_inj emb₁ defs₀ 𝒱₀ L lv m ρ main (segs m)
    (fun c Q => by
      rewrite [main_chain c, Pipeline.Seg.run_eq_chain, segs_prog m]
      exact .rfl)
    (segs_nodup m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := fun c => StableHlo.held (c : Thread nD τ) (Pipeline.ucRefs τ sig) (W24 m c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m c b)
    (hfin := fun c s' => by
      iintro ⟨Hh, HSI⟩
      unfold StableHlo.held
      imodintro
      iapply (pointsTo_read_all (Pipeline.ucRefs τ sig) (fun b => (((c : Thread nD τ)).1, b)) (W24 m c) s')
      isplitl [Hh] <;> iassumption)
    (hQ := fun s h => h)

/-- The run read at the result and at each argument: an argument is held to the end and no item writes it. -/
theorem run_result (ρ : Dev nD → PrngReg) :
    θ_run (defs (F := F)) (onTc (τ := τ) (main (F := F))) ⟨m, fun _ => 0, ρ⟩ (fun r => ∀ c : Dev nD,
      r.2.mem ((c.tc : Thread nD τ).loc main_v132) = W24 m c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  OrdCont.mono (θ_run (defs (F := F)) (onTc (τ := τ) (main (F := F))) ⟨m, fun _ => 0, ρ⟩)
    (fun r h c =>
      have k : ∀ a : Ref sig .tc, ¬ (Proc.devRef .tc a : DevRef τ sig).isScoped → Unwritten a →
          r.2.mem ((c.tc : Thread nD τ).loc a) = m ((c.tc : Thread nD τ).loc a) :=
        fun a hs hu => (h c _ (mem_uc a hs)).trans (W24_unwritten m c a hu)
      ⟨h c _ (mem_uc main_v132 (by decide)), k main_arg0 (by decide) (by decide),
        k main_arg1 (by decide) (by decide),
        k main_arg2 (by decide) (by decide),
        k main_arg3 (by decide) (by decide),
        k main_arg4 (by decide) (by decide),
        k main_arg5 (by decide) (by decide),
        k main_arg6 (by decide) (by decide),
        k main_arg7 (by decide) (by decide),
        k main_arg8 (by decide) (by decide),
        k main_arg9 (by decide) (by decide),
        k main_arg10 (by decide) (by decide),
        k main_arg11 (by decide) (by decide),
        k main_arg12 (by decide) (by decide)⟩)
    (run_all m ρ)

theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  OrdCont.mono (θ_run (defs (F := F)) (onTc (τ := τ) (main (F := F))) ⟨m, fun _ => 0, ρ⟩)
    (fun r h c => (h c).2) (run_result m ρ)

end Cert.Kernel.Hand

end
-- ==== Proof.KI.Base.lean ====
import proofs.«421327_j56599079026905_1_alg».proof.Proof.Gen.KernelIdeal.Launch

noncomputable section

namespace Cert.KernelIdeal.Hand

open Cert.KernelIdeal
open Idealize.ShloMosaic Idealize.ShloMosaic.TcCoe Idealize.SL.Sem

/-- What the buffers hold when a region is entered: the parameter every region's proof data are stated at. -/
abbrev Entry (F : FTy → Type) := (c : Dev nD) → (b : Ref sig .tc) → Buf (Elt F) ((c : Thread nD τ).loc b)

end Cert.KernelIdeal.Hand

end
-- ==== Proof.KI.Reg0.lean ====
import proofs.«421327_j56599079026905_1_alg».proof.Proof.KI.Base
import proofs.«421327_j56599079026905_1_alg».proof.Proof.Gen.KernelIdeal.Skeleton
import proofs.«421327_j56599079026905_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0

variable (V : Entry F)

/-- Window `w`'s block at point `t` of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

/-- What the body stores: x·Wt + bt of the three blocks it loads, over the whole block. -/
def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

set_option maxHeartbeats 1000000 in
/-- The body, run on whole memrefs holding `x0 x1 x2`, leaves them as they were and the output at `out0_3` of them. -/
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ fun y => View.cover_of_tiled _ S5000x64.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Φ_eq0 (c : Dev nD) (i : Fin (cfg0.N + 1)) : (dat0 V c).Φ i = Pipeline.ΦA spec0 c := by
  dsimp only [dat0]
theorem q_eq0 (c : Dev nD) (w : Fin cfg0.W) : (dat0 V c).q w = fullShare := by
  dsimp only [dat0]
theorem owed_eq0 (c : Dev nD) (i : Fin (cfg0.N + 1)) : (dat0 V c).owed i = 0 := by
  dsimp only [dat0]

theorem after0_3 (c : Dev nD) (t : Fin cfg0.N) : (dat0 V c).after 3 t = out0_3 (iblk0 V c 0 t) (iblk0 V c 1 t) (iblk0 V c 2 t) := by dsimp only [dat0]

/-- The body leaves every input window's block in place, and the window holds it at every point. -/
theorem inputs0 (c : Dev nD) (t : Fin cfg0.N) :
    ((dat0 V c).after 0 t = iblk0 V c 0 t ∧ ∀ d, (dat0 V c).before 0 t d = iblk0 V c 0 t)
    ∧ ((dat0 V c).after 1 t = iblk0 V c 1 t ∧ ∀ d, (dat0 V c).before 1 t d = iblk0 V c 1 t)
    ∧ ((dat0 V c).after 2 t = iblk0 V c 2 t ∧ ∀ d, (dat0 V c).before 2 t d = iblk0 V c 2 t) := by
  refine ⟨?_, ?_, ?_⟩ <;>
  exact ⟨by dsimp only [dat0], fun d => ((dat0 V c).before_in_eq_fetched _ rfl (fun _ => rfl) (fun _ _ _ => rfl)
    (fun t => by dsimp only [dat0, Dat.blockOf, iblk0]) t d).trans (by dsimp only [dat0, Dat.fetched, Dat.blockOf, iblk0]; rfl)⟩

/-- The body at any point: the inputs hold their blocks, so the kernel's triple applies; the rest passes through unread. -/
theorem body_obligation0 (c : Dev nD) : BodyObligation (dat0 (F := F) V c) (defs₀ (F := F)) Variants.none () Set.univ := fun t => by
  rw [bigSep_W0, bigSep_W0]
  obtain ⟨⟨a0, b0⟩, ⟨a1, b1⟩, a2, b2⟩ := inputs0 V c t
  simp only [b0, b1, b2, a0, a1, a2, after0_3, Φ_eq0]
  rw [show (dat0 V c).owesAt () t.succ = (dat0 V c).owesAt () t.castSucc from rfl]
  show _ ⊢ wp _ _ _ (bodyAt0 t) _
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro H
  iframe

end Region0

end Cert.KernelIdeal.Hand

end
-- ==== Proof.KI.Reg1RunA.lean ====
import proofs.«421327_j56599079026905_1_alg».proof.Proof.KI.Base
import proofs.«421327_j56599079026905_1_alg».proof.Proof.Gen.KernelIdeal.Skeleton
import proofs.«421327_j56599079026905_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev VO1_6 : View sig .tc .vmem S5000x64 .f32 := (Memref.whole cc1_stg6_0 : Memref sig .tc .vmem S5000x64 .f32).view
abbrev VO1_7 : View sig .tc .vmem S512x64 .f32 := (Memref.whole cc1_stg7_0 : Memref sig .tc .vmem S512x64 .f32).view

abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x1 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S5000x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x64 .f32 := win1_7.stage (cfg1.slots t 7)
abbrev hs1_7 (t : Fin cfg1.N) : (ms1_7 t).IsWhole := hstage1_7 ((cfg1.slots t 7).cast nbuf1_7)

set_option maxHeartbeats 1000000 in

noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : cond1_0 i)
    (x0 : Vec F S5000x64 .f32) (x1 x2 x3 x4 : Vec F S1x64 .f32) (x5 : Vec F S5000x1 .i32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__bn_pool_kernel i arg1 harg1 arg2 harg2 arg3 harg3 arg4 harg4 arg5 harg5 arg6 harg6 arg7 harg7 arg8 harg8) K } := by
  refine ⟨?_, ?_, fun E K => ?run⟩
  case run =>
    simp only [cc1__bn_pool_kernel_eq_skeleton]; unfold cc1__bn_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.KI.Reg1RunB.lean ====
import proofs.«421327_j56599079026905_1_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : ¬cond1_0 i)
    (x0 : Vec F S5000x64 .f32) (x1 x2 x3 x4 : Vec F S1x64 .f32) (x5 : Vec F S5000x1 .i32) (xo7 : Vec F S512x64 .f32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc1__bn_pool_kernel i arg1 harg1 arg2 harg2 arg3 harg3 arg4 harg4 arg5 harg5 arg6 harg6 arg7 harg7 arg8 harg8) K } := by
  refine ⟨?_, ?_, fun E K => ?run⟩
  case run =>
    simp only [cc1__bn_pool_kernel_eq_skeleton]; unfold cc1__bn_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.KI.Reg1.lean ====
import proofs.«421327_j56599079026905_1_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section
variable (c : Dev nD) (t : Fin cfg1.N) (x0 : Vec F S5000x64 .f32) (x1 x2 x3 x4 : Vec F S1x64 .f32) (x5 : Vec F S5000x1 .i32)
  (xo7 : Vec F S512x64 .f32)

/-- The body's run at point `t`: when `t` opens a group of ten points, -/
abbrev run1_A (h0 : t.val % 10 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) x0 x1 x2 x3 x4 x5
/-- and when it does not (the pool block is then found at `xo7`). -/
abbrev run1_B (h0 : ¬t.val % 10 = 0) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) x0 x1 x2 x3 x4 x5 xo7

theorem cover1_A_6 (h0 : t.val % 10 = 0) (y : S5000x64.Idx) : ∃ pc ∈ (run1_A c t x0 x1 x2 x3 x4 x5 h0).1, y ∈ pc.1.set :=
  View.cover_of_tiledL (run1_A c t x0 x1 x2 x3 x4 x5 h0).1 S5000x64.size (by sl_kernel_rfl) y
theorem cover1_A_7 (h0 : t.val % 10 = 0) (y : S512x64.Idx) : ∃ pc ∈ (run1_A c t x0 x1 x2 x3 x4 x5 h0).2.1, y ∈ pc.1.set :=
  View.cover_of_tiledL (run1_A c t x0 x1 x2 x3 x4 x5 h0).2.1 S512x64.size (by sl_kernel_rfl) y
theorem cover1_B_6 (h0 : ¬t.val % 10 = 0) (y : S5000x64.Idx) : ∃ pc ∈ (run1_B c t x0 x1 x2 x3 x4 x5 xo7 h0).1, y ∈ pc.1.set :=
  View.cover_of_tiledL (run1_B c t x0 x1 x2 x3 x4 x5 xo7 h0).1 S5000x64.size (by sl_kernel_rfl) y
theorem cover1_B_7 (h0 : ¬t.val % 10 = 0) (y : S512x64.Idx) : ∃ pc ∈ (run1_B c t x0 x1 x2 x3 x4 x5 xo7 h0).2.1, y ∈ pc.1.set :=
  View.cover_of_tiledL (run1_B c t x0 x1 x2 x3 x4 x5 xo7 h0).2.1 S512x64.size (by sl_kernel_rfl) y

/-- What a point leaves of each output block: the run's pieces read back. -/
def out1_A_6 (h0 : t.val % 10 = 0) : Vec F S5000x64 .f32 := VO1_6.read (Elt F) (VO1_6.writes (Elt F) VO1_6.junk (run1_A c t x0 x1 x2 x3 x4 x5 h0).1)
def out1_A_7 (h0 : t.val % 10 = 0) : Vec F S512x64 .f32 := VO1_7.read (Elt F) (VO1_7.writes (Elt F) VO1_7.junk (run1_A c t x0 x1 x2 x3 x4 x5 h0).2.1)
def out1_B_6 (h0 : ¬t.val % 10 = 0) : Vec F S5000x64 .f32 := VO1_6.read (Elt F) (VO1_6.writes (Elt F) VO1_6.junk (run1_B c t x0 x1 x2 x3 x4 x5 xo7 h0).1)
def out1_B_7 (h0 : ¬t.val % 10 = 0) : Vec F S512x64 .f32 := VO1_7.read (Elt F) (VO1_7.writes (Elt F) VO1_7.junk (run1_B c t x0 x1 x2 x3 x4 x5 xo7 h0).2.1)

end

/-- The two output blocks after the body at position `n`: the pool block accumulates over what the point before left, and
    starts afresh at the first point. -/
def outsAt1 (c : Dev nD) : (n : ℕ) → n < cfg1.N → Vec F S5000x64 .f32 × Vec F S512x64 .f32
  | 0, hn => (out1_A_6 c ⟨0, hn⟩ (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (Nat.zero_mod _), out1_A_7 c ⟨0, hn⟩ (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (Nat.zero_mod _))
  | n + 1, hn =>
    if h0 : (n + 1) % 10 = 0 then
      (out1_A_6 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) h0, out1_A_7 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) h0)
    else
      (out1_B_6 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2 h0,
       out1_B_7 c ⟨n + 1, hn⟩ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2 h0)

theorem outsAt1_A (c : Dev nD) (t : Fin cfg1.N) (h0 : t.val % 10 = 0) :
    outsAt1 V c t.val t.isLt = (out1_A_6 c t (iblk1 V c 0 t) (iblk1 V c 1 t) (iblk1 V c 2 t) (iblk1 V c 3 t) (iblk1 V c 4 t) (iblk1 V c 5 t) h0, out1_A_7 c t (iblk1 V c 0 t) (iblk1 V c 1 t) (iblk1 V c 2 t) (iblk1 V c 3 t) (iblk1 V c 4 t) (iblk1 V c 5 t) h0) := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt =
      (out1_B_6 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0,
       out1_B_7 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt1_A_6 (c : Dev nD) (t : Fin cfg1.N) (h0 : t.val % 10 = 0) :
    (outsAt1 V c t.val t.isLt).1 = out1_A_6 c t (iblk1 V c 0 t) (iblk1 V c 1 t) (iblk1 V c 2 t) (iblk1 V c 3 t) (iblk1 V c 4 t) (iblk1 V c 5 t) h0 := fst_of_eq_mk (outsAt1_A V c t h0)
theorem outsAt1_A_7 (c : Dev nD) (t : Fin cfg1.N) (h0 : t.val % 10 = 0) :
    (outsAt1 V c t.val t.isLt).2 = out1_A_7 c t (iblk1 V c 0 t) (iblk1 V c 1 t) (iblk1 V c 2 t) (iblk1 V c 3 t) (iblk1 V c 4 t) (iblk1 V c 5 t) h0 := snd_of_eq_mk (outsAt1_A V c t h0)
theorem outsAt1_B_6 (c : Dev nD) (t : Fin cfg1.N) (h0 : ¬t.val % 10 = 0) :
    (outsAt1 V c t.val t.isLt).1
      = out1_B_6 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0 :=
  fst_of_eq_mk (outsAt1_B V c t h0)
theorem outsAt1_B_7 (c : Dev nD) (t : Fin cfg1.N) (h0 : ¬t.val % 10 = 0) :
    (outsAt1 V c t.val t.isLt).2
      = out1_B_7 c t (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2 h0 :=
  snd_of_eq_mk (outsAt1_B V c t h0)

/-- The region's proof data entered at `V`: the arrays as found, every input at its block after each point and the two
    outputs at `outsAt1`; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem Φ_eq1 (c : Dev nD) (i : Fin (cfg1.N + 1)) : (dat1 V c).Φ i = Pipeline.ΦA spec1 c := by
  dsimp only [dat1]
theorem q_eq1 (c : Dev nD) (w : Fin cfg1.W) : (dat1 V c).q w = fullShare := by
  dsimp only [dat1]
theorem owed_eq1 (c : Dev nD) (i : Fin (cfg1.N + 1)) : (dat1 V c).owed i = 0 := by
  dsimp only [dat1]

theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- The body leaves every input window's block in place, and the window holds it at every point. -/
theorem inputs1 (c : Dev nD) (t : Fin cfg1.N) :
    ((dat1 V c).after 0 t = iblk1 V c 0 t ∧ ∀ d, (dat1 V c).before 0 t d = iblk1 V c 0 t)
    ∧ ((dat1 V c).after 1 t = iblk1 V c 1 t ∧ ∀ d, (dat1 V c).before 1 t d = iblk1 V c 1 t)
    ∧ ((dat1 V c).after 2 t = iblk1 V c 2 t ∧ ∀ d, (dat1 V c).before 2 t d = iblk1 V c 2 t)
    ∧ ((dat1 V c).after 3 t = iblk1 V c 3 t ∧ ∀ d, (dat1 V c).before 3 t d = iblk1 V c 3 t)
    ∧ ((dat1 V c).after 4 t = iblk1 V c 4 t ∧ ∀ d, (dat1 V c).before 4 t d = iblk1 V c 4 t)
    ∧ ((dat1 V c).after 5 t = iblk1 V c 5 t ∧ ∀ d, (dat1 V c).before 5 t d = iblk1 V c 5 t) := by
  refine ⟨?_, ?_, ?_, ?_, ?_, ?_⟩ <;>
  exact ⟨by dsimp only [dat1], fun d => ((dat1 V c).before_in_eq_fetched _ rfl (fun _ => rfl) (fun _ _ _ => rfl)
    (fun t => by dsimp only [dat1, Dat.blockOf, iblk1]) t d).trans (by dsimp only [dat1, Dat.fetched, Dat.blockOf, iblk1]; rfl)⟩

/-- Past the first point the pool block is found at what the point before left. -/
theorem before1_7_B (c : Dev nD) (t : Fin cfg1.N) (h0 : ¬t.val % 10 = 0) (d) :
    (dat1 V c).before 7 t d = (outsAt1 V c (t.val - 1) (Nat.lt_of_le_of_lt (Nat.sub_le _ _) t.isLt)).2 := by
  have hN : t.val < 10 := lt_of_lt_of_eq t.isLt (show cfg1.N = 10 from N_1)
  rw [Dat.before_out_kept _ 7 rfl t (by omega) (Bool.eq_false_iff.mpr fun h => by have := (flush1_7 _).mp h; dsimp only at this; omega)
    (fun _ => rfl) (fun _ _ => rfl)]
  dsimp only [dat1]

set_option maxHeartbeats 1600000 in
/-- The body at any point: the inputs are at their blocks, the point's case decides which run applies, and each output's
    pieces cover its block, so they read back the same through any whole view. -/
theorem body_obligation1 (c : Dev nD) : BodyObligation (dat1 (F := F) V c) (defs₀ (F := F)) Variants.none () Set.univ := fun t => by
  rw [bigSep_W1, bigSep_W1]
  obtain ⟨⟨a0, b0⟩, ⟨a1, b1⟩, ⟨a2, b2⟩, ⟨a3, b3⟩, ⟨a4, b4⟩, a5, b5⟩ := inputs1 V c t
  simp only [b0, b1, b2, b3, b4, b5, a0, a1, a2, a3, a4, a5, after1_6, after1_7, Φ_eq1]
  rw [show (dat1 V c).owesAt () t.succ = (dat1 V c).owesAt () t.castSucc from rfl]
  show _ ⊢ wp _ _ _ (bodyAt1 t) _
  unfold bodyAt1
  by_cases h0 : t.val % 10 = 0
  · rw [outsAt1_A_6 V c t h0, outsAt1_A_7 V c t h0]
    unfold out1_A_6 out1_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1_A c t (iblk1 V c 0 t) (iblk1 V c 1 t) (iblk1 V c 2 t) (iblk1 V c 3 t) (iblk1 V c 4 t) (iblk1 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover1_A_6 c t _ _ _ _ _ _ h0)
    unfold owns; iexists _; isplitr
    swap; · iexact H7
    ipureintro; exact View.read_writes_of_cover _ _ _ _ _ (cover1_A_7 c t _ _ _ _ _ _ h0)
  · rw [outsAt1_B_6 V c t h0, outsAt1_B_7 V c t h0]
    simp only [before1_7_B V c t h0]
    unfold out1_B_6 out1_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run1_B c t (iblk1 V c 0 t) (iblk1 V c 1 t) (iblk1 V c 2 t) (iblk1 V c 3 t) (iblk1 V c 4 t) (iblk1 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover1_B_6 c t _ _ _ _ _ _ _ h0)
    unfold owns; iexists _; isplitr
    swap; · iexact H7
    ipureintro; exact View.read_writes_of_cover _ _ _ _ _ (cover1_B_7 c t _ _ _ _ _ _ _ h0)

end

end Cert.KernelIdeal.Hand

end
-- ==== Proof.KI.Reg2.lean ====
import proofs.«421327_j56599079026905_1_alg».proof.Proof.KI.Base
import proofs.«421327_j56599079026905_1_alg».proof.Proof.Gen.KernelIdeal.Skeleton
import proofs.«421327_j56599079026905_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region

variable (V : Entry F)

/-- Window `w`'s block at point `t` of the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S5000x64 := Rect.unit (s := S5000x64) ![0, 0] S5000x64.size inb_S5000x64_S5000x64_0_0
abbrev r2_b : Rect S64x64 := Rect.unit (s := S64x64) ![0, 0] S64x64.size inb_S64x64_S64x64_0_0
abbrev r2_c : Rect S1x64 := Rect.unit (s := S1x64) ![0, 0] S1x64.size inb_S1x64_S1x64_0_0

/-- What the body stores: the perceptron of the six blocks it loads, over the whole block. -/
def out2_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r2_a, k2_pay1 (View.ld x0 r2_a) (View.ld x1 r2_a) (View.ld x2 r2_b) (View.ld x3 r2_c) (View.ld x4 r2_b) (View.ld x5 r2_c)⟩]

set_option maxHeartbeats 1000000 in
/-- The body, run on whole memrefs holding `x0 … x5`, leaves them as they were and the output at `out2_6` of them. -/
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__mlp_kernel i arg1 harg1 arg2 harg2 arg3 harg3 arg4 harg4 arg5 harg5 arg6 harg6 arg7 harg7) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => View.cover_of_tiled _ S5000x64.size (by rfl) y

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem Φ_eq2 (c : Dev nD) (i : Fin (cfg2.N + 1)) : (dat2 V c).Φ i = Pipeline.ΦA spec2 c := by
  dsimp only [dat2]
theorem q_eq2 (c : Dev nD) (w : Fin cfg2.W) : (dat2 V c).q w = fullShare := by
  dsimp only [dat2]
theorem owed_eq2 (c : Dev nD) (i : Fin (cfg2.N + 1)) : (dat2 V c).owed i = 0 := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- The body leaves every input window's block in place, and the window holds it at every point. -/
theorem inputs2 (c : Dev nD) (t : Fin cfg2.N) :
    ((dat2 V c).after 0 t = iblk2 V c 0 t ∧ ∀ d, (dat2 V c).before 0 t d = iblk2 V c 0 t)
    ∧ ((dat2 V c).after 1 t = iblk2 V c 1 t ∧ ∀ d, (dat2 V c).before 1 t d = iblk2 V c 1 t)
    ∧ ((dat2 V c).after 2 t = iblk2 V c 2 t ∧ ∀ d, (dat2 V c).before 2 t d = iblk2 V c 2 t)
    ∧ ((dat2 V c).after 3 t = iblk2 V c 3 t ∧ ∀ d, (dat2 V c).before 3 t d = iblk2 V c 3 t)
    ∧ ((dat2 V c).after 4 t = iblk2 V c 4 t ∧ ∀ d, (dat2 V c).before 4 t d = iblk2 V c 4 t)
    ∧ ((dat2 V c).after 5 t = iblk2 V c 5 t ∧ ∀ d, (dat2 V c).before 5 t d = iblk2 V c 5 t) := by
  refine ⟨?_, ?_, ?_, ?_, ?_, ?_⟩ <;>
  exact ⟨by dsimp only [dat2], fun d => ((dat2 V c).before_in_eq_fetched _ rfl (fun _ => rfl) (fun _ _ _ => rfl)
    (fun t => by dsimp only [dat2, Dat.blockOf, iblk2]) t d).trans (by dsimp only [dat2, Dat.fetched, Dat.blockOf, iblk2]; rfl)⟩

/-- The body at any point: the inputs hold their blocks, so the kernel's triple applies; the rest passes through unread. -/
theorem body_obligation2 (c : Dev nD) : BodyObligation (dat2 (F := F) V c) (defs₀ (F := F)) Variants.none () Set.univ := fun t => by
  rw [bigSep_W2, bigSep_W2]
  obtain ⟨⟨a0, b0⟩, ⟨a1, b1⟩, ⟨a2, b2⟩, ⟨a3, b3⟩, ⟨a4, b4⟩, a5, b5⟩ := inputs2 V c t
  simp only [b0, b1, b2, b3, b4, b5, a0, a1, a2, a3, a4, a5, after2_6, Φ_eq2]
  rw [show (dat2 V c).owesAt () t.succ = (dat2 V c).owesAt () t.castSucc from rfl]
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro H
  iframe

end Region

end Cert.KernelIdeal.Hand

end
-- ==== Proof.KI.Reg3RunA.lean ====
import proofs.«421327_j56599079026905_1_alg».proof.Proof.KI.Base
import proofs.«421327_j56599079026905_1_alg».proof.Proof.Gen.KernelIdeal.Skeleton
import proofs.«421327_j56599079026905_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond3_0 (i : grid3.Coords) : Prop := (Scalar.cmpi .ne (Scalar.extui (Scalar.cmpi .eq (BitVec.ofNat 32 (i 0).val) 0#32)) 0#32) = 1#1

theorem hcond3_0 : ∀ t : Fin cfg3.N, cond3_0 (grid3.coords t) ↔ t.val % 10 = 0 :=
  (by decide +kernel : ∀ t : Fin grid3.N, cond3_0 (grid3.coords t) ↔ t.val % 10 = 0)

abbrev VO3_6 : View sig .tc .vmem S5000x64 .f32 := (Memref.whole cc3_stg6_0 : Memref sig .tc .vmem S5000x64 .f32).view
abbrev VO3_7 : View sig .tc .vmem S512x64 .f32 := (Memref.whole cc3_stg7_0 : Memref sig .tc .vmem S512x64 .f32).view

abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S5000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S5000x64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S512x64 .f32 := win3_7.stage (cfg3.slots t 7)
abbrev hs3_7 (t : Fin cfg3.N) : (ms3_7 t).IsWhole := hstage3_7 ((cfg3.slots t 7).cast nbuf3_7)

set_option maxHeartbeats 1000000 in

noncomputable def kernelRun3_A (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : cond3_0 i)
    (x0 : Vec F S5000x64 .f32) (x1 x2 x3 x4 : Vec F S1x64 .f32) (x5 : Vec F S5000x1 .i32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc3__bn_pool_kernel i arg1 harg1 arg2 harg2 arg3 harg3 arg4 harg4 arg5 harg5 arg6 harg6 arg7 harg7 arg8 harg8) K } := by
  refine ⟨?_, ?_, fun E K => ?run⟩
  case run =>
    simp only [cc3__bn_pool_kernel_eq_skeleton]; unfold cc3__bn_pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.KI.Reg3RunB.lean ====
import proofs.«421327_j56599079026905_1_alg».proof.Proof.KI.Reg3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun3_B (c : Dev nD) (i : grid3.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x1 .i32) (harg6 : arg6.IsWhole) (arg7 : Memref sig .tc .vmem S5000x64 .f32) (harg7 : arg7.IsWhole) (arg8 : Memref sig .tc .vmem S512x64 .f32) (harg8 : arg8.IsWhole) (hc0 : ¬cond3_0 i)
    (x0 : Vec F S5000x64 .f32) (x1 x2 x3 x4 : Vec F S1x64 .f32) (x5 : Vec F S5000x1 .i32) (xo7 : Vec F S512x64 .f32) :
    Σ' (L6 : List (View.Piece (Elt F) S5000x64 .f32)), { L7 : List (View.Piece (Elt F) S512x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)) -∗ K ⟨⟩))
          ⊢ wp frame (wpE (defs₀ (F := F)) Variants.none c none) E (cc3__bn_pool_kernel i arg1 harg1 arg2 harg2 arg3 harg3 arg4 harg4 arg5 harg5 arg6 harg6 arg7 harg7 arg8 harg8) K } := by
  refine ⟨?_, ?_, fun E K => ?run⟩
  case run =>
    simp only [cc3__bn_pool_kernel_eq_skeleton]; unfold cc3__bn_pool_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

end Cert.KernelIdeal.Hand

end
-- ==== Proof.KI.Reg3.lean ====
import proofs.«421327_j56599079026905_1_alg».proof.Proof.KI.Reg3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

section
variable (c : Dev nD) (t : Fin cfg3.N) (x0 : Vec F S5000x64 .f32) (x1 x2 x3 x4 : Vec F S1x64 .f32) (x5 : Vec F S5000x1 .i32)
  (xo7 : Vec F S512x64 .f32)

/-- The body's run at point `t`: when `t` opens a group of ten points, -/
abbrev run3_A (h0 : t.val % 10 = 0) :=
  kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) x0 x1 x2 x3 x4 x5
/-- and when it does not (the pool block is then found at `xo7`). -/
abbrev run3_B (h0 : ¬t.val % 10 = 0) :=
  kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) x0 x1 x2 x3 x4 x5 xo7

theorem cover3_A_6 (h0 : t.val % 10 = 0) (y : S5000x64.Idx) : ∃ pc ∈ (run3_A c t x0 x1 x2 x3 x4 x5 h0).1, y ∈ pc.1.set :=
  View.cover_of_tiledL (run3_A c t x0 x1 x2 x3 x4 x5 h0).1 S5000x64.size (by sl_kernel_rfl) y
theorem cover3_A_7 (h0 : t.val % 10 = 0) (y : S512x64.Idx) : ∃ pc ∈ (run3_A c t x0 x1 x2 x3 x4 x5 h0).2.1, y ∈ pc.1.set :=
  View.cover_of_tiledL (run3_A c t x0 x1 x2 x3 x4 x5 h0).2.1 S512x64.size (by sl_kernel_rfl) y
theorem cover3_B_6 (h0 : ¬t.val % 10 = 0) (y : S5000x64.Idx) : ∃ pc ∈ (run3_B c t x0 x1 x2 x3 x4 x5 xo7 h0).1, y ∈ pc.1.set :=
  View.cover_of_tiledL (run3_B c t x0 x1 x2 x3 x4 x5 xo7 h0).1 S5000x64.size (by sl_kernel_rfl) y
theorem cover3_B_7 (h0 : ¬t.val % 10 = 0) (y : S512x64.Idx) : ∃ pc ∈ (run3_B c t x0 x1 x2 x3 x4 x5 xo7 h0).2.1, y ∈ pc.1.set :=
  View.cover_of_tiledL (run3_B c t x0 x1 x2 x3 x4 x5 xo7 h0).2.1 S512x64.size (by sl_kernel_rfl) y

/-- What a point leaves of each output block: the run's pieces read back. -/
def out3_A_6 (h0 : t.val % 10 = 0) : Vec F S5000x64 .f32 := VO3_6.read (Elt F) (VO3_6.writes (Elt F) VO3_6.junk (run3_A c t x0 x1 x2 x3 x4 x5 h0).1)
def out3_A_7 (h0 : t.val % 10 = 0) : Vec F S512x64 .f32 := VO3_7.read (Elt F) (VO3_7.writes (Elt F) VO3_7.junk (run3_A c t x0 x1 x2 x3 x4 x5 h0).2.1)
def out3_B_6 (h0 : ¬t.val % 10 = 0) : Vec F S5000x64 .f32 := VO3_6.read (Elt F) (VO3_6.writes (Elt F) VO3_6.junk (run3_B c t x0 x1 x2 x3 x4 x5 xo7 h0).1)
def out3_B_7 (h0 : ¬t.val % 10 = 0) : Vec F S512x64 .f32 := VO3_7.read (Elt F) (VO3_7.writes (Elt F) VO3_7.junk (run3_B c t x0 x1 x2 x3 x4 x5 xo7 h0).2.1)

end

/-- The two output blocks after the body at position `n`: the pool block accumulates over what the point before left, and
    starts afresh at the first point. -/
def outsAt3 (c : Dev nD) : (n : ℕ) → n < cfg3.N → Vec F S5000x64 .f32 × Vec F S512x64 .f32
  | 0, hn => (out3_A_6 c ⟨0, hn⟩ (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (Nat.zero_mod _), out3_A_7 c ⟨0, hn⟩ (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (Nat.zero_mod _))
  | n + 1, hn =>
    if h0 : (n + 1) % 10 = 0 then
      (out3_A_6 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) h0, out3_A_7 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) h0)
    else
      (out3_B_6 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2 h0,
       out3_B_7 c ⟨n + 1, hn⟩ (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2 h0)

theorem outsAt3_A (c : Dev nD) (t : Fin cfg3.N) (h0 : t.val % 10 = 0) :
    outsAt3 V c t.val t.isLt = (out3_A_6 c t (iblk3 V c 0 t) (iblk3 V c 1 t) (iblk3 V c 2 t) (iblk3 V c 3 t) (iblk3 V c 4 t) (iblk3 V c 5 t) h0, out3_A_7 c t (iblk3 V c 0 t) (iblk3 V c 1 t) (iblk3 V c 2 t) (iblk3 V c 3 t) (iblk3 V c 4 t) (iblk3 V c 5 t) h0) := by
  obtain ⟨n, hn⟩ := t
  cases n with
  | zero => exact rfl
  | succ n => exact (dif_pos h0).trans rfl

theorem outsAt3_B (c : Dev nD) (t : Fin cfg3.N) (h0 : ¬t.val % 10 = 0) :
    outsAt3 V c t.val t.isLt =
      (out3_B_6 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0,
       out3_B_7 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt3_A_6 (c : Dev nD) (t : Fin cfg3.N) (h0 : t.val % 10 = 0) :
    (outsAt3 V c t.val t.isLt).1 = out3_A_6 c t (iblk3 V c 0 t) (iblk3 V c 1 t) (iblk3 V c 2 t) (iblk3 V c 3 t) (iblk3 V c 4 t) (iblk3 V c 5 t) h0 := fst_of_eq_mk (outsAt3_A V c t h0)
theorem outsAt3_A_7 (c : Dev nD) (t : Fin cfg3.N) (h0 : t.val % 10 = 0) :
    (outsAt3 V c t.val t.isLt).2 = out3_A_7 c t (iblk3 V c 0 t) (iblk3 V c 1 t) (iblk3 V c 2 t) (iblk3 V c 3 t) (iblk3 V c 4 t) (iblk3 V c 5 t) h0 := snd_of_eq_mk (outsAt3_A V c t h0)
theorem outsAt3_B_6 (c : Dev nD) (t : Fin cfg3.N) (h0 : ¬t.val % 10 = 0) :
    (outsAt3 V c t.val t.isLt).1
      = out3_B_6 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0 :=
  fst_of_eq_mk (outsAt3_B V c t h0)
theorem outsAt3_B_7 (c : Dev nD) (t : Fin cfg3.N) (h0 : ¬t.val % 10 = 0) :
    (outsAt3 V c t.val t.isLt).2
      = out3_B_7 c t (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2 h0 :=
  snd_of_eq_mk (outsAt3_B V c t h0)

/-- The region's proof data entered at `V`: the arrays as found, every input at its block after each point and the two
    outputs at `outsAt3`; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2
  Φ _ := Pipeline.ΦA spec3 c
  q _ := fullShare
  owed _ := 0

theorem A_eq3 (c : Dev nD) (w : Fin cfg3.W) : (dat3 V c).A w = V c (Pipeline.arrRef spec3 w) := by
  dsimp only [dat3]
theorem Φ_eq3 (c : Dev nD) (i : Fin (cfg3.N + 1)) : (dat3 V c).Φ i = Pipeline.ΦA spec3 c := by
  dsimp only [dat3]
theorem q_eq3 (c : Dev nD) (w : Fin cfg3.W) : (dat3 V c).q w = fullShare := by
  dsimp only [dat3]
theorem owed_eq3 (c : Dev nD) (i : Fin (cfg3.N + 1)) : (dat3 V c).owed i = 0 := by
  dsimp only [dat3]

theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2 := by dsimp only [dat3]

/-- The body leaves every input window's block in place, and the window holds it at every point. -/
theorem inputs3 (c : Dev nD) (t : Fin cfg3.N) :
    ((dat3 V c).after 0 t = iblk3 V c 0 t ∧ ∀ d, (dat3 V c).before 0 t d = iblk3 V c 0 t)
    ∧ ((dat3 V c).after 1 t = iblk3 V c 1 t ∧ ∀ d, (dat3 V c).before 1 t d = iblk3 V c 1 t)
    ∧ ((dat3 V c).after 2 t = iblk3 V c 2 t ∧ ∀ d, (dat3 V c).before 2 t d = iblk3 V c 2 t)
    ∧ ((dat3 V c).after 3 t = iblk3 V c 3 t ∧ ∀ d, (dat3 V c).before 3 t d = iblk3 V c 3 t)
    ∧ ((dat3 V c).after 4 t = iblk3 V c 4 t ∧ ∀ d, (dat3 V c).before 4 t d = iblk3 V c 4 t)
    ∧ ((dat3 V c).after 5 t = iblk3 V c 5 t ∧ ∀ d, (dat3 V c).before 5 t d = iblk3 V c 5 t) := by
  refine ⟨?_, ?_, ?_, ?_, ?_, ?_⟩ <;>
  exact ⟨by dsimp only [dat3], fun d => ((dat3 V c).before_in_eq_fetched _ rfl (fun _ => rfl) (fun _ _ _ => rfl)
    (fun t => by dsimp only [dat3, Dat.blockOf, iblk3]) t d).trans (by dsimp only [dat3, Dat.fetched, Dat.blockOf, iblk3]; rfl)⟩

/-- Past the first point the pool block is found at what the point before left. -/
theorem before3_7_B (c : Dev nD) (t : Fin cfg3.N) (h0 : ¬t.val % 10 = 0) (d) :
    (dat3 V c).before 7 t d = (outsAt3 V c (t.val - 1) (Nat.lt_of_le_of_lt (Nat.sub_le _ _) t.isLt)).2 := by
  have hN : t.val < 10 := lt_of_lt_of_eq t.isLt (show cfg3.N = 10 from N_3)
  rw [Dat.before_out_kept _ 7 rfl t (by omega) (Bool.eq_false_iff.mpr fun h => by have := (flush3_7 _).mp h; dsimp only at this; omega)
    (fun _ => rfl) (fun _ _ => rfl)]
  dsimp only [dat3]

set_option maxHeartbeats 1600000 in
/-- The body at any point: the inputs are at their blocks, the point's case decides which run applies, and each output's
    pieces cover its block, so they read back the same through any whole view. -/
theorem body_obligation3 (c : Dev nD) : BodyObligation (dat3 (F := F) V c) (defs₀ (F := F)) Variants.none () Set.univ := fun t => by
  rw [bigSep_W3, bigSep_W3]
  obtain ⟨⟨a0, b0⟩, ⟨a1, b1⟩, ⟨a2, b2⟩, ⟨a3, b3⟩, ⟨a4, b4⟩, a5, b5⟩ := inputs3 V c t
  simp only [b0, b1, b2, b3, b4, b5, a0, a1, a2, a3, a4, a5, after3_6, after3_7, Φ_eq3]
  rw [show (dat3 V c).owesAt () t.succ = (dat3 V c).owesAt () t.castSucc from rfl]
  show _ ⊢ wp _ _ _ (bodyAt3 t) _
  unfold bodyAt3
  by_cases h0 : t.val % 10 = 0
  · rw [outsAt3_A_6 V c t h0, outsAt3_A_7 V c t h0]
    unfold out3_A_6 out3_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run3_A c t (iblk3 V c 0 t) (iblk3 V c 1 t) (iblk3 V c 2 t) (iblk3 V c 3 t) (iblk3 V c 4 t) (iblk3 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover3_A_6 c t _ _ _ _ _ _ h0)
    unfold owns; iexists _; isplitr
    swap; · iexact H7
    ipureintro; exact View.read_writes_of_cover _ _ _ _ _ (cover3_A_7 c t _ _ _ _ _ _ h0)
  · rw [outsAt3_B_6 V c t h0, outsAt3_B_7 V c t h0]
    simp only [before3_7_B V c t h0]
    unfold out3_B_6 out3_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run3_B c t (iblk3 V c 0 t) (iblk3 V c 1 t) (iblk3 V c 2 t) (iblk3 V c 3 t) (iblk3 V c 4 t) (iblk3 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover3_B_6 c t _ _ _ _ _ _ _ h0)
    unfold owns; iexists _; isplitr
    swap; · iexact H7
    ipureintro; exact View.read_writes_of_cover _ _ _ _ _ (cover3_B_7 c t _ _ _ _ _ _ _ h0)

end

end Cert.KernelIdeal.Hand

end
-- ==== Proof.KI.Reg4.lean ====
import proofs.«421327_j56599079026905_1_alg».proof.Proof.KI.Base
import proofs.«421327_j56599079026905_1_alg».proof.Proof.Gen.KernelIdeal.Skeleton
import proofs.«421327_j56599079026905_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region

variable (V : Entry F)

/-- Window `w`'s block at point `t` of the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_a : Rect S5000x64 := Rect.unit (s := S5000x64) ![0, 0] S5000x64.size inb_S5000x64_S5000x64_0_0
abbrev r4_b : Rect S64x64 := Rect.unit (s := S64x64) ![0, 0] S64x64.size inb_S64x64_S64x64_0_0
abbrev r4_c : Rect S1x64 := Rect.unit (s := S1x64) ![0, 0] S1x64.size inb_S1x64_S1x64_0_0

/-- What the body stores: the perceptron of the six blocks it loads, over the whole block. -/
def out4_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r4_a, k4_pay1 (View.ld x0 r4_a) (View.ld x1 r4_a) (View.ld x2 r4_b) (View.ld x3 r4_c) (View.ld x4 r4_b) (View.ld x5 r4_c)⟩]

set_option maxHeartbeats 1000000 in
/-- The body, run on whole memrefs holding `x0 … x5`, leaves them as they were and the output at `out4_6` of them. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out4_6 x0 x1 x2 x3 x4 x5)) -∗ K ⟨⟩))
      ⊢ wp frame (wpE (defs₀ (F := F)) Variants.none c none) E (cc4__mlp_kernel i arg1 harg1 arg2 harg2 arg3 harg3 arg4 harg4 arg5 harg5 arg6 harg6 arg7 harg7) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => View.cover_of_tiled _ S5000x64.size (by rfl) y

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem Φ_eq4 (c : Dev nD) (i : Fin (cfg4.N + 1)) : (dat4 V c).Φ i = Pipeline.ΦA spec4 c := by
  dsimp only [dat4]
theorem q_eq4 (c : Dev nD) (w : Fin cfg4.W) : (dat4 V c).q w = fullShare := by
  dsimp only [dat4]
theorem owed_eq4 (c : Dev nD) (i : Fin (cfg4.N + 1)) : (dat4 V c).owed i = 0 := by
  dsimp only [dat4]

theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

/-- The body leaves every input window's block in place, and the window holds it at every point. -/
theorem inputs4 (c : Dev nD) (t : Fin cfg4.N) :
    ((dat4 V c).after 0 t = iblk4 V c 0 t ∧ ∀ d, (dat4 V c).before 0 t d = iblk4 V c 0 t)
    ∧ ((dat4 V c).after 1 t = iblk4 V c 1 t ∧ ∀ d, (dat4 V c).before 1 t d = iblk4 V c 1 t)
    ∧ ((dat4 V c).after 2 t = iblk4 V c 2 t ∧ ∀ d, (dat4 V c).before 2 t d = iblk4 V c 2 t)
    ∧ ((dat4 V c).after 3 t = iblk4 V c 3 t ∧ ∀ d, (dat4 V c).before 3 t d = iblk4 V c 3 t)
    ∧ ((dat4 V c).after 4 t = iblk4 V c 4 t ∧ ∀ d, (dat4 V c).before 4 t d = iblk4 V c 4 t)
    ∧ ((dat4 V c).after 5 t = iblk4 V c 5 t ∧ ∀ d, (dat4 V c).before 5 t d = iblk4 V c 5 t) := by
  refine ⟨?_, ?_, ?_, ?_, ?_, ?_⟩ <;>
  exact ⟨by dsimp only [dat4], fun d => ((dat4 V c).before_in_eq_fetched _ rfl (fun _ => rfl) (fun _ _ _ => rfl)
    (fun t => by dsimp only [dat4, Dat.blockOf, iblk4]) t d).trans (by dsimp only [dat4, Dat.fetched, Dat.blockOf, iblk4]; rfl)⟩

/-- The body at any point: the inputs hold their blocks, so the kernel's triple applies; the rest passes through unread. -/
theorem body_obligation4 (c : Dev nD) : BodyObligation (dat4 (F := F) V c) (defs₀ (F := F)) Variants.none () Set.univ := fun t => by
  rw [bigSep_W4, bigSep_W4]
  obtain ⟨⟨a0, b0⟩, ⟨a1, b1⟩, ⟨a2, b2⟩, ⟨a3, b3⟩, ⟨a4, b4⟩, a5, b5⟩ := inputs4 V c t
  simp only [b0, b1, b2, b3, b4, b5, a0, a1, a2, a3, a4, a5, after4_6, Φ_eq4]
  rw [show (dat4 V c).owesAt () t.succ = (dat4 V c).owesAt () t.castSucc from rfl]
  show _ ⊢ wp _ _ _ (bodyAt4 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  iframe H0 H1 H2 H3 H4 H5
  isplitl [H6]; · iexists _; iexact H6
  iintro H
  iframe

end Region

end Cert.KernelIdeal.Hand

end
-- ==== Proof.KI.Reg5RunA.lean ====
/- This region's kernel function is region 3's definition printed again, so the region takes region 3's runs; here are only
   its own condition and the names of its blocks' places. -/
import proofs.«421327_j56599079026905_1_alg».proof.Proof.KI.Reg3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 10 = 0 :=
  (by decide +kernel : ∀ t : Fin grid5.N, cond5_0 (grid5.coords t) ↔ t.val % 10 = 0)

abbrev VO5_6 : View sig .tc .vmem S5000x64 .f32 := (Memref.whole cc5_stg6_0 : Memref sig .tc .vmem S5000x64 .f32).view
abbrev VO5_7 : View sig .tc .vmem S512x64 .f32 := (Memref.whole cc5_stg7_0 : Memref sig .tc .vmem S512x64 .f32).view

abbrev ms5_0 (t : Fin cfg5.N) : Memref sig .tc .vmem S5000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x64 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S5000x1 .i32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S5000x64 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S512x64 .f32 := win5_7.stage (cfg5.slots t 7)
abbrev hs5_7 (t : Fin cfg5.N) : (ms5_7 t).IsWhole := hstage5_7 ((cfg5.slots t 7).cast nbuf5_7)

end Cert.KernelIdeal.Hand

end
-- ==== Proof.KI.Reg5.lean ====
import proofs.«421327_j56599079026905_1_alg».proof.Proof.KI.Reg5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

section
variable (c : Dev nD) (t : Fin cfg5.N) (x0 : Vec F S5000x64 .f32) (x1 x2 x3 x4 : Vec F S1x64 .f32) (x5 : Vec F S5000x1 .i32)
  (xo7 : Vec F S512x64 .f32)

/-- The body's run at point `t`: when `t` opens a group of ten points, -/
abbrev run5_A (h0 : t.val % 10 = 0) :=
  kernelRun3_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) x0 x1 x2 x3 x4 x5
/-- and when it does not (the pool block is then found at `xo7`). -/
abbrev run5_B (h0 : ¬t.val % 10 = 0) :=
  kernelRun3_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) x0 x1 x2 x3 x4 x5 xo7

theorem cover5_A_6 (h0 : t.val % 10 = 0) (y : S5000x64.Idx) : ∃ pc ∈ (run5_A c t x0 x1 x2 x3 x4 x5 h0).1, y ∈ pc.1.set :=
  View.cover_of_tiledL (run5_A c t x0 x1 x2 x3 x4 x5 h0).1 S5000x64.size (by sl_kernel_rfl) y
theorem cover5_A_7 (h0 : t.val % 10 = 0) (y : S512x64.Idx) : ∃ pc ∈ (run5_A c t x0 x1 x2 x3 x4 x5 h0).2.1, y ∈ pc.1.set :=
  View.cover_of_tiledL (run5_A c t x0 x1 x2 x3 x4 x5 h0).2.1 S512x64.size (by sl_kernel_rfl) y
theorem cover5_B_6 (h0 : ¬t.val % 10 = 0) (y : S5000x64.Idx) : ∃ pc ∈ (run5_B c t x0 x1 x2 x3 x4 x5 xo7 h0).1, y ∈ pc.1.set :=
  View.cover_of_tiledL (run5_B c t x0 x1 x2 x3 x4 x5 xo7 h0).1 S5000x64.size (by sl_kernel_rfl) y
theorem cover5_B_7 (h0 : ¬t.val % 10 = 0) (y : S512x64.Idx) : ∃ pc ∈ (run5_B c t x0 x1 x2 x3 x4 x5 xo7 h0).2.1, y ∈ pc.1.set :=
  View.cover_of_tiledL (run5_B c t x0 x1 x2 x3 x4 x5 xo7 h0).2.1 S512x64.size (by sl_kernel_rfl) y

/-- What a point leaves of each output block: the run's pieces read back. -/
def out5_A_6 (h0 : t.val % 10 = 0) : Vec F S5000x64 .f32 := VO5_6.read (Elt F) (VO5_6.writes (Elt F) VO5_6.junk (run5_A c t x0 x1 x2 x3 x4 x5 h0).1)
def out5_A_7 (h0 : t.val % 10 = 0) : Vec F S512x64 .f32 := VO5_7.read (Elt F) (VO5_7.writes (Elt F) VO5_7.junk (run5_A c t x0 x1 x2 x3 x4 x5 h0).2.1)
def out5_B_6 (h0 : ¬t.val % 10 = 0) : Vec F S5000x64 .f32 := VO5_6.read (Elt F) (VO5_6.writes (Elt F) VO5_6.junk (run5_B c t x0 x1 x2 x3 x4 x5 xo7 h0).1)
def out5_B_7 (h0 : ¬t.val % 10 = 0) : Vec F S512x64 .f32 := VO5_7.read (Elt F) (VO5_7.writes (Elt F) VO5_7.junk (run5_B c t x0 x1 x2 x3 x4 x5 xo7 h0).2.1)

end

/-- The two output blocks after the body at position `n`: the pool block accumulates over what the point before left, and
    starts afresh at the first point. -/
def outsAt5 (c : Dev nD) : (n : ℕ) → n < cfg5.N → Vec F S5000x64 .f32 × Vec F S512x64 .f32
  | 0, hn => (out5_A_6 c ⟨0, hn⟩ (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (Nat.zero_mod _), out5_A_7 c ⟨0, hn⟩ (iblk5 V c 0 ⟨0, hn⟩) (iblk5 V c 1 ⟨0, hn⟩) (iblk5 V c 2 ⟨0, hn⟩) (iblk5 V c 3 ⟨0, hn⟩) (iblk5 V c 4 ⟨0, hn⟩) (iblk5 V c 5 ⟨0, hn⟩) (Nat.zero_mod _))
  | n + 1, hn =>
    if h0 : (n + 1) % 10 = 0 then
      (out5_A_6 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) h0, out5_A_7 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) h0)
    else
      (out5_B_6 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2 h0,
       out5_B_7 c ⟨n + 1, hn⟩ (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (iblk5 V c 5 ⟨n + 1, hn⟩) (outsAt5 c n (Nat.lt_of_succ_lt hn)).2 h0)

theorem outsAt5_A (c : Dev nD) (t : Fin cfg5.N) (h0 : t.val % 10 = 0) :
    outsAt5 V c t.val t.isLt = (out5_A_6 c t (iblk5 V c 0 t) (iblk5 V c 1 t) (iblk5 V c 2 t) (iblk5 V c 3 t) (iblk5 V c 4 t) (iblk5 V c 5 t) h0, out5_A_7 c t (iblk5 V c 0 t) (iblk5 V c 1 t) (iblk5 V c 2 t) (iblk5 V c 3 t) (iblk5 V c 4 t) (iblk5 V c 5 t) h0) := by
  obtain ⟨n, hn⟩ := t
  cases n with
  | zero => exact rfl
  | succ n => exact (dif_pos h0).trans rfl

theorem outsAt5_B (c : Dev nD) (t : Fin cfg5.N) (h0 : ¬t.val % 10 = 0) :
    outsAt5 V c t.val t.isLt =
      (out5_B_6 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0,
       out5_B_7 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt5_A_6 (c : Dev nD) (t : Fin cfg5.N) (h0 : t.val % 10 = 0) :
    (outsAt5 V c t.val t.isLt).1 = out5_A_6 c t (iblk5 V c 0 t) (iblk5 V c 1 t) (iblk5 V c 2 t) (iblk5 V c 3 t) (iblk5 V c 4 t) (iblk5 V c 5 t) h0 := fst_of_eq_mk (outsAt5_A V c t h0)
theorem outsAt5_A_7 (c : Dev nD) (t : Fin cfg5.N) (h0 : t.val % 10 = 0) :
    (outsAt5 V c t.val t.isLt).2 = out5_A_7 c t (iblk5 V c 0 t) (iblk5 V c 1 t) (iblk5 V c 2 t) (iblk5 V c 3 t) (iblk5 V c 4 t) (iblk5 V c 5 t) h0 := snd_of_eq_mk (outsAt5_A V c t h0)
theorem outsAt5_B_6 (c : Dev nD) (t : Fin cfg5.N) (h0 : ¬t.val % 10 = 0) :
    (outsAt5 V c t.val t.isLt).1
      = out5_B_6 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0 :=
  fst_of_eq_mk (outsAt5_B V c t h0)
theorem outsAt5_B_7 (c : Dev nD) (t : Fin cfg5.N) (h0 : ¬t.val % 10 = 0) :
    (outsAt5 V c t.val t.isLt).2
      = out5_B_7 c t (iblk5 V c 0 t) (iblk5 V c 1 t) (iblk5 V c 2 t) (iblk5 V c 3 t) (iblk5 V c 4 t) (iblk5 V c 5 t) (outsAt5 V c (t.val - 1) (Nat.lt_of_le_of_lt (Nat.sub_le _ _) t.isLt)).2 h0 :=
  snd_of_eq_mk (outsAt5_B V c t h0)

/-- The region's proof data entered at `V`: the arrays as found, every input at its block after each point and the two
    outputs at `outsAt5`; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => (outsAt5 V c t.val t.isLt).1
    | ⟨7, _⟩ => (outsAt5 V c t.val t.isLt).2
  Φ _ := Pipeline.ΦA spec5 c
  q _ := fullShare
  owed _ := 0

theorem A_eq5 (c : Dev nD) (w : Fin cfg5.W) : (dat5 V c).A w = V c (Pipeline.arrRef spec5 w) := by
  dsimp only [dat5]
theorem Φ_eq5 (c : Dev nD) (i : Fin (cfg5.N + 1)) : (dat5 V c).Φ i = Pipeline.ΦA spec5 c := by
  dsimp only [dat5]
theorem q_eq5 (c : Dev nD) (w : Fin cfg5.W) : (dat5 V c).q w = fullShare := by
  dsimp only [dat5]
theorem owed_eq5 (c : Dev nD) (i : Fin (cfg5.N + 1)) : (dat5 V c).owed i = 0 := by
  dsimp only [dat5]

theorem after5_6 (c : Dev nD) (t : Fin cfg5.N) : (dat5 V c).after 6 t = (outsAt5 V c t.val t.isLt).1 := by dsimp only [dat5]
theorem after5_7 (c : Dev nD) (t : Fin cfg5.N) : (dat5 V c).after 7 t = (outsAt5 V c t.val t.isLt).2 := by dsimp only [dat5]

/-- The body leaves every input window's block in place, and the window holds it at every point. -/
theorem inputs5 (c : Dev nD) (t : Fin cfg5.N) :
    ((dat5 V c).after 0 t = iblk5 V c 0 t ∧ ∀ d, (dat5 V c).before 0 t d = iblk5 V c 0 t)
    ∧ ((dat5 V c).after 1 t = iblk5 V c 1 t ∧ ∀ d, (dat5 V c).before 1 t d = iblk5 V c 1 t)
    ∧ ((dat5 V c).after 2 t = iblk5 V c 2 t ∧ ∀ d, (dat5 V c).before 2 t d = iblk5 V c 2 t)
    ∧ ((dat5 V c).after 3 t = iblk5 V c 3 t ∧ ∀ d, (dat5 V c).before 3 t d = iblk5 V c 3 t)
    ∧ ((dat5 V c).after 4 t = iblk5 V c 4 t ∧ ∀ d, (dat5 V c).before 4 t d = iblk5 V c 4 t)
    ∧ ((dat5 V c).after 5 t = iblk5 V c 5 t ∧ ∀ d, (dat5 V c).before 5 t d = iblk5 V c 5 t) := by
  refine ⟨?_, ?_, ?_, ?_, ?_, ?_⟩ <;>
  exact ⟨by dsimp only [dat5], fun d => ((dat5 V c).before_in_eq_fetched _ rfl (fun _ => rfl) (fun _ _ _ => rfl)
    (fun t => by dsimp only [dat5, Dat.blockOf, iblk5]) t d).trans (by dsimp only [dat5, Dat.fetched, Dat.blockOf, iblk5]; rfl)⟩

/-- Past the first point the pool block is found at what the point before left. -/
theorem before5_7_B (c : Dev nD) (t : Fin cfg5.N) (h0 : ¬t.val % 10 = 0) (d) :
    (dat5 V c).before 7 t d = (outsAt5 V c (t.val - 1) (Nat.lt_of_le_of_lt (Nat.sub_le _ _) t.isLt)).2 := by
  have hN : t.val < 10 := lt_of_lt_of_eq t.isLt (show cfg5.N = 10 from N_5)
  rw [Dat.before_out_kept _ 7 rfl t (by omega) (Bool.eq_false_iff.mpr fun h => by have := (flush5_7 _).mp h; dsimp only at this; omega)
    (fun _ => rfl) (fun _ _ => rfl)]
  dsimp only [dat5]

set_option maxHeartbeats 1600000 in
/-- The body at any point: the inputs are at their blocks, the point's case decides which run applies, and each output's
    pieces cover its block, so they read back the same through any whole view. -/
theorem body_obligation5 (c : Dev nD) : BodyObligation (dat5 (F := F) V c) (defs₀ (F := F)) Variants.none () Set.univ := fun t => by
  rw [bigSep_W5, bigSep_W5]
  obtain ⟨⟨a0, b0⟩, ⟨a1, b1⟩, ⟨a2, b2⟩, ⟨a3, b3⟩, ⟨a4, b4⟩, a5, b5⟩ := inputs5 V c t
  simp only [b0, b1, b2, b3, b4, b5, a0, a1, a2, a3, a4, a5, after5_6, after5_7, Φ_eq5]
  rw [show (dat5 V c).owesAt () t.succ = (dat5 V c).owesAt () t.castSucc from rfl]
  show _ ⊢ wp _ _ _ (bodyAt5 t) _
  unfold bodyAt5
  by_cases h0 : t.val % 10 = 0
  · rw [outsAt5_A_6 V c t h0, outsAt5_A_7 V c t h0]
    unfold out5_A_6 out5_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run5_A c t (iblk5 V c 0 t) (iblk5 V c 1 t) (iblk5 V c 2 t) (iblk5 V c 3 t) (iblk5 V c 4 t) (iblk5 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover5_A_6 c t _ _ _ _ _ _ h0)
    unfold owns; iexists _; isplitr
    swap; · iexact H7
    ipureintro; exact View.read_writes_of_cover _ _ _ _ _ (cover5_A_7 c t _ _ _ _ _ _ h0)
  · rw [outsAt5_B_6 V c t h0, outsAt5_B_7 V c t h0]
    simp only [before5_7_B V c t h0]
    unfold out5_B_6 out5_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run5_B c t (iblk5 V c 0 t) (iblk5 V c 1 t) (iblk5 V c 2 t) (iblk5 V c 3 t) (iblk5 V c 4 t) (iblk5 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover5_B_6 c t _ _ _ _ _ _ _ h0)
    unfold owns; iexists _; isplitr
    swap; · iexact H7
    ipureintro; exact View.read_writes_of_cover _ _ _ _ _ (cover5_B_7 c t _ _ _ _ _ _ _ h0)

end

end Cert.KernelIdeal.Hand

end
-- ==== Proof.KI.Reg6.lean ====
import proofs.«421327_j56599079026905_1_alg».proof.Proof.KI.Base
import proofs.«421327_j56599079026905_1_alg».proof.Proof.Gen.KernelIdeal.Skeleton
import proofs.«421327_j56599079026905_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region

variable (V : Entry F)

/-- Window `w`'s block at point `t` of the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_a : Rect S5000x64 := Rect.unit (s := S5000x64) ![0, 0] S5000x64.size inb_S5000x64_S5000x64_0_0
abbrev r6_b : Rect S64x64 := Rect.unit (s := S64x64) ![0, 0] S64x64.size inb_S64x64_S64x64_0_0
abbrev r6_c : Rect S1x64 := Rect.unit (s := S1x64) ![0, 0] S1x64.size inb_S1x64_S1x64_0_0

/-- What the body stores: the perceptron of the six blocks it loads, over the whole block. -/
def out6_6 (x0 x1 : Vec F S5000x64 .f32) (x2 : Vec F S64x64 .f32) (x3 : Vec F S1x64 .f32) (x4 : Vec F S64x64 .f32) (x5 : Vec F S1x64 .f32) : Vec F S5000x64 .f32 :=
  View.canon [⟨r6_a, k6_pay1 (View.ld x0 r6_a) (View.ld x1 r6_a) (View.ld x2 r6_b) (View.ld x3 r6_c) (View.ld x4 r6_b) (View.ld x5 r6_c)⟩]

set_option maxHeartbeats 1000000 in
/-- The body, run on whole memrefs holding `x0 … x5`, leaves them as they were and the output at `out6_6` of them. -/
theorem sound_kernel6 (c : Dev nD) (E : Set ℕ) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S5000x64 .f32) (harg7 : arg7.IsWhole)
    (x0 : Vec F S5000x64 .f32) (x1 : Vec F S5000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6_6 x0 x1 x2 x3 x4 x5)) -∗ K ⟨⟩))
      ⊢ wp frame (wpE (defs₀ (F := F)) Variants.none c none) E (cc6__mlp_kernel i arg1 harg1 arg2 harg2 arg3 harg3 arg4 harg4 arg5 harg5 arg6 harg6 arg7 harg7) K := by
  simp only [cc6__mlp_kernel_eq_skeleton]; unfold cc6__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ fun y => View.cover_of_tiled _ S5000x64.size (by rfl) y

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem Φ_eq6 (c : Dev nD) (i : Fin (cfg6.N + 1)) : (dat6 V c).Φ i = Pipeline.ΦA spec6 c := by
  dsimp only [dat6]
theorem q_eq6 (c : Dev nD) (w : Fin cfg6.W) : (dat6 V c).q w = fullShare := by
  dsimp only [dat6]
theorem owed_eq6 (c : Dev nD) (i : Fin (cfg6.N + 1)) : (dat6 V c).owed i = 0 := by
  dsimp only [dat6]

theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

/-- The body leaves every input window's block in place, and the window holds it at every point. -/
theorem inputs6 (c : Dev nD) (t : Fin cfg6.N) :
    ((dat6 V c).after 0 t = iblk6 V c 0 t ∧ ∀ d, (dat6 V c).before 0 t d = iblk6 V c 0 t)
    ∧ ((dat6 V c).after 1 t = iblk6 V c 1 t ∧ ∀ d, (dat6 V c).before 1 t d = iblk6 V c 1 t)
    ∧ ((dat6 V c).after 2 t = iblk6 V c 2 t ∧ ∀ d, (dat6 V c).before 2 t d = iblk6 V c 2 t)
    ∧ ((dat6 V c).after 3 t = iblk6 V c 3 t ∧ ∀ d, (dat6 V c).before 3 t d = iblk6 V c 3 t)
    ∧ ((dat6 V c).after 4 t = iblk6 V c 4 t ∧ ∀ d, (dat6 V c).before 4 t d = iblk6 V c 4 t)
    ∧ ((dat6 V c).after 5 t = iblk6 V c 5 t ∧ ∀ d, (dat6 V c).before 5 t d = iblk6 V c 5 t) := by
  refine ⟨?_, ?_, ?_, ?_, ?_, ?_⟩ <;>
  exact ⟨by dsimp only [dat6], fun d => ((dat6 V c).before_in_eq_fetched _ rfl (fun _ => rfl) (fun _ _ _ => rfl)
    (fun t => by dsimp only [dat6, Dat.blockOf, iblk6]) t d).trans (by dsimp only [dat6, Dat.fetched, Dat.blockOf, iblk6]; rfl)⟩

/-- The body at any point: the inputs hold their blocks, so the kernel's triple applies; the rest passes through unread. -/
theorem body_obligation6 (c : Dev nD) : BodyObligation (dat6 (F := F) V c) (defs₀ (F := F)) Variants.none () Set.univ := fun t => by
  rw [bigSep_W6, bigSep_W6]
  obtain ⟨⟨a0, b0⟩, ⟨a1, b1⟩, ⟨a2, b2⟩, ⟨a3, b3⟩, ⟨a4, b4⟩, a5, b5⟩ := inputs6 V c t
  simp only [b0, b1, b2, b3, b4, b5, a0, a1, a2, a3, a4, a5, after6_6, Φ_eq6]
  rw [show (dat6 V c).owesAt () t.succ = (dat6 V c).owesAt () t.castSucc from rfl]
  show _ ⊢ wp _ _ _ (bodyAt6 t) _
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  iframe H0 H1 H2 H3 H4 H5
  isplitl [H6]; · iexists _; iexact H6
  iintro H
  iframe

end Region

end Cert.KernelIdeal.Hand

end
-- ==== Proof.KI.Reg7RunA.lean ====
/- This region's kernel function is region 3's definition printed again, so the region takes region 3's runs; here are only
   its own condition and the names of its blocks' places. -/
import proofs.«421327_j56599079026905_1_alg».proof.Proof.KI.Reg3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

abbrev cond7_0 (i : grid7.Coords) : Prop := (Scalar.cmpi .ne (Scalar.extui (Scalar.cmpi .eq (BitVec.ofNat 32 (i 0).val) 0#32)) 0#32) = 1#1

theorem hcond7_0 : ∀ t : Fin cfg7.N, cond7_0 (grid7.coords t) ↔ t.val % 10 = 0 :=
  (by decide +kernel : ∀ t : Fin grid7.N, cond7_0 (grid7.coords t) ↔ t.val % 10 = 0)

abbrev VO7_6 : View sig .tc .vmem S5000x64 .f32 := (Memref.whole cc7_stg6_0 : Memref sig .tc .vmem S5000x64 .f32).view
abbrev VO7_7 : View sig .tc .vmem S512x64 .f32 := (Memref.whole cc7_stg7_0 : Memref sig .tc .vmem S512x64 .f32).view

abbrev ms7_0 (t : Fin cfg7.N) : Memref sig .tc .vmem S5000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S5000x1 .i32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S5000x64 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S512x64 .f32 := win7_7.stage (cfg7.slots t 7)
abbrev hs7_7 (t : Fin cfg7.N) : (ms7_7 t).IsWhole := hstage7_7 ((cfg7.slots t 7).cast nbuf7_7)

end Cert.KernelIdeal.Hand

end
-- ==== Proof.KI.Reg7.lean ====
import proofs.«421327_j56599079026905_1_alg».proof.Proof.KI.Reg7RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : Entry F)

/-- Window `w`'s block at point `t` of its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

section
variable (c : Dev nD) (t : Fin cfg7.N) (x0 : Vec F S5000x64 .f32) (x1 x2 x3 x4 : Vec F S1x64 .f32) (x5 : Vec F S5000x1 .i32)
  (xo7 : Vec F S512x64 .f32)

/-- The body's run at point `t`: when `t` opens a group of ten points, -/
abbrev run7_A (h0 : t.val % 10 = 0) :=
  kernelRun3_A c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) ((hcond7_0 t).mpr h0) x0 x1 x2 x3 x4 x5
/-- and when it does not (the pool block is then found at `xo7`). -/
abbrev run7_B (h0 : ¬t.val % 10 = 0) :=
  kernelRun3_B c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (fun h => h0 ((hcond7_0 t).mp h)) x0 x1 x2 x3 x4 x5 xo7

theorem cover7_A_6 (h0 : t.val % 10 = 0) (y : S5000x64.Idx) : ∃ pc ∈ (run7_A c t x0 x1 x2 x3 x4 x5 h0).1, y ∈ pc.1.set :=
  View.cover_of_tiledL (run7_A c t x0 x1 x2 x3 x4 x5 h0).1 S5000x64.size (by sl_kernel_rfl) y
theorem cover7_A_7 (h0 : t.val % 10 = 0) (y : S512x64.Idx) : ∃ pc ∈ (run7_A c t x0 x1 x2 x3 x4 x5 h0).2.1, y ∈ pc.1.set :=
  View.cover_of_tiledL (run7_A c t x0 x1 x2 x3 x4 x5 h0).2.1 S512x64.size (by sl_kernel_rfl) y
theorem cover7_B_6 (h0 : ¬t.val % 10 = 0) (y : S5000x64.Idx) : ∃ pc ∈ (run7_B c t x0 x1 x2 x3 x4 x5 xo7 h0).1, y ∈ pc.1.set :=
  View.cover_of_tiledL (run7_B c t x0 x1 x2 x3 x4 x5 xo7 h0).1 S5000x64.size (by sl_kernel_rfl) y
theorem cover7_B_7 (h0 : ¬t.val % 10 = 0) (y : S512x64.Idx) : ∃ pc ∈ (run7_B c t x0 x1 x2 x3 x4 x5 xo7 h0).2.1, y ∈ pc.1.set :=
  View.cover_of_tiledL (run7_B c t x0 x1 x2 x3 x4 x5 xo7 h0).2.1 S512x64.size (by sl_kernel_rfl) y

/-- What a point leaves of each output block: the run's pieces read back. -/
def out7_A_6 (h0 : t.val % 10 = 0) : Vec F S5000x64 .f32 := VO7_6.read (Elt F) (VO7_6.writes (Elt F) VO7_6.junk (run7_A c t x0 x1 x2 x3 x4 x5 h0).1)
def out7_A_7 (h0 : t.val % 10 = 0) : Vec F S512x64 .f32 := VO7_7.read (Elt F) (VO7_7.writes (Elt F) VO7_7.junk (run7_A c t x0 x1 x2 x3 x4 x5 h0).2.1)
def out7_B_6 (h0 : ¬t.val % 10 = 0) : Vec F S5000x64 .f32 := VO7_6.read (Elt F) (VO7_6.writes (Elt F) VO7_6.junk (run7_B c t x0 x1 x2 x3 x4 x5 xo7 h0).1)
def out7_B_7 (h0 : ¬t.val % 10 = 0) : Vec F S512x64 .f32 := VO7_7.read (Elt F) (VO7_7.writes (Elt F) VO7_7.junk (run7_B c t x0 x1 x2 x3 x4 x5 xo7 h0).2.1)

end

/-- The two output blocks after the body at position `n`: the pool block accumulates over what the point before left, and
    starts afresh at the first point. -/
def outsAt7 (c : Dev nD) : (n : ℕ) → n < cfg7.N → Vec F S5000x64 .f32 × Vec F S512x64 .f32
  | 0, hn => (out7_A_6 c ⟨0, hn⟩ (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (Nat.zero_mod _), out7_A_7 c ⟨0, hn⟩ (iblk7 V c 0 ⟨0, hn⟩) (iblk7 V c 1 ⟨0, hn⟩) (iblk7 V c 2 ⟨0, hn⟩) (iblk7 V c 3 ⟨0, hn⟩) (iblk7 V c 4 ⟨0, hn⟩) (iblk7 V c 5 ⟨0, hn⟩) (Nat.zero_mod _))
  | n + 1, hn =>
    if h0 : (n + 1) % 10 = 0 then
      (out7_A_6 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) h0, out7_A_7 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) h0)
    else
      (out7_B_6 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2 h0,
       out7_B_7 c ⟨n + 1, hn⟩ (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (iblk7 V c 5 ⟨n + 1, hn⟩) (outsAt7 c n (Nat.lt_of_succ_lt hn)).2 h0)

theorem outsAt7_A (c : Dev nD) (t : Fin cfg7.N) (h0 : t.val % 10 = 0) :
    outsAt7 V c t.val t.isLt = (out7_A_6 c t (iblk7 V c 0 t) (iblk7 V c 1 t) (iblk7 V c 2 t) (iblk7 V c 3 t) (iblk7 V c 4 t) (iblk7 V c 5 t) h0, out7_A_7 c t (iblk7 V c 0 t) (iblk7 V c 1 t) (iblk7 V c 2 t) (iblk7 V c 3 t) (iblk7 V c 4 t) (iblk7 V c 5 t) h0) := by
  obtain ⟨n, hn⟩ := t
  cases n with
  | zero => exact rfl
  | succ n => exact (dif_pos h0).trans rfl

theorem outsAt7_B (c : Dev nD) (t : Fin cfg7.N) (h0 : ¬t.val % 10 = 0) :
    outsAt7 V c t.val t.isLt =
      (out7_B_6 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0,
       out7_B_7 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0) := by
  obtain ⟨n, hn⟩ := t
  cases n with
  | zero => exact (by exfalso; (try dsimp only at h0); exact absurd (Nat.zero_mod _) h0)
  | succ n => exact (dif_neg h0).trans rfl

private theorem fst_of_eq_mk {α β : Type} {p : α × β} {a : α} {b : β} (h : p = (a, b)) : p.1 = a := by subst h; rfl
private theorem snd_of_eq_mk {α β : Type} {p : α × β} {a : α} {b : β} (h : p = (a, b)) : p.2 = b := by subst h; rfl

theorem outsAt7_A_6 (c : Dev nD) (t : Fin cfg7.N) (h0 : t.val % 10 = 0) :
    (outsAt7 V c t.val t.isLt).1 = out7_A_6 c t (iblk7 V c 0 t) (iblk7 V c 1 t) (iblk7 V c 2 t) (iblk7 V c 3 t) (iblk7 V c 4 t) (iblk7 V c 5 t) h0 := fst_of_eq_mk (outsAt7_A V c t h0)
theorem outsAt7_A_7 (c : Dev nD) (t : Fin cfg7.N) (h0 : t.val % 10 = 0) :
    (outsAt7 V c t.val t.isLt).2 = out7_A_7 c t (iblk7 V c 0 t) (iblk7 V c 1 t) (iblk7 V c 2 t) (iblk7 V c 3 t) (iblk7 V c 4 t) (iblk7 V c 5 t) h0 := snd_of_eq_mk (outsAt7_A V c t h0)
theorem outsAt7_B_6 (c : Dev nD) (t : Fin cfg7.N) (h0 : ¬t.val % 10 = 0) :
    (outsAt7 V c t.val t.isLt).1
      = out7_B_6 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0 :=
  fst_of_eq_mk (outsAt7_B V c t h0)
theorem outsAt7_B_7 (c : Dev nD) (t : Fin cfg7.N) (h0 : ¬t.val % 10 = 0) :
    (outsAt7 V c t.val t.isLt).2
      = out7_B_7 c t (iblk7 V c 0 t) (iblk7 V c 1 t) (iblk7 V c 2 t) (iblk7 V c 3 t) (iblk7 V c 4 t) (iblk7 V c 5 t) (outsAt7 V c (t.val - 1) (Nat.lt_of_le_of_lt (Nat.sub_le _ _) t.isLt)).2 h0 :=
  snd_of_eq_mk (outsAt7_B V c t h0)

/-- The region's proof data entered at `V`: the arrays as found, every input at its block after each point and the two
    outputs at `outsAt7`; nothing owed, full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => (outsAt7 V c t.val t.isLt).1
    | ⟨7, _⟩ => (outsAt7 V c t.val t.isLt).2
  Φ _ := Pipeline.ΦA spec7 c
  q _ := fullShare
  owed _ := 0

theorem A_eq7 (c : Dev nD) (w : Fin cfg7.W) : (dat7 V c).A w = V c (Pipeline.arrRef spec7 w) := by
  dsimp only [dat7]
theorem Φ_eq7 (c : Dev nD) (i : Fin (cfg7.N + 1)) : (dat7 V c).Φ i = Pipeline.ΦA spec7 c := by
  dsimp only [dat7]
theorem q_eq7 (c : Dev nD) (w : Fin cfg7.W) : (dat7 V c).q w = fullShare := by
  dsimp only [dat7]
theorem owed_eq7 (c : Dev nD) (i : Fin (cfg7.N + 1)) : (dat7 V c).owed i = 0 := by
  dsimp only [dat7]

theorem after7_6 (c : Dev nD) (t : Fin cfg7.N) : (dat7 V c).after 6 t = (outsAt7 V c t.val t.isLt).1 := by dsimp only [dat7]
theorem after7_7 (c : Dev nD) (t : Fin cfg7.N) : (dat7 V c).after 7 t = (outsAt7 V c t.val t.isLt).2 := by dsimp only [dat7]

/-- The body leaves every input window's block in place, and the window holds it at every point. -/
theorem inputs7 (c : Dev nD) (t : Fin cfg7.N) :
    ((dat7 V c).after 0 t = iblk7 V c 0 t ∧ ∀ d, (dat7 V c).before 0 t d = iblk7 V c 0 t)
    ∧ ((dat7 V c).after 1 t = iblk7 V c 1 t ∧ ∀ d, (dat7 V c).before 1 t d = iblk7 V c 1 t)
    ∧ ((dat7 V c).after 2 t = iblk7 V c 2 t ∧ ∀ d, (dat7 V c).before 2 t d = iblk7 V c 2 t)
    ∧ ((dat7 V c).after 3 t = iblk7 V c 3 t ∧ ∀ d, (dat7 V c).before 3 t d = iblk7 V c 3 t)
    ∧ ((dat7 V c).after 4 t = iblk7 V c 4 t ∧ ∀ d, (dat7 V c).before 4 t d = iblk7 V c 4 t)
    ∧ ((dat7 V c).after 5 t = iblk7 V c 5 t ∧ ∀ d, (dat7 V c).before 5 t d = iblk7 V c 5 t) := by
  refine ⟨?_, ?_, ?_, ?_, ?_, ?_⟩ <;>
  exact ⟨by dsimp only [dat7], fun d => ((dat7 V c).before_in_eq_fetched _ rfl (fun _ => rfl) (fun _ _ _ => rfl)
    (fun t => by dsimp only [dat7, Dat.blockOf, iblk7]) t d).trans (by dsimp only [dat7, Dat.fetched, Dat.blockOf, iblk7]; rfl)⟩

/-- Past the first point the pool block is found at what the point before left. -/
theorem before7_7_B (c : Dev nD) (t : Fin cfg7.N) (h0 : ¬t.val % 10 = 0) (d) :
    (dat7 V c).before 7 t d = (outsAt7 V c (t.val - 1) (Nat.lt_of_le_of_lt (Nat.sub_le _ _) t.isLt)).2 := by
  have hN : t.val < 10 := lt_of_lt_of_eq t.isLt (show cfg7.N = 10 from N_7)
  rw [Dat.before_out_kept _ 7 rfl t (by omega) (Bool.eq_false_iff.mpr fun h => by have := (flush7_7 _).mp h; dsimp only at this; omega)
    (fun _ => rfl) (fun _ _ => rfl)]
  dsimp only [dat7]

set_option maxHeartbeats 1600000 in
/-- The body at any point: the inputs are at their blocks, the point's case decides which run applies, and each output's
    pieces cover its block, so they read back the same through any whole view. -/
theorem body_obligation7 (c : Dev nD) : BodyObligation (dat7 (F := F) V c) (defs₀ (F := F)) Variants.none () Set.univ := fun t => by
  rw [bigSep_W7, bigSep_W7]
  obtain ⟨⟨a0, b0⟩, ⟨a1, b1⟩, ⟨a2, b2⟩, ⟨a3, b3⟩, ⟨a4, b4⟩, a5, b5⟩ := inputs7 V c t
  simp only [b0, b1, b2, b3, b4, b5, a0, a1, a2, a3, a4, a5, after7_6, after7_7, Φ_eq7]
  rw [show (dat7 V c).owesAt () t.succ = (dat7 V c).owesAt () t.castSucc from rfl]
  show _ ⊢ wp _ _ _ (bodyAt7 t) _
  unfold bodyAt7
  by_cases h0 : t.val % 10 = 0
  · rw [outsAt7_A_6 V c t h0, outsAt7_A_7 V c t h0]
    unfold out7_A_6 out7_A_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run7_A c t (iblk7 V c 0 t) (iblk7 V c 1 t) (iblk7 V c 2 t) (iblk7 V c 3 t) (iblk7 V c 4 t) (iblk7 V c 5 t) h0).2.2 Set.univ _)
    iframe H0 H1 H2 H3 H4 H5
    isplitl [H6]; · iexists _; iexact H6
    isplitl [H7]; · iexists _; iexact H7
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover7_A_6 c t _ _ _ _ _ _ h0)
    unfold owns; iexists _; isplitr
    swap; · iexact H7
    ipureintro; exact View.read_writes_of_cover _ _ _ _ _ (cover7_A_7 c t _ _ _ _ _ _ h0)
  · rw [outsAt7_B_6 V c t h0, outsAt7_B_7 V c t h0]
    simp only [before7_7_B V c t h0]
    unfold out7_B_6 out7_B_7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run7_B c t (iblk7 V c 0 t) (iblk7 V c 1 t) (iblk7 V c 2 t) (iblk7 V c 3 t) (iblk7 V c 4 t) (iblk7 V c 5 t) _ h0).2.2 Set.univ _)
    iframe H0 H1 H2 H3 H4 H5 H7
    isplitl [H6]; · iexists _; iexact H6
    iintro ⟨H0, H1, H2, H3, H4, H5, ⟨%e6, H6⟩, ⟨%e7, H7⟩⟩
    iframe HΦ Ho H0 H1 H2 H3 H4 H5
    isplitl [H6]
    · unfold owns; iexists _; isplitr
      swap; · iexact H6
      ipureintro; exact View.read_writes_of_cover _ _ _ _ _ (cover7_B_6 c t _ _ _ _ _ _ _ h0)
    unfold owns; iexists _; isplitr
    swap; · iexact H7
    ipureintro; exact View.read_writes_of_cover _ _ _ _ _ (cover7_B_7 c t _ _ _ _ _ _ _ h0)

end

end Cert.KernelIdeal.Hand

end
-- ==== Proof.KI.Chain.lean ====
import proofs.«421327_j56599079026905_1_alg».proof.Proof.KI.Reg0
import proofs.«421327_j56599079026905_1_alg».proof.Proof.KI.Reg1
import proofs.«421327_j56599079026905_1_alg».proof.Proof.KI.Reg2
import proofs.«421327_j56599079026905_1_alg».proof.Proof.KI.Reg3
import proofs.«421327_j56599079026905_1_alg».proof.Proof.KI.Reg4
import proofs.«421327_j56599079026905_1_alg».proof.Proof.KI.Reg5
import proofs.«421327_j56599079026905_1_alg».proof.Proof.KI.Reg6
import proofs.«421327_j56599079026905_1_alg».proof.Proof.KI.Reg7
import proofs.«421327_j56599079026905_1_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
theorem W1_of (c : Dev nD) (r : Ref sig .tc) (h : r ∉ hostOps0_W) : W1 m c r = W0 m c r :=
  StableHlo.after_of_writes_sub hostOps0 _ hostOps0_writes h
abbrev E1 : Entry F := fun c b => W1 m c b

def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb

abbrev W3 : Dev nD → Valuation τ sig (Elt F) := fun c => StableHlo.after hostOps1 (W2 m c)
theorem W3_of (c : Dev nD) (r : Ref sig .tc) (h : r ∉ hostOps1_W) : W3 m c r = W2 m c r :=
  StableHlo.after_of_writes_sub hostOps1 _ hostOps1_writes h

abbrev W4 : Dev nD → Valuation τ sig (Elt F) := fun c => StableHlo.after hostOps1_1 (W3 m c)
theorem W4_of (c : Dev nD) (r : Ref sig .tc) (h : r ∉ hostOps1_1_W) : W4 m c r = W3 m c r :=
  StableHlo.after_of_writes_sub hostOps1_1 _ hostOps1_1_writes h
abbrev E4 : Entry F := fun c b => W4 m c b

def W5 (c : Dev nD) : Valuation τ sig (Elt F) :=
  Pipeline.withArrays spec1 c (W4 m c) fun w => (dat1 (E4 m) c).arrAt w cfg1.N
theorem W5_arr (c : Dev nD) (w : Fin cfg1.W) :
    W5 m c (Proc.devRef .tc (Pipeline.arrRef spec1 w)) = (dat1 (E4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb

abbrev W6 : Dev nD → Valuation τ sig (Elt F) := fun c => StableHlo.after hostOps2 (W5 m c)
theorem W6_of (c : Dev nD) (r : Ref sig .tc) (h : r ∉ hostOps2_W) : W6 m c r = W5 m c r :=
  StableHlo.after_of_writes_sub hostOps2 _ hostOps2_writes h
abbrev E6 : Entry F := fun c b => W6 m c b

def W7 (c : Dev nD) : Valuation τ sig (Elt F) :=
  Pipeline.withArrays spec2 c (W6 m c) fun w => (dat2 (E6 m) c).arrAt w cfg2.N
theorem W7_arr (c : Dev nD) (w : Fin cfg2.W) :
    W7 m c (Proc.devRef .tc (Pipeline.arrRef spec2 w)) = (dat2 (E6 m) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb

abbrev W8 : Dev nD → Valuation τ sig (Elt F) := fun c => StableHlo.after hostOps3 (W7 m c)
theorem W8_of (c : Dev nD) (r : Ref sig .tc) (h : r ∉ hostOps3_W) : W8 m c r = W7 m c r :=
  StableHlo.after_of_writes_sub hostOps3 _ hostOps3_writes h

abbrev W9 : Dev nD → Valuation τ sig (Elt F) := fun c => StableHlo.after hostOps3_1 (W8 m c)
theorem W9_of (c : Dev nD) (r : Ref sig .tc) (h : r ∉ hostOps3_1_W) : W9 m c r = W8 m c r :=
  StableHlo.after_of_writes_sub hostOps3_1 _ hostOps3_1_writes h

abbrev W10 : Dev nD → Valuation τ sig (Elt F) := fun c => StableHlo.after hostOps3_2 (W9 m c)
theorem W10_of (c : Dev nD) (r : Ref sig .tc) (h : r ∉ hostOps3_2_W) : W10 m c r = W9 m c r :=
  StableHlo.after_of_writes_sub hostOps3_2 _ hostOps3_2_writes h
abbrev E10 : Entry F := fun c b => W10 m c b

def W11 (c : Dev nD) : Valuation τ sig (Elt F) :=
  Pipeline.withArrays spec3 c (W10 m c) fun w => (dat3 (E10 m) c).arrAt w cfg3.N
theorem W11_arr (c : Dev nD) (w : Fin cfg3.W) :
    W11 m c (Proc.devRef .tc (Pipeline.arrRef spec3 w)) = (dat3 (E10 m) c).arrAt w cfg3.N :=
  Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) :=
  Pipeline.withArrays_of_ne spec3 c _ _ b hb

abbrev W12 : Dev nD → Valuation τ sig (Elt F) := fun c => StableHlo.after hostOps4 (W11 m c)
theorem W12_of (c : Dev nD) (r : Ref sig .tc) (h : r ∉ hostOps4_W) : W12 m c r = W11 m c r :=
  StableHlo.after_of_writes_sub hostOps4 _ hostOps4_writes h
abbrev E12 : Entry F := fun c b => W12 m c b

def W13 (c : Dev nD) : Valuation τ sig (Elt F) :=
  Pipeline.withArrays spec4 c (W12 m c) fun w => (dat4 (E12 m) c).arrAt w cfg4.N
theorem W13_arr (c : Dev nD) (w : Fin cfg4.W) :
    W13 m c (Proc.devRef .tc (Pipeline.arrRef spec4 w)) = (dat4 (E12 m) c).arrAt w cfg4.N :=
  Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) :=
  Pipeline.withArrays_of_ne spec4 c _ _ b hb

abbrev W14 : Dev nD → Valuation τ sig (Elt F) := fun c => StableHlo.after hostOps5 (W13 m c)
theorem W14_of (c : Dev nD) (r : Ref sig .tc) (h : r ∉ hostOps5_W) : W14 m c r = W13 m c r :=
  StableHlo.after_of_writes_sub hostOps5 _ hostOps5_writes h

abbrev W15 : Dev nD → Valuation τ sig (Elt F) := fun c => StableHlo.after hostOps5_1 (W14 m c)
theorem W15_of (c : Dev nD) (r : Ref sig .tc) (h : r ∉ hostOps5_1_W) : W15 m c r = W14 m c r :=
  StableHlo.after_of_writes_sub hostOps5_1 _ hostOps5_1_writes h

abbrev W16 : Dev nD → Valuation τ sig (Elt F) := fun c => StableHlo.after hostOps5_2 (W15 m c)
theorem W16_of (c : Dev nD) (r : Ref sig .tc) (h : r ∉ hostOps5_2_W) : W16 m c r = W15 m c r :=
  StableHlo.after_of_writes_sub hostOps5_2 _ hostOps5_2_writes h
abbrev E16 : Entry F := fun c b => W16 m c b

def W17 (c : Dev nD) : Valuation τ sig (Elt F) :=
  Pipeline.withArrays spec5 c (W16 m c) fun w => (dat5 (E16 m) c).arrAt w cfg5.N
theorem W17_arr (c : Dev nD) (w : Fin cfg5.W) :
    W17 m c (Proc.devRef .tc (Pipeline.arrRef spec5 w)) = (dat5 (E16 m) c).arrAt w cfg5.N :=
  Pipeline.withArrays_arr spec5 launch5.win.arr_inj c _ _ w
theorem W17_of_ne (c : Dev nD) (b : Ref sig .tc) (hb : ∀ w, Pipeline.arrRef spec5 w ≠ b) :
    W17 m c (Proc.devRef .tc b) = W16 m c (Proc.devRef .tc b) :=
  Pipeline.withArrays_of_ne spec5 c _ _ b hb

abbrev W18 : Dev nD → Valuation τ sig (Elt F) := fun c => StableHlo.after hostOps6 (W17 m c)
theorem W18_of (c : Dev nD) (r : Ref sig .tc) (h : r ∉ hostOps6_W) : W18 m c r = W17 m c r :=
  StableHlo.after_of_writes_sub hostOps6 _ hostOps6_writes h
abbrev E18 : Entry F := fun c b => W18 m c b

def W19 (c : Dev nD) : Valuation τ sig (Elt F) :=
  Pipeline.withArrays spec6 c (W18 m c) fun w => (dat6 (E18 m) c).arrAt w cfg6.N
theorem W19_arr (c : Dev nD) (w : Fin cfg6.W) :
    W19 m c (Proc.devRef .tc (Pipeline.arrRef spec6 w)) = (dat6 (E18 m) c).arrAt w cfg6.N :=
  Pipeline.withArrays_arr spec6 launch6.win.arr_inj c _ _ w
theorem W19_of_ne (c : Dev nD) (b : Ref sig .tc) (hb : ∀ w, Pipeline.arrRef spec6 w ≠ b) :
    W19 m c (Proc.devRef .tc b) = W18 m c (Proc.devRef .tc b) :=
  Pipeline.withArrays_of_ne spec6 c _ _ b hb

abbrev W20 : Dev nD → Valuation τ sig (Elt F) := fun c => StableHlo.after hostOps7 (W19 m c)
theorem W20_of (c : Dev nD) (r : Ref sig .tc) (h : r ∉ hostOps7_W) : W20 m c r = W19 m c r :=
  StableHlo.after_of_writes_sub hostOps7 _ hostOps7_writes h

abbrev W21 : Dev nD → Valuation τ sig (Elt F) := fun c => StableHlo.after hostOps7_1 (W20 m c)
theorem W21_of (c : Dev nD) (r : Ref sig .tc) (h : r ∉ hostOps7_1_W) : W21 m c r = W20 m c r :=
  StableHlo.after_of_writes_sub hostOps7_1 _ hostOps7_1_writes h

abbrev W22 : Dev nD → Valuation τ sig (Elt F) := fun c => StableHlo.after hostOps7_2 (W21 m c)
theorem W22_of (c : Dev nD) (r : Ref sig .tc) (h : r ∉ hostOps7_2_W) : W22 m c r = W21 m c r :=
  StableHlo.after_of_writes_sub hostOps7_2 _ hostOps7_2_writes h
abbrev E22 : Entry F := fun c b => W22 m c b

def W23 (c : Dev nD) : Valuation τ sig (Elt F) :=
  Pipeline.withArrays spec7 c (W22 m c) fun w => (dat7 (E22 m) c).arrAt w cfg7.N
theorem W23_arr (c : Dev nD) (w : Fin cfg7.W) :
    W23 m c (Proc.devRef .tc (Pipeline.arrRef spec7 w)) = (dat7 (E22 m) c).arrAt w cfg7.N :=
  Pipeline.withArrays_arr spec7 launch7.win.arr_inj c _ _ w
theorem W23_of_ne (c : Dev nD) (b : Ref sig .tc) (hb : ∀ w, Pipeline.arrRef spec7 w ≠ b) :
    W23 m c (Proc.devRef .tc b) = W22 m c (Proc.devRef .tc b) :=
  Pipeline.withArrays_of_ne spec7 c _ _ b hb

abbrev W24 : Dev nD → Valuation τ sig (Elt F) := fun c => StableHlo.after hostOps8 (W23 m c)
theorem W24_of (c : Dev nD) (r : Ref sig .tc) (h : r ∉ hostOps8_W) : W24 m c r = W23 m c r :=
  StableHlo.after_of_writes_sub hostOps8 _ hostOps8_writes h

/-- Pipeline `p`'s proof data, at what its region is entered with. -/
def pdats : (p : Fin 8) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E4 m) c
  | ⟨2, _⟩ => fun c => dat2 (E6 m) c
  | ⟨3, _⟩ => fun c => dat3 (E10 m) c
  | ⟨4, _⟩ => fun c => dat4 (E12 m) c
  | ⟨5, _⟩ => fun c => dat5 (E16 m) c
  | ⟨6, _⟩ => fun c => dat6 (E18 m) c
  | ⟨7, _⟩ => fun c => dat7 (E22 m) c

end Cert.KernelIdeal.Hand

end
-- ==== Proof.KI.Regs.lean ====
import proofs.«421327_j56599079026905_1_alg».proof.Proof.KI.Chain
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The array of no output window holds after the region what it held before. -/
theorem keep_of {cfg : Cfg sig Λ₀} {c : Dev nD} {dat : Dat τ (Elt F) Unit ℕ (UR sig nD τ) ℕ cfg c} {V V' : Valuation τ sig (Elt F)}
    (harr : ∀ w, V' (Pipeline.arrRef cfg.spec w) = dat.arrAt w cfg.N)
    (hne : ∀ b : Ref sig .tc, (∀ w, Pipeline.arrRef cfg.spec w ≠ b) → V' b = V b)
    (hA : ∀ w, dat.A w = V (Pipeline.arrRef cfg.spec w)) (r : Ref sig .tc)
    (h : ∀ w, Pipeline.arrRef cfg.spec w = r → (cfg.win w).isOut = false) : V' r = V r := by
  by_cases hr : ∃ w, Pipeline.arrRef cfg.spec w = r
  · obtain ⟨w, rfl⟩ := hr
    rw [harr, Pipeline.Dat.arrAt_in dat w (h w rfl) cfg.N, hA]
  · exact hne r fun w e => hr ⟨w, e⟩

/-- A region as a segment between the thread states at `V` and at `V'`, which is `V` with the region's arrays at their final contents. -/
def regSeg {p : Fin 8} (lf : Pipeline.LaunchFacts (nD := nD) (τ := τ) cfgs p) (V V' : Dev nD → Valuation τ sig (Elt F))
    (hb : ∀ c, BodyObligation (pdats m p c) (defs₀ (F := F)) 𝒱₀ () Set.univ)
    (hΦ : ∀ c i, (pdats m p c).Φ i = Pipeline.ΦA (cfgs p).spec c) (hq : ∀ c w, (pdats m p c).q w = fullShare)
    (h0 : ∀ c i, (pdats m p c).owed i = 0) (hrec : ∀ c, (pdats m p c).recorded 0 = Set.univ)
    (hA : ∀ c w, (pdats m p c).A w = V c (Pipeline.arrRef (cfgs p).spec w))
    (hV' : ∀ c, V' c = Pipeline.withArrays (cfgs p).spec c (V c) fun w => (pdats m p c).arrAt w (cfgs p).N) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := T V
  post := T V'
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    rw [Pipeline.ownSems0_none]
    have hsplit := Pipeline.arrays_of_unscopedBufs (p := p) (pcfgs (F := F)) adm (pdats m) lf.win lf.arr_whole c
      ((pdats m p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h0 c 0, hrec c]
      icases HO with ⟨%S, HO⟩; iexists S; isplitr; · ipureintro; exact fun _ _ => Or.inl trivial
      iexact HO
    isplitl [Hp]; · iexact Hp
    iexact Hrest
  hin c := by
    rw [hΦ c 0]; unfold Pipeline.ΦA
    iintro ⟨Hp, -, Hr⟩; isplitl [Hr] <;> iassumption
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => V c b) (fun b => V' c b) ((pdats m p c).arrAt · (cfgs p).N)
      (fun w => ((congrFun (hV' c) _).trans (Pipeline.withArrays_arr (cfgs p).spec lf.win.arr_inj c (V c) (fun w => (pdats m p c).arrAt w (cfgs p).N) w)).symm)
      (fun b hb => (congrFun (hV' c) _).trans (Pipeline.withArrays_of_ne (cfgs p).spec c (V c) (fun w => (pdats m p c).arrAt w (cfgs p).N) b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [h0 c (Fin.last _)]
    icases HO with ⟨%S, -, HO⟩; iexists S; iexact HO

theorem W2_keep (c : Dev nD) (r : Ref sig .tc)
    (h : ∀ w : Fin cfg0.W, Pipeline.arrRef spec0 w = r → (cfg0.win w).isOut = false) : W2 m c r = W1 m c r :=
  keep_of (W2_arr m c) (W2_of_ne m c) (A_eq0 _ c) r h

def reg0 : Pipeline.RegionSeg (pcfgs (F := F)) adm (pdats m) () defs₀ 𝒱₀ L lv 0 :=
  regSeg m launch0 (W1 m) (W2 m) (body_obligation0 _) (Φ_eq0 _) (q_eq0 _) (owed_eq0 _)
    (fun _ => rfl) (A_eq0 _) fun _ => rfl

theorem W5_keep (c : Dev nD) (r : Ref sig .tc)
    (h : ∀ w : Fin cfg1.W, Pipeline.arrRef spec1 w = r → (cfg1.win w).isOut = false) : W5 m c r = W4 m c r :=
  keep_of (W5_arr m c) (W5_of_ne m c) (A_eq1 _ c) r h

def reg1 : Pipeline.RegionSeg (pcfgs (F := F)) adm (pdats m) () defs₀ 𝒱₀ L lv 1 :=
  regSeg m launch1 (W4 m) (W5 m) (body_obligation1 _) (Φ_eq1 _) (q_eq1 _) (owed_eq1 _)
    (fun _ => rfl) (A_eq1 _) fun _ => rfl

theorem W7_keep (c : Dev nD) (r : Ref sig .tc)
    (h : ∀ w : Fin cfg2.W, Pipeline.arrRef spec2 w = r → (cfg2.win w).isOut = false) : W7 m c r = W6 m c r :=
  keep_of (W7_arr m c) (W7_of_ne m c) (A_eq2 _ c) r h

def reg2 : Pipeline.RegionSeg (pcfgs (F := F)) adm (pdats m) () defs₀ 𝒱₀ L lv 2 :=
  regSeg m launch2 (W6 m) (W7 m) (body_obligation2 _) (Φ_eq2 _) (q_eq2 _) (owed_eq2 _)
    (fun _ => rfl) (A_eq2 _) fun _ => rfl

theorem W11_keep (c : Dev nD) (r : Ref sig .tc)
    (h : ∀ w : Fin cfg3.W, Pipeline.arrRef spec3 w = r → (cfg3.win w).isOut = false) : W11 m c r = W10 m c r :=
  keep_of (W11_arr m c) (W11_of_ne m c) (A_eq3 _ c) r h

def reg3 : Pipeline.RegionSeg (pcfgs (F := F)) adm (pdats m) () defs₀ 𝒱₀ L lv 3 :=
  regSeg m launch3 (W10 m) (W11 m) (body_obligation3 _) (Φ_eq3 _) (q_eq3 _) (owed_eq3 _)
    (fun _ => rfl) (A_eq3 _) fun _ => rfl

theorem W13_keep (c : Dev nD) (r : Ref sig .tc)
    (h : ∀ w : Fin cfg4.W, Pipeline.arrRef spec4 w = r → (cfg4.win w).isOut = false) : W13 m c r = W12 m c r :=
  keep_of (W13_arr m c) (W13_of_ne m c) (A_eq4 _ c) r h

def reg4 : Pipeline.RegionSeg (pcfgs (F := F)) adm (pdats m) () defs₀ 𝒱₀ L lv 4 :=
  regSeg m launch4 (W12 m) (W13 m) (body_obligation4 _) (Φ_eq4 _) (q_eq4 _) (owed_eq4 _)
    (fun _ => rfl) (A_eq4 _) fun _ => rfl

theorem W17_keep (c : Dev nD) (r : Ref sig .tc)
    (h : ∀ w : Fin cfg5.W, Pipeline.arrRef spec5 w = r → (cfg5.win w).isOut = false) : W17 m c r = W16 m c r :=
  keep_of (W17_arr m c) (W17_of_ne m c) (A_eq5 _ c) r h

def reg5 : Pipeline.RegionSeg (pcfgs (F := F)) adm (pdats m) () defs₀ 𝒱₀ L lv 5 :=
  regSeg m launch5 (W16 m) (W17 m) (body_obligation5 _) (Φ_eq5 _) (q_eq5 _) (owed_eq5 _)
    (fun _ => rfl) (A_eq5 _) fun _ => rfl

theorem W19_keep (c : Dev nD) (r : Ref sig .tc)
    (h : ∀ w : Fin cfg6.W, Pipeline.arrRef spec6 w = r → (cfg6.win w).isOut = false) : W19 m c r = W18 m c r :=
  keep_of (W19_arr m c) (W19_of_ne m c) (A_eq6 _ c) r h

def reg6 : Pipeline.RegionSeg (pcfgs (F := F)) adm (pdats m) () defs₀ 𝒱₀ L lv 6 :=
  regSeg m launch6 (W18 m) (W19 m) (body_obligation6 _) (Φ_eq6 _) (q_eq6 _) (owed_eq6 _)
    (fun _ => rfl) (A_eq6 _) fun _ => rfl

theorem W23_keep (c : Dev nD) (r : Ref sig .tc)
    (h : ∀ w : Fin cfg7.W, Pipeline.arrRef spec7 w = r → (cfg7.win w).isOut = false) : W23 m c r = W22 m c r :=
  keep_of (W23_arr m c) (W23_of_ne m c) (A_eq7 _ c) r h

def reg7 : Pipeline.RegionSeg (pcfgs (F := F)) adm (pdats m) () defs₀ 𝒱₀ L lv 7 :=
  regSeg m launch7 (W22 m) (W23 m) (body_obligation7 _) (Φ_eq7 _) (q_eq7 _) (owed_eq7 _)
    (fun _ => rfl) (A_eq7 _) fun _ => rfl

end Cert.KernelIdeal.Hand

end
-- ==== Proof.KI.RunTab.lean ====
import proofs.«421327_j56599079026905_1_alg».proof.Proof.KI.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)),
    .host (hseg hostOps3_1 hostOps3_1_sub hostOps3_1_fresh (W8 m)),
    .host (hseg hostOps3_2 hostOps3_2_sub hostOps3_2_fresh (W9 m)),
    .region (reg3 m),
    .host (hseg hostOps4 hostOps4_sub hostOps4_fresh (W11 m)),
    .region (reg4 m),
    .host (hseg hostOps5 hostOps5_sub hostOps5_fresh (W13 m)),
    .host (hseg hostOps5_1 hostOps5_1_sub hostOps5_1_fresh (W14 m)),
    .host (hseg hostOps5_2 hostOps5_2_sub hostOps5_2_fresh (W15 m)),
    .region (reg5 m),
    .host (hseg hostOps6 hostOps6_sub hostOps6_fresh (W17 m)),
    .region (reg6 m),
    .host (hseg hostOps7 hostOps7_sub hostOps7_fresh (W19 m)),
    .host (hseg hostOps7_1 hostOps7_1_sub hostOps7_1_fresh (W20 m)),
    .host (hseg hostOps7_2 hostOps7_2_sub hostOps7_2_fresh (W21 m)),
    .region (reg7 m),
    .host (hseg hostOps8 hostOps8_sub hostOps8_fresh (W23 m)) ]

theorem segs_prog : (segs m).map Pipeline.Seg.prog = [
    StableHlo.seq hostOps0,
    Prog.lift (.customCall (Pipeline.entry 0) ()),
    StableHlo.seq hostOps1,
    StableHlo.seq hostOps1_1,
    Prog.lift (.customCall (Pipeline.entry 1) ()),
    StableHlo.seq hostOps2,
    Prog.lift (.customCall (Pipeline.entry 2) ()),
    StableHlo.seq hostOps3,
    StableHlo.seq hostOps3_1,
    StableHlo.seq hostOps3_2,
    Prog.lift (.customCall (Pipeline.entry 3) ()),
    StableHlo.seq hostOps4,
    Prog.lift (.customCall (Pipeline.entry 4) ()),
    StableHlo.seq hostOps5,
    StableHlo.seq hostOps5_1,
    StableHlo.seq hostOps5_2,
    Prog.lift (.customCall (Pipeline.entry 5) ()),
    StableHlo.seq hostOps6,
    Prog.lift (.customCall (Pipeline.entry 6) ()),
    StableHlo.seq hostOps7,
    StableHlo.seq hostOps7_1,
    StableHlo.seq hostOps7_2,
    Prog.lift (.customCall (Pipeline.entry 7) ()),
    StableHlo.seq hostOps8 ] := rfl

theorem segs_nodup : (Pipeline.Seg.pipes (segs m)).Nodup := by
  simp only [segs, Pipeline.Seg.pipes_host, Pipeline.Seg.pipes_region, Pipeline.Seg.pipes_nil]; decide

/-- No output window of the pipeline has `r` as its array. -/
def NoOut (cfg : Cfg sig Λ₀) (r : Ref sig .tc) : Prop := ∀ w, Pipeline.arrRef cfg.spec w = r → (cfg.win w).isOut = false
instance (cfg : Cfg sig Λ₀) (r : Ref sig .tc) : Decidable (NoOut cfg r) := by unfold NoOut; infer_instance

/-- No item of @main changes `r`: it is in no host stretch's write set and is no output window's array. -/
abbrev Unwritten (r : Ref sig .tc) : Prop :=
  r ∉ hostOps0_W ∧ NoOut cfg0 r ∧ r ∉ hostOps1_W ∧ r ∉ hostOps1_1_W ∧ NoOut cfg1 r ∧ r ∉ hostOps2_W ∧ NoOut cfg2 r ∧ r ∉ hostOps3_W ∧ r ∉ hostOps3_1_W ∧ r ∉ hostOps3_2_W ∧ NoOut cfg3 r ∧ r ∉ hostOps4_W ∧ NoOut cfg4 r ∧ r ∉ hostOps5_W ∧ r ∉ hostOps5_1_W ∧ r ∉ hostOps5_2_W ∧ NoOut cfg5 r ∧ r ∉ hostOps6_W ∧ NoOut cfg6 r ∧ r ∉ hostOps7_W ∧ r ∉ hostOps7_1_W ∧ r ∉ hostOps7_2_W ∧ NoOut cfg7 r ∧ r ∉ hostOps8_W

/-- Such a buffer ends as launched: item by item its contents stay what they were. -/
theorem W24_unwritten (c : Dev nD) (r : Ref sig .tc) (h : Unwritten r) : W24 m c r = m ((c : Thread nD τ).loc r) := by
  obtain ⟨h0, h1, h2, h3, h4, h5, h6, h7, h8, h9, h10, h11, h12, h13, h14, h15, h16, h17, h18, h19, h20, h21, h22, h23⟩ := h
  exact (W24_of m c r h23).trans <| (W23_keep m c r h22).trans <| (W22_of m c r h21).trans <| (W21_of m c r h20).trans <| (W20_of m c r h19).trans <| (W19_keep m c r h18).trans <| (W18_of m c r h17).trans <| (W17_keep m c r h16).trans <| (W16_of m c r h15).trans <| (W15_of m c r h14).trans <| (W14_of m c r h13).trans <| (W13_keep m c r h12).trans <| (W12_of m c r h11).trans <| (W11_keep m c r h10).trans <| (W10_of m c r h9).trans <| (W9_of m c r h8).trans <| (W8_of m c r h7).trans <| (W7_keep m c r h6).trans <| (W6_of m c r h5).trans <| (W5_keep m c r h4).trans <| (W4_of m c r h3).trans <| (W3_of m c r h2).trans <| (W2_keep m c r h1).trans <| (W1_of m c r h0)

end Cert.KernelIdeal.Hand

end
-- ==== Proof.KI.Run.lean ====
import proofs.«421327_j56599079026905_1_alg».proof.Proof.KI.RunTab

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The generator register is dropped at the end; the debt, nothing, stays. -/
theorem R_owes (c : Dev nD) : (R (F := F) c) ⊢ iprop(∃ W, owes (c : Thread nD τ) (0 : CellTallies nD τ sig Unit) W) := by
  iintro ⟨-, HO⟩; iexact HO

set_option backward.isDefEq.respectTransparency.types false in
/-- Every weakly fair execution of @main terminates with each unscoped buffer at the last boundary's contents. -/
theorem run_all (ρ : Dev nD → PrngReg) :
    θ_run (defs (F := F)) (onTc (τ := τ) (main (F := F))) ⟨m, fun _ => 0, ρ⟩
      (fun r => ∀ c : Dev nD, ∀ b ∈ Pipeline.ucRefs τ sig, r.2.mem ((c : Thread nD τ).1, b) = W24 m c b) :=
  Pipeline.θ_run_regions_kit (pcfgs (F := F)) adm (pdats m) () cellOf_inj emb₁ defs₀ 𝒱₀ L lv m ρ main (segs m)
    (fun c Q => by
      rewrite [main_chain c, Pipeline.Seg.run_eq_chain, segs_prog m]
      exact .rfl)
    (segs_nodup m)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := fun c => StableHlo.held (c : Thread nD τ) (Pipeline.ucRefs τ sig) (W24 m c))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m c b)
    (hfin := fun c s' => by
      iintro ⟨Hh, HSI⟩
      unfold StableHlo.held
      imodintro
      iapply (pointsTo_read_all (Pipeline.ucRefs τ sig) (fun b => (((c : Thread nD τ)).1, b)) (W24 m c) s')
      isplitl [Hh] <;> iassumption)
    (hQ := fun s h => h)

/-- The run read at the result and at each argument: an argument is held to the end and no item writes it. -/
theorem run_result (ρ : Dev nD → PrngReg) :
    θ_run (defs (F := F)) (onTc (τ := τ) (main (F := F))) ⟨m, fun _ => 0, ρ⟩ (fun r => ∀ c : Dev nD,
      r.2.mem ((c.tc : Thread nD τ).loc main_v132) = W24 m c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  OrdCont.mono (θ_run (defs (F := F)) (onTc (τ := τ) (main (F := F))) ⟨m, fun _ => 0, ρ⟩)
    (fun r h c =>
      have k : ∀ a : Ref sig .tc, ¬ (Proc.devRef .tc a : DevRef τ sig).isScoped → Unwritten a →
          r.2.mem ((c.tc : Thread nD τ).loc a) = m ((c.tc : Thread nD τ).loc a) :=
        fun a hs hu => (h c _ (mem_uc a hs)).trans (W24_unwritten m c a hu)
      ⟨h c _ (mem_uc main_v132 (by decide)), k main_arg0 (by decide) (by decide),
        k main_arg1 (by decide) (by decide),
        k main_arg2 (by decide) (by decide),
        k main_arg3 (by decide) (by decide),
        k main_arg4 (by decide) (by decide),
        k main_arg5 (by decide) (by decide),
        k main_arg6 (by decide) (by decide),
        k main_arg7 (by decide) (by decide),
        k main_arg8 (by decide) (by decide),
        k main_arg9 (by decide) (by decide),
        k main_arg10 (by decide) (by decide),
        k main_arg11 (by decide) (by decide),
        k main_arg12 (by decide) (by decide)⟩)
    (run_all m ρ)

theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  OrdCont.mono (θ_run (defs (F := F)) (onTc (τ := τ) (main (F := F))) ⟨m, fun _ => 0, ρ⟩)
    (fun r h c => (h c).2) (run_result m ρ)

end Cert.KernelIdeal.Hand

end
-- ==== Proof.KI.HostFns.lean ====
import proofs.«421327_j56599079026905_1_alg».proof.Proof.KI.Base
import proofs.«421327_j56599079026905_1_alg».proof.Proof.Gen.KernelIdeal

noncomputable section

namespace Cert.KernelIdeal.Hand

open Cert.KernelIdeal Cert.KernelIdeal.Gen
open Idealize.ShloMosaic Idealize.ShloMosaic.TcCoe Idealize.SL.Sem

variable {F : FTy → Type} [FloatOps F]

def kmean (z : FVec F S50000x64 .f32) : FVec F S1x64 .f32 :=
  Host.divf (broadcastInDim S1x64 ![1] bcast_S64_S1x64_1 (Host.reduceAdd z (constant (F := F) S_ .f32 0x00000000#32) reducesTo_S50000x64_S64_d0 h_S_))
    (broadcastInDim S1x64 ![] bcast_S_S1x64 (constant (F := F) S_ .f32 0x47435000#32))

def kvar (z : FVec F S50000x64 .f32) : FVec F S1x64 .f32 :=
  select (broadcastInDim S1x64 ![] bcast_S_S1x64
      (cmpf .ogt (subf (constant (F := F) S_ .f32 0x47435000#32) (sitofp (F := F) .f32 (constantI S_ 32 0#32))) (constant (F := F) S_ .f32 0x00000000#32)))
    (Host.divf
      (broadcastInDim S1x64 ![1] bcast_S64_S1x64_1
        (Host.reduceAdd
          (mulf (subf z (broadcastInDim S50000x64 ![0, 1] bcast_S1x64_S50000x64_0_1 (kmean z)))
            (subf z (broadcastInDim S50000x64 ![0, 1] bcast_S1x64_S50000x64_0_1 (kmean z))))
          (constant (F := F) S_ .f32 0x00000000#32) reducesTo_S50000x64_S64_d0 h_S_))
      (broadcastInDim S1x64 ![] bcast_S_S1x64 (subf (constant (F := F) S_ .f32 0x47435000#32) (sitofp (F := F) .f32 (constantI S_ 32 0#32)))))
    (broadcastInDim S1x64 ![] bcast_S_S1x64 (id (constant (F := F) S_ .f32 0x7FC00000#32)))

end Cert.KernelIdeal.Hand

end
-- ==== Proof.Spec.lean ====
import proofs.«421327_j56599079026905_1_alg».proof.ReferenceIdeal

noncomputable section

namespace Cert.Spec

open Idealize.ShloMosaic Cert.ReferenceIdeal
open Cert.ReferenceIdeal.Facts₀

variable {F : FTy → Type} [FloatOps F] [Cert.ReferenceIdeal.Facts]

abbrev rows (v : FVec F S64 .f32) : FVec F S50000x64 .f32 :=
  broadcastInDim S50000x64 ![0, 1] bcast_S1x64_S50000x64_0_1 (broadcastInDim S1x64 ![1] bcast_S64_S1x64_1 v)

/-- The linear input layer x · Wt + bt. -/
def lin (x : FVec F S50000x128 .f32) (Wt : FVec F S128x64 .f32) (bt : FVec F S64 .f32) : FVec F S50000x64 .f32 :=
  addf (Host.dotGeneral dot_S50000x128_S128x64_S50000x64_1_0_0_1_n_n none x Wt) (rows bt)

/-- The mean of each column over the 50000 rows, -/
def mean (z : FVec F S50000x64 .f32) : FVec F S64 .f32 :=
  Host.divf (Host.reduceAdd z (constant (F := F) S_ .f32 0x00000000#32) reducesTo_S50000x64_S64_d0 h_S_)
    (broadcastInDim S64 ![] bcast_S_S64 (constant (F := F) S_ .f32 0x47435000#32))

/-- and its variance about that mean. -/
def var (z : FVec F S50000x64 .f32) : FVec F S64 .f32 :=
  select (broadcastInDim S64 ![] bcast_S_S64
      (cmpf .ogt (subf (constant (F := F) S_ .f32 0x47435000#32) (sitofp (F := F) .f32 (constantI S_ 32 0#32))) (constant (F := F) S_ .f32 0x00000000#32)))
    (Host.divf
      (Host.reduceAdd
        (mulf
          (subf z (broadcastInDim S50000x64 ![0, 1] bcast_S1x64_S50000x64_0_1
            (Host.divf (broadcastInDim S1x64 ![1] bcast_S64_S1x64_1 (Host.reduceAdd z (constant (F := F) S_ .f32 0x00000000#32) reducesTo_S50000x64_S64_d0 h_S_))
              (broadcastInDim S1x64 ![] bcast_S_S1x64 (constant (F := F) S_ .f32 0x47435000#32)))))
          (subf z (broadcastInDim S50000x64 ![0, 1] bcast_S1x64_S50000x64_0_1
            (Host.divf (broadcastInDim S1x64 ![1] bcast_S64_S1x64_1 (Host.reduceAdd z (constant (F := F) S_ .f32 0x00000000#32) reducesTo_S50000x64_S64_d0 h_S_))
              (broadcastInDim S1x64 ![] bcast_S_S1x64 (constant (F := F) S_ .f32 0x47435000#32))))))
        (constant (F := F) S_ .f32 0x00000000#32) reducesTo_S50000x64_S64_d0 h_S_)
      (broadcastInDim S64 ![] bcast_S_S64 (subf (constant (F := F) S_ .f32 0x47435000#32) (sitofp (F := F) .f32 (constantI S_ 32 0#32)))))
    (broadcastInDim S64 ![] bcast_S_S64 (id (constant (F := F) S_ .f32 0x7FC00000#32)))

/-- Batch normalisation, column by column: (z − mean) · (var + ε)^(−1/2) · γ + β. -/
def bn (z : FVec F S50000x64 .f32) (γ β : FVec F S64 .f32) : FVec F S50000x64 .f32 :=
  addf
    (mulf
      (mulf (subf z (rows (mean z)))
        (rows (Host.rsqrt (addf (var z) (broadcastInDim S64 ![] bcast_S_S64 (constant (F := F) S_ .f32 0x3727C5AC#32))))))
      (rows γ))
    (rows β)

def relu (y : FVec F S50000x64 .f32) : FVec F S50000x64 .f32 :=
  maximumf y (broadcastInDim S50000x64 ![] bcast_S_S50000x64 (constant (F := F) S_ .f32 0x00000000#32))

/-- The number of rows of each graph, at least one. -/
def counts (batch : IVec S50000 32) : FVec F S512x1 .f32 :=
  maximumf
    (Host.scatterAdd scatter_S512x1_S50000x1_S50000x1_1_0_0_1
      (broadcastInDim S512x1 ![] bcast_S_S512x1 (constant (F := F) S_ .f32 0x00000000#32))
      (broadcastInDim S50000x1 ![0] bcast_S50000_S50000x1_0 batch)
      (broadcastInDim S50000x1 ![] bcast_S_S50000x1 (constant (F := F) S_ .f32 0x3F800000#32)))
    (broadcastInDim S512x1 ![] bcast_S_S512x1 (constant (F := F) S_ .f32 0x3F800000#32))

def poolSum (h : FVec F S50000x64 .f32) (batch : IVec S50000 32) : FVec F S512x64 .f32 :=
  Host.scatterAdd scatter_S512x64_S50000x1_S50000x64_1_0_0_1
    (broadcastInDim S512x64 ![] bcast_S_S512x64 (constant (F := F) S_ .f32 0x00000000#32))
    (broadcastInDim S50000x1 ![0] bcast_S50000_S50000x1_0 batch) h

def perCount (s : FVec F S512x64 .f32) (batch : IVec S50000 32) : FVec F S512x64 .f32 :=
  Host.divf s (broadcastInDim S512x64 ![0, 1] bcast_S512x1_S512x64_0_1 (counts batch))

/-- The mean of the rows of each graph. -/
def pool (h : FVec F S50000x64 .f32) (batch : IVec S50000 32) : FVec F S512x64 .f32 :=
  perCount (poolSum h batch) batch

def src (ei : IVec S2x800000 32) : IVec S800000 32 :=
  shapeCast S800000 (extractStridedSlice S1x800000 ![0, 0] ei slices_S2x800000_S1x800000_0_0) shapeCasts_S1x800000_S800000
def dst (ei : IVec S2x800000 32) : IVec S800000 32 :=
  shapeCast S800000 (extractStridedSlice S1x800000 ![1, 0] ei slices_S2x800000_S1x800000_1_0) shapeCasts_S1x800000_S800000

/-- The neighbourhood sum: row d receives row s for every edge (s, d); a negative s counts from the end. -/
def agg (h : FVec F S50000x64 .f32) (ei : IVec S2x800000 32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 (dst ei))
    (Host.gather gather_S50000x64_S800000x1_S800000x64_1_0_n_n_0_1_164 h
      (broadcastInDim S800000x1 ![0] bcast_S800000_S800000x1_0
        (select (cmpi .slt (src ei) (broadcastInDim S800000 ![] bcast_S_S800000 (constantI S_ 32 0#32)))
          (addi (src ei) (broadcastInDim S800000 ![] bcast_S_S800000 (constantI S_ 32 50000#32)))
          (src ei))))

def affine (y : FVec F S50000x64 .f32) (W : FVec F S64x64 .f32) (b : FVec F S64 .f32) : FVec F S50000x64 .f32 :=
  addf (Host.dotGeneral dot_S50000x64_S64x64_S50000x64_1_0_0_1_n_n none y W) (rows b)

/-- The two-layer perceptron relu((h + a) · W1 + b1) · W2 + b2. -/
def mlp (h a : FVec F S50000x64 .f32) (W1 : FVec F S64x64 .f32) (b1 : FVec F S64 .f32) (W2 : FVec F S64x64 .f32)
    (b2 : FVec F S64 .f32) : FVec F S50000x64 .f32 :=
  affine (relu (affine (addf h a) W1 b1)) W2 b2

def mat0 (W : FVec F S3x64x64 .f32) : FVec F S64x64 .f32 :=
  shapeCast S64x64 (extractStridedSlice S1x64x64 ![0, 0, 0] W slices_S3x64x64_S1x64x64_0_0_0) shapeCasts_S1x64x64_S64x64
def mat1 (W : FVec F S3x64x64 .f32) : FVec F S64x64 .f32 :=
  shapeCast S64x64 (extractStridedSlice S1x64x64 ![1, 0, 0] W slices_S3x64x64_S1x64x64_1_0_0) shapeCasts_S1x64x64_S64x64
def mat2 (W : FVec F S3x64x64 .f32) : FVec F S64x64 .f32 :=
  shapeCast S64x64 (extractStridedSlice S1x64x64 ![2, 0, 0] W slices_S3x64x64_S1x64x64_2_0_0) shapeCasts_S1x64x64_S64x64
def vec0 (b : FVec F S3x64 .f32) : FVec F S64 .f32 :=
  shapeCast S64 (extractStridedSlice S1x64 ![0, 0] b slices_S3x64_S1x64_0_0) shapeCasts_S1x64_S64
def vec1 (b : FVec F S3x64 .f32) : FVec F S64 .f32 :=
  shapeCast S64 (extractStridedSlice S1x64 ![1, 0] b slices_S3x64_S1x64_1_0) shapeCasts_S1x64_S64
def vec2 (b : FVec F S3x64 .f32) : FVec F S64 .f32 :=
  shapeCast S64 (extractStridedSlice S1x64 ![2, 0] b slices_S3x64_S1x64_2_0) shapeCasts_S1x64_S64

/-- One round: neighbourhood sum, perceptron, normalisation, rectifier. -/
def round (h : FVec F S50000x64 .f32) (ei : IVec S2x800000 32) (W1 : FVec F S64x64 .f32) (b1 : FVec F S64 .f32)
    (W2 : FVec F S64x64 .f32) (b2 γ β : FVec F S64 .f32) : FVec F S50000x64 .f32 :=
  relu (bn (mlp h (agg h ei) W1 b1 W2 b2) γ β)

def h0 (x : FVec F S50000x128 .f32) (Wt : FVec F S128x64 .f32) (bt gt bet : FVec F S64 .f32) : FVec F S50000x64 .f32 :=
  bn (lin x Wt bt) gt bet

def stack (p0 p1 p2 p3 : FVec F S512x64 .f32) : FVec F S4x512x64 .f32 :=
  concatenate S4x512x64 0
    [⟨S1x512x64, broadcastInDim S1x512x64 ![1, 2] bcast_S512x64_S1x512x64_1_2 p0⟩,
     ⟨S1x512x64, broadcastInDim S1x512x64 ![1, 2] bcast_S512x64_S1x512x64_1_2 p1⟩,
     ⟨S1x512x64, broadcastInDim S1x512x64 ![1, 2] bcast_S512x64_S1x512x64_1_2 p2⟩,
     ⟨S1x512x64, broadcastInDim S1x512x64 ![1, 2] bcast_S512x64_S1x512x64_1_2 p3⟩]
    concatenates_S1x512x64_S1x512x64_S1x512x64_S1x512x64_S4x512x64_d0

/-- The network: the per-graph means of the node states after the input layer and after each of the three rounds. -/
def out (x : FVec F S50000x128 .f32) (ei : IVec S2x800000 32) (batch : IVec S50000 32) (Wt : FVec F S128x64 .f32)
    (bt gt bet : FVec F S64 .f32) (W1 : FVec F S3x64x64 .f32) (b1 : FVec F S3x64 .f32) (W2 : FVec F S3x64x64 .f32)
    (b2 g be : FVec F S3x64 .f32) : FVec F S4x512x64 .f32 :=
  let s0 := h0 x Wt bt gt bet
  let s1 := round s0 ei (mat0 W1) (vec0 b1) (mat0 W2) (vec0 b2) (vec0 g) (vec0 be)
  let s2 := round s1 ei (mat1 W1) (vec1 b1) (mat1 W2) (vec1 b2) (vec1 g) (vec1 be)
  let s3 := round s2 ei (mat2 W1) (vec2 b1) (mat2 W2) (vec2 b2) (vec2 g) (vec2 be)
  stack (pool s0 batch) (pool s1 batch) (pool s2 batch) (pool s3 batch)

end Cert.Spec

end
-- ==== Proof.LibRowLayers.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- An index below the extent is itself whether or not the extent is one. -/
theorem val_eq_clamp {d : ℕ} (r : Fin d) : r.val = if d = 1 then 0 else r.val := by
  split
  · have := r.isLt; omega
  · rfl

theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ => exact val_eq_clamp r
  | ⟨1, _⟩ => rfl

theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ => exact val_eq_clamp j

theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ => exact val_eq_clamp r

theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ => exact val_eq_clamp j

def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

end RowsLemmas

end RowLayers

end
-- ==== Proof.LibBlocks.lean ====
import proofs.«421327_j56599079026905_1_alg».proof.Proof.LibRowLayers

noncomputable section

namespace RowLayers

open Idealize.ShloMosaic Idealize.ShloMosaic.ValueIdx

/-- An array read through an index map that moves no coordinate is the array. -/
theorem read_fix {S : Shape} {α : Type} {X : S.Idx → α} {E : S.Idx → S.Idx} (h : ∀ z a, (E z a : ℕ) = z a) : (fun z => X (E z)) = X :=
  funext fun z => congrArg X (funext fun a => Fin.ext (h z a))

/-- The index map of a block of mb rows at block index (t, 0) sends (p, c) to (σ p, c) when σ p = mb·t + p. -/
theorem emb_rows {mb M k : ℕ} {σ : Fin mb → Fin M} {E : (⟨2, ![mb, k]⟩ : Shape).Idx → (⟨2, ![M, k]⟩ : Shape).Idx} (i : Fin 2 → ℕ)
    (hE : ∀ y a, (E y a : ℕ) = i a * (⟨2, ![mb, k]⟩ : Shape).size a + y a) {t : ℕ} (h0 : i 0 = t) (hσ : ∀ p, (σ p : ℕ) = mb * t + p) (h1 : i 1 = 0)
    (p : Fin mb) (c : Fin k) : E (ix2 p c) = ix2 (σ p) c :=
  funext fun a => Fin.ext (by
    rw [hE]
    match a with
    | ⟨0, _⟩ => show i 0 * mb + p.val = (σ p).val; rw [h0, hσ, Nat.mul_comm]
    | ⟨1, _⟩ => show i 1 * k + c.val = c.val; rw [h1, Nat.zero_mul, Nat.zero_add])

/-- Read through such a map, an array gives its σ-rows; -/
theorem read_rows {mb M k : ℕ} {σ : Fin mb → Fin M} {X : (⟨2, ![M, k]⟩ : Shape).Idx → EReal} {E : (⟨2, ![mb, k]⟩ : Shape).Idx → (⟨2, ![M, k]⟩ : Shape).Idx}
    (i : Fin 2 → ℕ) (hE : ∀ y a, (E y a : ℕ) = i a * (⟨2, ![mb, k]⟩ : Shape).size a + y a) {t : ℕ} (h0 : i 0 = t) (hσ : ∀ p, (σ p : ℕ) = mb * t + p)
    (h1 : i 1 = 0) : Rows σ (fun y => X (E y)) X :=
  fun p c => congrArg X (emb_rows i hE h0 hσ h1 p c)

/-- and a block whose rows are the σ-rows of an array is the array read through it. -/
theorem eq_read {mb M k : ℕ} {σ : Fin mb → Fin M} {x : (⟨2, ![mb, k]⟩ : Shape).Idx → EReal} {X : (⟨2, ![M, k]⟩ : Shape).Idx → EReal}
    (E : (⟨2, ![mb, k]⟩ : Shape).Idx → (⟨2, ![M, k]⟩ : Shape).Idx) (hr : Rows σ (fun y => X (E y)) X) (hx : Rows σ x X) : x = fun y => X (E y) :=
  funext fun y => by rw [eq_ix2 y]; exact (hx _ _).trans (hr _ _).symm

end RowLayers

end
-- ==== Proof.KI.Val0.lean ====
import proofs.«421327_j56599079026905_1_alg».proof.Proof.KI.Reg0
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.KernelVsHost

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx

namespace Layer0

/-- Entry (r, j) of what a point stores: Σ_k x0[r,k]·x1[k,j] + x2[0,j] (narrowing is the identity on exact values). -/
theorem pay_apply (x0 : FVec Ideal S5000x128 .f32) (x1 : FVec Ideal S128x64 .f32) (x2 : FVec Ideal S1x64 .f32)
    (r : Fin 5000) (j : Fin 64) :
    k0_pay1 (F := Ideal) x0 x1 x2 (ix2 r j) = (∑ k : Fin 128, x0 (ix2 r k) * x1 (ix2 k j)) + x2 (ix2 (0 : Fin 1) j) := by
  show addf (matmul dot_S5000x128_S128x64_S5000x64_1_0_0_1_n_n none (truncf .bf16 x0 bitsLt_bf16_f32) (truncf .bf16 x1 bitsLt_bf16_f32)
        (constant S5000x64 .f32 0x00000000#32))
      (broadcastTo S5000x64 (shapeCast S1x64 x2 shapeCasts_S1x64_S1x64) broadcasts_S1x64_S5000x64) (ix2 r j) = _
  rw [addf_apply]
  refine congrArg₂ (· + ·) ?_ ?_
  · rw [matmul_zero_eq_dotGeneral]
    exact StackMember.dotGeneral_plain_apply none (truncf .bf16 x0 bitsLt_bf16_f32) (truncf .bf16 x1 bitsLt_bf16_f32) r j
  · rw [broadcastTo_1b_ab_apply, shapeCast_self]

/-- Entry (R, j) of the whole-array layer: Σ_k x[R,k]·Wt[k,j] + bt[j]. -/
theorem lin_apply (x : FVec Ideal S50000x128 .f32) (Wt : FVec Ideal S128x64 .f32) (bt : FVec Ideal S64 .f32)
    (R : Fin 50000) (j : Fin 64) :
    Cert.Spec.lin x Wt bt (ix2 R j) = (∑ k : Fin 128, x (ix2 R k) * Wt (ix2 k j)) + bt (ix1 j) := by
  unfold Cert.Spec.lin Cert.Spec.rows
  rw [addf_apply, RowLayers.rowDown_apply, RowLayers.rowBroadcast_apply]
  exact congrArg (· + bt (ix1 j)) (StackMember.dotGeneral_plain_apply none x Wt R j)

/-- If a point's blocks are rows 5000·n … of x, Wt itself and bt as one row, entry y of what it stores is the layer's entry at row 5000·n + y₀, column y₁. -/
theorem point_entry (x : FVec Ideal S50000x128 .f32) (Wt : FVec Ideal S128x64 .f32) (bt : FVec Ideal S64 .f32)
    (x0 : FVec Ideal S5000x128 .f32) (x1 : FVec Ideal S128x64 .f32) (x2 : FVec Ideal S1x64 .f32) (n : ℕ)
    (h0 : ∀ (r : Fin 5000) (k : Fin 128) (R : Fin 50000), R.val = n * 5000 + r.val → x0 (ix2 r k) = x (ix2 R k))
    (h1 : x1 = Wt) (h2 : ∀ j : Fin 64, x2 (ix2 (0 : Fin 1) j) = bt (ix1 j))
    (y : S5000x64.Idx) (i : S50000x64.Idx) (hi0 : (i 0).val = n * 5000 + (y 0).val) (hi1 : (i 1).val = (y 1).val) :
    k0_pay1 (F := Ideal) x0 x1 x2 y = Cert.Spec.lin x Wt bt i := by
  obtain ⟨p, q, rfl⟩ : ∃ (p : Fin 5000) (q : Fin 64), y = ix2 p q := ⟨y 0, y 1, eq_ix2 y⟩
  obtain ⟨R, Q, rfl⟩ : ∃ (R : Fin 50000) (Q : Fin 64), i = ix2 R Q := ⟨i 0, i 1, eq_ix2 i⟩
  obtain rfl : Q = q := Fin.ext hi1
  rw [pay_apply, lin_apply, h1, h2]
  exact congrArg (· + bt (ix1 Q)) (Finset.sum_congr rfl fun k _ => by rw [h0 p k R hi0])

theorem hz : (![0, 0] : Fin 2 → Nat) = fun _ => 0 := funext fun a => by fin_cases a <;> rfl

/-- The windows of x and of the result sit at block t along the rows; -/
theorem idxRows : ∀ t : Fin cfg0.N, (win0_0.index t (0 : Fin 2) = t.val ∧ win0_0.index t (1 : Fin 2) = 0)
    ∧ win0_3.index t (0 : Fin 2) = t.val ∧ win0_3.index t (1 : Fin 2) = 0 :=
  (by decide +kernel : ∀ t : Fin grid0.N, _)

/-- the weights' and the bias' one block sits at zero. -/
theorem idxZero : ∀ (t : Fin cfg0.N) (a : Fin 2), win0_1.index t a = 0 ∧ win0_2.index t a = 0 :=
  (by decide +kernel : ∀ t : Fin grid0.N, _)

/-- Point t's block of the result is block t of the whole-array layer of the arrays the region finds. -/
theorem flushed_eq (V : Entry Ideal) (c : Dev nD) (bt : FVec Ideal S64 .f32)
    (hb : V c main_v11 = shapeCast S1x64 bt shapeCasts_S64_S1x64) (t : Fin cfg0.N) :
    (dat0 V c).flushed 3 t
      = ((cfg0.win 3).blk t).view.read (Elt Ideal) (Cert.Spec.lin (V c main_arg0) (V c main_arg3) bt) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨⟨e00, e01⟩, e30, e31⟩ := idxRows t
  have hz0 := idxZero t
  rw [show iblk0 V c 1 t = V c main_arg3 from RowLayers.read_fix fun z a => win0_1.rect_emb_val_of_index_zero t a (hz0 a).1 z,
    show iblk0 V c 2 t = V c main_v11 from RowLayers.read_fix fun z a => win0_2.rect_emb_val_of_index_zero t a (hz0 a).2 z, hb]
  funext y
  show k0_pay1 (F := Ideal) (iblk0 V c 0 t) (V c main_arg3) (shapeCast S1x64 bt shapeCasts_S64_S1x64) y
    = Cert.Spec.lin (V c main_arg0) (V c main_arg3) bt (((cfg0.win 3).blk t).view.emb y)
  refine point_entry (V c main_arg0) (V c main_arg3) bt _ _ _ t.val ?_ rfl (fun j => shapeCast_a_1a_apply _ _ _ j) y _ ?_ ?_
  · intro r k R hR
    show V c main_arg0 (((cfg0.win 0).blk t).view.emb (ix2 r k)) = V c main_arg0 (ix2 R k)
    refine congrArg (V c main_arg0) (funext fun a => Fin.ext ?_)
    match a with
    | ⟨0, _⟩ => show win0_0.index t (0 : Fin 2) * 5000 + 1 * r.val = R.val; omega
    | ⟨1, _⟩ => show win0_0.index t (1 : Fin 2) * 128 + 1 * k.val = k.val; omega
  · show win0_3.index t (0 : Fin 2) * 5000 + 1 * (y 0).val = t.val * 5000 + (y 0).val; omega
  · show win0_3.index t (1 : Fin 2) * 64 + 1 * (y 1).val = (y 1).val; omega

/-- Every index of the result array is in some point's block: row R is in the block of point R / 5000. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, e30, e31⟩ := idxRows t
  have ht : t.val = (i 0).val / 5000 := rfl
  refine ⟨t, flush0_3 t, ?_⟩
  show i ∈ ((View.whole main_v14).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Layer0

/-- After the region the result array holds x · Wt + bt: every point's block is its block of it, and the blocks cover it. -/
theorem out0 (V : Entry Ideal) (c : Dev nD) (bt : FVec Ideal S64 .f32) (hb : V c main_v11 = shapeCast S1x64 bt shapeCasts_S64_S1x64) :
    (dat0 V c).arrAt 3 cfg0.N = Cert.Spec.lin (V c main_arg0) (V c main_arg3) bt :=
  (dat0 V c).arrAt_eq_of_cover 3 _ (fun t _ => Layer0.flushed_eq V c bt hb t) Layer0.cover

end Cert.KernelIdeal.Val

end
-- ==== Proof.KI.BnPoolMath.lean ====
import proofs.«421327_j56599079026905_1_alg».proof.Proof.Gen.KernelIdeal.Skeleton
import proofs.«421327_j56599079026905_1_alg».proof.Proof.KI.HostFns
import proofs.«421327_j56599079026905_1_alg».proof.Proof.Spec
import proofs.«421327_j56599079026905_1_alg».proof.Proof.LibRowLayers
import proofs.«421327_j56599079026905_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen Cert.KernelIdeal.Hand
open Idealize.ShloMosaic Idealize.ShloMosaic.ValueIdx Idealize.SL.Sem

theorem kmean_apply (z : FVec Ideal S50000x64 .f32) (j : Fin 64) :
    kmean z (ix2 (0 : Fin 1) j) = Cert.Spec.mean z (ix1 j) := by
  unfold kmean Cert.Spec.mean
  rw [hostDivf_apply, hostDivf_apply, RowLayers.rowBroadcast_apply, broadcastInDim_scalar_apply, broadcastInDim_scalar_apply]

theorem kvar_apply (z : FVec Ideal S50000x64 .f32) (j : Fin 64) :
    kvar z (ix2 (0 : Fin 1) j) = Cert.Spec.var z (ix1 j) := by
  unfold kvar Cert.Spec.var
  rw [select_apply, select_apply, hostDivf_apply, hostDivf_apply, RowLayers.rowBroadcast_apply,
    broadcastInDim_scalar_apply, broadcastInDim_scalar_apply, broadcastInDim_scalar_apply, broadcastInDim_scalar_apply, broadcastInDim_scalar_apply, broadcastInDim_scalar_apply]
  rfl

theorem k1_pay3_apply (z5 : FVec Ideal S5000x64 .f32) (mean1 var1 γ1 β1 : FVec Ideal S1x64 .f32) (r : Fin 5000) (j : Fin 64) :
    k1_pay3 z5 mean1 var1 γ1 β1 (ix2 r j)
      = (z5 (ix2 r j) - mean1 (ix2 (0 : Fin 1) j)) * Ideal.rsqrt (var1 (ix2 (0 : Fin 1) j) + Ideal.ofBits .f32 0x3727C5AC#32)
          * γ1 (ix2 (0 : Fin 1) j) + β1 (ix2 (0 : Fin 1) j) := by
  unfold k1_pay3
  simp only [addf_apply, mulf_apply, subf_apply, broadcastTo_1b_ab_apply, shapeCast_self]
  rfl

theorem hostRsqrt_apply {s : Shape} {φ : FTy} (a : FVec Ideal s φ) (i : s.Idx) : Host.rsqrt a i = Ideal.rsqrt (a i) := rfl

theorem bn_apply (Z : FVec Ideal S50000x64 .f32) (γ β : FVec Ideal S64 .f32) (R : Fin 50000) (j : Fin 64) :
    Cert.Spec.bn Z γ β (ix2 R j)
      = (Z (ix2 R j) - Cert.Spec.mean Z (ix1 j)) * Ideal.rsqrt (Cert.Spec.var Z (ix1 j) + Ideal.ofBits .f32 0x3727C5AC#32)
          * γ (ix1 j) + β (ix1 j) := by
  unfold Cert.Spec.bn
  simp only [addf_apply, mulf_apply, subf_apply, RowLayers.rowDown_apply]
  rw [RowLayers.rowBroadcast_apply, RowLayers.rowBroadcast_apply, RowLayers.rowBroadcast_apply, RowLayers.rowBroadcast_apply,
    hostRsqrt_apply, addf_apply, RowLayers.scalarBroadcast_apply]

theorem relu_apply (Y : FVec Ideal S50000x64 .f32) (R : Fin 50000) (j : Fin 64) :
    Cert.Spec.relu Y (ix2 R j) = max (Y (ix2 R j)) 0 := by
  unfold Cert.Spec.relu
  rw [maximumf_apply, RowLayers.scalarBroadcast_apply, Ideal.ofBits_zero_f32]

theorem k1_pay3_rows {σ : Fin 5000 → Fin 50000} {z5 : FVec Ideal S5000x64 .f32} {Z : FVec Ideal S50000x64 .f32}
    {mean1 var1 γ1 β1 : FVec Ideal S1x64 .f32} {γ β : FVec Ideal S64 .f32}
    (hz : RowLayers.Rows σ z5 Z) (hm : mean1 = kmean Z) (hv : var1 = kvar Z)
    (hg : γ1 = shapeCast S1x64 γ shapeCasts_S64_S1x64) (hb : β1 = shapeCast S1x64 β shapeCasts_S64_S1x64) :
    RowLayers.Rows σ (k1_pay3 (F := Ideal) z5 mean1 var1 γ1 β1) (Cert.Spec.bn Z γ β) := fun p c => by
  subst hm hv hg hb
  rw [k1_pay3_apply, bn_apply, kmean_apply, kvar_apply, shapeCast_a_1a_apply, shapeCast_a_1a_apply, hz p c]

theorem k3_pay3_rows {σ : Fin 5000 → Fin 50000} {z5 : FVec Ideal S5000x64 .f32} {Z : FVec Ideal S50000x64 .f32}
    {mean1 var1 γ1 β1 : FVec Ideal S1x64 .f32} {γ β : FVec Ideal S64 .f32}
    (hz : RowLayers.Rows σ z5 Z) (hm : mean1 = kmean Z) (hv : var1 = kvar Z)
    (hg : γ1 = shapeCast S1x64 γ shapeCasts_S64_S1x64) (hb : β1 = shapeCast S1x64 β shapeCasts_S64_S1x64) :
    RowLayers.Rows σ (k3_pay3 (F := Ideal) z5 mean1 var1 γ1 β1) (Cert.Spec.relu (Cert.Spec.bn Z γ β)) := fun p c => by
  rw [relu_apply, ← k1_pay3_rows hz hm hv hg hb p c, ← Ideal.ofBits_zero_f32]; rfl

theorem onehot_word (x y : BitVec 32) :
    (FloatOps.sitofp (F := Ideal) .f32 ((IntOp.cmpi .eq x y).setWidth 32) : EReal) = if x = y then 1 else 0 := by
  by_cases h : x = y
  · have hc : IntOp.cmpi .eq x y = 1#1 := by simp [IntOp.cmpi, h]
    rw [if_pos h, hc]
    show (((((1#1 : BitVec 1).setWidth 32).toInt : ℤ) : ℝ) : EReal) = 1
    have h1 : ((1#1 : BitVec 1).setWidth 32).toInt = 1 := by decide
    rw [h1]; norm_num
  · have hb : (x == y) = false := beq_eq_false_iff_ne.mpr h
    have hc : IntOp.cmpi .eq x y = 0#1 := by
      show BitVec.ofBool (x == y) = 0#1
      rw [hb]; rfl
    rw [if_neg h, hc]
    show (((((0#1 : BitVec 1).setWidth 32).toInt : ℤ) : ℝ) : EReal) = 0
    have h0 : ((0#1 : BitVec 1).setWidth 32).toInt = 0 := by decide
    rw [h0]; norm_num

/-- The rows' group ids against the group numbers, as a matrix of zeros and ones. -/
abbrev onehot (b5 : IVec S5000x1 32) : FVec Ideal S5000x512 .bf16 :=
  truncf .bf16 (sitofp (F := Ideal) .f32 (extui 32 (cmpi .eq
        (broadcastTo S5000x512 (shapeCast S5000x1 b5 shapeCasts_S5000x1_S5000x1) broadcasts_S5000x1_S5000x512)
        (broadcastTo S5000x512 (iota .tc S1x512 32 [1] iota_S1x512_d1_w32) broadcasts_S1x512_S5000x512)) natLt_1_32))
      bitsLt_bf16_f32

theorem onehot_apply (b5 : IVec S5000x1 32) (r : Fin 5000) (g : Fin 512) :
    onehot b5 (ix2 r g) = if b5 (ix2 r (0 : Fin 1)) = BitVec.ofNat 32 g.val then 1 else 0 := by
  unfold onehot
  rw [truncf_apply, sitofp_apply, extui_apply]
  show (FloatOps.sitofp (F := Ideal) .f32 ((IntOp.cmpi .eq (broadcastTo S5000x512 _ _ (ix2 r g)) (broadcastTo S5000x512 _ _ (ix2 r g))).setWidth 32) : EReal) = _
  rw [RowLayers.broadcastColumn_apply, shapeCast_self, broadcastTo_1b_ab_apply, iota_single_apply, onehot_word]

abbrev poolDot : DotDims S5000x512 S5000x64 S512x64 := dot_S5000x512_S5000x64_S512x64_0_0_1_1_n_n

theorem poolDot_lhs (g : Fin 512) (j : Fin 64) (r : Fin 5000) :
    DotDims.lhsIdx poolDot (ix2 g j) ((contrEquiv1 poolDot 5000 rfl rfl).symm r) = ix2 r g := by
  have c2 := contrEquiv1_symm_val poolDot 5000 rfl rfl r
  funext ax; apply Fin.ext
  match ax with
  | ⟨0, _⟩ => exact (DotDims.lhsIdx_val_of_single poolDot (cl := 0) rfl _ _).trans c2
  | ⟨1, _⟩ => rfl

theorem poolDot_rhs (g : Fin 512) (j : Fin 64) (r : Fin 5000) :
    DotDims.rhsIdx poolDot (ix2 g j) ((contrEquiv1 poolDot 5000 rfl rfl).symm r) = ix2 r j := by
  have c2 := contrEquiv1_symm_val poolDot 5000 rfl rfl r
  funext ax; apply Fin.ext
  match ax with
  | ⟨0, _⟩ => exact (DotDims.rhsIdx_val_of_single poolDot (cr := 0) rfl _ _).trans c2
  | ⟨1, _⟩ => rfl

theorem onehot_sum (b5 : IVec S5000x1 32) (g : Fin 512) (f : Fin 5000 → EReal) :
    ∑ r : Fin 5000, (if b5 (ix2 r (0 : Fin 1)) = BitVec.ofNat 32 g.val then (1 : EReal) else 0) * f r
      = ∑ r ∈ Finset.univ.filter (fun r : Fin 5000 => b5 (ix2 r (0 : Fin 1)) = BitVec.ofNat 32 g.val), f r := by
  rw [Finset.sum_filter]
  refine Finset.sum_congr rfl fun r _ => ?_
  split_ifs
  · exact one_mul _
  · exact zero_mul _

/-- The one-hot matrix times a block of rows is, at `(g, j)`, the sum of column `j` over the rows of group `g`. -/
theorem onehot_matmul (b5 : IVec S5000x1 32) (y : FVec Ideal S5000x64 .f32) (g : Fin 512) (j : Fin 64) :
    matmul poolDot none (onehot b5) (truncf .bf16 y bitsLt_bf16_f32) (constant S512x64 .f32 0x00000000#32) (ix2 g j)
      = ∑ r ∈ Finset.univ.filter (fun r : Fin 5000 => b5 (ix2 r (0 : Fin 1)) = BitVec.ofNat 32 g.val), y (ix2 r j) := by
  refine ((Ideal.matmul_constant_zero_apply poolDot none _ _ (ix2 g j)).trans ?_).trans (onehot_sum b5 g fun r => y (ix2 r j))
  rw [← Equiv.sum_comp (contrEquiv1 poolDot 5000 rfl rfl).symm]
  refine Finset.sum_congr rfl fun r _ => ?_
  rw [poolDot_lhs, poolDot_rhs, onehot_apply, truncf_apply]

abbrev poolScatter : ScatterDims ⟨2, ![512, 64]⟩ ⟨2, ![50000, 1]⟩ ⟨2, ![50000, 64]⟩ :=
  Cert.ReferenceIdeal.scatter_S512x64_S50000x1_S50000x64_1_0_0_1

theorem poolScatter_start_0 {w : Nat} (R : Fin 50000) (j' : Fin 64) (idx : IVec ⟨2, ![50000, 1]⟩ w) :
    poolScatter.start (ix2 R j') idx 0 = (idx (ix2 R (0 : Fin 1))).toInt := by
  unfold ScatterDims.start
  rw [dif_pos (show (0 : Fin 2) ∈ poolScatter.scatterDimsToOperandDims from List.mem_singleton.mpr rfl)]
  refine congrArg (fun k => (idx k).toInt) (funext fun b => Fin.ext ?_)
  match b with
  | ⟨0, _⟩ => rfl
  | ⟨1, _⟩ => rfl

theorem poolScatter_start_1 {w : Nat} (R : Fin 50000) (j' : Fin 64) (idx : IVec ⟨2, ![50000, 1]⟩ w) :
    poolScatter.start (ix2 R j') idx 1 = 0 := by
  unfold ScatterDims.start
  rw [dif_neg (show ¬ (1 : Fin 2) ∈ poolScatter.scatterDimsToOperandDims by decide)]

theorem poolScatter_window_0 (R : Fin 50000) (j' : Fin 64) : poolScatter.window (ix2 R j') 0 = 0 := rfl
theorem poolScatter_window_1 (R : Fin 50000) (j' : Fin 64) : poolScatter.window (ix2 R j') 1 = j'.val := rfl

theorem toInt_eq_iff_eq_ofNat (x : BitVec 32) (g : ℕ) (hg : g < 512) : x.toInt = (g : ℤ) ↔ x = BitVec.ofNat 32 g := by
  have hn : (BitVec.ofNat 32 g).toNat = g := by
    rw [BitVec.toNat_ofNat]
    exact Nat.mod_eq_of_lt (by omega)
  have hg' : (BitVec.ofNat 32 g).toInt = (g : ℤ) := by
    rw [BitVec.toInt_eq_toNat_of_lt (by rw [hn]; omega), hn]
  rw [← hg']
  exact BitVec.toInt_inj

theorem poolScatter_lands {w : Nat} (R : Fin 50000) (j' : Fin 64) (idx : IVec ⟨2, ![50000, 1]⟩ w) (g : Fin 512) (j : Fin 64) :
    poolScatter.resultIdx? (ix2 R j') idx = some (ix2 g j) ↔ (idx (ix2 R (0 : Fin 1))).toInt = (g.val : ℤ) ∧ j' = j := by
  have s0 := poolScatter_start_0 R j' idx
  have s1 := poolScatter_start_1 R j' idx
  have w0 := poolScatter_window_0 R j'
  have w1 := poolScatter_window_1 R j'
  unfold ScatterDims.resultIdx?
  split
  · rename_i h
    rw [Option.some.injEq]
    constructor
    · intro hf
      have h0 : (poolScatter.start (ix2 R j') idx 0 + (poolScatter.window (ix2 R j') 0 : ℤ)).toNat = g.val :=
        congrArg Fin.val (congrFun hf 0)
      have h1 : (poolScatter.start (ix2 R j') idx 1 + (poolScatter.window (ix2 R j') 1 : ℤ)).toNat = j.val :=
        congrArg Fin.val (congrFun hf 1)
      have p0 := (h 0).1
      rw [s0, w0] at h0 p0
      rw [s1, w1] at h1
      exact ⟨by omega, Fin.ext (by omega)⟩
    · rintro ⟨ht, rfl⟩
      funext a; apply Fin.ext
      match a with
      | ⟨0, _⟩ =>
        show (poolScatter.start (ix2 R j') idx 0 + (poolScatter.window (ix2 R j') 0 : ℤ)).toNat = g.val
        rw [s0, w0, ht]; omega
      | ⟨1, _⟩ =>
        show (poolScatter.start (ix2 R j') idx 1 + (poolScatter.window (ix2 R j') 1 : ℤ)).toNat = j'.val
        rw [s1, w1]; omega
  · rename_i h
    constructor
    · intro hf; exact absurd hf (by simp)
    · rintro ⟨ht, rfl⟩
      refine absurd (fun a => ?_) h
      match a with
      | ⟨0, _⟩ =>
        show 0 ≤ poolScatter.start (ix2 R j') idx 0 + (poolScatter.window (ix2 R j') 0 : ℤ)
          ∧ poolScatter.start (ix2 R j') idx 0 + (poolScatter.window (ix2 R j') 0 : ℤ) < (512 : ℕ)
        rw [s0, w0, ht]; have := g.isLt; omega
      | ⟨1, _⟩ =>
        show 0 ≤ poolScatter.start (ix2 R j') idx 1 + (poolScatter.window (ix2 R j') 1 : ℤ)
          ∧ poolScatter.start (ix2 R j') idx 1 + (poolScatter.window (ix2 R j') 1 : ℤ) < (64 : ℕ)
        rw [s1, w1]; have := j'.isLt; omega

theorem poolSum_apply (H : FVec Ideal S50000x64 .f32) (batch : IVec S50000 32) (g : Fin 512) (j : Fin 64) :
    Cert.Spec.poolSum H batch (ix2 g j)
      = ∑ R ∈ Finset.univ.filter (fun R : Fin 50000 => batch (ix1 R) = BitVec.ofNat 32 g.val), H (ix2 R j) := by
  unfold Cert.Spec.poolSum
  show Ideal.hostScatterAdd poolScatter _ _ H (ix2 g j) = _
  unfold Ideal.hostScatterAdd
  rw [RowLayers.scalarBroadcast_apply, Ideal.ofBits_zero_f32, zero_add, Finset.sum_filter, sum_idx2, Finset.sum_filter]
  refine Finset.sum_congr rfl fun R _ => ?_
  have key : ∀ j' : Fin 64, (poolScatter.resultIdx? (ix2 R j')
      (broadcastInDim ⟨2, ![50000, 1]⟩ ![0] Cert.ReferenceIdeal.Facts₀.bcast_S50000_S50000x1_0 batch) = some (ix2 g j))
      ↔ (batch (ix1 R) = BitVec.ofNat 32 g.val ∧ j' = j) := fun j' => by
    rw [poolScatter_lands, RowLayers.columnBroadcast_apply, toInt_eq_iff_eq_ofNat _ _ g.isLt]
  by_cases hq : batch (ix1 R) = BitVec.ofNat 32 g.val
  · rw [if_pos hq]
    refine (Finset.sum_congr rfl fun j' _ => if_congr ((key j').trans (and_iff_right hq)) rfl rfl).trans ?_
    rw [Finset.sum_ite_eq' Finset.univ j, if_pos (Finset.mem_univ j)]
  · rw [if_neg hq]
    exact Finset.sum_eq_zero fun j' _ => if_neg fun hl => hq ((key j').mp hl).1

def sumBelow (F : Fin 50000 → EReal) (n : ℕ) : EReal := ∑ R : Fin 50000, if R.val < n then F R else 0

theorem sumBelow_zero (F : Fin 50000 → EReal) : sumBelow F 0 = 0 :=
  Finset.sum_eq_zero fun R _ => if_neg (Nat.not_lt_zero _)

theorem sumBelow_all (F : Fin 50000 → EReal) : sumBelow F 50000 = ∑ R, F R :=
  Finset.sum_congr rfl fun R _ => if_pos R.isLt

theorem sumBelow_step (F : Fin 50000 → EReal) (n : ℕ) (σ : Fin 5000 → Fin 50000) (hσ : ∀ r, (σ r).val = n + r.val) :
    sumBelow F (n + 5000) = sumBelow F n + ∑ r : Fin 5000, F (σ r) := by
  have hinj : Function.Injective σ := fun a b hab => Fin.ext (by
    have := congrArg Fin.val hab; rw [hσ, hσ] at this; omega)
  have himg : Finset.univ.image σ = Finset.univ.filter (fun R : Fin 50000 => n ≤ R.val ∧ R.val < n + 5000) := by
    ext R
    simp only [Finset.mem_image, Finset.mem_univ, true_and, Finset.mem_filter]
    constructor
    · rintro ⟨r, rfl⟩; rw [hσ]; have := r.isLt; omega
    · rintro ⟨h1, h2⟩
      exact ⟨⟨R.val - n, by omega⟩, Fin.ext (by rw [hσ]; show n + (R.val - n) = R.val; omega)⟩
  have hblock : ∑ r : Fin 5000, F (σ r) = ∑ R : Fin 50000, if n ≤ R.val ∧ R.val < n + 5000 then F R else 0 := by
    rw [← Finset.sum_image (f := F) (s := Finset.univ) (g := σ) (fun a _ b _ h => hinj h), himg, Finset.sum_filter]
  unfold sumBelow
  rw [hblock, ← Finset.sum_add_distrib]
  refine Finset.sum_congr rfl fun R _ => ?_
  by_cases h1 : R.val < n
  · rw [if_pos (by omega), if_pos h1, if_neg (by omega), add_zero]
  · by_cases h2 : R.val < n + 5000
    · rw [if_pos h2, if_neg h1, if_pos ⟨by omega, h2⟩, zero_add]
    · rw [if_neg h2, if_neg h1, if_neg (by omega), add_zero]

def poolBelow (H : FVec Ideal S50000x64 .f32) (batch : IVec S50000 32) (n : ℕ) (g : Fin 512) (j : Fin 64) : EReal :=
  sumBelow (fun R => if batch (ix1 R) = BitVec.ofNat 32 g.val then H (ix2 R j) else 0) n

theorem poolBelow_zero (H : FVec Ideal S50000x64 .f32) (batch : IVec S50000 32) (g : Fin 512) (j : Fin 64) :
    poolBelow H batch 0 g j = 0 := sumBelow_zero _

theorem poolBelow_all (H : FVec Ideal S50000x64 .f32) (batch : IVec S50000 32) (g : Fin 512) (j : Fin 64) :
    poolBelow H batch 50000 g j = Cert.Spec.poolSum H batch (ix2 g j) := by
  rw [poolSum_apply, Finset.sum_filter]
  exact sumBelow_all _

theorem poolBelow_step (H : FVec Ideal S50000x64 .f32) (batch : IVec S50000 32) (g : Fin 512) (j : Fin 64) (t : ℕ)
    (σ : Fin 5000 → Fin 50000) (hσ : ∀ r, (σ r).val = 5000 * t + r.val) :
    poolBelow H batch (5000 * (t + 1)) g j
      = poolBelow H batch (5000 * t) g j
        + ∑ r ∈ Finset.univ.filter (fun r : Fin 5000 => batch (ix1 (σ r)) = BitVec.ofNat 32 g.val), H (ix2 (σ r) j) := by
  unfold poolBelow
  rw [show 5000 * (t + 1) = 5000 * t + 5000 by ring, sumBelow_step _ _ σ hσ, Finset.sum_filter]

theorem k1_pay1_apply (part : FVec Ideal S512x64 .f32) (acc : FVec Ideal S512x64 .f32) (g : Fin 512) (j : Fin 64) :
    k1_pay1 (F := Ideal) part acc (ix2 g j) = acc (ix2 g j) + part (ix2 g j) := by
  unfold k1_pay1
  rw [addf_apply, shapeCast_self]

theorem k1_pay2_apply (g : Fin 512) (j : Fin 64) : k1_pay2 (F := Ideal) (ix2 g j) = 0 := by
  unfold k1_pay2
  exact Ideal.ofBits_zero_f32

/-- One block more: the partial sums below `5000 t` plus the block's one-hot product are the partial sums below `5000 (t + 1)`. -/
theorem pool_step {H : FVec Ideal S50000x64 .f32} {batch : IVec S50000 32} (t : ℕ) {σ : Fin 5000 → Fin 50000}
    (hσ : ∀ r, (σ r).val = 5000 * t + r.val) {y : FVec Ideal S5000x64 .f32} {b5 : IVec S5000x1 32}
    (hh : RowLayers.Rows σ y H) (hb : ∀ r : Fin 5000, b5 (ix2 r (0 : Fin 1)) = batch (ix1 (σ r)))
    {acc : FVec Ideal S512x64 .f32} (g : Fin 512) (j : Fin 64) (hacc : acc (ix2 g j) = poolBelow H batch (5000 * t) g j) :
    acc (ix2 g j) + matmul poolDot none (onehot b5) (truncf .bf16 y bitsLt_bf16_f32) (constant S512x64 .f32 0x00000000#32) (ix2 g j)
      = poolBelow H batch (5000 * (t + 1)) g j := by
  rw [hacc, onehot_matmul, poolBelow_step H batch g j t σ hσ]
  exact congrArg (poolBelow H batch (5000 * t) g j + ·)
    (Finset.sum_congr (Finset.filter_congr fun r _ => by rw [hb r]) fun r _ => hh r j)

theorem k1_pool_step {H : FVec Ideal S50000x64 .f32} {batch : IVec S50000 32} (t : ℕ) {σ : Fin 5000 → Fin 50000}
    (hσ : ∀ r, (σ r).val = 5000 * t + r.val)
    {z5 : FVec Ideal S5000x64 .f32} {mean1 var1 γ1 β1 : FVec Ideal S1x64 .f32} {b5 : IVec S5000x1 32}
    (hh : RowLayers.Rows σ (k1_pay3 (F := Ideal) z5 mean1 var1 γ1 β1) H)
    (hb : ∀ r : Fin 5000, b5 (ix2 r (0 : Fin 1)) = batch (ix1 (σ r)))
    {acc : FVec Ideal S512x64 .f32} (g : Fin 512) (j : Fin 64) (hacc : acc (ix2 g j) = poolBelow H batch (5000 * t) g j) :
    k1_pay1 (F := Ideal) (k1_pay4 (F := Ideal) z5 mean1 var1 γ1 β1 b5) acc (ix2 g j)
      = poolBelow H batch (5000 * (t + 1)) g j :=
  (k1_pay1_apply _ _ g j).trans (pool_step t hσ hh hb g j hacc)

theorem k3_pool_step {H : FVec Ideal S50000x64 .f32} {batch : IVec S50000 32} (t : ℕ) {σ : Fin 5000 → Fin 50000}
    (hσ : ∀ r, (σ r).val = 5000 * t + r.val)
    {z5 : FVec Ideal S5000x64 .f32} {mean1 var1 γ1 β1 : FVec Ideal S1x64 .f32} {b5 : IVec S5000x1 32}
    (hh : RowLayers.Rows σ (k3_pay3 (F := Ideal) z5 mean1 var1 γ1 β1) H)
    (hb : ∀ r : Fin 5000, b5 (ix2 r (0 : Fin 1)) = batch (ix1 (σ r)))
    {acc : FVec Ideal S512x64 .f32} (g : Fin 512) (j : Fin 64) (hacc : acc (ix2 g j) = poolBelow H batch (5000 * t) g j) :
    k3_pay1 (F := Ideal) (k3_pay4 (F := Ideal) z5 mean1 var1 γ1 β1 b5) acc (ix2 g j)
      = poolBelow H batch (5000 * (t + 1)) g j :=
  (k1_pay1_apply _ _ g j).trans (pool_step t hσ hh hb g j hacc)

theorem k1_pay2_eq_poolBelow (H : FVec Ideal S50000x64 .f32) (batch : IVec S50000 32) (g : Fin 512) (j : Fin 64) :
    k1_pay2 (F := Ideal) (ix2 g j) = poolBelow H batch (5000 * 0) g j := by
  rw [k1_pay2_apply]; exact (poolBelow_zero H batch g j).symm

theorem k3_pay2_eq_poolBelow (H : FVec Ideal S50000x64 .f32) (batch : IVec S50000 32) (g : Fin 512) (j : Fin 64) :
    k3_pay2 (F := Ideal) (ix2 g j) = poolBelow H batch (5000 * 0) g j :=
  k1_pay2_eq_poolBelow H batch g j

theorem poolBelow_last (H : FVec Ideal S50000x64 .f32) (batch : IVec S50000 32) (g : Fin 512) (j : Fin 64) :
    poolBelow H batch (5000 * (9 + 1)) g j = Cert.Spec.poolSum H batch (ix2 g j) :=
  poolBelow_all H batch g j

end Cert.KernelIdeal.Val

end
-- ==== Proof.KI.Val1.lean ====
import proofs.«421327_j56599079026905_1_alg».proof.Proof.KI.Reg1
import proofs.«421327_j56599079026905_1_alg».proof.Proof.KI.BnPoolMath
import proofs.«421327_j56599079026905_1_alg».proof.Proof.KI.HostFns
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Tactic
open Idealize.ShloMosaic.Pipeline (Dat)

namespace Layer1

theorem hz : (![0, 0] : Fin 2 → Nat) = fun _ => 0 := funext fun a => by fin_cases a <;> rfl

section Pieces

variable {F : FTy → Type} [FloatOps F] (c : Dev nD) (t : Fin cfg1.N) (x0 : Vec F S5000x64 .f32) (x1 x2 x3 x4 : Vec F S1x64 .f32)
  (x5 : Vec F S5000x1 .i32) (xo7 : Vec F S512x64 .f32)

theorem out_A_6 (h0 : t.val % 10 = 0) : out1_A_6 c t x0 x1 x2 x3 x4 x5 h0 = k1_pay3 x0 x3 x4 x1 x2 := by
  unfold out1_A_6
  rw [View.read_writes_eq_canon _ _ _ (cover1_A_6 c t x0 x1 x2 x3 x4 x5 h0)]
  unfold run1_A kernelRun1_A
  dsimp only
  sl_unfold_words
  rw [View.canon_unit_zero hz]
  simp only [View.readAt_eq_ld, (hs1_0 t).read_unread, (hs1_1 t).read_unread, (hs1_2 t).read_unread, (hs1_3 t).read_unread, (hs1_4 t).read_unread, (hs1_5 t).read_unread,
    View.ld_unit_zero (S := S5000x64) hz, View.ld_unit_zero (S := S1x64) hz, View.ld_unit_zero (S := S5000x1) hz]

theorem out_A_7 (h0 : t.val % 10 = 0) : out1_A_7 c t x0 x1 x2 x3 x4 x5 h0 = k1_pay1 (k1_pay4 x0 x3 x4 x1 x2 x5) (k1_pay2 (F := F)) := by
  unfold out1_A_7
  rw [View.read_writes_eq_canon _ _ _ (cover1_A_7 c t x0 x1 x2 x3 x4 x5 h0)]
  unfold run1_A kernelRun1_A
  dsimp only
  sl_unfold_words
  rw [View.canon_cons_unit_zero (S := S512x64) hz, View.readCov_unit_zero (S := S512x64) _ hz]
  simp only [View.readAt_eq_ld, (hs1_0 t).read_unread, (hs1_1 t).read_unread, (hs1_2 t).read_unread, (hs1_3 t).read_unread, (hs1_4 t).read_unread, (hs1_5 t).read_unread,
    View.ld_unit_zero (S := S5000x64) hz, View.ld_unit_zero (S := S1x64) hz, View.ld_unit_zero (S := S5000x1) hz]

theorem out_B_6 (h0 : ¬t.val % 10 = 0) : out1_B_6 c t x0 x1 x2 x3 x4 x5 xo7 h0 = k1_pay3 x0 x3 x4 x1 x2 := by
  unfold out1_B_6
  rw [View.read_writes_eq_canon _ _ _ (cover1_B_6 c t x0 x1 x2 x3 x4 x5 xo7 h0)]
  unfold run1_B kernelRun1_B
  dsimp only
  sl_unfold_words
  rw [View.canon_unit_zero hz]
  simp only [View.readAt_eq_ld, (hs1_0 t).read_unread, (hs1_1 t).read_unread, (hs1_2 t).read_unread, (hs1_3 t).read_unread, (hs1_4 t).read_unread, (hs1_5 t).read_unread,
    View.ld_unit_zero (S := S5000x64) hz, View.ld_unit_zero (S := S1x64) hz, View.ld_unit_zero (S := S5000x1) hz, (hs1_7 t).read_unread, View.ld_unit_zero (S := S512x64) hz]

theorem out_B_7 (h0 : ¬t.val % 10 = 0) : out1_B_7 c t x0 x1 x2 x3 x4 x5 xo7 h0 = k1_pay1 (k1_pay4 x0 x3 x4 x1 x2 x5) xo7 := by
  unfold out1_B_7
  rw [View.read_writes_eq_canon _ _ _ (cover1_B_7 c t x0 x1 x2 x3 x4 x5 xo7 h0)]
  unfold run1_B kernelRun1_B
  dsimp only
  sl_unfold_words
  rw [View.canon_unit_zero hz]
  simp only [View.readAt_eq_ld, (hs1_0 t).read_unread, (hs1_1 t).read_unread, (hs1_2 t).read_unread, (hs1_3 t).read_unread, (hs1_4 t).read_unread, (hs1_5 t).read_unread,
    View.ld_unit_zero (S := S5000x64) hz, View.ld_unit_zero (S := S1x64) hz, View.ld_unit_zero (S := S5000x1) hz, (hs1_7 t).read_unread, View.ld_unit_zero (S := S512x64) hz]

end Pieces

section Blocks

variable (V : Entry Ideal) (c : Dev nD)

abbrev zblk (t : Fin cfg1.N) : FVec Ideal S5000x64 .f32 := iblk1 V c 0 t
abbrev gblk (t : Fin cfg1.N) : FVec Ideal S1x64 .f32 := iblk1 V c 1 t
abbrev bblk (t : Fin cfg1.N) : FVec Ideal S1x64 .f32 := iblk1 V c 2 t
abbrev mblk (t : Fin cfg1.N) : FVec Ideal S1x64 .f32 := iblk1 V c 3 t
abbrev vblk (t : Fin cfg1.N) : FVec Ideal S1x64 .f32 := iblk1 V c 4 t
abbrev nblk (t : Fin cfg1.N) : IVec S5000x1 32 := iblk1 V c 5 t

theorem idxRows : ∀ t : Fin cfg1.N, (win1_0.index t (0 : Fin 2) = t.val ∧ win1_0.index t (1 : Fin 2) = 0)
    ∧ (win1_5.index t (0 : Fin 2) = t.val ∧ win1_5.index t (1 : Fin 2) = 0)
    ∧ win1_6.index t (0 : Fin 2) = t.val ∧ win1_6.index t (1 : Fin 2) = 0 :=
  (by decide +kernel : ∀ t : Fin grid1.N, _)

theorem idxZero : ∀ (t : Fin cfg1.N) (a : Fin 2), win1_1.index t a = 0 ∧ win1_2.index t a = 0 ∧ win1_3.index t a = 0 ∧ win1_4.index t a = 0
    ∧ win1_7.index t a = 0 :=
  (by decide +kernel : ∀ t : Fin grid1.N, _)

theorem N10 : cfg1.N = 10 := N_1

def rowOf (t : Fin cfg1.N) (r : Fin 5000) : Fin 50000 :=
  ⟨5000 * t.val + r.val, by have := lt_of_lt_of_eq t.isLt N10; have := r.isLt; omega⟩

theorem zblk_rows (t : Fin cfg1.N) : RowLayers.Rows (rowOf t) (zblk V c t) (V c main_v14) :=
  RowLayers.read_rows (win1_0.index t) (win1_0.rect_emb_val t) (idxRows t).1.1 (fun _ => rfl) (idxRows t).1.2

theorem nblk_rows (t : Fin cfg1.N) (r : Fin 5000) :
    nblk V c t (ix2 r (0 : Fin 1)) = V c main_v4 (ix2 (rowOf t r) (0 : Fin 1)) :=
  congrArg (V c main_v4) (RowLayers.emb_rows (win1_5.index t) (win1_5.rect_emb_val t) (idxRows t).2.1.1 (fun _ => rfl) (idxRows t).2.1.2 r 0)

theorem gblk_eq (t : Fin cfg1.N) : gblk V c t = V c main_v12 :=
  RowLayers.read_fix fun z a => win1_1.rect_emb_val_of_index_zero t a (idxZero t a).1 z
theorem bblk_eq (t : Fin cfg1.N) : bblk V c t = V c main_v13 :=
  RowLayers.read_fix fun z a => win1_2.rect_emb_val_of_index_zero t a (idxZero t a).2.1 z
theorem mblk_eq (t : Fin cfg1.N) : mblk V c t = V c main_v18 :=
  RowLayers.read_fix fun z a => win1_3.rect_emb_val_of_index_zero t a (idxZero t a).2.2.1 z
theorem vblk_eq (t : Fin cfg1.N) : vblk V c t = V c main_v19 :=
  RowLayers.read_fix fun z a => win1_4.rect_emb_val_of_index_zero t a (idxZero t a).2.2.2.1 z

/-- After every point the first output block is the normalisation of the point's rows. -/
theorem inv6 (t : Fin cfg1.N) :
    (outsAt1 V c t.val t.isLt).1 = k1_pay3 (F := Ideal) (zblk V c t) (mblk V c t) (vblk V c t) (gblk V c t) (bblk V c t) := by
  by_cases h0 : t.val % 10 = 0
  · rw [outsAt1_A_6 V c t h0]
    exact out_A_6 (F := Ideal) c t _ _ _ _ _ _ h0
  · rw [outsAt1_B_6 V c t h0]
    exact out_B_6 (F := Ideal) c t _ _ _ _ _ _
      (outsAt1 V c (t.val - 1) (Nat.lt_of_le_of_lt (Nat.sub_le _ _) t.isLt)).2 h0

theorem hblk_rows (γ β : FVec Ideal S64 .f32) (hg : V c main_v12 = shapeCast S1x64 γ shapeCasts_S64_S1x64)
    (hbe : V c main_v13 = shapeCast S1x64 β shapeCasts_S64_S1x64) (hm : V c main_v18 = kmean (F := Ideal) (V c main_v14))
    (hv : V c main_v19 = kvar (F := Ideal) (V c main_v14)) (t : Fin cfg1.N) :
    RowLayers.Rows (rowOf t)
      (k1_pay3 (F := Ideal) (zblk V c t) (mblk V c t) (vblk V c t) (gblk V c t) (bblk V c t))
      (Cert.Spec.bn (V c main_v14) γ β) :=
  k1_pay3_rows (zblk_rows V c t) ((mblk_eq V c t).trans hm) ((vblk_eq V c t).trans hv) ((gblk_eq V c t).trans hg)
    ((bblk_eq V c t).trans hbe)

theorem nblk_batch (batch : IVec S50000 32) (hbatch : V c main_v4 = shapeCast S50000x1 batch shapeCasts_S50000_S50000x1)
    (t : Fin cfg1.N) (r : Fin 5000) : nblk V c t (ix2 r (0 : Fin 1)) = batch (ix1 (rowOf t r)) := by
  rw [nblk_rows, hbatch, RowLayers.column_apply]

/-- After point n the pool block holds, at (g, j), the sum of column j over the rows below 5000·(n + 1) whose graph is g. -/
theorem inv7 (γ β : FVec Ideal S64 .f32) (batch : IVec S50000 32)
    (hg : V c main_v12 = shapeCast S1x64 γ shapeCasts_S64_S1x64)
    (hbe : V c main_v13 = shapeCast S1x64 β shapeCasts_S64_S1x64) (hm : V c main_v18 = kmean (F := Ideal) (V c main_v14))
    (hv : V c main_v19 = kvar (F := Ideal) (V c main_v14))
    (hbatch : V c main_v4 = shapeCast S50000x1 batch shapeCasts_S50000_S50000x1) :
    ∀ (n : ℕ) (h : n < cfg1.N) (g : Fin 512) (j : Fin 64),
      (outsAt1 V c n h).2 (ix2 g j) = poolBelow (Cert.Spec.bn (V c main_v14) γ β) batch (5000 * (n + 1)) g j
  | 0, h, g, j => by
    refine (congrFun (outsAt1_A_7 V c ⟨0, h⟩ rfl) (ix2 g j)).trans ?_
    refine (congrFun (out_A_7 (F := Ideal) c ⟨0, h⟩ _ _ _ _ _ _ rfl) (ix2 g j)).trans ?_
    exact k1_pool_step 0 (σ := rowOf ⟨0, h⟩) (fun r => rfl) (hblk_rows V c γ β hg hbe hm hv ⟨0, h⟩)
      (nblk_batch V c batch hbatch ⟨0, h⟩) g j (k1_pay2_eq_poolBelow _ batch g j)
  | n + 1, h, g, j => by
    have hN : n + 1 < 10 := lt_of_lt_of_eq h N10
    have hB : ¬(⟨n + 1, h⟩ : Fin cfg1.N).val % 10 = 0 := by dsimp only; omega
    refine (congrFun (outsAt1_B_7 V c ⟨n + 1, h⟩ hB) (ix2 g j)).trans ?_
    refine (congrFun (out_B_7 (F := Ideal) c ⟨n + 1, h⟩ _ _ _ _ _ _
      (outsAt1 V c n (Nat.lt_of_succ_lt h)).2 hB) (ix2 g j)).trans ?_
    exact k1_pool_step (n + 1) (σ := rowOf ⟨n + 1, h⟩) (fun r => rfl) (hblk_rows V c γ β hg hbe hm hv ⟨n + 1, h⟩)
      (nblk_batch V c batch hbatch ⟨n + 1, h⟩) g j (inv7 γ β batch hg hbe hm hv hbatch n (Nat.lt_of_succ_lt h) g j)

theorem flushed6_eq (γ β : FVec Ideal S64 .f32) (hg : V c main_v12 = shapeCast S1x64 γ shapeCasts_S64_S1x64)
    (hbe : V c main_v13 = shapeCast S1x64 β shapeCasts_S64_S1x64) (hm : V c main_v18 = kmean (F := Ideal) (V c main_v14))
    (hv : V c main_v19 = kvar (F := Ideal) (V c main_v14)) (t : Fin cfg1.N) :
    (dat1 V c).flushed 6 t = ((cfg1.win 6).blk t).view.read (Elt Ideal) (Cert.Spec.bn (V c main_v14) γ β) := by
  show (cfg1.win 6).cut (grid1.coords t) ((dat1 V c).after 6 t) = _
  rw [after1_6, inv6]
  show k1_pay3 (F := Ideal) _ _ _ _ _ = _
  exact RowLayers.eq_read ((cfg1.win 6).blk t).view.emb
    (RowLayers.read_rows (win1_6.index t) (win1_6.rect_emb_val t) (idxRows t).2.2.1 (fun _ => rfl) (idxRows t).2.2.2) (hblk_rows V c γ β hg hbe hm hv t)

/-- Row R lies in the block of point R / 5000, so the ten blocks cover the array. -/
theorem cover6 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N10
  let t : Fin cfg1.N := ⟨(i 0).val / 5000, by rw [hN]; omega⟩
  obtain ⟨-, -, e60, e61⟩ := idxRows t
  have ht : t.val = (i 0).val / 5000 := rfl
  refine ⟨t, flush1_6 t, ?_⟩
  show i ∈ ((View.whole main_v20_0).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- After the last point the pool block is the sum of all rows by graph. -/
theorem flushed7_eq (γ β : FVec Ideal S64 .f32) (batch : IVec S50000 32)
    (hg : V c main_v12 = shapeCast S1x64 γ shapeCasts_S64_S1x64)
    (hbe : V c main_v13 = shapeCast S1x64 β shapeCasts_S64_S1x64) (hm : V c main_v18 = kmean (F := Ideal) (V c main_v14))
    (hv : V c main_v19 = kvar (F := Ideal) (V c main_v14))
    (hbatch : V c main_v4 = shapeCast S50000x1 batch shapeCasts_S50000_S50000x1)
    (t : Fin cfg1.N) (hf : (cfg1.win 7).flush t = true) :
    (dat1 V c).flushed 7 t
      = ((cfg1.win 7).blk t).view.read (Elt Ideal) (Cert.Spec.poolSum (Cert.Spec.bn (V c main_v14) γ β) batch) := by
  have hN : t.val < 10 := lt_of_lt_of_eq t.isLt N10
  have h9 : t.val = 9 := by have := (flush1_7 t).mp hf; omega
  show (cfg1.win 7).cut (grid1.coords t) ((dat1 V c).after 7 t) = _
  rw [after1_7]
  funext y
  obtain ⟨g, j, rfl⟩ : ∃ (g : Fin 512) (j : Fin 64), y = ix2 g j := ⟨y 0, y 1, eq_ix2 y⟩
  show (outsAt1 V c t.val t.isLt).2 (ix2 g j)
    = Cert.Spec.poolSum (Cert.Spec.bn (V c main_v14) γ β) batch (((cfg1.win 7).blk t).view.emb (ix2 g j))
  have e : ((cfg1.win 7).blk t).view.emb (ix2 g j) = ix2 g j :=
    funext fun a => Fin.ext (win1_7.rect_emb_val_of_index_zero t a (idxZero t a).2.2.2.2 _)
  rw [e, inv7 V c γ β batch hg hbe hm hv hbatch t.val t.isLt g j, h9]
  exact poolBelow_last _ batch g j

theorem cover7 (i : S512x64.Idx) :
    ∃ t : Fin cfg1.N, (cfg1.win 7).flush t = true ∧ i ∈ ((cfg1.win 7).blk t).view.set := by
  have hi0 : (i 0).val < 512 := (i 0).isLt
  have hi1 : (i 1).val < 64 := (i 1).isLt
  have hN : cfg1.N = 10 := N10
  let t : Fin cfg1.N := ⟨9, by rw [hN]; omega⟩
  have e70 := (idxZero t (0 : Fin 2)).2.2.2.2
  have e71 := (idxZero t (1 : Fin 2)).2.2.2.2
  refine ⟨t, (flush1_7 t).mpr rfl, ?_⟩
  show i ∈ ((View.whole main_v20_1).slice (win1_7.rect t)).set
  rw [View.set_slice_whole, Rect.mem_set_unit]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 64 ≤ (i 1).val ∧ (i 1).val < win1_7.index t (1 : Fin 2) * 64 + 64; omega

end Blocks

end Layer1

/-- The region leaves the normalised array: each point's block is its block of it, -/
theorem out1_h (V : Entry Ideal) (c : Dev nD) (γ β : FVec Ideal S64 .f32) (hg : V c main_v12 = shapeCast S1x64 γ shapeCasts_S64_S1x64)
    (hbe : V c main_v13 = shapeCast S1x64 β shapeCasts_S64_S1x64) (hm : V c main_v18 = kmean (F := Ideal) (V c main_v14)) (hv : V c main_v19 = kvar (F := Ideal) (V c main_v14)) :
    (dat1 V c).arrAt 6 cfg1.N = Cert.Spec.bn (V c main_v14) γ β :=
  (dat1 V c).arrAt_eq_of_cover 6 _ (fun t _ => Layer1.flushed6_eq V c γ β hg hbe hm hv t) Layer1.cover6

/-- and the per-graph sums of its rows. -/
theorem out1_pool (V : Entry Ideal) (c : Dev nD) (γ β : FVec Ideal S64 .f32) (batch : IVec S50000 32)
    (hg : V c main_v12 = shapeCast S1x64 γ shapeCasts_S64_S1x64)
    (hbe : V c main_v13 = shapeCast S1x64 β shapeCasts_S64_S1x64) (hm : V c main_v18 = kmean (F := Ideal) (V c main_v14)) (hv : V c main_v19 = kvar (F := Ideal) (V c main_v14))
    (hbatch : V c main_v4 = shapeCast S50000x1 batch shapeCasts_S50000_S50000x1) :
    (dat1 V c).arrAt 7 cfg1.N = Cert.Spec.poolSum (Cert.Spec.bn (V c main_v14) γ β) batch :=
  (dat1 V c).arrAt_eq_of_cover 7 _ (fun t hf => Layer1.flushed7_eq V c γ β batch hg hbe hm hv hbatch t hf) Layer1.cover7

end Cert.KernelIdeal.Val

end
-- ==== Proof.KI.Val2.lean ====
import proofs.«421327_j56599079026905_1_alg».proof.Proof.KI.Reg2
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.KernelVsHost

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open RowLayers

namespace Layer2

/-- The affine layer x · W + b of a block against that of the whole array: row p of the one is row σ p of the other, both Σ_c x[·,c]·W[c,j] + b[j]. -/
theorem rowsAffine {mb M k n : ℕ} {σ : Fin mb → Fin M} (h16 : FTy.bf16.bits < FTy.f32.bits)
    (hww : (⟨2, ![k, n]⟩ : Shape).ShapeCasts ⟨2, ![k, n]⟩) (hss : (⟨2, ![1, n]⟩ : Shape).ShapeCasts ⟨2, ![1, n]⟩)
    (hsc : (⟨1, ![n]⟩ : Shape).ShapeCasts ⟨2, ![1, n]⟩) (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![k, n]⟩ .f32) (b : FVec Ideal ⟨1, ![n]⟩ .f32) :
    Rows σ
      (Idealize.ShloMosaic.addf
        (matmul (DotDims.plain mb k n) none x (Idealize.ShloMosaic.truncf .bf16 (shapeCast ⟨2, ![k, n]⟩ w hww) h16) (constant ⟨2, ![mb, n]⟩ .f32 0x00000000#32))
        (broadcastTo ⟨2, ![mb, n]⟩ (shapeCast ⟨2, ![1, n]⟩ (shapeCast ⟨2, ![1, n]⟩ b hsc) hss) hbc))
      (Idealize.ShloMosaic.addf (Host.dotGeneral (DotDims.plain M k n) none X w)
        (broadcastInDim ⟨2, ![M, n]⟩ ![0, 1] h01 (broadcastInDim ⟨2, ![1, n]⟩ ![1] h1 b))) := fun p c => by
  rw [shapeCast_self, shapeCast_self, addf_apply, addf_apply, matmul_zero_eq_dotGeneral, StackMember.dotGeneral_plain_apply,
    StackMember.dotGeneral_plain_apply, broadcastTo_1b_ab_apply, shapeCast_a_1a_apply, rowDown_apply, rowBroadcast_apply]
  simp only [hx p]
  rfl

/-- The perceptron relu((h + agg) · W1 + b1) · W2 + b2 of two blocks that are the σ-rows of h and agg is the σ-rows of the whole arrays' perceptron. -/
theorem payRows {σ : Fin 5000 → Fin 50000} {v0 v2 : Vec Ideal S5000x64 .f32}
    {H A : FVec Ideal Cert.ReferenceIdeal.S50000x64 .f32} (hH : Rows σ v0 H) (hA : Rows σ v2 A)
    (W1 W2 : Vec Ideal S64x64 .f32) (b1 b2 : FVec Ideal S64 .f32) :
    Rows σ (k2_pay1 v0 v2 W1 (shapeCast S1x64 b1 shapeCasts_S64_S1x64) W2 (shapeCast S1x64 b2 shapeCasts_S64_S1x64))
      (Cert.Spec.mlp H A W1 b1 W2 b2) := by
  unfold k2_pay1 Cert.Spec.mlp Cert.Spec.affine Cert.Spec.relu
  exact rowsAffine (mb := 5000) (M := 50000) (k := 64) (n := 64) _ _ _ _ _ _ _
    (Rows.truncf _ (Rows.relu _
      (rowsAffine (mb := 5000) (M := 50000) (k := 64) (n := 64) _ _ _ _ _ _ _
        (Rows.truncf _ (Rows.addf (by rwa [shapeCast_self]) (by rwa [shapeCast_self]))) W1 b1))) W2 b2

theorem hz : (![0, 0] : Fin 2 → Nat) = fun _ => 0 := funext fun a => by fin_cases a <;> rfl

/-- The windows of h, agg and the result sit at block t along the rows; -/
theorem idxRows : ∀ t : Fin cfg2.N, (win2_0.index t (0 : Fin 2) = t.val ∧ win2_0.index t (1 : Fin 2) = 0)
    ∧ (win2_1.index t (0 : Fin 2) = t.val ∧ win2_1.index t (1 : Fin 2) = 0)
    ∧ win2_6.index t (0 : Fin 2) = t.val ∧ win2_6.index t (1 : Fin 2) = 0 :=
  (by decide +kernel : ∀ t : Fin grid2.N, _)

/-- the weights' and the biases' one block sits at zero. -/
theorem idxZero : ∀ (t : Fin cfg2.N) (a : Fin 2), win2_2.index t a = 0 ∧ win2_3.index t a = 0 ∧ win2_4.index t a = 0 ∧ win2_5.index t a = 0 :=
  (by decide +kernel : ∀ t : Fin grid2.N, _)

/-- Row p of the block of point t is row 5000·t + p of the array. -/
def rowOf (t : Fin cfg2.N) (p : Fin 5000) : Fin 50000 :=
  ⟨5000 * t.val + p.val, by have hN : cfg2.N = 10 := N_2; have ht := t.isLt; have hp := p.isLt; omega⟩

/-- Point t's block of the result is block t of the whole-array perceptron of the arrays the region finds. -/
theorem flushed_eq (V : Entry Ideal) (c : Dev nD) (b1 b2 : FVec Ideal S64 .f32)
    (h1 : V c main_v37 = shapeCast S1x64 b1 shapeCasts_S64_S1x64) (h2 : V c main_v42 = shapeCast S1x64 b2 shapeCasts_S64_S1x64)
    (t : Fin cfg2.N) :
    (dat2 V c).flushed 6 t = ((cfg2.win 6).blk t).view.read (Elt Ideal)
      (Cert.Spec.mlp (V c main_v20_0) (V c main_v32) (V c main_v34) b1 (V c main_v39) b2) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  have h0 := idxZero t
  obtain ⟨⟨e00, e01⟩, ⟨e10, e11⟩, e60, e61⟩ := idxRows t
  rw [show iblk2 V c 2 t = V c main_v34 from read_fix fun z a => win2_2.rect_emb_val_of_index_zero t a (h0 a).1 z,
    show iblk2 V c 3 t = V c main_v37 from read_fix fun z a => win2_3.rect_emb_val_of_index_zero t a (h0 a).2.1 z,
    show iblk2 V c 4 t = V c main_v39 from read_fix fun z a => win2_4.rect_emb_val_of_index_zero t a (h0 a).2.2.1 z,
    show iblk2 V c 5 t = V c main_v42 from read_fix fun z a => win2_5.rect_emb_val_of_index_zero t a (h0 a).2.2.2 z, h1, h2]
  show k2_pay1 (F := Ideal) _ _ _ _ _ _ = _
  exact eq_read (σ := rowOf t) ((cfg2.win 6).blk t).view.emb (read_rows (win2_6.index t) (win2_6.rect_emb_val t) e60 (fun _ => rfl) e61)
    (payRows (v0 := iblk2 V c 0 t) (v2 := iblk2 V c 1 t) (read_rows (win2_0.index t) (win2_0.rect_emb_val t) e00 (fun _ => rfl) e01)
      (read_rows (win2_1.index t) (win2_1.rect_emb_val t) e10 (fun _ => rfl) e11) _ _ b1 b2)

/-- Every index of the result array is in some point's block: row R is in the block of point R / 5000. -/
theorem cover (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, e60, e61⟩ := idxRows t
  have ht : t.val = (i 0).val / 5000 := rfl
  refine ⟨t, flush2_6 t, ?_⟩
  show i ∈ ((View.whole main_v43).slice (win2_6.rect t)).set
  rw [View.set_slice_whole, Rect.mem_set_unit]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

end Layer2

/-- After the region the result array holds relu((h + agg) · W1 + b1) · W2 + b2: every point's block is its block of it, and the blocks cover it. -/
theorem out2 (V : Entry Ideal) (c : Dev nD) (b1 b2 : FVec Ideal S64 .f32) (h1 : V c main_v37 = shapeCast S1x64 b1 shapeCasts_S64_S1x64)
    (h2 : V c main_v42 = shapeCast S1x64 b2 shapeCasts_S64_S1x64) :
    (dat2 V c).arrAt 6 cfg2.N = Cert.Spec.mlp (V c main_v20_0) (V c main_v32) (V c main_v34) b1 (V c main_v39) b2 :=
  (dat2 V c).arrAt_eq_of_cover 6 _ (fun t _ => Layer2.flushed_eq V c b1 b2 h1 h2 t) Layer2.cover

end Cert.KernelIdeal.Val

end
-- ==== Proof.KI.Val3.lean ====
import proofs.«421327_j56599079026905_1_alg».proof.Proof.KI.Reg3
import proofs.«421327_j56599079026905_1_alg».proof.Proof.KI.BnPoolMath
import proofs.«421327_j56599079026905_1_alg».proof.Proof.KI.HostFns
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Tactic
open Idealize.ShloMosaic.Pipeline (Dat)

namespace Layer3

theorem hz : (![0, 0] : Fin 2 → Nat) = fun _ => 0 := funext fun a => by fin_cases a <;> rfl

section Pieces

variable {F : FTy → Type} [FloatOps F] (c : Dev nD) (t : Fin cfg3.N) (x0 : Vec F S5000x64 .f32) (x1 x2 x3 x4 : Vec F S1x64 .f32)
  (x5 : Vec F S5000x1 .i32) (xo7 : Vec F S512x64 .f32)

theorem out_A_6 (h0 : t.val % 10 = 0) : out3_A_6 c t x0 x1 x2 x3 x4 x5 h0 = k3_pay3 x0 x3 x4 x1 x2 := by
  unfold out3_A_6
  rw [View.read_writes_eq_canon _ _ _ (cover3_A_6 c t x0 x1 x2 x3 x4 x5 h0)]
  unfold run3_A kernelRun3_A
  dsimp only
  sl_unfold_words
  rw [View.canon_unit_zero hz]
  simp only [View.readAt_eq_ld, (hs3_0 t).read_unread, (hs3_1 t).read_unread, (hs3_2 t).read_unread, (hs3_3 t).read_unread, (hs3_4 t).read_unread, (hs3_5 t).read_unread,
    View.ld_unit_zero (S := S5000x64) hz, View.ld_unit_zero (S := S1x64) hz, View.ld_unit_zero (S := S5000x1) hz]

theorem out_A_7 (h0 : t.val % 10 = 0) : out3_A_7 c t x0 x1 x2 x3 x4 x5 h0 = k3_pay1 (k3_pay4 x0 x3 x4 x1 x2 x5) (k3_pay2 (F := F)) := by
  unfold out3_A_7
  rw [View.read_writes_eq_canon _ _ _ (cover3_A_7 c t x0 x1 x2 x3 x4 x5 h0)]
  unfold run3_A kernelRun3_A
  dsimp only
  sl_unfold_words
  rw [View.canon_cons_unit_zero (S := S512x64) hz, View.readCov_unit_zero (S := S512x64) _ hz]
  simp only [View.readAt_eq_ld, (hs3_0 t).read_unread, (hs3_1 t).read_unread, (hs3_2 t).read_unread, (hs3_3 t).read_unread, (hs3_4 t).read_unread, (hs3_5 t).read_unread,
    View.ld_unit_zero (S := S5000x64) hz, View.ld_unit_zero (S := S1x64) hz, View.ld_unit_zero (S := S5000x1) hz]

theorem out_B_6 (h0 : ¬t.val % 10 = 0) : out3_B_6 c t x0 x1 x2 x3 x4 x5 xo7 h0 = k3_pay3 x0 x3 x4 x1 x2 := by
  unfold out3_B_6
  rw [View.read_writes_eq_canon _ _ _ (cover3_B_6 c t x0 x1 x2 x3 x4 x5 xo7 h0)]
  unfold run3_B kernelRun3_B
  dsimp only
  sl_unfold_words
  rw [View.canon_unit_zero hz]
  simp only [View.readAt_eq_ld, (hs3_0 t).read_unread, (hs3_1 t).read_unread, (hs3_2 t).read_unread, (hs3_3 t).read_unread, (hs3_4 t).read_unread, (hs3_5 t).read_unread,
    View.ld_unit_zero (S := S5000x64) hz, View.ld_unit_zero (S := S1x64) hz, View.ld_unit_zero (S := S5000x1) hz, (hs3_7 t).read_unread, View.ld_unit_zero (S := S512x64) hz]

theorem out_B_7 (h0 : ¬t.val % 10 = 0) : out3_B_7 c t x0 x1 x2 x3 x4 x5 xo7 h0 = k3_pay1 (k3_pay4 x0 x3 x4 x1 x2 x5) xo7 := by
  unfold out3_B_7
  rw [View.read_writes_eq_canon _ _ _ (cover3_B_7 c t x0 x1 x2 x3 x4 x5 xo7 h0)]
  unfold run3_B kernelRun3_B
  dsimp only
  sl_unfold_words
  rw [View.canon_unit_zero hz]
  simp only [View.readAt_eq_ld, (hs3_0 t).read_unread, (hs3_1 t).read_unread, (hs3_2 t).read_unread, (hs3_3 t).read_unread, (hs3_4 t).read_unread, (hs3_5 t).read_unread,
    View.ld_unit_zero (S := S5000x64) hz, View.ld_unit_zero (S := S1x64) hz, View.ld_unit_zero (S := S5000x1) hz, (hs3_7 t).read_unread, View.ld_unit_zero (S := S512x64) hz]

end Pieces

section Blocks

variable (V : Entry Ideal) (c : Dev nD)

abbrev zblk (t : Fin cfg3.N) : FVec Ideal S5000x64 .f32 := iblk3 V c 0 t
abbrev gblk (t : Fin cfg3.N) : FVec Ideal S1x64 .f32 := iblk3 V c 1 t
abbrev bblk (t : Fin cfg3.N) : FVec Ideal S1x64 .f32 := iblk3 V c 2 t
abbrev mblk (t : Fin cfg3.N) : FVec Ideal S1x64 .f32 := iblk3 V c 3 t
abbrev vblk (t : Fin cfg3.N) : FVec Ideal S1x64 .f32 := iblk3 V c 4 t
abbrev nblk (t : Fin cfg3.N) : IVec S5000x1 32 := iblk3 V c 5 t

theorem idxRows : ∀ t : Fin cfg3.N, (win3_0.index t (0 : Fin 2) = t.val ∧ win3_0.index t (1 : Fin 2) = 0)
    ∧ (win3_5.index t (0 : Fin 2) = t.val ∧ win3_5.index t (1 : Fin 2) = 0)
    ∧ win3_6.index t (0 : Fin 2) = t.val ∧ win3_6.index t (1 : Fin 2) = 0 :=
  (by decide +kernel : ∀ t : Fin grid3.N, _)

theorem idxZero : ∀ (t : Fin cfg3.N) (a : Fin 2), win3_1.index t a = 0 ∧ win3_2.index t a = 0 ∧ win3_3.index t a = 0 ∧ win3_4.index t a = 0
    ∧ win3_7.index t a = 0 :=
  (by decide +kernel : ∀ t : Fin grid3.N, _)

theorem N10 : cfg3.N = 10 := N_3

def rowOf (t : Fin cfg3.N) (r : Fin 5000) : Fin 50000 :=
  ⟨5000 * t.val + r.val, by have := lt_of_lt_of_eq t.isLt N10; have := r.isLt; omega⟩

theorem zblk_rows (t : Fin cfg3.N) : RowLayers.Rows (rowOf t) (zblk V c t) (V c main_v43) :=
  RowLayers.read_rows (win3_0.index t) (win3_0.rect_emb_val t) (idxRows t).1.1 (fun _ => rfl) (idxRows t).1.2

theorem nblk_rows (t : Fin cfg3.N) (r : Fin 5000) :
    nblk V c t (ix2 r (0 : Fin 1)) = V c main_v4 (ix2 (rowOf t r) (0 : Fin 1)) :=
  congrArg (V c main_v4) (RowLayers.emb_rows (win3_5.index t) (win3_5.rect_emb_val t) (idxRows t).2.1.1 (fun _ => rfl) (idxRows t).2.1.2 r 0)

theorem gblk_eq (t : Fin cfg3.N) : gblk V c t = V c main_v51 :=
  RowLayers.read_fix fun z a => win3_1.rect_emb_val_of_index_zero t a (idxZero t a).1 z
theorem bblk_eq (t : Fin cfg3.N) : bblk V c t = V c main_v54 :=
  RowLayers.read_fix fun z a => win3_2.rect_emb_val_of_index_zero t a (idxZero t a).2.1 z
theorem mblk_eq (t : Fin cfg3.N) : mblk V c t = V c main_v47 :=
  RowLayers.read_fix fun z a => win3_3.rect_emb_val_of_index_zero t a (idxZero t a).2.2.1 z
theorem vblk_eq (t : Fin cfg3.N) : vblk V c t = V c main_v48 :=
  RowLayers.read_fix fun z a => win3_4.rect_emb_val_of_index_zero t a (idxZero t a).2.2.2.1 z

/-- After every point the first output block is the clipped normalisation of the point's rows. -/
theorem inv6 (t : Fin cfg3.N) :
    (outsAt3 V c t.val t.isLt).1 = k3_pay3 (F := Ideal) (zblk V c t) (mblk V c t) (vblk V c t) (gblk V c t) (bblk V c t) := by
  by_cases h0 : t.val % 10 = 0
  · rw [outsAt3_A_6 V c t h0]
    exact out_A_6 (F := Ideal) c t _ _ _ _ _ _ h0
  · rw [outsAt3_B_6 V c t h0]
    exact out_B_6 (F := Ideal) c t _ _ _ _ _ _
      (outsAt3 V c (t.val - 1) (Nat.lt_of_le_of_lt (Nat.sub_le _ _) t.isLt)).2 h0

theorem hblk_rows (γ β : FVec Ideal S64 .f32) (hg : V c main_v51 = shapeCast S1x64 γ shapeCasts_S64_S1x64)
    (hbe : V c main_v54 = shapeCast S1x64 β shapeCasts_S64_S1x64) (hm : V c main_v47 = kmean (F := Ideal) (V c main_v43))
    (hv : V c main_v48 = kvar (F := Ideal) (V c main_v43)) (t : Fin cfg3.N) :
    RowLayers.Rows (rowOf t)
      (k3_pay3 (F := Ideal) (zblk V c t) (mblk V c t) (vblk V c t) (gblk V c t) (bblk V c t))
      (Cert.Spec.relu (Cert.Spec.bn (V c main_v43) γ β)) :=
  k3_pay3_rows (zblk_rows V c t) ((mblk_eq V c t).trans hm) ((vblk_eq V c t).trans hv) ((gblk_eq V c t).trans hg)
    ((bblk_eq V c t).trans hbe)

theorem nblk_batch (batch : IVec S50000 32) (hbatch : V c main_v4 = shapeCast S50000x1 batch shapeCasts_S50000_S50000x1)
    (t : Fin cfg3.N) (r : Fin 5000) : nblk V c t (ix2 r (0 : Fin 1)) = batch (ix1 (rowOf t r)) := by
  rw [nblk_rows, hbatch, RowLayers.column_apply]

/-- After point n the pool block holds, at (g, j), the sum of column j over the rows below 5000·(n + 1) whose graph is g. -/
theorem inv7 (γ β : FVec Ideal S64 .f32) (batch : IVec S50000 32)
    (hg : V c main_v51 = shapeCast S1x64 γ shapeCasts_S64_S1x64)
    (hbe : V c main_v54 = shapeCast S1x64 β shapeCasts_S64_S1x64) (hm : V c main_v47 = kmean (F := Ideal) (V c main_v43))
    (hv : V c main_v48 = kvar (F := Ideal) (V c main_v43))
    (hbatch : V c main_v4 = shapeCast S50000x1 batch shapeCasts_S50000_S50000x1) :
    ∀ (n : ℕ) (h : n < cfg3.N) (g : Fin 512) (j : Fin 64),
      (outsAt3 V c n h).2 (ix2 g j) = poolBelow (Cert.Spec.relu (Cert.Spec.bn (V c main_v43) γ β)) batch (5000 * (n + 1)) g j
  | 0, h, g, j => by
    refine (congrFun (outsAt3_A_7 V c ⟨0, h⟩ rfl) (ix2 g j)).trans ?_
    refine (congrFun (out_A_7 (F := Ideal) c ⟨0, h⟩ _ _ _ _ _ _ rfl) (ix2 g j)).trans ?_
    exact k3_pool_step 0 (σ := rowOf ⟨0, h⟩) (fun r => rfl) (hblk_rows V c γ β hg hbe hm hv ⟨0, h⟩)
      (nblk_batch V c batch hbatch ⟨0, h⟩) g j (k3_pay2_eq_poolBelow _ batch g j)
  | n + 1, h, g, j => by
    have hN : n + 1 < 10 := lt_of_lt_of_eq h N10
    have hB : ¬(⟨n + 1, h⟩ : Fin cfg3.N).val % 10 = 0 := by dsimp only; omega
    refine (congrFun (outsAt3_B_7 V c ⟨n + 1, h⟩ hB) (ix2 g j)).trans ?_
    refine (congrFun (out_B_7 (F := Ideal) c ⟨n + 1, h⟩ _ _ _ _ _ _
      (outsAt3 V c n (Nat.lt_of_succ_lt h)).2 hB) (ix2 g j)).trans ?_
    exact k3_pool_step (n + 1) (σ := rowOf ⟨n + 1, h⟩) (fun r => rfl) (hblk_rows V c γ β hg hbe hm hv ⟨n + 1, h⟩)
      (nblk_batch V c batch hbatch ⟨n + 1, h⟩) g j (inv7 γ β batch hg hbe hm hv hbatch n (Nat.lt_of_succ_lt h) g j)

theorem flushed6_eq (γ β : FVec Ideal S64 .f32) (hg : V c main_v51 = shapeCast S1x64 γ shapeCasts_S64_S1x64)
    (hbe : V c main_v54 = shapeCast S1x64 β shapeCasts_S64_S1x64) (hm : V c main_v47 = kmean (F := Ideal) (V c main_v43))
    (hv : V c main_v48 = kvar (F := Ideal) (V c main_v43)) (t : Fin cfg3.N) :
    (dat3 V c).flushed 6 t = ((cfg3.win 6).blk t).view.read (Elt Ideal) (Cert.Spec.relu (Cert.Spec.bn (V c main_v43) γ β)) := by
  show (cfg3.win 6).cut (grid3.coords t) ((dat3 V c).after 6 t) = _
  rw [after3_6, inv6]
  show k3_pay3 (F := Ideal) _ _ _ _ _ = _
  exact RowLayers.eq_read ((cfg3.win 6).blk t).view.emb
    (RowLayers.read_rows (win3_6.index t) (win3_6.rect_emb_val t) (idxRows t).2.2.1 (fun _ => rfl) (idxRows t).2.2.2) (hblk_rows V c γ β hg hbe hm hv t)

/-- Row R lies in the block of point R / 5000, so the ten blocks cover the array. -/
theorem cover6 (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 10 := N10
  let t : Fin cfg3.N := ⟨(i 0).val / 5000, by rw [hN]; omega⟩
  obtain ⟨-, -, e60, e61⟩ := idxRows t
  have ht : t.val = (i 0).val / 5000 := rfl
  refine ⟨t, flush3_6 t, ?_⟩
  show i ∈ ((View.whole main_v55_0).slice (win3_6.rect t)).set
  rw [View.set_slice_whole, Rect.mem_set_unit]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- After the last point the pool block is the sum of all rows by graph. -/
theorem flushed7_eq (γ β : FVec Ideal S64 .f32) (batch : IVec S50000 32)
    (hg : V c main_v51 = shapeCast S1x64 γ shapeCasts_S64_S1x64)
    (hbe : V c main_v54 = shapeCast S1x64 β shapeCasts_S64_S1x64) (hm : V c main_v47 = kmean (F := Ideal) (V c main_v43))
    (hv : V c main_v48 = kvar (F := Ideal) (V c main_v43))
    (hbatch : V c main_v4 = shapeCast S50000x1 batch shapeCasts_S50000_S50000x1)
    (t : Fin cfg3.N) (hf : (cfg3.win 7).flush t = true) :
    (dat3 V c).flushed 7 t
      = ((cfg3.win 7).blk t).view.read (Elt Ideal) (Cert.Spec.poolSum (Cert.Spec.relu (Cert.Spec.bn (V c main_v43) γ β)) batch) := by
  have hN : t.val < 10 := lt_of_lt_of_eq t.isLt N10
  have h9 : t.val = 9 := by have := (flush3_7 t).mp hf; omega
  show (cfg3.win 7).cut (grid3.coords t) ((dat3 V c).after 7 t) = _
  rw [after3_7]
  funext y
  obtain ⟨g, j, rfl⟩ : ∃ (g : Fin 512) (j : Fin 64), y = ix2 g j := ⟨y 0, y 1, eq_ix2 y⟩
  show (outsAt3 V c t.val t.isLt).2 (ix2 g j)
    = Cert.Spec.poolSum (Cert.Spec.relu (Cert.Spec.bn (V c main_v43) γ β)) batch (((cfg3.win 7).blk t).view.emb (ix2 g j))
  have e : ((cfg3.win 7).blk t).view.emb (ix2 g j) = ix2 g j :=
    funext fun a => Fin.ext (win3_7.rect_emb_val_of_index_zero t a (idxZero t a).2.2.2.2 _)
  rw [e, inv7 V c γ β batch hg hbe hm hv hbatch t.val t.isLt g j, h9]
  exact poolBelow_last _ batch g j

theorem cover7 (i : S512x64.Idx) :
    ∃ t : Fin cfg3.N, (cfg3.win 7).flush t = true ∧ i ∈ ((cfg3.win 7).blk t).view.set := by
  have hi0 : (i 0).val < 512 := (i 0).isLt
  have hi1 : (i 1).val < 64 := (i 1).isLt
  have hN : cfg3.N = 10 := N10
  let t : Fin cfg3.N := ⟨9, by rw [hN]; omega⟩
  have e70 := (idxZero t (0 : Fin 2)).2.2.2.2
  have e71 := (idxZero t (1 : Fin 2)).2.2.2.2
  refine ⟨t, (flush3_7 t).mpr rfl, ?_⟩
  show i ∈ ((View.whole main_v55_1).slice (win3_7.rect t)).set
  rw [View.set_slice_whole, Rect.mem_set_unit]
  intro a
  match a with
  | ⟨0, _⟩ => show win3_7.index t (0 : Fin 2) * 512 ≤ (i 0).val ∧ (i 0).val < win3_7.index t (0 : Fin 2) * 512 + 512; omega
  | ⟨1, _⟩ => show win3_7.index t (1 : Fin 2) * 64 ≤ (i 1).val ∧ (i 1).val < win3_7.index t (1 : Fin 2) * 64 + 64; omega

end Blocks

end Layer3

/-- The region leaves the normalised and clipped array: each point's block is its block of it, -/
theorem out3_h (V : Entry Ideal) (c : Dev nD) (γ β : FVec Ideal S64 .f32) (hg : V c main_v51 = shapeCast S1x64 γ shapeCasts_S64_S1x64)
    (hbe : V c main_v54 = shapeCast S1x64 β shapeCasts_S64_S1x64) (hm : V c main_v47 = kmean (F := Ideal) (V c main_v43)) (hv : V c main_v48 = kvar (F := Ideal) (V c main_v43)) :
    (dat3 V c).arrAt 6 cfg3.N = Cert.Spec.relu (Cert.Spec.bn (V c main_v43) γ β) :=
  (dat3 V c).arrAt_eq_of_cover 6 _ (fun t _ => Layer3.flushed6_eq V c γ β hg hbe hm hv t) Layer3.cover6

/-- and the per-graph sums of its rows. -/
theorem out3_pool (V : Entry Ideal) (c : Dev nD) (γ β : FVec Ideal S64 .f32) (batch : IVec S50000 32)
    (hg : V c main_v51 = shapeCast S1x64 γ shapeCasts_S64_S1x64)
    (hbe : V c main_v54 = shapeCast S1x64 β shapeCasts_S64_S1x64) (hm : V c main_v47 = kmean (F := Ideal) (V c main_v43)) (hv : V c main_v48 = kvar (F := Ideal) (V c main_v43))
    (hbatch : V c main_v4 = shapeCast S50000x1 batch shapeCasts_S50000_S50000x1) :
    (dat3 V c).arrAt 7 cfg3.N = Cert.Spec.poolSum (Cert.Spec.relu (Cert.Spec.bn (V c main_v43) γ β)) batch :=
  (dat3 V c).arrAt_eq_of_cover 7 _ (fun t hf => Layer3.flushed7_eq V c γ β batch hg hbe hm hv hbatch t hf) Layer3.cover7

end Cert.KernelIdeal.Val

end
-- ==== Proof.KI.Val4.lean ====
import proofs.«421327_j56599079026905_1_alg».proof.Proof.KI.Reg4
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.KernelVsHost

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open RowLayers

namespace Layer4

/-- The affine layer x · W + b of a block against that of the whole array: row p of the one is row σ p of the other, both Σ_c x[·,c]·W[c,j] + b[j]. -/
theorem rowsAffine {mb M k n : ℕ} {σ : Fin mb → Fin M} (h16 : FTy.bf16.bits < FTy.f32.bits)
    (hww : (⟨2, ![k, n]⟩ : Shape).ShapeCasts ⟨2, ![k, n]⟩) (hss : (⟨2, ![1, n]⟩ : Shape).ShapeCasts ⟨2, ![1, n]⟩)
    (hsc : (⟨1, ![n]⟩ : Shape).ShapeCasts ⟨2, ![1, n]⟩) (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![k, n]⟩ .f32) (b : FVec Ideal ⟨1, ![n]⟩ .f32) :
    Rows σ
      (Idealize.ShloMosaic.addf
        (matmul (DotDims.plain mb k n) none x (Idealize.ShloMosaic.truncf .bf16 (shapeCast ⟨2, ![k, n]⟩ w hww) h16) (constant ⟨2, ![mb, n]⟩ .f32 0x00000000#32))
        (broadcastTo ⟨2, ![mb, n]⟩ (shapeCast ⟨2, ![1, n]⟩ (shapeCast ⟨2, ![1, n]⟩ b hsc) hss) hbc))
      (Idealize.ShloMosaic.addf (Host.dotGeneral (DotDims.plain M k n) none X w)
        (broadcastInDim ⟨2, ![M, n]⟩ ![0, 1] h01 (broadcastInDim ⟨2, ![1, n]⟩ ![1] h1 b))) := fun p c => by
  rw [shapeCast_self, shapeCast_self, addf_apply, addf_apply, matmul_zero_eq_dotGeneral, StackMember.dotGeneral_plain_apply,
    StackMember.dotGeneral_plain_apply, broadcastTo_1b_ab_apply, shapeCast_a_1a_apply, rowDown_apply, rowBroadcast_apply]
  simp only [hx p]
  rfl

/-- The perceptron relu((h + agg) · W1 + b1) · W2 + b2 of two blocks that are the σ-rows of h and agg is the σ-rows of the whole arrays' perceptron. -/
theorem payRows {σ : Fin 5000 → Fin 50000} {v0 v2 : Vec Ideal S5000x64 .f32}
    {H A : FVec Ideal Cert.ReferenceIdeal.S50000x64 .f32} (hH : Rows σ v0 H) (hA : Rows σ v2 A)
    (W1 W2 : Vec Ideal S64x64 .f32) (b1 b2 : FVec Ideal S64 .f32) :
    Rows σ (k4_pay1 v0 v2 W1 (shapeCast S1x64 b1 shapeCasts_S64_S1x64) W2 (shapeCast S1x64 b2 shapeCasts_S64_S1x64))
      (Cert.Spec.mlp H A W1 b1 W2 b2) := by
  unfold k4_pay1 Cert.Spec.mlp Cert.Spec.affine Cert.Spec.relu
  exact rowsAffine (mb := 5000) (M := 50000) (k := 64) (n := 64) _ _ _ _ _ _ _
    (Rows.truncf _ (Rows.relu _
      (rowsAffine (mb := 5000) (M := 50000) (k := 64) (n := 64) _ _ _ _ _ _ _
        (Rows.truncf _ (Rows.addf (by rwa [shapeCast_self]) (by rwa [shapeCast_self]))) W1 b1))) W2 b2

theorem hz : (![0, 0] : Fin 2 → Nat) = fun _ => 0 := funext fun a => by fin_cases a <;> rfl

/-- The windows of h, agg and the result sit at block t along the rows; -/
theorem idxRows : ∀ t : Fin cfg4.N, (win4_0.index t (0 : Fin 2) = t.val ∧ win4_0.index t (1 : Fin 2) = 0)
    ∧ (win4_1.index t (0 : Fin 2) = t.val ∧ win4_1.index t (1 : Fin 2) = 0)
    ∧ win4_6.index t (0 : Fin 2) = t.val ∧ win4_6.index t (1 : Fin 2) = 0 :=
  (by decide +kernel : ∀ t : Fin grid4.N, _)

/-- the weights' and the biases' one block sits at zero. -/
theorem idxZero : ∀ (t : Fin cfg4.N) (a : Fin 2), win4_2.index t a = 0 ∧ win4_3.index t a = 0 ∧ win4_4.index t a = 0 ∧ win4_5.index t a = 0 :=
  (by decide +kernel : ∀ t : Fin grid4.N, _)

/-- Row p of the block of point t is row 5000·t + p of the array. -/
def rowOf (t : Fin cfg4.N) (p : Fin 5000) : Fin 50000 :=
  ⟨5000 * t.val + p.val, by have hN : cfg4.N = 10 := N_4; have ht := t.isLt; have hp := p.isLt; omega⟩

/-- Point t's block of the result is block t of the whole-array perceptron of the arrays the region finds. -/
theorem flushed_eq (V : Entry Ideal) (c : Dev nD) (b1 b2 : FVec Ideal S64 .f32)
    (h1 : V c main_v72 = shapeCast S1x64 b1 shapeCasts_S64_S1x64) (h2 : V c main_v77 = shapeCast S1x64 b2 shapeCasts_S64_S1x64)
    (t : Fin cfg4.N) :
    (dat4 V c).flushed 6 t = ((cfg4.win 6).blk t).view.read (Elt Ideal)
      (Cert.Spec.mlp (V c main_v55_0) (V c main_v67) (V c main_v69) b1 (V c main_v74) b2) := by
  show (cfg4.win 6).cut (grid4.coords t) ((dat4 V c).after 6 t) = _
  rw [after4_6]
  unfold out4_6
  rw [View.canon_unit_zero hz]
  simp only [View.ld_unit_zero (S := S5000x64) hz, View.ld_unit_zero (S := S64x64) hz, View.ld_unit_zero (S := S1x64) hz]
  have h0 := idxZero t
  obtain ⟨⟨e00, e01⟩, ⟨e10, e11⟩, e60, e61⟩ := idxRows t
  rw [show iblk4 V c 2 t = V c main_v69 from read_fix fun z a => win4_2.rect_emb_val_of_index_zero t a (h0 a).1 z,
    show iblk4 V c 3 t = V c main_v72 from read_fix fun z a => win4_3.rect_emb_val_of_index_zero t a (h0 a).2.1 z,
    show iblk4 V c 4 t = V c main_v74 from read_fix fun z a => win4_4.rect_emb_val_of_index_zero t a (h0 a).2.2.1 z,
    show iblk4 V c 5 t = V c main_v77 from read_fix fun z a => win4_5.rect_emb_val_of_index_zero t a (h0 a).2.2.2 z, h1, h2]
  show k4_pay1 (F := Ideal) _ _ _ _ _ _ = _
  exact eq_read (σ := rowOf t) ((cfg4.win 6).blk t).view.emb (read_rows (win4_6.index t) (win4_6.rect_emb_val t) e60 (fun _ => rfl) e61)
    (payRows (v0 := iblk4 V c 0 t) (v2 := iblk4 V c 1 t) (read_rows (win4_0.index t) (win4_0.rect_emb_val t) e00 (fun _ => rfl) e01)
      (read_rows (win4_1.index t) (win4_1.rect_emb_val t) e10 (fun _ => rfl) e11) _ _ b1 b2)

/-- Every index of the result array is in some point's block: row R is in the block of point R / 5000. -/
theorem cover (i : S50000x64.Idx) :
    ∃ t : Fin cfg4.N, (cfg4.win 6).flush t = true ∧ i ∈ ((cfg4.win 6).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨-, -, e60, e61⟩ := idxRows t
  have ht : t.val = (i 0).val / 5000 := rfl
  refine ⟨t, flush4_6 t, ?_⟩
  show i ∈ ((View.whole main_v78).slice (win4_6.rect t)).set
  rw [View.set_slice_whole, Rect.mem_set_unit]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 64 ≤ (i 1).val ∧ (i 1).val < win4_6.index t (1 : Fin 2) * 64 + 64; omega

end Layer4

/-- After the region the result array holds relu((h + agg) · W1 + b1) · W2 + b2: every point's block is its block of it, and the blocks cover it. -/
theorem out4 (V : Entry Ideal) (c : Dev nD) (b1 b2 : FVec Ideal S64 .f32) (h1 : V c main_v72 = shapeCast S1x64 b1 shapeCasts_S64_S1x64)
    (h2 : V c main_v77 = shapeCast S1x64 b2 shapeCasts_S64_S1x64) :
    (dat4 V c).arrAt 6 cfg4.N = Cert.Spec.mlp (V c main_v55_0) (V c main_v67) (V c main_v69) b1 (V c main_v74) b2 :=
  (dat4 V c).arrAt_eq_of_cover 6 _ (fun t _ => Layer4.flushed_eq V c b1 b2 h1 h2 t) Layer4.cover

end Cert.KernelIdeal.Val

end
-- ==== Proof.KI.BnPoolMathLater.lean ====
import proofs.«421327_j56599079026905_1_alg».proof.Proof.KI.BnPoolMath

noncomputable section

open scoped BigOperators

namespace Cert.KernelIdeal.Val

open Cert.KernelIdeal Cert.KernelIdeal.Gen Cert.KernelIdeal.Hand
open Idealize.ShloMosaic Idealize.ShloMosaic.ValueIdx Idealize.SL.Sem

theorem k5_pay3_rows {σ : Fin 5000 → Fin 50000} {z5 : FVec Ideal S5000x64 .f32} {Z : FVec Ideal S50000x64 .f32}
    {mean1 var1 γ1 β1 : FVec Ideal S1x64 .f32} {γ β : FVec Ideal S64 .f32}
    (hz : RowLayers.Rows σ z5 Z) (hm : mean1 = kmean Z) (hv : var1 = kvar Z)
    (hg : γ1 = shapeCast S1x64 γ shapeCasts_S64_S1x64) (hb : β1 = shapeCast S1x64 β shapeCasts_S64_S1x64) :
    RowLayers.Rows σ (k5_pay3 (F := Ideal) z5 mean1 var1 γ1 β1) (Cert.Spec.relu (Cert.Spec.bn Z γ β)) :=
  k3_pay3_rows hz hm hv hg hb

theorem k5_pay2_eq_poolBelow (H : FVec Ideal S50000x64 .f32) (batch : IVec S50000 32) (g : Fin 512) (j : Fin 64) :
    k5_pay2 (F := Ideal) (ix2 g j) = poolBelow H batch (5000 * 0) g j :=
  k3_pay2_eq_poolBelow H batch g j

theorem k5_pool_step {H : FVec Ideal S50000x64 .f32} {batch : IVec S50000 32} (t : ℕ) {σ : Fin 5000 → Fin 50000}
    (hσ : ∀ r, (σ r).val = 5000 * t + r.val)
    {z5 : FVec Ideal S5000x64 .f32} {mean1 var1 γ1 β1 : FVec Ideal S1x64 .f32} {b5 : IVec S5000x1 32}
    (hh : RowLayers.Rows σ (k5_pay3 (F := Ideal) z5 mean1 var1 γ1 β1) H)
    (hb : ∀ r : Fin 5000, b5 (ix2 r (0 : Fin 1)) = batch (ix1 (σ r)))
    {acc : FVec Ideal S512x64 .f32} (g : Fin 512) (j : Fin 64) (hacc : acc (ix2 g j) = poolBelow H batch (5000 * t) g j) :
    k5_pay1 (F := Ideal) (k5_pay4 (F := Ideal) z5 mean1 var1 γ1 β1 b5) acc (ix2 g j)
      = poolBelow H batch (5000 * (t + 1)) g j :=
  k3_pool_step t hσ hh hb g j hacc

theorem k7_pay3_rows {σ : Fin 5000 → Fin 50000} {z5 : FVec Ideal S5000x64 .f32} {Z : FVec Ideal S50000x64 .f32}
    {mean1 var1 γ1 β1 : FVec Ideal S1x64 .f32} {γ β : FVec Ideal S64 .f32}
    (hz : RowLayers.Rows σ z5 Z) (hm : mean1 = kmean Z) (hv : var1 = kvar Z)
    (hg : γ1 = shapeCast S1x64 γ shapeCasts_S64_S1x64) (hb : β1 = shapeCast S1x64 β shapeCasts_S64_S1x64) :
    RowLayers.Rows σ (k7_pay3 (F := Ideal) z5 mean1 var1 γ1 β1) (Cert.Spec.relu (Cert.Spec.bn Z γ β)) :=
  k3_pay3_rows hz hm hv hg hb

theorem k7_pay2_eq_poolBelow (H : FVec Ideal S50000x64 .f32) (batch : IVec S50000 32) (g : Fin 512) (j : Fin 64) :
    k7_pay2 (F := Ideal) (ix2 g j) = poolBelow H batch (5000 * 0) g j :=
  k3_pay2_eq_poolBelow H batch g j

theorem k7_pool_step {H : FVec Ideal S50000x64 .f32} {batch : IVec S50000 32} (t : ℕ) {σ : Fin 5000 → Fin 50000}
    (hσ : ∀ r, (σ r).val = 5000 * t + r.val)
    {z5 : FVec Ideal S5000x64 .f32} {mean1 var1 γ1 β1 : FVec Ideal S1x64 .f32} {b5 : IVec S5000x1 32}
    (hh : RowLayers.Rows σ (k7_pay3 (F := Ideal) z5 mean1 var1 γ1 β1) H)
    (hb : ∀ r : Fin 5000, b5 (ix2 r (0 : Fin 1)) = batch (ix1 (σ r)))
    {acc : FVec Ideal S512x64 .f32} (g : Fin 512) (j : Fin 64) (hacc : acc (ix2 g j) = poolBelow H batch (5000 * t) g j) :
    k7_pay1 (F := Ideal) (k7_pay4 (F := Ideal) z5 mean1 var1 γ1 β1 b5) acc (ix2 g j)
      = poolBelow H batch (5000 * (t + 1)) g j :=
  k3_pool_step t hσ hh hb g j hacc

end Cert.KernelIdeal.Val

end
-- ==== Proof.KI.Val5.lean ====
import proofs.«421327_j56599079026905_1_alg».proof.Proof.KI.Reg5
import proofs.«421327_j56599079026905_1_alg».proof.Proof.KI.BnPoolMathLater
import proofs.«421327_j56599079026905_1_alg».proof.Proof.KI.HostFns
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Tactic
open Idealize.ShloMosaic.Pipeline (Dat)

namespace Layer5

theorem hz : (![0, 0] : Fin 2 → Nat) = fun _ => 0 := funext fun a => by fin_cases a <;> rfl

section Pieces

variable {F : FTy → Type} [FloatOps F] (c : Dev nD) (t : Fin cfg5.N) (x0 : Vec F S5000x64 .f32) (x1 x2 x3 x4 : Vec F S1x64 .f32)
  (x5 : Vec F S5000x1 .i32) (xo7 : Vec F S512x64 .f32)

theorem out_A_6 (h0 : t.val % 10 = 0) : out5_A_6 c t x0 x1 x2 x3 x4 x5 h0 = k5_pay3 x0 x3 x4 x1 x2 := by
  unfold out5_A_6
  rw [View.read_writes_eq_canon _ _ _ (cover5_A_6 c t x0 x1 x2 x3 x4 x5 h0)]
  unfold run5_A kernelRun3_A
  dsimp only
  sl_unfold_words
  rw [View.canon_unit_zero hz]
  simp only [View.readAt_eq_ld, (hs5_0 t).read_unread, (hs5_1 t).read_unread, (hs5_2 t).read_unread, (hs5_3 t).read_unread, (hs5_4 t).read_unread, (hs5_5 t).read_unread,
    View.ld_unit_zero (S := S5000x64) hz, View.ld_unit_zero (S := S1x64) hz, View.ld_unit_zero (S := S5000x1) hz]
  rfl

theorem out_A_7 (h0 : t.val % 10 = 0) : out5_A_7 c t x0 x1 x2 x3 x4 x5 h0 = k5_pay1 (k5_pay4 x0 x3 x4 x1 x2 x5) (k5_pay2 (F := F)) := by
  unfold out5_A_7
  rw [View.read_writes_eq_canon _ _ _ (cover5_A_7 c t x0 x1 x2 x3 x4 x5 h0)]
  unfold run5_A kernelRun3_A
  dsimp only
  sl_unfold_words
  rw [View.canon_cons_unit_zero (S := S512x64) hz, View.readCov_unit_zero (S := S512x64) _ hz]
  simp only [View.readAt_eq_ld, (hs5_0 t).read_unread, (hs5_1 t).read_unread, (hs5_2 t).read_unread, (hs5_3 t).read_unread, (hs5_4 t).read_unread, (hs5_5 t).read_unread,
    View.ld_unit_zero (S := S5000x64) hz, View.ld_unit_zero (S := S1x64) hz, View.ld_unit_zero (S := S5000x1) hz]
  rfl

theorem out_B_6 (h0 : ¬t.val % 10 = 0) : out5_B_6 c t x0 x1 x2 x3 x4 x5 xo7 h0 = k5_pay3 x0 x3 x4 x1 x2 := by
  unfold out5_B_6
  rw [View.read_writes_eq_canon _ _ _ (cover5_B_6 c t x0 x1 x2 x3 x4 x5 xo7 h0)]
  unfold run5_B kernelRun3_B
  dsimp only
  sl_unfold_words
  rw [View.canon_unit_zero hz]
  simp only [View.readAt_eq_ld, (hs5_0 t).read_unread, (hs5_1 t).read_unread, (hs5_2 t).read_unread, (hs5_3 t).read_unread, (hs5_4 t).read_unread, (hs5_5 t).read_unread,
    View.ld_unit_zero (S := S5000x64) hz, View.ld_unit_zero (S := S1x64) hz, View.ld_unit_zero (S := S5000x1) hz, (hs5_7 t).read_unread, View.ld_unit_zero (S := S512x64) hz]
  rfl

theorem out_B_7 (h0 : ¬t.val % 10 = 0) : out5_B_7 c t x0 x1 x2 x3 x4 x5 xo7 h0 = k5_pay1 (k5_pay4 x0 x3 x4 x1 x2 x5) xo7 := by
  unfold out5_B_7
  rw [View.read_writes_eq_canon _ _ _ (cover5_B_7 c t x0 x1 x2 x3 x4 x5 xo7 h0)]
  unfold run5_B kernelRun3_B
  dsimp only
  sl_unfold_words
  rw [View.canon_unit_zero hz]
  simp only [View.readAt_eq_ld, (hs5_0 t).read_unread, (hs5_1 t).read_unread, (hs5_2 t).read_unread, (hs5_3 t).read_unread, (hs5_4 t).read_unread, (hs5_5 t).read_unread,
    View.ld_unit_zero (S := S5000x64) hz, View.ld_unit_zero (S := S1x64) hz, View.ld_unit_zero (S := S5000x1) hz, (hs5_7 t).read_unread, View.ld_unit_zero (S := S512x64) hz]
  rfl

end Pieces

section Blocks

variable (V : Entry Ideal) (c : Dev nD)

abbrev zblk (t : Fin cfg5.N) : FVec Ideal S5000x64 .f32 := iblk5 V c 0 t
abbrev gblk (t : Fin cfg5.N) : FVec Ideal S1x64 .f32 := iblk5 V c 1 t
abbrev bblk (t : Fin cfg5.N) : FVec Ideal S1x64 .f32 := iblk5 V c 2 t
abbrev mblk (t : Fin cfg5.N) : FVec Ideal S1x64 .f32 := iblk5 V c 3 t
abbrev vblk (t : Fin cfg5.N) : FVec Ideal S1x64 .f32 := iblk5 V c 4 t
abbrev nblk (t : Fin cfg5.N) : IVec S5000x1 32 := iblk5 V c 5 t

theorem idxRows : ∀ t : Fin cfg5.N, (win5_0.index t (0 : Fin 2) = t.val ∧ win5_0.index t (1 : Fin 2) = 0)
    ∧ (win5_5.index t (0 : Fin 2) = t.val ∧ win5_5.index t (1 : Fin 2) = 0)
    ∧ win5_6.index t (0 : Fin 2) = t.val ∧ win5_6.index t (1 : Fin 2) = 0 :=
  (by decide +kernel : ∀ t : Fin grid5.N, _)

theorem idxZero : ∀ (t : Fin cfg5.N) (a : Fin 2), win5_1.index t a = 0 ∧ win5_2.index t a = 0 ∧ win5_3.index t a = 0 ∧ win5_4.index t a = 0
    ∧ win5_7.index t a = 0 :=
  (by decide +kernel : ∀ t : Fin grid5.N, _)

theorem N10 : cfg5.N = 10 := N_5

def rowOf (t : Fin cfg5.N) (r : Fin 5000) : Fin 50000 :=
  ⟨5000 * t.val + r.val, by have := lt_of_lt_of_eq t.isLt N10; have := r.isLt; omega⟩

theorem zblk_rows (t : Fin cfg5.N) : RowLayers.Rows (rowOf t) (zblk V c t) (V c main_v78) :=
  RowLayers.read_rows (win5_0.index t) (win5_0.rect_emb_val t) (idxRows t).1.1 (fun _ => rfl) (idxRows t).1.2

theorem nblk_rows (t : Fin cfg5.N) (r : Fin 5000) :
    nblk V c t (ix2 r (0 : Fin 1)) = V c main_v4 (ix2 (rowOf t r) (0 : Fin 1)) :=
  congrArg (V c main_v4) (RowLayers.emb_rows (win5_5.index t) (win5_5.rect_emb_val t) (idxRows t).2.1.1 (fun _ => rfl) (idxRows t).2.1.2 r 0)

theorem gblk_eq (t : Fin cfg5.N) : gblk V c t = V c main_v86 :=
  RowLayers.read_fix fun z a => win5_1.rect_emb_val_of_index_zero t a (idxZero t a).1 z
theorem bblk_eq (t : Fin cfg5.N) : bblk V c t = V c main_v89 :=
  RowLayers.read_fix fun z a => win5_2.rect_emb_val_of_index_zero t a (idxZero t a).2.1 z
theorem mblk_eq (t : Fin cfg5.N) : mblk V c t = V c main_v82 :=
  RowLayers.read_fix fun z a => win5_3.rect_emb_val_of_index_zero t a (idxZero t a).2.2.1 z
theorem vblk_eq (t : Fin cfg5.N) : vblk V c t = V c main_v83 :=
  RowLayers.read_fix fun z a => win5_4.rect_emb_val_of_index_zero t a (idxZero t a).2.2.2.1 z

/-- After every point the first output block is the clipped normalisation of the point's rows. -/
theorem inv6 (t : Fin cfg5.N) :
    (outsAt5 V c t.val t.isLt).1 = k5_pay3 (F := Ideal) (zblk V c t) (mblk V c t) (vblk V c t) (gblk V c t) (bblk V c t) := by
  by_cases h0 : t.val % 10 = 0
  · rw [outsAt5_A_6 V c t h0]
    exact out_A_6 (F := Ideal) c t _ _ _ _ _ _ h0
  · rw [outsAt5_B_6 V c t h0]
    exact out_B_6 (F := Ideal) c t _ _ _ _ _ _
      (outsAt5 V c (t.val - 1) (Nat.lt_of_le_of_lt (Nat.sub_le _ _) t.isLt)).2 h0

theorem hblk_rows (γ β : FVec Ideal S64 .f32) (hg : V c main_v86 = shapeCast S1x64 γ shapeCasts_S64_S1x64)
    (hbe : V c main_v89 = shapeCast S1x64 β shapeCasts_S64_S1x64) (hm : V c main_v82 = kmean (F := Ideal) (V c main_v78))
    (hv : V c main_v83 = kvar (F := Ideal) (V c main_v78)) (t : Fin cfg5.N) :
    RowLayers.Rows (rowOf t)
      (k5_pay3 (F := Ideal) (zblk V c t) (mblk V c t) (vblk V c t) (gblk V c t) (bblk V c t))
      (Cert.Spec.relu (Cert.Spec.bn (V c main_v78) γ β)) :=
  k5_pay3_rows (zblk_rows V c t) ((mblk_eq V c t).trans hm) ((vblk_eq V c t).trans hv) ((gblk_eq V c t).trans hg)
    ((bblk_eq V c t).trans hbe)

theorem nblk_batch (batch : IVec S50000 32) (hbatch : V c main_v4 = shapeCast S50000x1 batch shapeCasts_S50000_S50000x1)
    (t : Fin cfg5.N) (r : Fin 5000) : nblk V c t (ix2 r (0 : Fin 1)) = batch (ix1 (rowOf t r)) := by
  rw [nblk_rows, hbatch, RowLayers.column_apply]

/-- After point n the pool block holds, at (g, j), the sum of column j over the rows below 5000·(n + 1) whose graph is g. -/
theorem inv7 (γ β : FVec Ideal S64 .f32) (batch : IVec S50000 32)
    (hg : V c main_v86 = shapeCast S1x64 γ shapeCasts_S64_S1x64)
    (hbe : V c main_v89 = shapeCast S1x64 β shapeCasts_S64_S1x64) (hm : V c main_v82 = kmean (F := Ideal) (V c main_v78))
    (hv : V c main_v83 = kvar (F := Ideal) (V c main_v78))
    (hbatch : V c main_v4 = shapeCast S50000x1 batch shapeCasts_S50000_S50000x1) :
    ∀ (n : ℕ) (h : n < cfg5.N) (g : Fin 512) (j : Fin 64),
      (outsAt5 V c n h).2 (ix2 g j) = poolBelow (Cert.Spec.relu (Cert.Spec.bn (V c main_v78) γ β)) batch (5000 * (n + 1)) g j
  | 0, h, g, j => by
    refine (congrFun (outsAt5_A_7 V c ⟨0, h⟩ rfl) (ix2 g j)).trans ?_
    refine (congrFun (out_A_7 (F := Ideal) c ⟨0, h⟩ _ _ _ _ _ _ rfl) (ix2 g j)).trans ?_
    exact k5_pool_step 0 (σ := rowOf ⟨0, h⟩) (fun r => rfl) (hblk_rows V c γ β hg hbe hm hv ⟨0, h⟩)
      (nblk_batch V c batch hbatch ⟨0, h⟩) g j (k5_pay2_eq_poolBelow _ batch g j)
  | n + 1, h, g, j => by
    have hN : n + 1 < 10 := lt_of_lt_of_eq h N10
    have hB : ¬(⟨n + 1, h⟩ : Fin cfg5.N).val % 10 = 0 := by dsimp only; omega
    refine (congrFun (outsAt5_B_7 V c ⟨n + 1, h⟩ hB) (ix2 g j)).trans ?_
    refine (congrFun (out_B_7 (F := Ideal) c ⟨n + 1, h⟩ _ _ _ _ _ _
      (outsAt5 V c n (Nat.lt_of_succ_lt h)).2 hB) (ix2 g j)).trans ?_
    exact k5_pool_step (n + 1) (σ := rowOf ⟨n + 1, h⟩) (fun r => rfl) (hblk_rows V c γ β hg hbe hm hv ⟨n + 1, h⟩)
      (nblk_batch V c batch hbatch ⟨n + 1, h⟩) g j (inv7 γ β batch hg hbe hm hv hbatch n (Nat.lt_of_succ_lt h) g j)

theorem flushed6_eq (γ β : FVec Ideal S64 .f32) (hg : V c main_v86 = shapeCast S1x64 γ shapeCasts_S64_S1x64)
    (hbe : V c main_v89 = shapeCast S1x64 β shapeCasts_S64_S1x64) (hm : V c main_v82 = kmean (F := Ideal) (V c main_v78))
    (hv : V c main_v83 = kvar (F := Ideal) (V c main_v78)) (t : Fin cfg5.N) :
    (dat5 V c).flushed 6 t = ((cfg5.win 6).blk t).view.read (Elt Ideal) (Cert.Spec.relu (Cert.Spec.bn (V c main_v78) γ β)) := by
  show (cfg5.win 6).cut (grid5.coords t) ((dat5 V c).after 6 t) = _
  rw [after5_6, inv6]
  show k5_pay3 (F := Ideal) _ _ _ _ _ = _
  exact RowLayers.eq_read ((cfg5.win 6).blk t).view.emb
    (RowLayers.read_rows (win5_6.index t) (win5_6.rect_emb_val t) (idxRows t).2.2.1 (fun _ => rfl) (idxRows t).2.2.2) (hblk_rows V c γ β hg hbe hm hv t)

/-- Row R lies in the block of point R / 5000, so the ten blocks cover the array. -/
theorem cover6 (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  have hN : cfg5.N = 10 := N10
  let t : Fin cfg5.N := ⟨(i 0).val / 5000, by rw [hN]; omega⟩
  obtain ⟨-, -, e60, e61⟩ := idxRows t
  have ht : t.val = (i 0).val / 5000 := rfl
  refine ⟨t, flush5_6 t, ?_⟩
  show i ∈ ((View.whole main_v90_0).slice (win5_6.rect t)).set
  rw [View.set_slice_whole, Rect.mem_set_unit]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- After the last point the pool block is the sum of all rows by graph. -/
theorem flushed7_eq (γ β : FVec Ideal S64 .f32) (batch : IVec S50000 32)
    (hg : V c main_v86 = shapeCast S1x64 γ shapeCasts_S64_S1x64)
    (hbe : V c main_v89 = shapeCast S1x64 β shapeCasts_S64_S1x64) (hm : V c main_v82 = kmean (F := Ideal) (V c main_v78))
    (hv : V c main_v83 = kvar (F := Ideal) (V c main_v78))
    (hbatch : V c main_v4 = shapeCast S50000x1 batch shapeCasts_S50000_S50000x1)
    (t : Fin cfg5.N) (hf : (cfg5.win 7).flush t = true) :
    (dat5 V c).flushed 7 t
      = ((cfg5.win 7).blk t).view.read (Elt Ideal) (Cert.Spec.poolSum (Cert.Spec.relu (Cert.Spec.bn (V c main_v78) γ β)) batch) := by
  have hN : t.val < 10 := lt_of_lt_of_eq t.isLt N10
  have h9 : t.val = 9 := by have := (flush5_7 t).mp hf; omega
  show (cfg5.win 7).cut (grid5.coords t) ((dat5 V c).after 7 t) = _
  rw [after5_7]
  funext y
  obtain ⟨g, j, rfl⟩ : ∃ (g : Fin 512) (j : Fin 64), y = ix2 g j := ⟨y 0, y 1, eq_ix2 y⟩
  show (outsAt5 V c t.val t.isLt).2 (ix2 g j)
    = Cert.Spec.poolSum (Cert.Spec.relu (Cert.Spec.bn (V c main_v78) γ β)) batch (((cfg5.win 7).blk t).view.emb (ix2 g j))
  have e : ((cfg5.win 7).blk t).view.emb (ix2 g j) = ix2 g j :=
    funext fun a => Fin.ext (win5_7.rect_emb_val_of_index_zero t a (idxZero t a).2.2.2.2 _)
  rw [e, inv7 V c γ β batch hg hbe hm hv hbatch t.val t.isLt g j, h9]
  exact poolBelow_last _ batch g j

theorem cover7 (i : S512x64.Idx) :
    ∃ t : Fin cfg5.N, (cfg5.win 7).flush t = true ∧ i ∈ ((cfg5.win 7).blk t).view.set := by
  have hi0 : (i 0).val < 512 := (i 0).isLt
  have hi1 : (i 1).val < 64 := (i 1).isLt
  have hN : cfg5.N = 10 := N10
  let t : Fin cfg5.N := ⟨9, by rw [hN]; omega⟩
  have e70 := (idxZero t (0 : Fin 2)).2.2.2.2
  have e71 := (idxZero t (1 : Fin 2)).2.2.2.2
  refine ⟨t, (flush5_7 t).mpr rfl, ?_⟩
  show i ∈ ((View.whole main_v90_1).slice (win5_7.rect t)).set
  rw [View.set_slice_whole, Rect.mem_set_unit]
  intro a
  match a with
  | ⟨0, _⟩ => show win5_7.index t (0 : Fin 2) * 512 ≤ (i 0).val ∧ (i 0).val < win5_7.index t (0 : Fin 2) * 512 + 512; omega
  | ⟨1, _⟩ => show win5_7.index t (1 : Fin 2) * 64 ≤ (i 1).val ∧ (i 1).val < win5_7.index t (1 : Fin 2) * 64 + 64; omega

end Blocks

end Layer5

/-- The region leaves the normalised and clipped array: each point's block is its block of it, -/
theorem out5_h (V : Entry Ideal) (c : Dev nD) (γ β : FVec Ideal S64 .f32) (hg : V c main_v86 = shapeCast S1x64 γ shapeCasts_S64_S1x64)
    (hbe : V c main_v89 = shapeCast S1x64 β shapeCasts_S64_S1x64) (hm : V c main_v82 = kmean (F := Ideal) (V c main_v78)) (hv : V c main_v83 = kvar (F := Ideal) (V c main_v78)) :
    (dat5 V c).arrAt 6 cfg5.N = Cert.Spec.relu (Cert.Spec.bn (V c main_v78) γ β) :=
  (dat5 V c).arrAt_eq_of_cover 6 _ (fun t _ => Layer5.flushed6_eq V c γ β hg hbe hm hv t) Layer5.cover6

/-- and the per-graph sums of its rows. -/
theorem out5_pool (V : Entry Ideal) (c : Dev nD) (γ β : FVec Ideal S64 .f32) (batch : IVec S50000 32)
    (hg : V c main_v86 = shapeCast S1x64 γ shapeCasts_S64_S1x64)
    (hbe : V c main_v89 = shapeCast S1x64 β shapeCasts_S64_S1x64) (hm : V c main_v82 = kmean (F := Ideal) (V c main_v78)) (hv : V c main_v83 = kvar (F := Ideal) (V c main_v78))
    (hbatch : V c main_v4 = shapeCast S50000x1 batch shapeCasts_S50000_S50000x1) :
    (dat5 V c).arrAt 7 cfg5.N = Cert.Spec.poolSum (Cert.Spec.relu (Cert.Spec.bn (V c main_v78) γ β)) batch :=
  (dat5 V c).arrAt_eq_of_cover 7 _ (fun t hf => Layer5.flushed7_eq V c γ β batch hg hbe hm hv hbatch t hf) Layer5.cover7

end Cert.KernelIdeal.Val

end
-- ==== Proof.KI.Val6.lean ====
import proofs.«421327_j56599079026905_1_alg».proof.Proof.KI.Reg6
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.KernelVsHost

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open RowLayers

namespace Layer6

/-- The affine layer x · W + b of a block against that of the whole array: row p of the one is row σ p of the other, both Σ_c x[·,c]·W[c,j] + b[j]. -/
theorem rowsAffine {mb M k n : ℕ} {σ : Fin mb → Fin M} (h16 : FTy.bf16.bits < FTy.f32.bits)
    (hww : (⟨2, ![k, n]⟩ : Shape).ShapeCasts ⟨2, ![k, n]⟩) (hss : (⟨2, ![1, n]⟩ : Shape).ShapeCasts ⟨2, ![1, n]⟩)
    (hsc : (⟨1, ![n]⟩ : Shape).ShapeCasts ⟨2, ![1, n]⟩) (hbc : (⟨2, ![1, n]⟩ : Shape).Broadcasts ⟨2, ![mb, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![k, n]⟩ .f32) (b : FVec Ideal ⟨1, ![n]⟩ .f32) :
    Rows σ
      (Idealize.ShloMosaic.addf
        (matmul (DotDims.plain mb k n) none x (Idealize.ShloMosaic.truncf .bf16 (shapeCast ⟨2, ![k, n]⟩ w hww) h16) (constant ⟨2, ![mb, n]⟩ .f32 0x00000000#32))
        (broadcastTo ⟨2, ![mb, n]⟩ (shapeCast ⟨2, ![1, n]⟩ (shapeCast ⟨2, ![1, n]⟩ b hsc) hss) hbc))
      (Idealize.ShloMosaic.addf (Host.dotGeneral (DotDims.plain M k n) none X w)
        (broadcastInDim ⟨2, ![M, n]⟩ ![0, 1] h01 (broadcastInDim ⟨2, ![1, n]⟩ ![1] h1 b))) := fun p c => by
  rw [shapeCast_self, shapeCast_self, addf_apply, addf_apply, matmul_zero_eq_dotGeneral, StackMember.dotGeneral_plain_apply,
    StackMember.dotGeneral_plain_apply, broadcastTo_1b_ab_apply, shapeCast_a_1a_apply, rowDown_apply, rowBroadcast_apply]
  simp only [hx p]
  rfl

/-- The perceptron relu((h + agg) · W1 + b1) · W2 + b2 of two blocks that are the σ-rows of h and agg is the σ-rows of the whole arrays' perceptron. -/
theorem payRows {σ : Fin 5000 → Fin 50000} {v0 v2 : Vec Ideal S5000x64 .f32}
    {H A : FVec Ideal Cert.ReferenceIdeal.S50000x64 .f32} (hH : Rows σ v0 H) (hA : Rows σ v2 A)
    (W1 W2 : Vec Ideal S64x64 .f32) (b1 b2 : FVec Ideal S64 .f32) :
    Rows σ (k6_pay1 v0 v2 W1 (shapeCast S1x64 b1 shapeCasts_S64_S1x64) W2 (shapeCast S1x64 b2 shapeCasts_S64_S1x64))
      (Cert.Spec.mlp H A W1 b1 W2 b2) := by
  unfold k6_pay1 Cert.Spec.mlp Cert.Spec.affine Cert.Spec.relu
  exact rowsAffine (mb := 5000) (M := 50000) (k := 64) (n := 64) _ _ _ _ _ _ _
    (Rows.truncf _ (Rows.relu _
      (rowsAffine (mb := 5000) (M := 50000) (k := 64) (n := 64) _ _ _ _ _ _ _
        (Rows.truncf _ (Rows.addf (by rwa [shapeCast_self]) (by rwa [shapeCast_self]))) W1 b1))) W2 b2

theorem hz : (![0, 0] : Fin 2 → Nat) = fun _ => 0 := funext fun a => by fin_cases a <;> rfl

/-- The windows of h, agg and the result sit at block t along the rows; -/
theorem idxRows : ∀ t : Fin cfg6.N, (win6_0.index t (0 : Fin 2) = t.val ∧ win6_0.index t (1 : Fin 2) = 0)
    ∧ (win6_1.index t (0 : Fin 2) = t.val ∧ win6_1.index t (1 : Fin 2) = 0)
    ∧ win6_6.index t (0 : Fin 2) = t.val ∧ win6_6.index t (1 : Fin 2) = 0 :=
  (by decide +kernel : ∀ t : Fin grid6.N, _)

/-- the weights' and the biases' one block sits at zero. -/
theorem idxZero : ∀ (t : Fin cfg6.N) (a : Fin 2), win6_2.index t a = 0 ∧ win6_3.index t a = 0 ∧ win6_4.index t a = 0 ∧ win6_5.index t a = 0 :=
  (by decide +kernel : ∀ t : Fin grid6.N, _)

/-- Row p of the block of point t is row 5000·t + p of the array. -/
def rowOf (t : Fin cfg6.N) (p : Fin 5000) : Fin 50000 :=
  ⟨5000 * t.val + p.val, by have hN : cfg6.N = 10 := N_6; have ht := t.isLt; have hp := p.isLt; omega⟩

/-- Point t's block of the result is block t of the whole-array perceptron of the arrays the region finds. -/
theorem flushed_eq (V : Entry Ideal) (c : Dev nD) (b1 b2 : FVec Ideal S64 .f32)
    (h1 : V c main_v107 = shapeCast S1x64 b1 shapeCasts_S64_S1x64) (h2 : V c main_v112 = shapeCast S1x64 b2 shapeCasts_S64_S1x64)
    (t : Fin cfg6.N) :
    (dat6 V c).flushed 6 t = ((cfg6.win 6).blk t).view.read (Elt Ideal)
      (Cert.Spec.mlp (V c main_v90_0) (V c main_v102) (V c main_v104) b1 (V c main_v109) b2) := by
  show (cfg6.win 6).cut (grid6.coords t) ((dat6 V c).after 6 t) = _
  rw [after6_6]
  unfold out6_6
  rw [View.canon_unit_zero hz]
  simp only [View.ld_unit_zero (S := S5000x64) hz, View.ld_unit_zero (S := S64x64) hz, View.ld_unit_zero (S := S1x64) hz]
  have h0 := idxZero t
  obtain ⟨⟨e00, e01⟩, ⟨e10, e11⟩, e60, e61⟩ := idxRows t
  rw [show iblk6 V c 2 t = V c main_v104 from read_fix fun z a => win6_2.rect_emb_val_of_index_zero t a (h0 a).1 z,
    show iblk6 V c 3 t = V c main_v107 from read_fix fun z a => win6_3.rect_emb_val_of_index_zero t a (h0 a).2.1 z,
    show iblk6 V c 4 t = V c main_v109 from read_fix fun z a => win6_4.rect_emb_val_of_index_zero t a (h0 a).2.2.1 z,
    show iblk6 V c 5 t = V c main_v112 from read_fix fun z a => win6_5.rect_emb_val_of_index_zero t a (h0 a).2.2.2 z, h1, h2]
  show k6_pay1 (F := Ideal) _ _ _ _ _ _ = _
  exact eq_read (σ := rowOf t) ((cfg6.win 6).blk t).view.emb (read_rows (win6_6.index t) (win6_6.rect_emb_val t) e60 (fun _ => rfl) e61)
    (payRows (v0 := iblk6 V c 0 t) (v2 := iblk6 V c 1 t) (read_rows (win6_0.index t) (win6_0.rect_emb_val t) e00 (fun _ => rfl) e01)
      (read_rows (win6_1.index t) (win6_1.rect_emb_val t) e10 (fun _ => rfl) e11) _ _ b1 b2)

/-- Every index of the result array is in some point's block: row R is in the block of point R / 5000. -/
theorem cover (i : S50000x64.Idx) :
    ∃ t : Fin cfg6.N, (cfg6.win 6).flush t = true ∧ i ∈ ((cfg6.win 6).blk t).view.set := by
  have hi0 : (i 0).val < 50000 := (i 0).isLt
  have hi1 : (i 1).val < 64 := (i 1).isLt
  have hN : cfg6.N = 10 := N_6
  let t : Fin cfg6.N := ⟨(i 0).val / 5000, by rw [hN]; omega⟩
  obtain ⟨-, -, e60, e61⟩ := idxRows t
  have ht : t.val = (i 0).val / 5000 := rfl
  refine ⟨t, flush6_6 t, ?_⟩
  show i ∈ ((View.whole main_v113).slice (win6_6.rect t)).set
  rw [View.set_slice_whole, Rect.mem_set_unit]
  intro a
  match a with
  | ⟨0, _⟩ => show win6_6.index t (0 : Fin 2) * 5000 ≤ (i 0).val ∧ (i 0).val < win6_6.index t (0 : Fin 2) * 5000 + 5000; omega
  | ⟨1, _⟩ => show win6_6.index t (1 : Fin 2) * 64 ≤ (i 1).val ∧ (i 1).val < win6_6.index t (1 : Fin 2) * 64 + 64; omega

end Layer6

/-- After the region the result array holds relu((h + agg) · W1 + b1) · W2 + b2: every point's block is its block of it, and the blocks cover it. -/
theorem out6 (V : Entry Ideal) (c : Dev nD) (b1 b2 : FVec Ideal S64 .f32) (h1 : V c main_v107 = shapeCast S1x64 b1 shapeCasts_S64_S1x64)
    (h2 : V c main_v112 = shapeCast S1x64 b2 shapeCasts_S64_S1x64) :
    (dat6 V c).arrAt 6 cfg6.N = Cert.Spec.mlp (V c main_v90_0) (V c main_v102) (V c main_v104) b1 (V c main_v109) b2 :=
  (dat6 V c).arrAt_eq_of_cover 6 _ (fun t _ => Layer6.flushed_eq V c b1 b2 h1 h2 t) Layer6.cover

end Cert.KernelIdeal.Val

end
-- ==== Proof.KI.Val7.lean ====
import proofs.«421327_j56599079026905_1_alg».proof.Proof.KI.Reg7
import proofs.«421327_j56599079026905_1_alg».proof.Proof.KI.BnPoolMathLater
import proofs.«421327_j56599079026905_1_alg».proof.Proof.KI.HostFns
import proofs.«421327_j56599079026905_1_alg».proof.Proof.Spec
import proofs.«421327_j56599079026905_1_alg».proof.Proof.LibRowLayers
import proofs.«421327_j56599079026905_1_alg».proof.Proof.LibBlocks
import proofs.«421327_j56599079026905_1_alg».proof.Proof.Gen.ReferenceIdeal
import Idealize.ShloMosaic.Lib.Pipeline.Value
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Tactic
open Idealize.ShloMosaic.Pipeline (Dat)

namespace Layer7

theorem hz : (![0, 0] : Fin 2 → Nat) = fun _ => 0 := funext fun a => by fin_cases a <;> rfl

section Pieces

variable {F : FTy → Type} [FloatOps F] (c : Dev nD) (t : Fin cfg7.N) (x0 : Vec F S5000x64 .f32) (x1 x2 x3 x4 : Vec F S1x64 .f32)
  (x5 : Vec F S5000x1 .i32) (xo7 : Vec F S512x64 .f32)

theorem out_A_6 (h0 : t.val % 10 = 0) : out7_A_6 c t x0 x1 x2 x3 x4 x5 h0 = k7_pay3 x0 x3 x4 x1 x2 := by
  unfold out7_A_6
  rw [View.read_writes_eq_canon _ _ _ (cover7_A_6 c t x0 x1 x2 x3 x4 x5 h0)]
  unfold run7_A kernelRun3_A
  dsimp only
  sl_unfold_words
  rw [View.canon_unit_zero hz]
  simp only [View.readAt_eq_ld, (hs7_0 t).read_unread, (hs7_1 t).read_unread, (hs7_2 t).read_unread, (hs7_3 t).read_unread, (hs7_4 t).read_unread, (hs7_5 t).read_unread,
    View.ld_unit_zero (S := S5000x64) hz, View.ld_unit_zero (S := S1x64) hz, View.ld_unit_zero (S := S5000x1) hz]
  rfl

theorem out_A_7 (h0 : t.val % 10 = 0) : out7_A_7 c t x0 x1 x2 x3 x4 x5 h0 = k7_pay1 (k7_pay4 x0 x3 x4 x1 x2 x5) (k7_pay2 (F := F)) := by
  unfold out7_A_7
  rw [View.read_writes_eq_canon _ _ _ (cover7_A_7 c t x0 x1 x2 x3 x4 x5 h0)]
  unfold run7_A kernelRun3_A
  dsimp only
  sl_unfold_words
  rw [View.canon_cons_unit_zero (S := S512x64) hz, View.readCov_unit_zero (S := S512x64) _ hz]
  simp only [View.readAt_eq_ld, (hs7_0 t).read_unread, (hs7_1 t).read_unread, (hs7_2 t).read_unread, (hs7_3 t).read_unread, (hs7_4 t).read_unread, (hs7_5 t).read_unread,
    View.ld_unit_zero (S := S5000x64) hz, View.ld_unit_zero (S := S1x64) hz, View.ld_unit_zero (S := S5000x1) hz]
  rfl

theorem out_B_6 (h0 : ¬t.val % 10 = 0) : out7_B_6 c t x0 x1 x2 x3 x4 x5 xo7 h0 = k7_pay3 x0 x3 x4 x1 x2 := by
  unfold out7_B_6
  rw [View.read_writes_eq_canon _ _ _ (cover7_B_6 c t x0 x1 x2 x3 x4 x5 xo7 h0)]
  unfold run7_B kernelRun3_B
  dsimp only
  sl_unfold_words
  rw [View.canon_unit_zero hz]
  simp only [View.readAt_eq_ld, (hs7_0 t).read_unread, (hs7_1 t).read_unread, (hs7_2 t).read_unread, (hs7_3 t).read_unread, (hs7_4 t).read_unread, (hs7_5 t).read_unread,
    View.ld_unit_zero (S := S5000x64) hz, View.ld_unit_zero (S := S1x64) hz, View.ld_unit_zero (S := S5000x1) hz, (hs7_7 t).read_unread, View.ld_unit_zero (S := S512x64) hz]
  rfl

theorem out_B_7 (h0 : ¬t.val % 10 = 0) : out7_B_7 c t x0 x1 x2 x3 x4 x5 xo7 h0 = k7_pay1 (k7_pay4 x0 x3 x4 x1 x2 x5) xo7 := by
  unfold out7_B_7
  rw [View.read_writes_eq_canon _ _ _ (cover7_B_7 c t x0 x1 x2 x3 x4 x5 xo7 h0)]
  unfold run7_B kernelRun3_B
  dsimp only
  sl_unfold_words
  rw [View.canon_unit_zero hz]
  simp only [View.readAt_eq_ld, (hs7_0 t).read_unread, (hs7_1 t).read_unread, (hs7_2 t).read_unread, (hs7_3 t).read_unread, (hs7_4 t).read_unread, (hs7_5 t).read_unread,
    View.ld_unit_zero (S := S5000x64) hz, View.ld_unit_zero (S := S1x64) hz, View.ld_unit_zero (S := S5000x1) hz, (hs7_7 t).read_unread, View.ld_unit_zero (S := S512x64) hz]
  rfl

end Pieces

section Blocks

variable (V : Entry Ideal) (c : Dev nD)

abbrev zblk (t : Fin cfg7.N) : FVec Ideal S5000x64 .f32 := iblk7 V c 0 t
abbrev gblk (t : Fin cfg7.N) : FVec Ideal S1x64 .f32 := iblk7 V c 1 t
abbrev bblk (t : Fin cfg7.N) : FVec Ideal S1x64 .f32 := iblk7 V c 2 t
abbrev mblk (t : Fin cfg7.N) : FVec Ideal S1x64 .f32 := iblk7 V c 3 t
abbrev vblk (t : Fin cfg7.N) : FVec Ideal S1x64 .f32 := iblk7 V c 4 t
abbrev nblk (t : Fin cfg7.N) : IVec S5000x1 32 := iblk7 V c 5 t

theorem idxRows : ∀ t : Fin cfg7.N, (win7_0.index t (0 : Fin 2) = t.val ∧ win7_0.index t (1 : Fin 2) = 0)
    ∧ (win7_5.index t (0 : Fin 2) = t.val ∧ win7_5.index t (1 : Fin 2) = 0)
    ∧ win7_6.index t (0 : Fin 2) = t.val ∧ win7_6.index t (1 : Fin 2) = 0 :=
  (by decide +kernel : ∀ t : Fin grid7.N, _)

theorem idxZero : ∀ (t : Fin cfg7.N) (a : Fin 2), win7_1.index t a = 0 ∧ win7_2.index t a = 0 ∧ win7_3.index t a = 0 ∧ win7_4.index t a = 0
    ∧ win7_7.index t a = 0 :=
  (by decide +kernel : ∀ t : Fin grid7.N, _)

theorem N10 : cfg7.N = 10 := N_7

def rowOf (t : Fin cfg7.N) (r : Fin 5000) : Fin 50000 :=
  ⟨5000 * t.val + r.val, by have := lt_of_lt_of_eq t.isLt N10; have := r.isLt; omega⟩

theorem zblk_rows (t : Fin cfg7.N) : RowLayers.Rows (rowOf t) (zblk V c t) (V c main_v113) :=
  RowLayers.read_rows (win7_0.index t) (win7_0.rect_emb_val t) (idxRows t).1.1 (fun _ => rfl) (idxRows t).1.2

theorem nblk_rows (t : Fin cfg7.N) (r : Fin 5000) :
    nblk V c t (ix2 r (0 : Fin 1)) = V c main_v4 (ix2 (rowOf t r) (0 : Fin 1)) :=
  congrArg (V c main_v4) (RowLayers.emb_rows (win7_5.index t) (win7_5.rect_emb_val t) (idxRows t).2.1.1 (fun _ => rfl) (idxRows t).2.1.2 r 0)

theorem gblk_eq (t : Fin cfg7.N) : gblk V c t = V c main_v121 :=
  RowLayers.read_fix fun z a => win7_1.rect_emb_val_of_index_zero t a (idxZero t a).1 z
theorem bblk_eq (t : Fin cfg7.N) : bblk V c t = V c main_v124 :=
  RowLayers.read_fix fun z a => win7_2.rect_emb_val_of_index_zero t a (idxZero t a).2.1 z
theorem mblk_eq (t : Fin cfg7.N) : mblk V c t = V c main_v117 :=
  RowLayers.read_fix fun z a => win7_3.rect_emb_val_of_index_zero t a (idxZero t a).2.2.1 z
theorem vblk_eq (t : Fin cfg7.N) : vblk V c t = V c main_v118 :=
  RowLayers.read_fix fun z a => win7_4.rect_emb_val_of_index_zero t a (idxZero t a).2.2.2.1 z

/-- After every point the first output block is the clipped normalisation of the point's rows. -/
theorem inv6 (t : Fin cfg7.N) :
    (outsAt7 V c t.val t.isLt).1 = k7_pay3 (F := Ideal) (zblk V c t) (mblk V c t) (vblk V c t) (gblk V c t) (bblk V c t) := by
  by_cases h0 : t.val % 10 = 0
  · rw [outsAt7_A_6 V c t h0]
    exact out_A_6 (F := Ideal) c t _ _ _ _ _ _ h0
  · rw [outsAt7_B_6 V c t h0]
    exact out_B_6 (F := Ideal) c t _ _ _ _ _ _
      (outsAt7 V c (t.val - 1) (Nat.lt_of_le_of_lt (Nat.sub_le _ _) t.isLt)).2 h0

theorem hblk_rows (γ β : FVec Ideal S64 .f32) (hg : V c main_v121 = shapeCast S1x64 γ shapeCasts_S64_S1x64)
    (hbe : V c main_v124 = shapeCast S1x64 β shapeCasts_S64_S1x64) (hm : V c main_v117 = kmean (F := Ideal) (V c main_v113))
    (hv : V c main_v118 = kvar (F := Ideal) (V c main_v113)) (t : Fin cfg7.N) :
    RowLayers.Rows (rowOf t)
      (k7_pay3 (F := Ideal) (zblk V c t) (mblk V c t) (vblk V c t) (gblk V c t) (bblk V c t))
      (Cert.Spec.relu (Cert.Spec.bn (V c main_v113) γ β)) :=
  k7_pay3_rows (zblk_rows V c t) ((mblk_eq V c t).trans hm) ((vblk_eq V c t).trans hv) ((gblk_eq V c t).trans hg)
    ((bblk_eq V c t).trans hbe)

theorem nblk_batch (batch : IVec S50000 32) (hbatch : V c main_v4 = shapeCast S50000x1 batch shapeCasts_S50000_S50000x1)
    (t : Fin cfg7.N) (r : Fin 5000) : nblk V c t (ix2 r (0 : Fin 1)) = batch (ix1 (rowOf t r)) := by
  rw [nblk_rows, hbatch, RowLayers.column_apply]

/-- After point n the pool block holds, at (g, j), the sum of column j over the rows below 5000·(n + 1) whose graph is g. -/
theorem inv7 (γ β : FVec Ideal S64 .f32) (batch : IVec S50000 32)
    (hg : V c main_v121 = shapeCast S1x64 γ shapeCasts_S64_S1x64)
    (hbe : V c main_v124 = shapeCast S1x64 β shapeCasts_S64_S1x64) (hm : V c main_v117 = kmean (F := Ideal) (V c main_v113))
    (hv : V c main_v118 = kvar (F := Ideal) (V c main_v113))
    (hbatch : V c main_v4 = shapeCast S50000x1 batch shapeCasts_S50000_S50000x1) :
    ∀ (n : ℕ) (h : n < cfg7.N) (g : Fin 512) (j : Fin 64),
      (outsAt7 V c n h).2 (ix2 g j) = poolBelow (Cert.Spec.relu (Cert.Spec.bn (V c main_v113) γ β)) batch (5000 * (n + 1)) g j
  | 0, h, g, j => by
    refine (congrFun (outsAt7_A_7 V c ⟨0, h⟩ rfl) (ix2 g j)).trans ?_
    refine (congrFun (out_A_7 (F := Ideal) c ⟨0, h⟩ _ _ _ _ _ _ rfl) (ix2 g j)).trans ?_
    exact k7_pool_step 0 (σ := rowOf ⟨0, h⟩) (fun r => rfl) (hblk_rows V c γ β hg hbe hm hv ⟨0, h⟩)
      (nblk_batch V c batch hbatch ⟨0, h⟩) g j (k7_pay2_eq_poolBelow _ batch g j)
  | n + 1, h, g, j => by
    have hN : n + 1 < 10 := lt_of_lt_of_eq h N10
    have hB : ¬(⟨n + 1, h⟩ : Fin cfg7.N).val % 10 = 0 := by dsimp only; omega
    refine (congrFun (outsAt7_B_7 V c ⟨n + 1, h⟩ hB) (ix2 g j)).trans ?_
    refine (congrFun (out_B_7 (F := Ideal) c ⟨n + 1, h⟩ _ _ _ _ _ _
      (outsAt7 V c n (Nat.lt_of_succ_lt h)).2 hB) (ix2 g j)).trans ?_
    exact k7_pool_step (n + 1) (σ := rowOf ⟨n + 1, h⟩) (fun r => rfl) (hblk_rows V c γ β hg hbe hm hv ⟨n + 1, h⟩)
      (nblk_batch V c batch hbatch ⟨n + 1, h⟩) g j (inv7 γ β batch hg hbe hm hv hbatch n (Nat.lt_of_succ_lt h) g j)

theorem flushed6_eq (γ β : FVec Ideal S64 .f32) (hg : V c main_v121 = shapeCast S1x64 γ shapeCasts_S64_S1x64)
    (hbe : V c main_v124 = shapeCast S1x64 β shapeCasts_S64_S1x64) (hm : V c main_v117 = kmean (F := Ideal) (V c main_v113))
    (hv : V c main_v118 = kvar (F := Ideal) (V c main_v113)) (t : Fin cfg7.N) :
    (dat7 V c).flushed 6 t = ((cfg7.win 6).blk t).view.read (Elt Ideal) (Cert.Spec.relu (Cert.Spec.bn (V c main_v113) γ β)) := by
  show (cfg7.win 6).cut (grid7.coords t) ((dat7 V c).after 6 t) = _
  rw [after7_6, inv6]
  show k7_pay3 (F := Ideal) _ _ _ _ _ = _
  exact RowLayers.eq_read ((cfg7.win 6).blk t).view.emb
    (RowLayers.read_rows (win7_6.index t) (win7_6.rect_emb_val t) (idxRows t).2.2.1 (fun _ => rfl) (idxRows t).2.2.2) (hblk_rows V c γ β hg hbe hm hv t)

/-- Row R lies in the block of point R / 5000, so the ten blocks cover the array. -/
theorem cover6 (i : S50000x64.Idx) :
    ∃ t : Fin cfg7.N, (cfg7.win 6).flush t = true ∧ i ∈ ((cfg7.win 6).blk t).view.set := by
  have hi0 : (i 0).val < 50000 := (i 0).isLt
  have hi1 : (i 1).val < 64 := (i 1).isLt
  have hN : cfg7.N = 10 := N10
  let t : Fin cfg7.N := ⟨(i 0).val / 5000, by rw [hN]; omega⟩
  obtain ⟨-, -, e60, e61⟩ := idxRows t
  have ht : t.val = (i 0).val / 5000 := rfl
  refine ⟨t, flush7_6 t, ?_⟩
  show i ∈ ((View.whole main_v125_0).slice (win7_6.rect t)).set
  rw [View.set_slice_whole, Rect.mem_set_unit]
  intro a
  match a with
  | ⟨0, _⟩ => show win7_6.index t (0 : Fin 2) * 5000 ≤ (i 0).val ∧ (i 0).val < win7_6.index t (0 : Fin 2) * 5000 + 5000; omega
  | ⟨1, _⟩ => show win7_6.index t (1 : Fin 2) * 64 ≤ (i 1).val ∧ (i 1).val < win7_6.index t (1 : Fin 2) * 64 + 64; omega

/-- After the last point the pool block is the sum of all rows by graph. -/
theorem flushed7_eq (γ β : FVec Ideal S64 .f32) (batch : IVec S50000 32)
    (hg : V c main_v121 = shapeCast S1x64 γ shapeCasts_S64_S1x64)
    (hbe : V c main_v124 = shapeCast S1x64 β shapeCasts_S64_S1x64) (hm : V c main_v117 = kmean (F := Ideal) (V c main_v113))
    (hv : V c main_v118 = kvar (F := Ideal) (V c main_v113))
    (hbatch : V c main_v4 = shapeCast S50000x1 batch shapeCasts_S50000_S50000x1)
    (t : Fin cfg7.N) (hf : (cfg7.win 7).flush t = true) :
    (dat7 V c).flushed 7 t
      = ((cfg7.win 7).blk t).view.read (Elt Ideal) (Cert.Spec.poolSum (Cert.Spec.relu (Cert.Spec.bn (V c main_v113) γ β)) batch) := by
  have hN : t.val < 10 := lt_of_lt_of_eq t.isLt N10
  have h9 : t.val = 9 := by have := (flush7_7 t).mp hf; omega
  show (cfg7.win 7).cut (grid7.coords t) ((dat7 V c).after 7 t) = _
  rw [after7_7]
  funext y
  obtain ⟨g, j, rfl⟩ : ∃ (g : Fin 512) (j : Fin 64), y = ix2 g j := ⟨y 0, y 1, eq_ix2 y⟩
  show (outsAt7 V c t.val t.isLt).2 (ix2 g j)
    = Cert.Spec.poolSum (Cert.Spec.relu (Cert.Spec.bn (V c main_v113) γ β)) batch (((cfg7.win 7).blk t).view.emb (ix2 g j))
  have e : ((cfg7.win 7).blk t).view.emb (ix2 g j) = ix2 g j :=
    funext fun a => Fin.ext (win7_7.rect_emb_val_of_index_zero t a (idxZero t a).2.2.2.2 _)
  rw [e, inv7 V c γ β batch hg hbe hm hv hbatch t.val t.isLt g j, h9]
  exact poolBelow_last _ batch g j

theorem cover7 (i : S512x64.Idx) :
    ∃ t : Fin cfg7.N, (cfg7.win 7).flush t = true ∧ i ∈ ((cfg7.win 7).blk t).view.set := by
  have hi0 : (i 0).val < 512 := (i 0).isLt
  have hi1 : (i 1).val < 64 := (i 1).isLt
  have hN : cfg7.N = 10 := N10
  let t : Fin cfg7.N := ⟨9, by rw [hN]; omega⟩
  have e70 := (idxZero t (0 : Fin 2)).2.2.2.2
  have e71 := (idxZero t (1 : Fin 2)).2.2.2.2
  refine ⟨t, (flush7_7 t).mpr rfl, ?_⟩
  show i ∈ ((View.whole main_v125_1).slice (win7_7.rect t)).set
  rw [View.set_slice_whole, Rect.mem_set_unit]
  intro a
  match a with
  | ⟨0, _⟩ => show win7_7.index t (0 : Fin 2) * 512 ≤ (i 0).val ∧ (i 0).val < win7_7.index t (0 : Fin 2) * 512 + 512; omega
  | ⟨1, _⟩ => show win7_7.index t (1 : Fin 2) * 64 ≤ (i 1).val ∧ (i 1).val < win7_7.index t (1 : Fin 2) * 64 + 64; omega

end Blocks

end Layer7

/-- The region leaves the normalised and clipped array: each point's block is its block of it, -/
theorem out7_h (V : Entry Ideal) (c : Dev nD) (γ β : FVec Ideal S64 .f32) (hg : V c main_v121 = shapeCast S1x64 γ shapeCasts_S64_S1x64)
    (hbe : V c main_v124 = shapeCast S1x64 β shapeCasts_S64_S1x64) (hm : V c main_v117 = kmean (F := Ideal) (V c main_v113)) (hv : V c main_v118 = kvar (F := Ideal) (V c main_v113)) :
    (dat7 V c).arrAt 6 cfg7.N = Cert.Spec.relu (Cert.Spec.bn (V c main_v113) γ β) :=
  (dat7 V c).arrAt_eq_of_cover 6 _ (fun t _ => Layer7.flushed6_eq V c γ β hg hbe hm hv t) Layer7.cover6

/-- and the per-graph sums of its rows. -/
theorem out7_pool (V : Entry Ideal) (c : Dev nD) (γ β : FVec Ideal S64 .f32) (batch : IVec S50000 32)
    (hg : V c main_v121 = shapeCast S1x64 γ shapeCasts_S64_S1x64)
    (hbe : V c main_v124 = shapeCast S1x64 β shapeCasts_S64_S1x64) (hm : V c main_v117 = kmean (F := Ideal) (V c main_v113)) (hv : V c main_v118 = kvar (F := Ideal) (V c main_v113))
    (hbatch : V c main_v4 = shapeCast S50000x1 batch shapeCasts_S50000_S50000x1) :
    (dat7 V c).arrAt 7 cfg7.N = Cert.Spec.poolSum (Cert.Spec.relu (Cert.Spec.bn (V c main_v113) γ β)) batch :=
  (dat7 V c).arrAt_eq_of_cover 7 _ (fun t hf => Layer7.flushed7_eq V c γ β batch hg hbe hm hv hbatch t hf) Layer7.cover7

end Cert.KernelIdeal.Val

end
-- ==== Proof.KI.RegionValues.lean ====
import proofs.«421327_j56599079026905_1_alg».proof.Proof.KI.Chain
import proofs.«421327_j56599079026905_1_alg».proof.Proof.KI.HostFns
import proofs.«421327_j56599079026905_1_alg».proof.Proof.Spec
import proofs.«421327_j56599079026905_1_alg».proof.Proof.Gen.ReferenceIdeal
import proofs.«421327_j56599079026905_1_alg».proof.Proof.KI.Val0
import proofs.«421327_j56599079026905_1_alg».proof.Proof.KI.Val1
import proofs.«421327_j56599079026905_1_alg».proof.Proof.KI.Val2
import proofs.«421327_j56599079026905_1_alg».proof.Proof.KI.Val3
import proofs.«421327_j56599079026905_1_alg».proof.Proof.KI.Val4
import proofs.«421327_j56599079026905_1_alg».proof.Proof.KI.Val5
import proofs.«421327_j56599079026905_1_alg».proof.Proof.KI.Val6
import proofs.«421327_j56599079026905_1_alg».proof.Proof.KI.Val7
-- ==== Proof.KI.ValHost.lean ====
import proofs.«421327_j56599079026905_1_alg».proof.Proof.KI.HostFns
import proofs.«421327_j56599079026905_1_alg».proof.Proof.Spec
import proofs.«421327_j56599079026905_1_alg».proof.Proof.Gen.ReferenceIdeal
import Idealize.ShloMosaic.PureOps.Ideal
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.StableHlo

variable (V : Valuation τ sig (Elt Ideal))

theorem h0_v1 : StableHlo.after (hostOps0 (F := Ideal)) V main_v1 = Cert.Spec.src (V main_arg1) := by
  after_results; rfl

theorem h0_v3 : StableHlo.after (hostOps0 (F := Ideal)) V main_v3 = Cert.Spec.dst (V main_arg1) := by
  after_results; rfl

theorem h0_v4 : StableHlo.after (hostOps0 (F := Ideal)) V main_v4
    = shapeCast S50000x1 (V main_arg2) shapeCasts_S50000_S50000x1 := by
  after_results; rfl

theorem h0_v10 : StableHlo.after (hostOps0 (F := Ideal)) V main_v10 = Cert.Spec.counts (F := Ideal) (V main_arg2) := by
  after_results; rfl

theorem h0_v11 : StableHlo.after (hostOps0 (F := Ideal)) V main_v11
    = shapeCast S1x64 (V main_arg4) shapeCasts_S64_S1x64 := by
  after_results; rfl
theorem h0_v12 : StableHlo.after (hostOps0 (F := Ideal)) V main_v12
    = shapeCast S1x64 (V main_arg5) shapeCasts_S64_S1x64 := by
  after_results; rfl
theorem h0_v13 : StableHlo.after (hostOps0 (F := Ideal)) V main_v13
    = shapeCast S1x64 (V main_arg6) shapeCasts_S64_S1x64 := by
  after_results; rfl

theorem h1_v18 : StableHlo.after (hostOps1 (F := Ideal)) V main_v18 = kmean (F := Ideal) (V main_v14) := by
  after_results; rfl

theorem h1_c : StableHlo.after (hostOps1 (F := Ideal)) V main_c = constantI S_ 32 0#32 := by
  after_results

theorem h1_1_v19 (hc : V main_c = constantI S_ 32 0#32) :
    StableHlo.after (hostOps1_1 (F := Ideal)) V main_v19 = kvar (F := Ideal) (V main_v14) := by
  after_results_simp
  simp only [StableHlo.TRef.ofBuf, StableHlo.TRef.toBuf, cast_eq]
  rw [hc]; rfl

variable (batch : IVec S50000 32) (s : FVec Ideal S50000x64 .f32)

set_option maxHeartbeats 4000000 in

theorem h8_v132 (hp : V main_v125_1 = Cert.Spec.poolSum s batch) (hc : V main_v10 = Cert.Spec.counts (F := Ideal) batch) :
    StableHlo.after (hostOps8 (F := Ideal)) V main_v132
      = Cert.Spec.stack (F := Ideal) (V main_v22) (V main_v57) (V main_v92) (Cert.Spec.pool s batch) := by
  simp only [after_cons, after_nil]
  rw [nary4_result]
  repeat (first
    | rw [unary_result] | rw [binary_result]
    | (rw [unary_result_ne]; rotate_left; decide)
    | (rw [binary_result_ne]; rotate_left; decide))
  rw [hp, hc]; rfl

end Cert.KernelIdeal.Val

end
-- ==== Proof.KI.ValChain0.lean ====
import proofs.«421327_j56599079026905_1_alg».proof.Proof.KI.RegionValues
import proofs.«421327_j56599079026905_1_alg».proof.Proof.KI.ValHost

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (c : Dev nD)

abbrev ax : FVec Ideal S50000x128 .f32 := m ((c : Thread nD τ).loc main_arg0)
abbrev aei : IVec S2x800000 32 := m ((c : Thread nD τ).loc main_arg1)
abbrev abatch : IVec S50000 32 := m ((c : Thread nD τ).loc main_arg2)
abbrev aWt : FVec Ideal S128x64 .f32 := m ((c : Thread nD τ).loc main_arg3)
abbrev abt : FVec Ideal S64 .f32 := m ((c : Thread nD τ).loc main_arg4)
abbrev agt : FVec Ideal S64 .f32 := m ((c : Thread nD τ).loc main_arg5)
abbrev abet : FVec Ideal S64 .f32 := m ((c : Thread nD τ).loc main_arg6)
abbrev aW1 : FVec Ideal S3x64x64 .f32 := m ((c : Thread nD τ).loc main_arg7)
abbrev ab1 : FVec Ideal S3x64 .f32 := m ((c : Thread nD τ).loc main_arg8)
abbrev aW2 : FVec Ideal S3x64x64 .f32 := m ((c : Thread nD τ).loc main_arg9)
abbrev ab2 : FVec Ideal S3x64 .f32 := m ((c : Thread nD τ).loc main_arg10)
abbrev ag : FVec Ideal S3x64 .f32 := m ((c : Thread nD τ).loc main_arg11)
abbrev abe : FVec Ideal S3x64 .f32 := m ((c : Thread nD τ).loc main_arg12)

abbrev s0 : FVec Ideal S50000x64 .f32 := Cert.Spec.h0 (ax m c) (aWt m c) (abt m c) (agt m c) (abet m c)

theorem W5_v4 : W5 m c main_v4 = W4 m c main_v4 :=
  (W5_arr m c 5).trans (((dat1 (E4 m) c).arrAt_in 5 rfl _).trans (A_eq1 (E4 m) c 5))

theorem W11_v4 : W11 m c main_v4 = W10 m c main_v4 :=
  (W11_arr m c 5).trans (((dat3 (E10 m) c).arrAt_in 5 rfl _).trans (A_eq3 (E10 m) c 5))

theorem W17_v4 : W17 m c main_v4 = W16 m c main_v4 :=
  (W17_arr m c 5).trans (((dat5 (E16 m) c).arrAt_in 5 rfl _).trans (A_eq5 (E16 m) c 5))

macro "back " r:term:max : tactic => `(tactic| repeat (first
  | rw [W24_of _ _ $r (by decide)] | rw [W23_of_ne _ _ $r (by decide)] | rw [W22_of _ _ $r (by decide)]
  | rw [W21_of _ _ $r (by decide)] | rw [W20_of _ _ $r (by decide)] | rw [W19_of_ne _ _ $r (by decide)]
  | rw [W18_of _ _ $r (by decide)] | rw [W17_of_ne _ _ $r (by decide)] | rw [W17_v4] | rw [W16_of _ _ $r (by decide)]
  | rw [W15_of _ _ $r (by decide)] | rw [W14_of _ _ $r (by decide)] | rw [W13_of_ne _ _ $r (by decide)]
  | rw [W12_of _ _ $r (by decide)] | rw [W11_of_ne _ _ $r (by decide)] | rw [W11_v4] | rw [W10_of _ _ $r (by decide)]
  | rw [W9_of _ _ $r (by decide)] | rw [W8_of _ _ $r (by decide)] | rw [W7_of_ne _ _ $r (by decide)]
  | rw [W6_of _ _ $r (by decide)] | rw [W5_of_ne _ _ $r (by decide)] | rw [W5_v4] | rw [W4_of _ _ $r (by decide)]
  | rw [W3_of _ _ $r (by decide)] | rw [W2_of_ne _ _ $r (by decide)] | rw [W1_of _ _ $r (by decide)]))

theorem w1_v1 : W1 m c main_v1 = Cert.Spec.src (aei m c) := h0_v1 (W0 m c)
theorem w1_v3 : W1 m c main_v3 = Cert.Spec.dst (aei m c) := h0_v3 (W0 m c)
theorem w1_v4 : W1 m c main_v4 = shapeCast S50000x1 (abatch m c) shapeCasts_S50000_S50000x1 := h0_v4 (W0 m c)
theorem w1_v10 : W1 m c main_v10 = Cert.Spec.counts (F := Ideal) (abatch m c) := h0_v10 (W0 m c)
theorem w1_v11 : W1 m c main_v11 = shapeCast S1x64 (abt m c) shapeCasts_S64_S1x64 := h0_v11 (W0 m c)
theorem w1_v12 : W1 m c main_v12 = shapeCast S1x64 (agt m c) shapeCasts_S64_S1x64 := h0_v12 (W0 m c)
theorem w1_v13 : W1 m c main_v13 = shapeCast S1x64 (abet m c) shapeCasts_S64_S1x64 := h0_v13 (W0 m c)

theorem w1_arg0 : W1 m c main_arg0 = ax m c := by back main_arg0
theorem w1_arg3 : W1 m c main_arg3 = aWt m c := by back main_arg3

theorem w2_v14 : W2 m c main_v14 = Cert.Spec.lin (ax m c) (aWt m c) (abt m c) := by
  have e := out0 (E1 m) c (abt m c) (w1_v11 m c)
  have a0 : E1 m c main_arg0 = ax m c := w1_arg0 m c
  have a3 : E1 m c main_arg3 = aWt m c := w1_arg3 m c
  rw [a0, a3] at e
  exact (W2_arr m c 3).trans e

theorem w3_v18 : W3 m c main_v18 = kmean (F := Ideal) (Cert.Spec.lin (ax m c) (aWt m c) (abt m c)) := by
  have e := h1_v18 (W2 m c)
  rw [w2_v14 m c] at e; exact e
theorem w3_c : W3 m c main_c = constantI S_ 32 0#32 := h1_c (W2 m c)
theorem w3_v14 : W3 m c main_v14 = Cert.Spec.lin (ax m c) (aWt m c) (abt m c) := by
  back main_v14; exact w2_v14 m c
theorem w4_v19 : W4 m c main_v19 = kvar (F := Ideal) (Cert.Spec.lin (ax m c) (aWt m c) (abt m c)) := by
  have e := h1_1_v19 (W3 m c) (w3_c m c)
  rw [w3_v14 m c] at e; exact e

theorem w4_v14 : W4 m c main_v14 = Cert.Spec.lin (ax m c) (aWt m c) (abt m c) := by
  back main_v14; exact w2_v14 m c
theorem w4_v12 : W4 m c main_v12 = shapeCast S1x64 (agt m c) shapeCasts_S64_S1x64 := by
  back main_v12; exact w1_v12 m c
theorem w4_v13 : W4 m c main_v13 = shapeCast S1x64 (abet m c) shapeCasts_S64_S1x64 := by
  back main_v13; exact w1_v13 m c
theorem w4_v18 : W4 m c main_v18 = kmean (F := Ideal) (Cert.Spec.lin (ax m c) (aWt m c) (abt m c)) := by
  back main_v18; exact w3_v18 m c
theorem w4_v4 : W4 m c main_v4 = shapeCast S50000x1 (abatch m c) shapeCasts_S50000_S50000x1 := by
  back main_v4; exact w1_v4 m c

theorem w5_h : W5 m c main_v20_0 = s0 m c := by
  have z : E4 m c main_v14 = Cert.Spec.lin (ax m c) (aWt m c) (abt m c) := w4_v14 m c
  have e := out1_h (E4 m) c (agt m c) (abet m c) (w4_v12 m c) (w4_v13 m c)
    (by rw [z]; exact w4_v18 m c) (by rw [z]; exact w4_v19 m c)
  rw [z] at e
  exact (W5_arr m c 6).trans e

theorem w5_pool : W5 m c main_v20_1 = Cert.Spec.poolSum (s0 m c) (abatch m c) := by
  have z : E4 m c main_v14 = Cert.Spec.lin (ax m c) (aWt m c) (abt m c) := w4_v14 m c
  have e := out1_pool (E4 m) c (agt m c) (abet m c) (abatch m c) (w4_v12 m c) (w4_v13 m c)
    (by rw [z]; exact w4_v18 m c) (by rw [z]; exact w4_v19 m c) (w4_v4 m c)
  rw [z] at e
  exact (W5_arr m c 7).trans e

end Cert.KernelIdeal.Val

end
-- ==== Proof.KI.ValHostR1.lean ====
import proofs.«421327_j56599079026905_1_alg».proof.Proof.KI.HostFns
import proofs.«421327_j56599079026905_1_alg».proof.Proof.Spec
import proofs.«421327_j56599079026905_1_alg».proof.Proof.Gen.ReferenceIdeal
import Idealize.ShloMosaic.PureOps.Ideal
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.StableHlo

variable (V : Valuation τ sig (Elt Ideal))

variable (ei : IVec S2x800000 32) (batch : IVec S50000 32) (s : FVec Ideal S50000x64 .f32)

theorem h2_v22 (hp : V main_v20_1 = Cert.Spec.poolSum s batch) (hc : V main_v10 = Cert.Spec.counts (F := Ideal) batch) :
    StableHlo.after (hostOps2 (F := Ideal)) V main_v22 = Cert.Spec.pool s batch := by
  after_results_simp
  rw [hp, hc]; rfl

theorem h2_v32 (h1 : V main_v1 = Cert.Spec.src ei) (h3 : V main_v3 = Cert.Spec.dst ei) :
    StableHlo.after (hostOps2 (F := Ideal)) V main_v32 = Cert.Spec.agg (F := Ideal) (V main_v20_0) ei := by
  after_results_simp
  rw [h1, h3]; rfl

theorem h2_v34 : StableHlo.after (hostOps2 (F := Ideal)) V main_v34 = Cert.Spec.mat0 (F := Ideal) (V main_arg7) := by
  after_results_simp; rfl
theorem h2_v37 : StableHlo.after (hostOps2 (F := Ideal)) V main_v37
    = shapeCast S1x64 (Cert.Spec.vec0 (F := Ideal) (V main_arg8)) shapeCasts_S64_S1x64 := by
  after_results_simp; rfl
theorem h2_v39 : StableHlo.after (hostOps2 (F := Ideal)) V main_v39 = Cert.Spec.mat0 (F := Ideal) (V main_arg9) := by
  after_results_simp; rfl
theorem h2_v42 : StableHlo.after (hostOps2 (F := Ideal)) V main_v42
    = shapeCast S1x64 (Cert.Spec.vec0 (F := Ideal) (V main_arg10)) shapeCasts_S64_S1x64 := by
  after_results_simp; rfl

theorem h3_v47 : StableHlo.after (hostOps3 (F := Ideal)) V main_v47 = kmean (F := Ideal) (V main_v43) := by
  after_results; rfl

theorem h3_c : StableHlo.after (hostOps3 (F := Ideal)) V main_c_9 = constantI S_ 32 0#32 := by
  after_results

theorem h3_1_v48 (hc : V main_c_9 = constantI S_ 32 0#32) :
    StableHlo.after (hostOps3_1 (F := Ideal)) V main_v48 = kvar (F := Ideal) (V main_v43) := by
  after_results_simp
  simp only [StableHlo.TRef.ofBuf, StableHlo.TRef.toBuf, cast_eq]
  rw [hc]; rfl

theorem h3_2_v51 : StableHlo.after (hostOps3_2 (F := Ideal)) V main_v51
    = shapeCast S1x64 (Cert.Spec.vec0 (F := Ideal) (V main_arg11)) shapeCasts_S64_S1x64 := by
  after_results; rfl
theorem h3_2_v54 : StableHlo.after (hostOps3_2 (F := Ideal)) V main_v54
    = shapeCast S1x64 (Cert.Spec.vec0 (F := Ideal) (V main_arg12)) shapeCasts_S64_S1x64 := by
  after_results; rfl

end Cert.KernelIdeal.Val

end
-- ==== Proof.KI.ValChainR1.lean ====
import proofs.«421327_j56599079026905_1_alg».proof.Proof.KI.ValChain0
import proofs.«421327_j56599079026905_1_alg».proof.Proof.KI.ValHostR1

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (c : Dev nD)

variable (s : FVec Ideal S50000x64 .f32)

abbrev perc1 : FVec Ideal S50000x64 .f32 :=
  Cert.Spec.mlp s (Cert.Spec.agg s (aei m c)) (Cert.Spec.mat0 (aW1 m c)) (Cert.Spec.vec0 (ab1 m c))
    (Cert.Spec.mat0 (aW2 m c)) (Cert.Spec.vec0 (ab2 m c))

abbrev next1 : FVec Ideal S50000x64 .f32 :=
  Cert.Spec.round s (aei m c) (Cert.Spec.mat0 (aW1 m c)) (Cert.Spec.vec0 (ab1 m c)) (Cert.Spec.mat0 (aW2 m c))
    (Cert.Spec.vec0 (ab2 m c)) (Cert.Spec.vec0 (ag m c)) (Cert.Spec.vec0 (abe m c))

theorem round1_mean (hp : W5 m c main_v20_1 = Cert.Spec.poolSum s (abatch m c)) :
    W6 m c main_v22 = Cert.Spec.pool s (abatch m c) :=
  h2_v22 (W5 m c) (abatch m c) s hp (by back main_v10; exact w1_v10 m c)

theorem w6_v32 (hh : W5 m c main_v20_0 = s) : W6 m c main_v32 = Cert.Spec.agg s (aei m c) := by
  have e := h2_v32 (W5 m c) (aei m c) (by back main_v1; exact w1_v1 m c) (by back main_v3; exact w1_v3 m c)
  rw [hh] at e; exact e

theorem w6_v34 : W6 m c main_v34 = Cert.Spec.mat0 (aW1 m c) := by
  have e := h2_v34 (W5 m c)
  rw [show W5 m c main_arg7 = aW1 m c from by back main_arg7] at e; exact e
theorem w6_v37 : W6 m c main_v37 = shapeCast S1x64 (Cert.Spec.vec0 (ab1 m c)) shapeCasts_S64_S1x64 := by
  have e := h2_v37 (W5 m c)
  rw [show W5 m c main_arg8 = ab1 m c from by back main_arg8] at e; exact e
theorem w6_v39 : W6 m c main_v39 = Cert.Spec.mat0 (aW2 m c) := by
  have e := h2_v39 (W5 m c)
  rw [show W5 m c main_arg9 = aW2 m c from by back main_arg9] at e; exact e
theorem w6_v42 : W6 m c main_v42 = shapeCast S1x64 (Cert.Spec.vec0 (ab2 m c)) shapeCasts_S64_S1x64 := by
  have e := h2_v42 (W5 m c)
  rw [show W5 m c main_arg10 = ab2 m c from by back main_arg10] at e; exact e

theorem w6_v20_0 (hh : W5 m c main_v20_0 = s) : W6 m c main_v20_0 = s := by
  back main_v20_0; exact hh

theorem w7_v43 (hh : W5 m c main_v20_0 = s) : W7 m c main_v43 = perc1 m c s := by
  have e := out2 (E6 m) c (Cert.Spec.vec0 (ab1 m c)) (Cert.Spec.vec0 (ab2 m c)) (w6_v37 m c) (w6_v42 m c)
  have a0 : E6 m c main_v20_0 = s := w6_v20_0 m c s hh
  have a1 : E6 m c main_v32 = Cert.Spec.agg s (aei m c) := w6_v32 m c s hh
  have a2 : E6 m c main_v34 = Cert.Spec.mat0 (aW1 m c) := w6_v34 m c
  have a3 : E6 m c main_v39 = Cert.Spec.mat0 (aW2 m c) := w6_v39 m c
  rw [a0, a1, a2, a3] at e
  exact (W7_arr m c 6).trans e

theorem w8_v47 (hh : W5 m c main_v20_0 = s) : W8 m c main_v47 = kmean (F := Ideal) (perc1 m c s) := by
  have e := h3_v47 (W7 m c)
  rw [w7_v43 m c s hh] at e; exact e
theorem w8_c : W8 m c main_c_9 = constantI S_ 32 0#32 := h3_c (W7 m c)
theorem w8_v43 (hh : W5 m c main_v20_0 = s) : W8 m c main_v43 = perc1 m c s := by
  back main_v43; exact w7_v43 m c s hh
theorem w9_v48 (hh : W5 m c main_v20_0 = s) : W9 m c main_v48 = kvar (F := Ideal) (perc1 m c s) := by
  have e := h3_1_v48 (W8 m c) (w8_c m c)
  rw [w8_v43 m c s hh] at e; exact e
theorem w10_v51 : W10 m c main_v51 = shapeCast S1x64 (Cert.Spec.vec0 (ag m c)) shapeCasts_S64_S1x64 := by
  have e := h3_2_v51 (W9 m c)
  rw [show W9 m c main_arg11 = ag m c from by back main_arg11] at e; exact e
theorem w10_v54 : W10 m c main_v54 = shapeCast S1x64 (Cert.Spec.vec0 (abe m c)) shapeCasts_S64_S1x64 := by
  have e := h3_2_v54 (W9 m c)
  rw [show W9 m c main_arg12 = abe m c from by back main_arg12] at e; exact e

theorem w10_v43 (hh : W5 m c main_v20_0 = s) : W10 m c main_v43 = perc1 m c s := by
  back main_v43; exact w7_v43 m c s hh
theorem w10_v47 (hh : W5 m c main_v20_0 = s) : W10 m c main_v47 = kmean (F := Ideal) (perc1 m c s) := by
  back main_v47; exact w8_v47 m c s hh
theorem w10_v48 (hh : W5 m c main_v20_0 = s) : W10 m c main_v48 = kvar (F := Ideal) (perc1 m c s) := by
  back main_v48; exact w9_v48 m c s hh

theorem w10_v4 : W10 m c main_v4 = shapeCast S50000x1 (abatch m c) shapeCasts_S50000_S50000x1 := by
  back main_v4; exact w1_v4 m c

theorem round1_h (hh : W5 m c main_v20_0 = s) : W11 m c main_v55_0 = next1 m c s := by
  have z : E10 m c main_v43 = perc1 m c s := w10_v43 m c s hh
  have e := out3_h (E10 m) c (Cert.Spec.vec0 (ag m c)) (Cert.Spec.vec0 (abe m c)) (w10_v51 m c) (w10_v54 m c)
    (by rw [z]; exact w10_v47 m c s hh) (by rw [z]; exact w10_v48 m c s hh)
  rw [z] at e
  exact (W11_arr m c 6).trans e

theorem round1_sums (hh : W5 m c main_v20_0 = s) :
    W11 m c main_v55_1 = Cert.Spec.poolSum (next1 m c s) (abatch m c) := by
  have z : E10 m c main_v43 = perc1 m c s := w10_v43 m c s hh
  have e := out3_pool (E10 m) c (Cert.Spec.vec0 (ag m c)) (Cert.Spec.vec0 (abe m c)) (abatch m c) (w10_v51 m c) (w10_v54 m c)
    (by rw [z]; exact w10_v47 m c s hh) (by rw [z]; exact w10_v48 m c s hh) (w10_v4 m c)
  rw [z] at e
  exact (W11_arr m c 7).trans e

end Cert.KernelIdeal.Val

end
-- ==== Proof.KI.ValHostR2.lean ====
import proofs.«421327_j56599079026905_1_alg».proof.Proof.KI.HostFns
import proofs.«421327_j56599079026905_1_alg».proof.Proof.Spec
import proofs.«421327_j56599079026905_1_alg».proof.Proof.Gen.ReferenceIdeal
import Idealize.ShloMosaic.PureOps.Ideal
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.StableHlo

variable (V : Valuation τ sig (Elt Ideal))

variable (ei : IVec S2x800000 32) (batch : IVec S50000 32) (s : FVec Ideal S50000x64 .f32)

theorem h4_v57 (hp : V main_v55_1 = Cert.Spec.poolSum s batch) (hc : V main_v10 = Cert.Spec.counts (F := Ideal) batch) :
    StableHlo.after (hostOps4 (F := Ideal)) V main_v57 = Cert.Spec.pool s batch := by
  after_results_simp
  rw [hp, hc]; rfl

theorem h4_v67 (h1 : V main_v1 = Cert.Spec.src ei) (h3 : V main_v3 = Cert.Spec.dst ei) :
    StableHlo.after (hostOps4 (F := Ideal)) V main_v67 = Cert.Spec.agg (F := Ideal) (V main_v55_0) ei := by
  after_results_simp
  rw [h1, h3]; rfl

theorem h4_v69 : StableHlo.after (hostOps4 (F := Ideal)) V main_v69 = Cert.Spec.mat1 (F := Ideal) (V main_arg7) := by
  after_results_simp; rfl
theorem h4_v72 : StableHlo.after (hostOps4 (F := Ideal)) V main_v72
    = shapeCast S1x64 (Cert.Spec.vec1 (F := Ideal) (V main_arg8)) shapeCasts_S64_S1x64 := by
  after_results_simp; rfl
theorem h4_v74 : StableHlo.after (hostOps4 (F := Ideal)) V main_v74 = Cert.Spec.mat1 (F := Ideal) (V main_arg9) := by
  after_results_simp; rfl
theorem h4_v77 : StableHlo.after (hostOps4 (F := Ideal)) V main_v77
    = shapeCast S1x64 (Cert.Spec.vec1 (F := Ideal) (V main_arg10)) shapeCasts_S64_S1x64 := by
  after_results_simp; rfl

theorem h5_v82 : StableHlo.after (hostOps5 (F := Ideal)) V main_v82 = kmean (F := Ideal) (V main_v78) := by
  after_results; rfl

theorem h5_c : StableHlo.after (hostOps5 (F := Ideal)) V main_c_15 = constantI S_ 32 0#32 := by
  after_results

theorem h5_1_v83 (hc : V main_c_15 = constantI S_ 32 0#32) :
    StableHlo.after (hostOps5_1 (F := Ideal)) V main_v83 = kvar (F := Ideal) (V main_v78) := by
  after_results_simp
  simp only [StableHlo.TRef.ofBuf, StableHlo.TRef.toBuf, cast_eq]
  rw [hc]; rfl

theorem h5_2_v86 : StableHlo.after (hostOps5_2 (F := Ideal)) V main_v86
    = shapeCast S1x64 (Cert.Spec.vec1 (F := Ideal) (V main_arg11)) shapeCasts_S64_S1x64 := by
  after_results; rfl
theorem h5_2_v89 : StableHlo.after (hostOps5_2 (F := Ideal)) V main_v89
    = shapeCast S1x64 (Cert.Spec.vec1 (F := Ideal) (V main_arg12)) shapeCasts_S64_S1x64 := by
  after_results; rfl

end Cert.KernelIdeal.Val

end
-- ==== Proof.KI.ValChainR2.lean ====
import proofs.«421327_j56599079026905_1_alg».proof.Proof.KI.ValChain0
import proofs.«421327_j56599079026905_1_alg».proof.Proof.KI.ValHostR2

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (c : Dev nD)

variable (s : FVec Ideal S50000x64 .f32)

abbrev perc2 : FVec Ideal S50000x64 .f32 :=
  Cert.Spec.mlp s (Cert.Spec.agg s (aei m c)) (Cert.Spec.mat1 (aW1 m c)) (Cert.Spec.vec1 (ab1 m c))
    (Cert.Spec.mat1 (aW2 m c)) (Cert.Spec.vec1 (ab2 m c))

abbrev next2 : FVec Ideal S50000x64 .f32 :=
  Cert.Spec.round s (aei m c) (Cert.Spec.mat1 (aW1 m c)) (Cert.Spec.vec1 (ab1 m c)) (Cert.Spec.mat1 (aW2 m c))
    (Cert.Spec.vec1 (ab2 m c)) (Cert.Spec.vec1 (ag m c)) (Cert.Spec.vec1 (abe m c))

theorem round2_mean (hp : W11 m c main_v55_1 = Cert.Spec.poolSum s (abatch m c)) :
    W12 m c main_v57 = Cert.Spec.pool s (abatch m c) :=
  h4_v57 (W11 m c) (abatch m c) s hp (by back main_v10; exact w1_v10 m c)

theorem w12_v67 (hh : W11 m c main_v55_0 = s) : W12 m c main_v67 = Cert.Spec.agg s (aei m c) := by
  have e := h4_v67 (W11 m c) (aei m c) (by back main_v1; exact w1_v1 m c) (by back main_v3; exact w1_v3 m c)
  rw [hh] at e; exact e

theorem w12_v69 : W12 m c main_v69 = Cert.Spec.mat1 (aW1 m c) := by
  have e := h4_v69 (W11 m c)
  rw [show W11 m c main_arg7 = aW1 m c from by back main_arg7] at e; exact e
theorem w12_v72 : W12 m c main_v72 = shapeCast S1x64 (Cert.Spec.vec1 (ab1 m c)) shapeCasts_S64_S1x64 := by
  have e := h4_v72 (W11 m c)
  rw [show W11 m c main_arg8 = ab1 m c from by back main_arg8] at e; exact e
theorem w12_v74 : W12 m c main_v74 = Cert.Spec.mat1 (aW2 m c) := by
  have e := h4_v74 (W11 m c)
  rw [show W11 m c main_arg9 = aW2 m c from by back main_arg9] at e; exact e
theorem w12_v77 : W12 m c main_v77 = shapeCast S1x64 (Cert.Spec.vec1 (ab2 m c)) shapeCasts_S64_S1x64 := by
  have e := h4_v77 (W11 m c)
  rw [show W11 m c main_arg10 = ab2 m c from by back main_arg10] at e; exact e

theorem w12_v55_0 (hh : W11 m c main_v55_0 = s) : W12 m c main_v55_0 = s := by
  back main_v55_0; exact hh

theorem w13_v78 (hh : W11 m c main_v55_0 = s) : W13 m c main_v78 = perc2 m c s := by
  have e := out4 (E12 m) c (Cert.Spec.vec1 (ab1 m c)) (Cert.Spec.vec1 (ab2 m c)) (w12_v72 m c) (w12_v77 m c)
  have a0 : E12 m c main_v55_0 = s := w12_v55_0 m c s hh
  have a1 : E12 m c main_v67 = Cert.Spec.agg s (aei m c) := w12_v67 m c s hh
  have a2 : E12 m c main_v69 = Cert.Spec.mat1 (aW1 m c) := w12_v69 m c
  have a3 : E12 m c main_v74 = Cert.Spec.mat1 (aW2 m c) := w12_v74 m c
  rw [a0, a1, a2, a3] at e
  exact (W13_arr m c 6).trans e

theorem w14_v82 (hh : W11 m c main_v55_0 = s) : W14 m c main_v82 = kmean (F := Ideal) (perc2 m c s) := by
  have e := h5_v82 (W13 m c)
  rw [w13_v78 m c s hh] at e; exact e
theorem w14_c : W14 m c main_c_15 = constantI S_ 32 0#32 := h5_c (W13 m c)
theorem w14_v78 (hh : W11 m c main_v55_0 = s) : W14 m c main_v78 = perc2 m c s := by
  back main_v78; exact w13_v78 m c s hh
theorem w15_v83 (hh : W11 m c main_v55_0 = s) : W15 m c main_v83 = kvar (F := Ideal) (perc2 m c s) := by
  have e := h5_1_v83 (W14 m c) (w14_c m c)
  rw [w14_v78 m c s hh] at e; exact e
theorem w16_v86 : W16 m c main_v86 = shapeCast S1x64 (Cert.Spec.vec1 (ag m c)) shapeCasts_S64_S1x64 := by
  have e := h5_2_v86 (W15 m c)
  rw [show W15 m c main_arg11 = ag m c from by back main_arg11] at e; exact e
theorem w16_v89 : W16 m c main_v89 = shapeCast S1x64 (Cert.Spec.vec1 (abe m c)) shapeCasts_S64_S1x64 := by
  have e := h5_2_v89 (W15 m c)
  rw [show W15 m c main_arg12 = abe m c from by back main_arg12] at e; exact e

theorem w16_v78 (hh : W11 m c main_v55_0 = s) : W16 m c main_v78 = perc2 m c s := by
  back main_v78; exact w13_v78 m c s hh
theorem w16_v82 (hh : W11 m c main_v55_0 = s) : W16 m c main_v82 = kmean (F := Ideal) (perc2 m c s) := by
  back main_v82; exact w14_v82 m c s hh
theorem w16_v83 (hh : W11 m c main_v55_0 = s) : W16 m c main_v83 = kvar (F := Ideal) (perc2 m c s) := by
  back main_v83; exact w15_v83 m c s hh

theorem w16_v4 : W16 m c main_v4 = shapeCast S50000x1 (abatch m c) shapeCasts_S50000_S50000x1 := by
  back main_v4; exact w1_v4 m c

theorem round2_h (hh : W11 m c main_v55_0 = s) : W17 m c main_v90_0 = next2 m c s := by
  have z : E16 m c main_v78 = perc2 m c s := w16_v78 m c s hh
  have e := out5_h (E16 m) c (Cert.Spec.vec1 (ag m c)) (Cert.Spec.vec1 (abe m c)) (w16_v86 m c) (w16_v89 m c)
    (by rw [z]; exact w16_v82 m c s hh) (by rw [z]; exact w16_v83 m c s hh)
  rw [z] at e
  exact (W17_arr m c 6).trans e

theorem round2_sums (hh : W11 m c main_v55_0 = s) :
    W17 m c main_v90_1 = Cert.Spec.poolSum (next2 m c s) (abatch m c) := by
  have z : E16 m c main_v78 = perc2 m c s := w16_v78 m c s hh
  have e := out5_pool (E16 m) c (Cert.Spec.vec1 (ag m c)) (Cert.Spec.vec1 (abe m c)) (abatch m c) (w16_v86 m c) (w16_v89 m c)
    (by rw [z]; exact w16_v82 m c s hh) (by rw [z]; exact w16_v83 m c s hh) (w16_v4 m c)
  rw [z] at e
  exact (W17_arr m c 7).trans e

end Cert.KernelIdeal.Val

end
-- ==== Proof.KI.ValHostR3.lean ====
import proofs.«421327_j56599079026905_1_alg».proof.Proof.KI.HostFns
import proofs.«421327_j56599079026905_1_alg».proof.Proof.Spec
import proofs.«421327_j56599079026905_1_alg».proof.Proof.Gen.ReferenceIdeal
import Idealize.ShloMosaic.PureOps.Ideal
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.StableHlo

variable (V : Valuation τ sig (Elt Ideal))

variable (ei : IVec S2x800000 32) (batch : IVec S50000 32) (s : FVec Ideal S50000x64 .f32)

theorem h6_v92 (hp : V main_v90_1 = Cert.Spec.poolSum s batch) (hc : V main_v10 = Cert.Spec.counts (F := Ideal) batch) :
    StableHlo.after (hostOps6 (F := Ideal)) V main_v92 = Cert.Spec.pool s batch := by
  after_results_simp
  rw [hp, hc]; rfl

theorem h6_v102 (h1 : V main_v1 = Cert.Spec.src ei) (h3 : V main_v3 = Cert.Spec.dst ei) :
    StableHlo.after (hostOps6 (F := Ideal)) V main_v102 = Cert.Spec.agg (F := Ideal) (V main_v90_0) ei := by
  after_results_simp
  rw [h1, h3]; rfl

theorem h6_v104 : StableHlo.after (hostOps6 (F := Ideal)) V main_v104 = Cert.Spec.mat2 (F := Ideal) (V main_arg7) := by
  after_results_simp; rfl
theorem h6_v107 : StableHlo.after (hostOps6 (F := Ideal)) V main_v107
    = shapeCast S1x64 (Cert.Spec.vec2 (F := Ideal) (V main_arg8)) shapeCasts_S64_S1x64 := by
  after_results_simp; rfl
theorem h6_v109 : StableHlo.after (hostOps6 (F := Ideal)) V main_v109 = Cert.Spec.mat2 (F := Ideal) (V main_arg9) := by
  after_results_simp; rfl
theorem h6_v112 : StableHlo.after (hostOps6 (F := Ideal)) V main_v112
    = shapeCast S1x64 (Cert.Spec.vec2 (F := Ideal) (V main_arg10)) shapeCasts_S64_S1x64 := by
  after_results_simp; rfl

theorem h7_v117 : StableHlo.after (hostOps7 (F := Ideal)) V main_v117 = kmean (F := Ideal) (V main_v113) := by
  after_results; rfl

theorem h7_c : StableHlo.after (hostOps7 (F := Ideal)) V main_c_21 = constantI S_ 32 0#32 := by
  after_results

theorem h7_1_v118 (hc : V main_c_21 = constantI S_ 32 0#32) :
    StableHlo.after (hostOps7_1 (F := Ideal)) V main_v118 = kvar (F := Ideal) (V main_v113) := by
  after_results_simp
  simp only [StableHlo.TRef.ofBuf, StableHlo.TRef.toBuf, cast_eq]
  rw [hc]; rfl

theorem h7_2_v121 : StableHlo.after (hostOps7_2 (F := Ideal)) V main_v121
    = shapeCast S1x64 (Cert.Spec.vec2 (F := Ideal) (V main_arg11)) shapeCasts_S64_S1x64 := by
  after_results; rfl
theorem h7_2_v124 : StableHlo.after (hostOps7_2 (F := Ideal)) V main_v124
    = shapeCast S1x64 (Cert.Spec.vec2 (F := Ideal) (V main_arg12)) shapeCasts_S64_S1x64 := by
  after_results; rfl

end Cert.KernelIdeal.Val

end
-- ==== Proof.KI.ValChainR3.lean ====
import proofs.«421327_j56599079026905_1_alg».proof.Proof.KI.ValChain0
import proofs.«421327_j56599079026905_1_alg».proof.Proof.KI.ValHostR3

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (c : Dev nD)

variable (s : FVec Ideal S50000x64 .f32)

abbrev perc3 : FVec Ideal S50000x64 .f32 :=
  Cert.Spec.mlp s (Cert.Spec.agg s (aei m c)) (Cert.Spec.mat2 (aW1 m c)) (Cert.Spec.vec2 (ab1 m c))
    (Cert.Spec.mat2 (aW2 m c)) (Cert.Spec.vec2 (ab2 m c))

abbrev next3 : FVec Ideal S50000x64 .f32 :=
  Cert.Spec.round s (aei m c) (Cert.Spec.mat2 (aW1 m c)) (Cert.Spec.vec2 (ab1 m c)) (Cert.Spec.mat2 (aW2 m c))
    (Cert.Spec.vec2 (ab2 m c)) (Cert.Spec.vec2 (ag m c)) (Cert.Spec.vec2 (abe m c))

theorem round3_mean (hp : W17 m c main_v90_1 = Cert.Spec.poolSum s (abatch m c)) :
    W18 m c main_v92 = Cert.Spec.pool s (abatch m c) :=
  h6_v92 (W17 m c) (abatch m c) s hp (by back main_v10; exact w1_v10 m c)

theorem w18_v102 (hh : W17 m c main_v90_0 = s) : W18 m c main_v102 = Cert.Spec.agg s (aei m c) := by
  have e := h6_v102 (W17 m c) (aei m c) (by back main_v1; exact w1_v1 m c) (by back main_v3; exact w1_v3 m c)
  rw [hh] at e; exact e

theorem w18_v104 : W18 m c main_v104 = Cert.Spec.mat2 (aW1 m c) := by
  have e := h6_v104 (W17 m c)
  rw [show W17 m c main_arg7 = aW1 m c from by back main_arg7] at e; exact e
theorem w18_v107 : W18 m c main_v107 = shapeCast S1x64 (Cert.Spec.vec2 (ab1 m c)) shapeCasts_S64_S1x64 := by
  have e := h6_v107 (W17 m c)
  rw [show W17 m c main_arg8 = ab1 m c from by back main_arg8] at e; exact e
theorem w18_v109 : W18 m c main_v109 = Cert.Spec.mat2 (aW2 m c) := by
  have e := h6_v109 (W17 m c)
  rw [show W17 m c main_arg9 = aW2 m c from by back main_arg9] at e; exact e
theorem w18_v112 : W18 m c main_v112 = shapeCast S1x64 (Cert.Spec.vec2 (ab2 m c)) shapeCasts_S64_S1x64 := by
  have e := h6_v112 (W17 m c)
  rw [show W17 m c main_arg10 = ab2 m c from by back main_arg10] at e; exact e

theorem w18_v90_0 (hh : W17 m c main_v90_0 = s) : W18 m c main_v90_0 = s := by
  back main_v90_0; exact hh

theorem w19_v113 (hh : W17 m c main_v90_0 = s) : W19 m c main_v113 = perc3 m c s := by
  have e := out6 (E18 m) c (Cert.Spec.vec2 (ab1 m c)) (Cert.Spec.vec2 (ab2 m c)) (w18_v107 m c) (w18_v112 m c)
  have a0 : E18 m c main_v90_0 = s := w18_v90_0 m c s hh
  have a1 : E18 m c main_v102 = Cert.Spec.agg s (aei m c) := w18_v102 m c s hh
  have a2 : E18 m c main_v104 = Cert.Spec.mat2 (aW1 m c) := w18_v104 m c
  have a3 : E18 m c main_v109 = Cert.Spec.mat2 (aW2 m c) := w18_v109 m c
  rw [a0, a1, a2, a3] at e
  exact (W19_arr m c 6).trans e

theorem w20_v117 (hh : W17 m c main_v90_0 = s) : W20 m c main_v117 = kmean (F := Ideal) (perc3 m c s) := by
  have e := h7_v117 (W19 m c)
  rw [w19_v113 m c s hh] at e; exact e
theorem w20_c : W20 m c main_c_21 = constantI S_ 32 0#32 := h7_c (W19 m c)
theorem w20_v113 (hh : W17 m c main_v90_0 = s) : W20 m c main_v113 = perc3 m c s := by
  back main_v113; exact w19_v113 m c s hh
theorem w21_v118 (hh : W17 m c main_v90_0 = s) : W21 m c main_v118 = kvar (F := Ideal) (perc3 m c s) := by
  have e := h7_1_v118 (W20 m c) (w20_c m c)
  rw [w20_v113 m c s hh] at e; exact e
theorem w22_v121 : W22 m c main_v121 = shapeCast S1x64 (Cert.Spec.vec2 (ag m c)) shapeCasts_S64_S1x64 := by
  have e := h7_2_v121 (W21 m c)
  rw [show W21 m c main_arg11 = ag m c from by back main_arg11] at e; exact e
theorem w22_v124 : W22 m c main_v124 = shapeCast S1x64 (Cert.Spec.vec2 (abe m c)) shapeCasts_S64_S1x64 := by
  have e := h7_2_v124 (W21 m c)
  rw [show W21 m c main_arg12 = abe m c from by back main_arg12] at e; exact e

theorem w22_v113 (hh : W17 m c main_v90_0 = s) : W22 m c main_v113 = perc3 m c s := by
  back main_v113; exact w19_v113 m c s hh
theorem w22_v117 (hh : W17 m c main_v90_0 = s) : W22 m c main_v117 = kmean (F := Ideal) (perc3 m c s) := by
  back main_v117; exact w20_v117 m c s hh
theorem w22_v118 (hh : W17 m c main_v90_0 = s) : W22 m c main_v118 = kvar (F := Ideal) (perc3 m c s) := by
  back main_v118; exact w21_v118 m c s hh

theorem w22_v4 : W22 m c main_v4 = shapeCast S50000x1 (abatch m c) shapeCasts_S50000_S50000x1 := by
  back main_v4; exact w1_v4 m c

theorem round3_h (hh : W17 m c main_v90_0 = s) : W23 m c main_v125_0 = next3 m c s := by
  have z : E22 m c main_v113 = perc3 m c s := w22_v113 m c s hh
  have e := out7_h (E22 m) c (Cert.Spec.vec2 (ag m c)) (Cert.Spec.vec2 (abe m c)) (w22_v121 m c) (w22_v124 m c)
    (by rw [z]; exact w22_v117 m c s hh) (by rw [z]; exact w22_v118 m c s hh)
  rw [z] at e
  exact (W23_arr m c 6).trans e

theorem round3_sums (hh : W17 m c main_v90_0 = s) :
    W23 m c main_v125_1 = Cert.Spec.poolSum (next3 m c s) (abatch m c) := by
  have z : E22 m c main_v113 = perc3 m c s := w22_v113 m c s hh
  have e := out7_pool (E22 m) c (Cert.Spec.vec2 (ag m c)) (Cert.Spec.vec2 (abe m c)) (abatch m c) (w22_v121 m c) (w22_v124 m c)
    (by rw [z]; exact w22_v117 m c s hh) (by rw [z]; exact w22_v118 m c s hh) (w22_v4 m c)
  rw [z] at e
  exact (W23_arr m c 7).trans e

end Cert.KernelIdeal.Val

end
-- ==== Proof.KI.ValChain.lean ====
import proofs.«421327_j56599079026905_1_alg».proof.Proof.KI.ValChainR1
import proofs.«421327_j56599079026905_1_alg».proof.Proof.KI.ValChainR2
import proofs.«421327_j56599079026905_1_alg».proof.Proof.KI.ValChainR3

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ) (c : Dev nD)

abbrev s1 : FVec Ideal S50000x64 .f32 := next1 m c (s0 m c)
abbrev s2 : FVec Ideal S50000x64 .f32 := next2 m c (s1 m c)
abbrev s3 : FVec Ideal S50000x64 .f32 := next3 m c (s2 m c)

theorem w6_mean : W6 m c main_v22 = Cert.Spec.pool (s0 m c) (abatch m c) := round1_mean m c (s0 m c) (w5_pool m c)
theorem w11_h : W11 m c main_v55_0 = s1 m c := round1_h m c (s0 m c) (w5_h m c)
theorem w11_sums : W11 m c main_v55_1 = Cert.Spec.poolSum (s1 m c) (abatch m c) := round1_sums m c (s0 m c) (w5_h m c)

theorem w12_mean : W12 m c main_v57 = Cert.Spec.pool (s1 m c) (abatch m c) := round2_mean m c (s1 m c) (w11_sums m c)
theorem w17_h : W17 m c main_v90_0 = s2 m c := round2_h m c (s1 m c) (w11_h m c)
theorem w17_sums : W17 m c main_v90_1 = Cert.Spec.poolSum (s2 m c) (abatch m c) := round2_sums m c (s1 m c) (w11_h m c)

theorem w18_mean : W18 m c main_v92 = Cert.Spec.pool (s2 m c) (abatch m c) := round3_mean m c (s2 m c) (w17_sums m c)
theorem w23_sums : W23 m c main_v125_1 = Cert.Spec.poolSum (s3 m c) (abatch m c) := round3_sums m c (s2 m c) (w17_h m c)

theorem w23_v22 : W23 m c main_v22 = Cert.Spec.pool (s0 m c) (abatch m c) := by
  back main_v22; exact w6_mean m c
theorem w23_v57 : W23 m c main_v57 = Cert.Spec.pool (s1 m c) (abatch m c) := by
  back main_v57; exact w12_mean m c
theorem w23_v92 : W23 m c main_v92 = Cert.Spec.pool (s2 m c) (abatch m c) := by
  back main_v92; exact w18_mean m c

theorem result :
    W24 m c (Proc.devRef .tc main_v132)
      = Cert.Spec.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) := by
  have e := h8_v132 (W23 m c) (abatch m c) (s3 m c) (w23_sums m c) (by back main_v10; exact w1_v10 m c)
  rw [w23_v22 m c, w23_v57 m c, w23_v92 m c] at e
  exact e

end Cert.KernelIdeal.Val

end
-- ==== Proof.Ref.Ops.lean ====
import proofs.«421327_j56599079026905_1_alg».proof.ReferenceIdeal
import Idealize.ShloMosaic.Lib.StableHlo.Run

noncomputable section

namespace Cert.ReferenceIdeal.Hand

open Cert.ReferenceIdeal Cert.ReferenceIdeal.Facts₀ Idealize.ShloMosaic Idealize.SL.Sem

variable {F : FTy → Type} [FloatOps F] [Cert.ReferenceIdeal.Facts]

/-- Operations 1 … 4 of @main with its calls laid out: stage `edges`, in window 0. -/
abbrev c0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- Operations 5 … 8 of @main with its calls laid out: stage `lin`, in window 0. -/
abbrev c1 : List (HloOp τ sig (Elt F)) :=
  [ StableHlo.binary main_arg0 main_arg3 main_v4 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S50000x64 ![0, 1] bcast_S1x64_S50000x64_0_1 : (⟨S1x64, .f32⟩ : BufTy).Contents (Elt F) → (⟨S50000x64, .f32⟩ : BufTy).Contents (Elt F)),
    StableHlo.binary main_v4 main_v6 main_v7 (addf : (⟨S50000x64, .f32⟩ : BufTy).Contents (Elt F) → (⟨S50000x64, .f32⟩ : BufTy).Contents (Elt F) → (⟨S50000x64, .f32⟩ : BufTy).Contents (Elt F)) ]

/-- Operations 9 … 52 of @main with its calls laid out: stage `bn0`, in window 0. -/
abbrev c2 : List (HloOp τ sig (Elt F)) :=
  [ StableHlo.nullary main_cst (constant S_ .f32 0x00000000#32),
    StableHlo.binary main_v7 main_cst main_v8 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_0 (constant S_ .f32 0x47435000#32),
    StableHlo.unary main_cst_0 main_v9 (broadcastInDim S64 ![] bcast_S_S64 : (⟨S_, .f32⟩ : BufTy).Contents (Elt F) → (⟨S64, .f32⟩ : BufTy).Contents (Elt F)),
    StableHlo.binary main_v8 main_v9 main_v10 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (StableHlo.TRef.of (T := ⟨S50000x64, .f32⟩) main_v7) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (StableHlo.TRef.of (T := ⟨S50000x64, .f32⟩) main_v7) main_call0.v4 main_call0.v5 subf,
    StableHlo.TRef.binary main_call0.v5 main_call0.v5 main_call0.v6 mulf,
    StableHlo.TRef.unary (StableHlo.TRef.of (T := ⟨S_, .i32⟩) main_c) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S64 ![] bcast_S_S64),
    StableHlo.TRef.ternary main_call0.v12 main_call0.v11 main_call0_call0.v1 main_call0_call0.v2 (fun p a b => select (broadcastInDim S64 ![] bcast_S_S64 p) a b),
    StableHlo.unary main_v10 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S50000x64 ![0, 1] bcast_S1x64_S50000x64_0_1 : (⟨S1x64, .f32⟩ : BufTy).Contents (Elt F) → (⟨S50000x64, .f32⟩ : BufTy).Contents (Elt F)),
    StableHlo.binary main_v7 main_v13 main_v14 (subf : (⟨S50000x64, .f32⟩ : BufTy).Contents (Elt F) → (⟨S50000x64, .f32⟩ : BufTy).Contents (Elt F) → (⟨S50000x64, .f32⟩ : BufTy).Contents (Elt F)),
    StableHlo.nullary main_cst_1 (constant S_ .f32 0x3727C5AC#32),
    StableHlo.unary main_cst_1 main_v15 (broadcastInDim S64 ![] bcast_S_S64 : (⟨S_, .f32⟩ : BufTy).Contents (Elt F) → (⟨S64, .f32⟩ : BufTy).Contents (Elt F)),
    StableHlo.binary main_v11 main_v15 main_v16 (addf : (⟨S64, .f32⟩ : BufTy).Contents (Elt F) → (⟨S64, .f32⟩ : BufTy).Contents (Elt F) → (⟨S64, .f32⟩ : BufTy).Contents (Elt F)),
    StableHlo.unary main_v16 main_v17 (Host.rsqrt : (⟨S64, .f32⟩ : BufTy).Contents (Elt F) → (⟨S64, .f32⟩ : BufTy).Contents (Elt F)),
    StableHlo.unary main_v17 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S50000x64 ![0, 1] bcast_S1x64_S50000x64_0_1 : (⟨S1x64, .f32⟩ : BufTy).Contents (Elt F) → (⟨S50000x64, .f32⟩ : BufTy).Contents (Elt F)),
    StableHlo.binary main_v14 main_v19 main_v20 (mulf : (⟨S50000x64, .f32⟩ : BufTy).Contents (Elt F) → (⟨S50000x64, .f32⟩ : BufTy).Contents (Elt F) → (⟨S50000x64, .f32⟩ : BufTy).Contents (Elt F)),
    StableHlo.unary main_arg5 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S50000x64 ![0, 1] bcast_S1x64_S50000x64_0_1 : (⟨S1x64, .f32⟩ : BufTy).Contents (Elt F) → (⟨S50000x64, .f32⟩ : BufTy).Contents (Elt F)),
    StableHlo.binary main_v20 main_v22 main_v23 (mulf : (⟨S50000x64, .f32⟩ : BufTy).Contents (Elt F) → (⟨S50000x64, .f32⟩ : BufTy).Contents (Elt F) → (⟨S50000x64, .f32⟩ : BufTy).Contents (Elt F)),
    StableHlo.unary main_arg6 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S50000x64 ![0, 1] bcast_S1x64_S50000x64_0_1 : (⟨S1x64, .f32⟩ : BufTy).Contents (Elt F) → (⟨S50000x64, .f32⟩ : BufTy).Contents (Elt F)),
    StableHlo.binary main_v23 main_v25 main_v26 (addf : (⟨S50000x64, .f32⟩ : BufTy).Contents (Elt F) → (⟨S50000x64, .f32⟩ : BufTy).Contents (Elt F) → (⟨S50000x64, .f32⟩ : BufTy).Contents (Elt F)) ]

/-- Operations 53 … 67 of @main with its calls laid out: stage `pool0`, in window 0. -/
abbrev c3 : List (HloOp τ sig (Elt F)) :=
  [ StableHlo.nullary main_cst_2 (constant S_ .f32 0x00000000#32),
    StableHlo.unary main_cst_2 main_v27 (broadcastInDim S512x64 ![] bcast_S_S512x64 : (⟨S_, .f32⟩ : BufTy).Contents (Elt F) → (⟨S512x64, .f32⟩ : BufTy).Contents (Elt F)),
    StableHlo.unary main_arg2 main_v28 (broadcastInDim S50000x1 ![0] bcast_S50000_S50000x1_0 : (⟨S50000, .i32⟩ : BufTy).Contents (Elt F) → (⟨S50000x1, .i32⟩ : BufTy).Contents (Elt F)),
    StableHlo.ternary main_v27 main_v28 main_v26 main_v29 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_3 (constant S_ .f32 0x3F800000#32),
    StableHlo.unary main_cst_3 main_v30 (broadcastInDim S50000x1 ![] bcast_S_S50000x1 : (⟨S_, .f32⟩ : BufTy).Contents (Elt F) → (⟨S50000x1, .f32⟩ : BufTy).Contents (Elt F)),
    StableHlo.nullary main_cst_4 (constant S_ .f32 0x00000000#32),
    StableHlo.unary main_cst_4 main_v31 (broadcastInDim S512x1 ![] bcast_S_S512x1 : (⟨S_, .f32⟩ : BufTy).Contents (Elt F) → (⟨S512x1, .f32⟩ : BufTy).Contents (Elt F)),
    StableHlo.unary main_arg2 main_v32 (broadcastInDim S50000x1 ![0] bcast_S50000_S50000x1_0 : (⟨S50000, .i32⟩ : BufTy).Contents (Elt F) → (⟨S50000x1, .i32⟩ : BufTy).Contents (Elt F)),
    StableHlo.ternary main_v31 main_v32 main_v30 main_v33 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    StableHlo.nullary main_cst_5 (constant S_ .f32 0x3F800000#32),
    StableHlo.unary main_cst_5 main_v34 (broadcastInDim S512x1 ![] bcast_S_S512x1 : (⟨S_, .f32⟩ : BufTy).Contents (Elt F) → (⟨S512x1, .f32⟩ : BufTy).Contents (Elt F)),
    StableHlo.binary main_v33 main_v34 main_v35 (maximumf : (⟨S512x1, .f32⟩ : BufTy).Contents (Elt F) → (⟨S512x1, .f32⟩ : BufTy).Contents (Elt F) → (⟨S512x1, .f32⟩ : BufTy).Contents (Elt F)),
    StableHlo.unary main_v35 main_v36 (broadcastInDim S512x64 ![0, 1] bcast_S512x1_S512x64_0_1 : (⟨S512x1, .f32⟩ : BufTy).Contents (Elt F) → (⟨S512x64, .f32⟩ : BufTy).Contents (Elt F)),
    StableHlo.binary main_v29 main_v36 main_v37 (Host.divf : (⟨S512x64, .f32⟩ : BufTy).Contents (Elt F) → (⟨S512x64, .f32⟩ : BufTy).Contents (Elt F) → (⟨S512x64, .f32⟩ : BufTy).Contents (Elt F)) ]

/-- Operations 68 … 81 of @main with its calls laid out: stage `agg0`, in window 0. -/
abbrev c4 : List (HloOp τ sig (Elt F)) :=
  [ StableHlo.nullary main_c_6 (constantI S_ 32 0#32),
    StableHlo.unary main_c_6 main_v38 (broadcastInDim S800000 ![] bcast_S_S800000 : (⟨S_, .i32⟩ : BufTy).Contents (Elt F) → (⟨S800000, .i32⟩ : BufTy).Contents (Elt F)),
    StableHlo.binary main_v1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v40 (broadcastInDim S800000 ![] bcast_S_S800000 : (⟨S_, .i32⟩ : BufTy).Contents (Elt F) → (⟨S800000, .i32⟩ : BufTy).Contents (Elt F)),
    StableHlo.binary main_v1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v26 main_v43 main_v44 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_8 (constant S_ .f32 0x00000000#32),
    StableHlo.unary main_cst_8 main_v45 (broadcastInDim S50000x64 ![] bcast_S_S50000x64 : (⟨S_, .f32⟩ : BufTy).Contents (Elt F) → (⟨S50000x64, .f32⟩ : BufTy).Contents (Elt F)),
    StableHlo.unary main_v3 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v26 main_v47 main_v48 (addf : (⟨S50000x64, .f32⟩ : BufTy).Contents (Elt F) → (⟨S50000x64, .f32⟩ : BufTy).Contents (Elt F) → (⟨S50000x64, .f32⟩ : BufTy).Contents (Elt F)) ]

/-- Operations 82 … 104 of @main with its calls laid out: stage `mlp1`, in window 1. -/
abbrev c5 : List (HloOp τ sig (Elt F)) :=
  [ StableHlo.unary main_arg7 main_v49 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v49 main_v50 rfl shapeCasts_S1x64x64_S64x64,
    StableHlo.binary main_v48 main_v50 main_v51 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v52 ((extractStridedSlice S1x64 ![0, 0] · slices_S3x64_S1x64_0_0) : (⟨S3x64, .f32⟩ : BufTy).Contents (Elt F) → (⟨S1x64, .f32⟩ : BufTy).Contents (Elt F)),
    StableHlo.reshape main_v52 main_v53 rfl shapeCasts_S1x64_S64,
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v55 main_v56 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (StableHlo.TRef.of (T := ⟨S50000x64, .f32⟩) main_v56) main_call1.v0 main_call1.v1 maximumf,
    StableHlo.unary main_arg9 main_v58 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v58 main_v59 rfl shapeCasts_S1x64x64_S64x64,
    StableHlo.binary main_v57 main_v59 main_v60 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v61 ((extractStridedSlice S1x64 ![0, 0] · slices_S3x64_S1x64_0_0) : (⟨S3x64, .f32⟩ : BufTy).Contents (Elt F) → (⟨S1x64, .f32⟩ : BufTy).Contents (Elt F)),
    StableHlo.reshape main_v61 main_v62 rfl shapeCasts_S1x64_S64,
    StableHlo.unary main_v62 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v64 main_v65 (addf : (⟨S50000x64, .f32⟩ : BufTy).Contents (Elt F) → (⟨S50000x64, .f32⟩ : BufTy).Contents (Elt F) → (⟨S50000x64, .f32⟩ : BufTy).Contents (Elt F)),
    StableHlo.unary main_arg11 main_v66 ((extractStridedSlice S1x64 ![0, 0] · slices_S3x64_S1x64_0_0) : (⟨S3x64, .f32⟩ : BufTy).Contents (Elt F) → (⟨S1x64, .f32⟩ : BufTy).Contents (Elt F)),
    StableHlo.reshape main_v66 main_v67 rfl shapeCasts_S1x64_S64,
    StableHlo.unary main_arg12 main_v68 ((extractStridedSlice S1x64 ![0, 0] · slices_S3x64_S1x64_0_0) : (⟨S3x64, .f32⟩ : BufTy).Contents (Elt F) → (⟨S1x64, .f32⟩ : BufTy).Contents (Elt F)),
    StableHlo.reshape main_v68 main_v69 rfl shapeCasts_S1x64_S64 ]

/-- Operations 105 … 151 of @main with its calls laid out: stage `bn1`, in window 1. -/
abbrev c6 : List (HloOp τ sig (Elt F)) :=
  [ StableHlo.nullary main_cst_9 (constant S_ .f32 0x00000000#32),
    StableHlo.binary main_v65 main_cst_9 main_v70 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_10 (constant S_ .f32 0x47435000#32),
    StableHlo.unary main_cst_10 main_v71 (broadcastInDim S64 ![] bcast_S_S64 : (⟨S_, .f32⟩ : BufTy).Contents (Elt F) → (⟨S64, .f32⟩ : BufTy).Contents (Elt F)),
    StableHlo.binary main_v70 main_v71 main_v72 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call2.cst (constant S_ .f32 0x00000000#32),
    StableHlo.TRef.binary (StableHlo.TRef.of (T := ⟨S50000x64, .f32⟩) main_v65) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (StableHlo.TRef.of (T := ⟨S50000x64, .f32⟩) main_v65) main_call2.v4 main_call2.v5 subf,
    StableHlo.TRef.binary main_call2.v5 main_call2.v5 main_call2.v6 mulf,
    StableHlo.TRef.unary (StableHlo.TRef.of (T := ⟨S_, .i32⟩) main_c_11) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2_call0.v0 id,
    StableHlo.TRef.unary main_call2_call0.v0 main_call2_call0.v1 (broadcastInDim S64 ![] bcast_S_S64),
    StableHlo.TRef.ternary main_call2.v12 main_call2.v11 main_call2_call0.v1 main_call2_call0.v2 (fun p a b => select (broadcastInDim S64 ![] bcast_S_S64 p) a b),
    StableHlo.unary main_v72 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S50000x64 ![0, 1] bcast_S1x64_S50000x64_0_1 : (⟨S1x64, .f32⟩ : BufTy).Contents (Elt F) → (⟨S50000x64, .f32⟩ : BufTy).Contents (Elt F)),
    StableHlo.binary main_v65 main_v75 main_v76 (subf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x3727C5AC#32),
    StableHlo.unary main_cst_12 main_v77 (broadcastInDim S64 ![] bcast_S_S64 : (⟨S_, .f32⟩ : BufTy).Contents (Elt F) → (⟨S64, .f32⟩ : BufTy).Contents (Elt F)),
    StableHlo.binary main_v73 main_v77 main_v78 (addf : (⟨S64, .f32⟩ : BufTy).Contents (Elt F) → (⟨S64, .f32⟩ : BufTy).Contents (Elt F) → (⟨S64, .f32⟩ : BufTy).Contents (Elt F)),
    StableHlo.unary main_v78 main_v79 (Host.rsqrt : (⟨S64, .f32⟩ : BufTy).Contents (Elt F) → (⟨S64, .f32⟩ : BufTy).Contents (Elt F)),
    StableHlo.unary main_v79 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v76 main_v81 main_v82 (mulf : (⟨S50000x64, .f32⟩ : BufTy).Contents (Elt F) → (⟨S50000x64, .f32⟩ : BufTy).Contents (Elt F) → (⟨S50000x64, .f32⟩ : BufTy).Contents (Elt F)),
    StableHlo.unary main_v67 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S50000x64 ![0, 1] bcast_S1x64_S50000x64_0_1 : (⟨S1x64, .f32⟩ : BufTy).Contents (Elt F) → (⟨S50000x64, .f32⟩ : BufTy).Contents (Elt F)),
    StableHlo.binary main_v82 main_v84 main_v85 (mulf : (⟨S50000x64, .f32⟩ : BufTy).Contents (Elt F) → (⟨S50000x64, .f32⟩ : BufTy).Contents (Elt F) → (⟨S50000x64, .f32⟩ : BufTy).Contents (Elt F)),
    StableHlo.unary main_v69 main_v86 (broadcastInDim S1x64 ![1] bcast_S64_S1x64_1 : (⟨S64, .f32⟩ : BufTy).Contents (Elt F) → (⟨S1x64, .f32⟩ : BufTy).Contents (Elt F)),
    StableHlo.unary main_v86 main_v87 (broadcastInDim S50000x64 ![0, 1] bcast_S1x64_S50000x64_0_1 : (⟨S1x64, .f32⟩ : BufTy).Contents (Elt F) → (⟨S50000x64, .f32⟩ : BufTy).Contents (Elt F)),
    StableHlo.binary main_v85 main_v87 main_v88 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (StableHlo.TRef.of (T := ⟨S50000x64, .f32⟩) main_v88) main_call3.v0 main_call3.v1 maximumf ]

/-- Operations 152 … 166 of @main with its calls laid out: stage `pool1`, in window 1. -/
abbrev c7 : List (HloOp τ sig (Elt F)) :=
  [ StableHlo.nullary main_cst_13 (constant S_ .f32 0x00000000#32),
    StableHlo.unary main_cst_13 main_v90 (broadcastInDim S512x64 ![] bcast_S_S512x64 : (⟨S_, .f32⟩ : BufTy).Contents (Elt F) → (⟨S512x64, .f32⟩ : BufTy).Contents (Elt F)),
    StableHlo.unary main_arg2 main_v91 (broadcastInDim S50000x1 ![0] bcast_S50000_S50000x1_0 : (⟨S50000, .i32⟩ : BufTy).Contents (Elt F) → (⟨S50000x1, .i32⟩ : BufTy).Contents (Elt F)),
    StableHlo.ternary main_v90 main_v91 main_v89 main_v92 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_14 (constant S_ .f32 0x3F800000#32),
    StableHlo.unary main_cst_14 main_v93 (broadcastInDim S50000x1 ![] bcast_S_S50000x1 : (⟨S_, .f32⟩ : BufTy).Contents (Elt F) → (⟨S50000x1, .f32⟩ : BufTy).Contents (Elt F)),
    StableHlo.nullary main_cst_15 (constant S_ .f32 0x00000000#32),
    StableHlo.unary main_cst_15 main_v94 (broadcastInDim S512x1 ![] bcast_S_S512x1 : (⟨S_, .f32⟩ : BufTy).Contents (Elt F) → (⟨S512x1, .f32⟩ : BufTy).Contents (Elt F)),
    StableHlo.unary main_arg2 main_v95 (broadcastInDim S50000x1 ![0] bcast_S50000_S50000x1_0 : (⟨S50000, .i32⟩ : BufTy).Contents (Elt F) → (⟨S50000x1, .i32⟩ : BufTy).Contents (Elt F)),
    StableHlo.ternary main_v94 main_v95 main_v93 main_v96 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    StableHlo.nullary main_cst_16 (constant S_ .f32 0x3F800000#32),
    StableHlo.unary main_cst_16 main_v97 (broadcastInDim S512x1 ![] bcast_S_S512x1 : (⟨S_, .f32⟩ : BufTy).Contents (Elt F) → (⟨S512x1, .f32⟩ : BufTy).Contents (Elt F)),
    StableHlo.binary main_v96 main_v97 main_v98 (maximumf : (⟨S512x1, .f32⟩ : BufTy).Contents (Elt F) → (⟨S512x1, .f32⟩ : BufTy).Contents (Elt F) → (⟨S512x1, .f32⟩ : BufTy).Contents (Elt F)),
    StableHlo.unary main_v98 main_v99 (broadcastInDim S512x64 ![0, 1] bcast_S512x1_S512x64_0_1 : (⟨S512x1, .f32⟩ : BufTy).Contents (Elt F) → (⟨S512x64, .f32⟩ : BufTy).Contents (Elt F)),
    StableHlo.binary main_v92 main_v99 main_v100 (Host.divf : (⟨S512x64, .f32⟩ : BufTy).Contents (Elt F) → (⟨S512x64, .f32⟩ : BufTy).Contents (Elt F) → (⟨S512x64, .f32⟩ : BufTy).Contents (Elt F)) ]

/-- Operations 167 … 180 of @main with its calls laid out: stage `agg1`, in window 2. -/
abbrev c8 : List (HloOp τ sig (Elt F)) :=
  [ StableHlo.nullary main_c_17 (constantI S_ 32 0#32),
    StableHlo.unary main_c_17 main_v101 (broadcastInDim S800000 ![] bcast_S_S800000 : (⟨S_, .i32⟩ : BufTy).Contents (Elt F) → (⟨S800000, .i32⟩ : BufTy).Contents (Elt F)),
    StableHlo.binary main_v1 main_v101 main_v102 (cmpi .slt : (⟨S800000, .i32⟩ : BufTy).Contents (Elt F) → (⟨S800000, .i32⟩ : BufTy).Contents (Elt F) → (⟨S800000, .i1⟩ : BufTy).Contents (Elt F)),
    StableHlo.nullary main_c_18 (constantI S_ 32 50000#32),
    StableHlo.unary main_c_18 main_v103 (broadcastInDim S800000 ![] bcast_S_S800000 : (⟨S_, .i32⟩ : BufTy).Contents (Elt F) → (⟨S800000, .i32⟩ : BufTy).Contents (Elt F)),
    StableHlo.binary main_v1 main_v103 main_v104 (addi : (⟨S800000, .i32⟩ : BufTy).Contents (Elt F) → (⟨S800000, .i32⟩ : BufTy).Contents (Elt F) → (⟨S800000, .i32⟩ : BufTy).Contents (Elt F)),
    StableHlo.ternary main_v102 main_v104 main_v1 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v105 main_v106 (broadcastInDim S800000x1 ![0] bcast_S800000_S800000x1_0 : (⟨S800000, .i32⟩ : BufTy).Contents (Elt F) → (⟨S800000x1, .i32⟩ : BufTy).Contents (Elt F)),
    StableHlo.binary main_v89 main_v106 main_v107 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_19 (constant S_ .f32 0x00000000#32),
    StableHlo.unary main_cst_19 main_v108 (broadcastInDim S50000x64 ![] bcast_S_S50000x64 : (⟨S_, .f32⟩ : BufTy).Contents (Elt F) → (⟨S50000x64, .f32⟩ : BufTy).Contents (Elt F)),
    StableHlo.unary main_v3 main_v109 (broadcastInDim S800000x1 ![0] bcast_S800000_S800000x1_0 : (⟨S800000, .i32⟩ : BufTy).Contents (Elt F) → (⟨S800000x1, .i32⟩ : BufTy).Contents (Elt F)),
    StableHlo.ternary main_v108 main_v109 main_v107 main_v110 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v89 main_v110 main_v111 (addf : (⟨S50000x64, .f32⟩ : BufTy).Contents (Elt F) → (⟨S50000x64, .f32⟩ : BufTy).Contents (Elt F) → (⟨S50000x64, .f32⟩ : BufTy).Contents (Elt F)) ]

/-- Operations 181 … 203 of @main with its calls laid out: stage `mlp2`, in window 2. -/
abbrev c9 : List (HloOp τ sig (Elt F)) :=
  [ StableHlo.unary main_arg7 main_v112 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v112 main_v113 rfl shapeCasts_S1x64x64_S64x64,
    StableHlo.binary main_v111 main_v113 main_v114 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v115 ((extractStridedSlice S1x64 ![1, 0] · slices_S3x64_S1x64_1_0) : (⟨S3x64, .f32⟩ : BufTy).Contents (Elt F) → (⟨S1x64, .f32⟩ : BufTy).Contents (Elt F)),
    StableHlo.reshape main_v115 main_v116 rfl shapeCasts_S1x64_S64,
    StableHlo.unary main_v116 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S50000x64 ![0, 1] bcast_S1x64_S50000x64_0_1 : (⟨S1x64, .f32⟩ : BufTy).Contents (Elt F) → (⟨S50000x64, .f32⟩ : BufTy).Contents (Elt F)),
    StableHlo.binary main_v114 main_v118 main_v119 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (StableHlo.TRef.of (T := ⟨S50000x64, .f32⟩) main_v119) main_call4.v0 main_call4.v1 maximumf,
    StableHlo.unary main_arg9 main_v121 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v121 main_v122 rfl shapeCasts_S1x64x64_S64x64,
    StableHlo.binary main_v120 main_v122 main_v123 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v124 ((extractStridedSlice S1x64 ![1, 0] · slices_S3x64_S1x64_1_0) : (⟨S3x64, .f32⟩ : BufTy).Contents (Elt F) → (⟨S1x64, .f32⟩ : BufTy).Contents (Elt F)),
    StableHlo.reshape main_v124 main_v125 rfl shapeCasts_S1x64_S64,
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S50000x64 ![0, 1] bcast_S1x64_S50000x64_0_1 : (⟨S1x64, .f32⟩ : BufTy).Contents (Elt F) → (⟨S50000x64, .f32⟩ : BufTy).Contents (Elt F)),
    StableHlo.binary main_v123 main_v127 main_v128 (addf : (⟨S50000x64, .f32⟩ : BufTy).Contents (Elt F) → (⟨S50000x64, .f32⟩ : BufTy).Contents (Elt F) → (⟨S50000x64, .f32⟩ : BufTy).Contents (Elt F)),
    StableHlo.unary main_arg11 main_v129 ((extractStridedSlice S1x64 ![1, 0] · slices_S3x64_S1x64_1_0) : (⟨S3x64, .f32⟩ : BufTy).Contents (Elt F) → (⟨S1x64, .f32⟩ : BufTy).Contents (Elt F)),
    StableHlo.reshape main_v129 main_v130 rfl shapeCasts_S1x64_S64,
    StableHlo.unary main_arg12 main_v131 ((extractStridedSlice S1x64 ![1, 0] · slices_S3x64_S1x64_1_0) : (⟨S3x64, .f32⟩ : BufTy).Contents (Elt F) → (⟨S1x64, .f32⟩ : BufTy).Contents (Elt F)),
    StableHlo.reshape main_v131 main_v132 rfl shapeCasts_S1x64_S64 ]

/-- Operations 204 … 250 of @main with its calls laid out: stage `bn2`, in window 2. -/
abbrev c10 : List (HloOp τ sig (Elt F)) :=
  [ StableHlo.nullary main_cst_20 (constant S_ .f32 0x00000000#32),
    StableHlo.binary main_v128 main_cst_20 main_v133 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_21 (constant S_ .f32 0x47435000#32),
    StableHlo.unary main_cst_21 main_v134 (broadcastInDim S64 ![] bcast_S_S64 : (⟨S_, .f32⟩ : BufTy).Contents (Elt F) → (⟨S64, .f32⟩ : BufTy).Contents (Elt F)),
    StableHlo.binary main_v133 main_v134 main_v135 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32),
    StableHlo.TRef.nullary main_call5.cst (constant S_ .f32 0x00000000#32),
    StableHlo.TRef.binary (StableHlo.TRef.of (T := ⟨S50000x64, .f32⟩) main_v128) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (StableHlo.TRef.of (T := ⟨S50000x64, .f32⟩) main_v128) main_call5.v4 main_call5.v5 subf,
    StableHlo.TRef.binary main_call5.v5 main_call5.v5 main_call5.v6 mulf,
    StableHlo.TRef.unary (StableHlo.TRef.of (T := ⟨S_, .i32⟩) main_c_22) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5_call0.v0 id,
    StableHlo.TRef.unary main_call5_call0.v0 main_call5_call0.v1 (broadcastInDim S64 ![] bcast_S_S64),
    StableHlo.TRef.ternary main_call5.v12 main_call5.v11 main_call5_call0.v1 main_call5_call0.v2 (fun p a b => select (broadcastInDim S64 ![] bcast_S_S64 p) a b),
    StableHlo.unary main_v135 main_v137 (broadcastInDim S1x64 ![1] bcast_S64_S1x64_1 : (⟨S64, .f32⟩ : BufTy).Contents (Elt F) → (⟨S1x64, .f32⟩ : BufTy).Contents (Elt F)),
    StableHlo.unary main_v137 main_v138 (broadcastInDim S50000x64 ![0, 1] bcast_S1x64_S50000x64_0_1 : (⟨S1x64, .f32⟩ : BufTy).Contents (Elt F) → (⟨S50000x64, .f32⟩ : BufTy).Contents (Elt F)),
    StableHlo.binary main_v128 main_v138 main_v139 (subf : (⟨S50000x64, .f32⟩ : BufTy).Contents (Elt F) → (⟨S50000x64, .f32⟩ : BufTy).Contents (Elt F) → (⟨S50000x64, .f32⟩ : BufTy).Contents (Elt F)),
    StableHlo.nullary main_cst_23 (constant S_ .f32 0x3727C5AC#32),
    StableHlo.unary main_cst_23 main_v140 (broadcastInDim S64 ![] bcast_S_S64 : (⟨S_, .f32⟩ : BufTy).Contents (Elt F) → (⟨S64, .f32⟩ : BufTy).Contents (Elt F)),
    StableHlo.binary main_v136 main_v140 main_v141 (addf : (⟨S64, .f32⟩ : BufTy).Contents (Elt F) → (⟨S64, .f32⟩ : BufTy).Contents (Elt F) → (⟨S64, .f32⟩ : BufTy).Contents (Elt F)),
    StableHlo.unary main_v141 main_v142 (Host.rsqrt : (⟨S64, .f32⟩ : BufTy).Contents (Elt F) → (⟨S64, .f32⟩ : BufTy).Contents (Elt F)),
    StableHlo.unary main_v142 main_v143 (broadcastInDim S1x64 ![1] bcast_S64_S1x64_1 : (⟨S64, .f32⟩ : BufTy).Contents (Elt F) → (⟨S1x64, .f32⟩ : BufTy).Contents (Elt F)),
    StableHlo.unary main_v143 main_v144 (broadcastInDim S50000x64 ![0, 1] bcast_S1x64_S50000x64_0_1 : (⟨S1x64, .f32⟩ : BufTy).Contents (Elt F) → (⟨S50000x64, .f32⟩ : BufTy).Contents (Elt F)),
    StableHlo.binary main_v139 main_v144 main_v145 (mulf : (⟨S50000x64, .f32⟩ : BufTy).Contents (Elt F) → (⟨S50000x64, .f32⟩ : BufTy).Contents (Elt F) → (⟨S50000x64, .f32⟩ : BufTy).Contents (Elt F)),
    StableHlo.unary main_v130 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S50000x64 ![0, 1] bcast_S1x64_S50000x64_0_1 : (⟨S1x64, .f32⟩ : BufTy).Contents (Elt F) → (⟨S50000x64, .f32⟩ : BufTy).Contents (Elt F)),
    StableHlo.binary main_v145 main_v147 main_v148 (mulf : (⟨S50000x64, .f32⟩ : BufTy).Contents (Elt F) → (⟨S50000x64, .f32⟩ : BufTy).Contents (Elt F) → (⟨S50000x64, .f32⟩ : BufTy).Contents (Elt F)),
    StableHlo.unary main_v132 main_v149 (broadcastInDim S1x64 ![1] bcast_S64_S1x64_1 : (⟨S64, .f32⟩ : BufTy).Contents (Elt F) → (⟨S1x64, .f32⟩ : BufTy).Contents (Elt F)),
    StableHlo.unary main_v149 main_v150 (broadcastInDim S50000x64 ![0, 1] bcast_S1x64_S50000x64_0_1 : (⟨S1x64, .f32⟩ : BufTy).Contents (Elt F) → (⟨S50000x64, .f32⟩ : BufTy).Contents (Elt F)),
    StableHlo.binary main_v148 main_v150 main_v151 (addf : (⟨S50000x64, .f32⟩ : BufTy).Contents (Elt F) → (⟨S50000x64, .f32⟩ : BufTy).Contents (Elt F) → (⟨S50000x64, .f32⟩ : BufTy).Contents (Elt F)),
    StableHlo.TRef.nullary main_call6.cst (constant S_ .f32 0x00000000#32),
    StableHlo.TRef.unary main_call6.cst main_call6.v0 (broadcastInDim S50000x64 ![] bcast_S_S50000x64),
    StableHlo.TRef.binary (StableHlo.TRef.of (T := ⟨S50000x64, .f32⟩) main_v151) main_call6.v0 main_call6.v1 maximumf ]

/-- Operations 251 … 251 of @main with its calls laid out: stage `pool2`, in window 2. -/
abbrev c11 : List (HloOp τ sig (Elt F)) :=
  [ StableHlo.nullary main_cst_24 (constant S_ .f32 0x00000000#32) ]

/-- Operations 252 … 265 of @main with its calls laid out: stage `pool2`, in window 3. -/
abbrev c12 : List (HloOp τ sig (Elt F)) :=
  [ StableHlo.unary main_cst_24 main_v153 (broadcastInDim S512x64 ![] bcast_S_S512x64 : (⟨S_, .f32⟩ : BufTy).Contents (Elt F) → (⟨S512x64, .f32⟩ : BufTy).Contents (Elt F)),
    StableHlo.unary main_arg2 main_v154 (broadcastInDim S50000x1 ![0] bcast_S50000_S50000x1_0 : (⟨S50000, .i32⟩ : BufTy).Contents (Elt F) → (⟨S50000x1, .i32⟩ : BufTy).Contents (Elt F)),
    StableHlo.ternary main_v153 main_v154 main_v152 main_v155 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_25 (constant S_ .f32 0x3F800000#32),
    StableHlo.unary main_cst_25 main_v156 (broadcastInDim S50000x1 ![] bcast_S_S50000x1 : (⟨S_, .f32⟩ : BufTy).Contents (Elt F) → (⟨S50000x1, .f32⟩ : BufTy).Contents (Elt F)),
    StableHlo.nullary main_cst_26 (constant S_ .f32 0x00000000#32),
    StableHlo.unary main_cst_26 main_v157 (broadcastInDim S512x1 ![] bcast_S_S512x1 : (⟨S_, .f32⟩ : BufTy).Contents (Elt F) → (⟨S512x1, .f32⟩ : BufTy).Contents (Elt F)),
    StableHlo.unary main_arg2 main_v158 (broadcastInDim S50000x1 ![0] bcast_S50000_S50000x1_0 : (⟨S50000, .i32⟩ : BufTy).Contents (Elt F) → (⟨S50000x1, .i32⟩ : BufTy).Contents (Elt F)),
    StableHlo.ternary main_v157 main_v158 main_v156 main_v159 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    StableHlo.nullary main_cst_27 (constant S_ .f32 0x3F800000#32),
    StableHlo.unary main_cst_27 main_v160 (broadcastInDim S512x1 ![] bcast_S_S512x1 : (⟨S_, .f32⟩ : BufTy).Contents (Elt F) → (⟨S512x1, .f32⟩ : BufTy).Contents (Elt F)),
    StableHlo.binary main_v159 main_v160 main_v161 (maximumf : (⟨S512x1, .f32⟩ : BufTy).Contents (Elt F) → (⟨S512x1, .f32⟩ : BufTy).Contents (Elt F) → (⟨S512x1, .f32⟩ : BufTy).Contents (Elt F)),
    StableHlo.unary main_v161 main_v162 (broadcastInDim S512x64 ![0, 1] bcast_S512x1_S512x64_0_1 : (⟨S512x1, .f32⟩ : BufTy).Contents (Elt F) → (⟨S512x64, .f32⟩ : BufTy).Contents (Elt F)),
    StableHlo.binary main_v155 main_v162 main_v163 (Host.divf : (⟨S512x64, .f32⟩ : BufTy).Contents (Elt F) → (⟨S512x64, .f32⟩ : BufTy).Contents (Elt F) → (⟨S512x64, .f32⟩ : BufTy).Contents (Elt F)) ]

/-- Operations 266 … 279 of @main with its calls laid out: stage `agg2`, in window 3. -/
abbrev c13 : List (HloOp τ sig (Elt F)) :=
  [ StableHlo.nullary main_c_28 (constantI S_ 32 0#32),
    StableHlo.unary main_c_28 main_v164 (broadcastInDim S800000 ![] bcast_S_S800000 : (⟨S_, .i32⟩ : BufTy).Contents (Elt F) → (⟨S800000, .i32⟩ : BufTy).Contents (Elt F)),
    StableHlo.binary main_v1 main_v164 main_v165 (cmpi .slt : (⟨S800000, .i32⟩ : BufTy).Contents (Elt F) → (⟨S800000, .i32⟩ : BufTy).Contents (Elt F) → (⟨S800000, .i1⟩ : BufTy).Contents (Elt F)),
    StableHlo.nullary main_c_29 (constantI S_ 32 50000#32),
    StableHlo.unary main_c_29 main_v166 (broadcastInDim S800000 ![] bcast_S_S800000 : (⟨S_, .i32⟩ : BufTy).Contents (Elt F) → (⟨S800000, .i32⟩ : BufTy).Contents (Elt F)),
    StableHlo.binary main_v1 main_v166 main_v167 (addi : (⟨S800000, .i32⟩ : BufTy).Contents (Elt F) → (⟨S800000, .i32⟩ : BufTy).Contents (Elt F) → (⟨S800000, .i32⟩ : BufTy).Contents (Elt F)),
    StableHlo.ternary main_v165 main_v167 main_v1 main_v168 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v168 main_v169 (broadcastInDim S800000x1 ![0] bcast_S800000_S800000x1_0 : (⟨S800000, .i32⟩ : BufTy).Contents (Elt F) → (⟨S800000x1, .i32⟩ : BufTy).Contents (Elt F)),
    StableHlo.binary main_v152 main_v169 main_v170 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_30 (constant S_ .f32 0x00000000#32),
    StableHlo.unary main_cst_30 main_v171 (broadcastInDim S50000x64 ![] bcast_S_S50000x64 : (⟨S_, .f32⟩ : BufTy).Contents (Elt F) → (⟨S50000x64, .f32⟩ : BufTy).Contents (Elt F)),
    StableHlo.unary main_v3 main_v172 (broadcastInDim S800000x1 ![0] bcast_S800000_S800000x1_0 : (⟨S800000, .i32⟩ : BufTy).Contents (Elt F) → (⟨S800000x1, .i32⟩ : BufTy).Contents (Elt F)),
    StableHlo.ternary main_v171 main_v172 main_v170 main_v173 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v152 main_v173 main_v174 (addf : (⟨S50000x64, .f32⟩ : BufTy).Contents (Elt F) → (⟨S50000x64, .f32⟩ : BufTy).Contents (Elt F) → (⟨S50000x64, .f32⟩ : BufTy).Contents (Elt F)) ]

/-- Operations 280 … 302 of @main with its calls laid out: stage `mlp3`, in window 3. -/
abbrev c14 : List (HloOp τ sig (Elt F)) :=
  [ StableHlo.unary main_arg7 main_v175 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v175 main_v176 rfl shapeCasts_S1x64x64_S64x64,
    StableHlo.binary main_v174 main_v176 main_v177 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg8 main_v178 ((extractStridedSlice S1x64 ![2, 0] · slices_S3x64_S1x64_2_0) : (⟨S3x64, .f32⟩ : BufTy).Contents (Elt F) → (⟨S1x64, .f32⟩ : BufTy).Contents (Elt F)),
    StableHlo.reshape main_v178 main_v179 rfl shapeCasts_S1x64_S64,
    StableHlo.unary main_v179 main_v180 (broadcastInDim S1x64 ![1] bcast_S64_S1x64_1 : (⟨S64, .f32⟩ : BufTy).Contents (Elt F) → (⟨S1x64, .f32⟩ : BufTy).Contents (Elt F)),
    StableHlo.unary main_v180 main_v181 (broadcastInDim S50000x64 ![0, 1] bcast_S1x64_S50000x64_0_1 : (⟨S1x64, .f32⟩ : BufTy).Contents (Elt F) → (⟨S50000x64, .f32⟩ : BufTy).Contents (Elt F)),
    StableHlo.binary main_v177 main_v181 main_v182 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (StableHlo.TRef.of (T := ⟨S50000x64, .f32⟩) main_v182) main_call7.v0 main_call7.v1 maximumf,
    StableHlo.unary main_arg9 main_v184 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v184 main_v185 rfl shapeCasts_S1x64x64_S64x64,
    StableHlo.binary main_v183 main_v185 main_v186 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v187 ((extractStridedSlice S1x64 ![2, 0] · slices_S3x64_S1x64_2_0) : (⟨S3x64, .f32⟩ : BufTy).Contents (Elt F) → (⟨S1x64, .f32⟩ : BufTy).Contents (Elt F)),
    StableHlo.reshape main_v187 main_v188 rfl shapeCasts_S1x64_S64,
    StableHlo.unary main_v188 main_v189 (broadcastInDim S1x64 ![1] bcast_S64_S1x64_1 : (⟨S64, .f32⟩ : BufTy).Contents (Elt F) → (⟨S1x64, .f32⟩ : BufTy).Contents (Elt F)),
    StableHlo.unary main_v189 main_v190 (broadcastInDim S50000x64 ![0, 1] bcast_S1x64_S50000x64_0_1 : (⟨S1x64, .f32⟩ : BufTy).Contents (Elt F) → (⟨S50000x64, .f32⟩ : BufTy).Contents (Elt F)),
    StableHlo.binary main_v186 main_v190 main_v191 (addf : (⟨S50000x64, .f32⟩ : BufTy).Contents (Elt F) → (⟨S50000x64, .f32⟩ : BufTy).Contents (Elt F) → (⟨S50000x64, .f32⟩ : BufTy).Contents (Elt F)),
    StableHlo.unary main_arg11 main_v192 ((extractStridedSlice S1x64 ![2, 0] · slices_S3x64_S1x64_2_0) : (⟨S3x64, .f32⟩ : BufTy).Contents (Elt F) → (⟨S1x64, .f32⟩ : BufTy).Contents (Elt F)),
    StableHlo.reshape main_v192 main_v193 rfl shapeCasts_S1x64_S64,
    StableHlo.unary main_arg12 main_v194 ((extractStridedSlice S1x64 ![2, 0] · slices_S3x64_S1x64_2_0) : (⟨S3x64, .f32⟩ : BufTy).Contents (Elt F) → (⟨S1x64, .f32⟩ : BufTy).Contents (Elt F)),
    StableHlo.reshape main_v194 main_v195 rfl shapeCasts_S1x64_S64 ]

/-- Operations 303 … 334 of @main with its calls laid out: stage `bn3`, in window 3. -/
abbrev c15 : List (HloOp τ sig (Elt F)) :=
  [ StableHlo.nullary main_cst_31 (constant S_ .f32 0x00000000#32),
    StableHlo.binary main_v191 main_cst_31 main_v196 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_32 (constant S_ .f32 0x47435000#32),
    StableHlo.unary main_cst_32 main_v197 (broadcastInDim S64 ![] bcast_S_S64 : (⟨S_, .f32⟩ : BufTy).Contents (Elt F) → (⟨S64, .f32⟩ : BufTy).Contents (Elt F)),
    StableHlo.binary main_v196 main_v197 main_v198 (Host.divf : (⟨S64, .f32⟩ : BufTy).Contents (Elt F) → (⟨S64, .f32⟩ : BufTy).Contents (Elt F) → (⟨S64, .f32⟩ : BufTy).Contents (Elt F)),
    StableHlo.nullary main_c_33 (constantI S_ 32 0#32),
    StableHlo.TRef.nullary main_call8.cst (constant S_ .f32 0x00000000#32),
    StableHlo.TRef.binary (StableHlo.TRef.of (T := ⟨S50000x64, .f32⟩) main_v191) main_call8.cst main_call8.v0 (fun x v => Host.reduceAdd x v reducesTo_S50000x64_S64_d0 h_S_),
    StableHlo.TRef.unary main_call8.v0 main_call8.v1 (broadcastInDim S1x64 ![1] bcast_S64_S1x64_1),
    StableHlo.TRef.nullary main_call8.cst_0 (constant S_ .f32 0x47435000#32),
    StableHlo.TRef.unary main_call8.cst_0 main_call8.v2 (broadcastInDim S1x64 ![] bcast_S_S1x64),
    StableHlo.TRef.binary main_call8.v1 main_call8.v2 main_call8.v3 Host.divf,
    StableHlo.TRef.unary main_call8.v3 main_call8.v4 (broadcastInDim S50000x64 ![0, 1] bcast_S1x64_S50000x64_0_1),
    StableHlo.TRef.binary (StableHlo.TRef.of (T := ⟨S50000x64, .f32⟩) main_v191) main_call8.v4 main_call8.v5 subf,
    StableHlo.TRef.binary main_call8.v5 main_call8.v5 main_call8.v6 mulf,
    StableHlo.TRef.unary (StableHlo.TRef.of (T := ⟨S_, .i32⟩) main_c_33) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x64_S64_d0 h_S_),
    StableHlo.TRef.unary main_call8.v8 main_call8.v10 (broadcastInDim S64 ![] bcast_S_S64),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8_call0.v0 id,
    StableHlo.TRef.unary main_call8_call0.v0 main_call8_call0.v1 (broadcastInDim S64 ![] bcast_S_S64),
    StableHlo.TRef.ternary main_call8.v12 main_call8.v11 main_call8_call0.v1 main_call8_call0.v2 (fun p a b => select (broadcastInDim S64 ![] bcast_S_S64 p) a b),
    StableHlo.unary main_v198 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S50000x64 ![0, 1] bcast_S1x64_S50000x64_0_1 : (⟨S1x64, .f32⟩ : BufTy).Contents (Elt F) → (⟨S50000x64, .f32⟩ : BufTy).Contents (Elt F)),
    StableHlo.binary main_v191 main_v201 main_v202 (subf : (⟨S50000x64, .f32⟩ : BufTy).Contents (Elt F) → (⟨S50000x64, .f32⟩ : BufTy).Contents (Elt F) → (⟨S50000x64, .f32⟩ : BufTy).Contents (Elt F)),
    StableHlo.nullary main_cst_34 (constant S_ .f32 0x3727C5AC#32) ]

/-- Operations 335 … 349 of @main with its calls laid out: stage `bn3`, in window 4. -/
abbrev c16 : List (HloOp τ sig (Elt F)) :=
  [ StableHlo.unary main_cst_34 main_v203 (broadcastInDim S64 ![] bcast_S_S64 : (⟨S_, .f32⟩ : BufTy).Contents (Elt F) → (⟨S64, .f32⟩ : BufTy).Contents (Elt F)),
    StableHlo.binary main_v199 main_v203 main_v204 (addf : (⟨S64, .f32⟩ : BufTy).Contents (Elt F) → (⟨S64, .f32⟩ : BufTy).Contents (Elt F) → (⟨S64, .f32⟩ : BufTy).Contents (Elt F)),
    StableHlo.unary main_v204 main_v205 (Host.rsqrt : (⟨S64, .f32⟩ : BufTy).Contents (Elt F) → (⟨S64, .f32⟩ : BufTy).Contents (Elt F)),
    StableHlo.unary main_v205 main_v206 (broadcastInDim S1x64 ![1] bcast_S64_S1x64_1 : (⟨S64, .f32⟩ : BufTy).Contents (Elt F) → (⟨S1x64, .f32⟩ : BufTy).Contents (Elt F)),
    StableHlo.unary main_v206 main_v207 (broadcastInDim S50000x64 ![0, 1] bcast_S1x64_S50000x64_0_1 : (⟨S1x64, .f32⟩ : BufTy).Contents (Elt F) → (⟨S50000x64, .f32⟩ : BufTy).Contents (Elt F)),
    StableHlo.binary main_v202 main_v207 main_v208 (mulf : (⟨S50000x64, .f32⟩ : BufTy).Contents (Elt F) → (⟨S50000x64, .f32⟩ : BufTy).Contents (Elt F) → (⟨S50000x64, .f32⟩ : BufTy).Contents (Elt F)),
    StableHlo.unary main_v193 main_v209 (broadcastInDim S1x64 ![1] bcast_S64_S1x64_1 : (⟨S64, .f32⟩ : BufTy).Contents (Elt F) → (⟨S1x64, .f32⟩ : BufTy).Contents (Elt F)),
    StableHlo.unary main_v209 main_v210 (broadcastInDim S50000x64 ![0, 1] bcast_S1x64_S50000x64_0_1 : (⟨S1x64, .f32⟩ : BufTy).Contents (Elt F) → (⟨S50000x64, .f32⟩ : BufTy).Contents (Elt F)),
    StableHlo.binary main_v208 main_v210 main_v211 (mulf : (⟨S50000x64, .f32⟩ : BufTy).Contents (Elt F) → (⟨S50000x64, .f32⟩ : BufTy).Contents (Elt F) → (⟨S50000x64, .f32⟩ : BufTy).Contents (Elt F)),
    StableHlo.unary main_v195 main_v212 (broadcastInDim S1x64 ![1] bcast_S64_S1x64_1 : (⟨S64, .f32⟩ : BufTy).Contents (Elt F) → (⟨S1x64, .f32⟩ : BufTy).Contents (Elt F)),
    StableHlo.unary main_v212 main_v213 (broadcastInDim S50000x64 ![0, 1] bcast_S1x64_S50000x64_0_1 : (⟨S1x64, .f32⟩ : BufTy).Contents (Elt F) → (⟨S50000x64, .f32⟩ : BufTy).Contents (Elt F)),
    StableHlo.binary main_v211 main_v213 main_v214 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (StableHlo.TRef.of (T := ⟨S50000x64, .f32⟩) main_v214) main_call9.v0 main_call9.v1 maximumf ]

/-- Operations 350 … 364 of @main with its calls laid out: stage `pool3`, in window 4. -/
abbrev c17 : List (HloOp τ sig (Elt F)) :=
  [ StableHlo.nullary main_cst_35 (constant S_ .f32 0x00000000#32),
    StableHlo.unary main_cst_35 main_v216 (broadcastInDim S512x64 ![] bcast_S_S512x64 : (⟨S_, .f32⟩ : BufTy).Contents (Elt F) → (⟨S512x64, .f32⟩ : BufTy).Contents (Elt F)),
    StableHlo.unary main_arg2 main_v217 (broadcastInDim S50000x1 ![0] bcast_S50000_S50000x1_0 : (⟨S50000, .i32⟩ : BufTy).Contents (Elt F) → (⟨S50000x1, .i32⟩ : BufTy).Contents (Elt F)),
    StableHlo.ternary main_v216 main_v217 main_v215 main_v218 ((fun x i u => Host.scatterAdd scatter_S512x64_S50000x1_S50000x64_1_0_0_1 x i u) : (⟨S512x64, .f32⟩ : BufTy).Contents (Elt F) → (⟨S50000x1, .i32⟩ : BufTy).Contents (Elt F) → (⟨S50000x64, .f32⟩ : BufTy).Contents (Elt F) → (⟨S512x64, .f32⟩ : BufTy).Contents (Elt F)),
    StableHlo.nullary main_cst_36 (constant S_ .f32 0x3F800000#32),
    StableHlo.unary main_cst_36 main_v219 (broadcastInDim S50000x1 ![] bcast_S_S50000x1 : (⟨S_, .f32⟩ : BufTy).Contents (Elt F) → (⟨S50000x1, .f32⟩ : BufTy).Contents (Elt F)),
    StableHlo.nullary main_cst_37 (constant S_ .f32 0x00000000#32),
    StableHlo.unary main_cst_37 main_v220 (broadcastInDim S512x1 ![] bcast_S_S512x1 : (⟨S_, .f32⟩ : BufTy).Contents (Elt F) → (⟨S512x1, .f32⟩ : BufTy).Contents (Elt F)),
    StableHlo.unary main_arg2 main_v221 (broadcastInDim S50000x1 ![0] bcast_S50000_S50000x1_0 : (⟨S50000, .i32⟩ : BufTy).Contents (Elt F) → (⟨S50000x1, .i32⟩ : BufTy).Contents (Elt F)),
    StableHlo.ternary main_v220 main_v221 main_v219 main_v222 ((fun x i u => Host.scatterAdd scatter_S512x1_S50000x1_S50000x1_1_0_0_1 x i u) : (⟨S512x1, .f32⟩ : BufTy).Contents (Elt F) → (⟨S50000x1, .i32⟩ : BufTy).Contents (Elt F) → (⟨S50000x1, .f32⟩ : BufTy).Contents (Elt F) → (⟨S512x1, .f32⟩ : BufTy).Contents (Elt F)),
    StableHlo.nullary main_cst_38 (constant S_ .f32 0x3F800000#32),
    StableHlo.unary main_cst_38 main_v223 (broadcastInDim S512x1 ![] bcast_S_S512x1 : (⟨S_, .f32⟩ : BufTy).Contents (Elt F) → (⟨S512x1, .f32⟩ : BufTy).Contents (Elt F)),
    StableHlo.binary main_v222 main_v223 main_v224 (maximumf : (⟨S512x1, .f32⟩ : BufTy).Contents (Elt F) → (⟨S512x1, .f32⟩ : BufTy).Contents (Elt F) → (⟨S512x1, .f32⟩ : BufTy).Contents (Elt F)),
    StableHlo.unary main_v224 main_v225 (broadcastInDim S512x64 ![0, 1] bcast_S512x1_S512x64_0_1 : (⟨S512x1, .f32⟩ : BufTy).Contents (Elt F) → (⟨S512x64, .f32⟩ : BufTy).Contents (Elt F)),
    StableHlo.binary main_v218 main_v225 main_v226 (Host.divf : (⟨S512x64, .f32⟩ : BufTy).Contents (Elt F) → (⟨S512x64, .f32⟩ : BufTy).Contents (Elt F) → (⟨S512x64, .f32⟩ : BufTy).Contents (Elt F)) ]

/-- Operations 365 … 369 of @main with its calls laid out: stage `stack`, in window 4. -/
abbrev c18 : List (HloOp τ sig (Elt F)) :=
  [ StableHlo.unary main_v37 main_v227 (broadcastInDim S1x512x64 ![1, 2] bcast_S512x64_S1x512x64_1_2 : (⟨S512x64, .f32⟩ : BufTy).Contents (Elt F) → (⟨S1x512x64, .f32⟩ : BufTy).Contents (Elt F)),
    StableHlo.unary main_v100 main_v228 (broadcastInDim S1x512x64 ![1, 2] bcast_S512x64_S1x512x64_1_2 : (⟨S512x64, .f32⟩ : BufTy).Contents (Elt F) → (⟨S1x512x64, .f32⟩ : BufTy).Contents (Elt F)),
    StableHlo.unary main_v163 main_v229 (broadcastInDim S1x512x64 ![1, 2] bcast_S512x64_S1x512x64_1_2 : (⟨S512x64, .f32⟩ : BufTy).Contents (Elt F) → (⟨S1x512x64, .f32⟩ : BufTy).Contents (Elt F)),
    StableHlo.unary main_v226 main_v230 (broadcastInDim S1x512x64 ![1, 2] bcast_S512x64_S1x512x64_1_2 : (⟨S512x64, .f32⟩ : BufTy).Contents (Elt F) → (⟨S1x512x64, .f32⟩ : BufTy).Contents (Elt F)),
    StableHlo.nary ![main_v227, main_v228, main_v229, main_v230] main_v231 (fun u => concatenate S4x512x64 0 [⟨S1x512x64, u 0⟩, ⟨S1x512x64, u 1⟩, ⟨S1x512x64, u 2⟩, ⟨S1x512x64, u 3⟩] concatenates_S1x512x64_S1x512x64_S1x512x64_S1x512x64_S4x512x64_d0) ]

/-- Window 0 of @main as its stages' lists. -/
abbrev w0 : List (HloOp τ sig (Elt F)) := c0 ++ (c1 ++ (c2 ++ (c3 ++ (c4))))
/-- Window 1 of @main as its stages' lists. -/
abbrev w1 : List (HloOp τ sig (Elt F)) := c5 ++ (c6 ++ (c7))
/-- Window 2 of @main as its stages' lists. -/
abbrev w2 : List (HloOp τ sig (Elt F)) := c8 ++ (c9 ++ (c10 ++ (c11)))
/-- Window 3 of @main as its stages' lists. -/
abbrev w3 : List (HloOp τ sig (Elt F)) := c12 ++ (c13 ++ (c14 ++ (c15)))
/-- Window 4 of @main as its stages' lists. -/
abbrev w4 : List (HloOp τ sig (Elt F)) := c16 ++ (c17 ++ (c18))

/-- @main's operations, in order. -/
abbrev ops : List (HloOp τ sig (Elt F)) := w0 ++ (w1 ++ (w2 ++ (w3 ++ (w4))))

/-- The buffers stage `edges` writes. -/
abbrev W_edges : List (Ref sig .tc) := [main_v0, main_v1, main_v2, main_v3]
/-- The buffers stage `lin` writes. -/
abbrev W_lin : List (Ref sig .tc) := [main_v4, main_v5, main_v6, main_v7]
/-- The buffers stage `bn0` writes. -/
abbrev W_bn0 : List (Ref sig .tc) := [main_cst, main_v8, main_cst_0, main_v9, main_v10, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v11, main_v12, main_v13, main_v14, main_cst_1, main_v15, main_v16, main_v17, main_v18, main_v19, main_v20, main_v21, main_v22, main_v23, main_v24, main_v25, main_v26]
/-- The buffers stage `pool0` writes. -/
abbrev W_pool0 : List (Ref sig .tc) := [main_cst_2, main_v27, main_v28, main_v29, main_cst_3, main_v30, main_cst_4, main_v31, main_v32, main_v33, main_cst_5, main_v34, main_v35, main_v36, main_v37]
/-- The buffers stage `agg0` writes. -/
abbrev W_agg0 : List (Ref sig .tc) := [main_c_6, main_v38, main_v39, main_c_7, main_v40, main_v41, main_v42, main_v43, main_v44, main_cst_8, main_v45, main_v46, main_v47, main_v48]
/-- The buffers stage `mlp1` writes. -/
abbrev W_mlp1 : List (Ref sig .tc) := [main_v49, main_v50, main_v51, main_v52, main_v53, main_v54, main_v55, main_v56, main_call1_cst, main_call1_v0, main_v57, main_v58, main_v59, main_v60, main_v61, main_v62, main_v63, main_v64, main_v65, main_v66, main_v67, main_v68, main_v69]
/-- The buffers stage `bn1` writes. -/
abbrev W_bn1 : List (Ref sig .tc) := [main_cst_9, main_v70, main_cst_10, main_v71, main_v72, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v73, main_v74, main_v75, main_v76, main_cst_12, main_v77, main_v78, main_v79, main_v80, main_v81, main_v82, main_v83, main_v84, main_v85, main_v86, main_v87, main_v88, main_call3_cst, main_call3_v0, main_v89]
/-- The buffers stage `pool1` writes. -/
abbrev W_pool1 : List (Ref sig .tc) := [main_cst_13, main_v90, main_v91, main_v92, main_cst_14, main_v93, main_cst_15, main_v94, main_v95, main_v96, main_cst_16, main_v97, main_v98, main_v99, main_v100]
/-- The buffers stage `agg1` writes. -/
abbrev W_agg1 : List (Ref sig .tc) := [main_c_17, main_v101, main_v102, main_c_18, main_v103, main_v104, main_v105, main_v106, main_v107, main_cst_19, main_v108, main_v109, main_v110, main_v111]
/-- The buffers stage `mlp2` writes. -/
abbrev W_mlp2 : List (Ref sig .tc) := [main_v112, main_v113, main_v114, main_v115, main_v116, main_v117, main_v118, main_v119, main_call4_cst, main_call4_v0, main_v120, main_v121, main_v122, main_v123, main_v124, main_v125, main_v126, main_v127, main_v128, main_v129, main_v130, main_v131, main_v132]
/-- The buffers stage `bn2` writes. -/
abbrev W_bn2 : List (Ref sig .tc) := [main_cst_20, main_v133, main_cst_21, main_v134, main_v135, main_c_22, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v136, main_v137, main_v138, main_v139, main_cst_23, main_v140, main_v141, main_v142, main_v143, main_v144, main_v145, main_v146, main_v147, main_v148, main_v149, main_v150, main_v151, main_call6_cst, main_call6_v0, main_v152]
/-- The buffers stage `pool2` writes. -/
abbrev W_pool2 : List (Ref sig .tc) := [main_cst_24, main_v153, main_v154, main_v155, main_cst_25, main_v156, main_cst_26, main_v157, main_v158, main_v159, main_cst_27, main_v160, main_v161, main_v162, main_v163]
/-- The buffers stage `agg2` writes. -/
abbrev W_agg2 : List (Ref sig .tc) := [main_c_28, main_v164, main_v165, main_c_29, main_v166, main_v167, main_v168, main_v169, main_v170, main_cst_30, main_v171, main_v172, main_v173, main_v174]
/-- The buffers stage `mlp3` writes. -/
abbrev W_mlp3 : List (Ref sig .tc) := [main_v175, main_v176, main_v177, main_v178, main_v179, main_v180, main_v181, main_v182, main_call7_cst, main_call7_v0, main_v183, main_v184, main_v185, main_v186, main_v187, main_v188, main_v189, main_v190, main_v191, main_v192, main_v193, main_v194, main_v195]
/-- The buffers stage `bn3` writes. -/
abbrev W_bn3 : List (Ref sig .tc) := [main_cst_31, main_v196, main_cst_32, main_v197, main_v198, main_c_33, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v199, main_v200, main_v201, main_v202, main_cst_34, main_v203, main_v204, main_v205, main_v206, main_v207, main_v208, main_v209, main_v210, main_v211, main_v212, main_v213, main_v214, main_call9_cst, main_call9_v0, main_v215]
/-- The buffers stage `pool3` writes. -/
abbrev W_pool3 : List (Ref sig .tc) := [main_cst_35, main_v216, main_v217, main_v218, main_cst_36, main_v219, main_cst_37, main_v220, main_v221, main_v222, main_cst_38, main_v223, main_v224, main_v225, main_v226]
/-- The buffers stage `stack` writes. -/
abbrev W_stack : List (Ref sig .tc) := [main_v227, main_v228, main_v229, main_v230, main_v231]

end Cert.ReferenceIdeal.Hand

end
-- ==== Proof.Ref.Run.lean ====
import proofs.«421327_j56599079026905_1_alg».proof.ReferenceIdeal
import proofs.«421327_j56599079026905_1_alg».proof.Proof.Gen.ReferenceIdeal
import proofs.«421327_j56599079026905_1_alg».proof.Proof.Spec
import proofs.«421327_j56599079026905_1_alg».proof.Proof.Ref.Ops
import Idealize.ShloMosaic.Lib.StableHlo.Run
import Idealize.ShloMosaic.Adequacy
import Idealize.ShloMosaic.Init

noncomputable section

namespace Cert.ReferenceIdeal.Hand

open Cert.ReferenceIdeal Cert.ReferenceIdeal.Facts₀ Idealize.ShloMosaic Idealize.SL.Sem Idealize.ShloMosaic.StableHlo

variable {F : FTy → Type} [FloatOps F] [Cert.ReferenceIdeal.Facts]

set_option maxRecDepth 8192 in
theorem main_part0_eq (c : Dev nD) : main_part0 (F := F) c = seq w0 := rfl
set_option maxRecDepth 8192 in
theorem main_part1_eq (c : Dev nD) : main_part1 (F := F) c = seq w1 := rfl
set_option maxRecDepth 8192 in
theorem main_part2_eq (c : Dev nD) : main_part2 (F := F) c = seq w2 := rfl
set_option maxRecDepth 8192 in
theorem main_part3_eq (c : Dev nD) : main_part3 (F := F) c = seq w3 := rfl
set_option maxRecDepth 8192 in
theorem main_part4_eq (c : Dev nD) : main_part4 (F := F) c = seq w4 := rfl

theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem writes_of_mem {y : Ref sig .tc} {W : List (Ref sig .tc)} (h : y ∈ W) :
    ({Proc.devRef (τ := τ) .tc y} : Finset (DevRef τ sig)) ⊆ (W.map (Proc.devRef (τ := τ) .tc)).toFinset := by
  rw [Finset.singleton_subset_iff, List.mem_toFinset]; exact List.mem_map_of_mem h

macro "each_op " t:tactic : tactic => `(tactic| (simp only [List.Forall]; repeat' (first | apply And.intro | ($t:tactic))))

macro "bufs_sub" : tactic => `(tactic| simp only [List.Forall, nullary_bufs_sub, unary_bufs_sub, binary_bufs_sub, ternary_bufs_sub,
    reshape_bufs_sub, nary_bufs_sub, and_self])

theorem ops_sub : (ops : List (HloOp τ sig (Elt F))).Forall fun op => op.bufs ⊆ tcRefs τ sig := by
  simp only [ops, w0, w1, w2, w3, w4, List.forall_append]; bufs_sub

theorem ops_fresh : (ops : List (HloOp τ sig (Elt F))).Forall fun op => op.fresh = ∅ := by
  simp only [ops, w0, w1, w2, w3, w4, List.forall_append]; each_op rfl

macro "writes_in" : tactic => `(tactic| each_op (exact writes_of_mem (by decide)))

theorem c0_writes : (c0 : List (HloOp τ sig (Elt F))).Forall fun op => op.writes ⊆ (W_edges.map (Proc.devRef (τ := τ) .tc)).toFinset := by writes_in
theorem c1_writes : (c1 : List (HloOp τ sig (Elt F))).Forall fun op => op.writes ⊆ (W_lin.map (Proc.devRef (τ := τ) .tc)).toFinset := by writes_in
theorem c2_writes : (c2 : List (HloOp τ sig (Elt F))).Forall fun op => op.writes ⊆ (W_bn0.map (Proc.devRef (τ := τ) .tc)).toFinset := by writes_in
theorem c3_writes : (c3 : List (HloOp τ sig (Elt F))).Forall fun op => op.writes ⊆ (W_pool0.map (Proc.devRef (τ := τ) .tc)).toFinset := by writes_in
theorem c4_writes : (c4 : List (HloOp τ sig (Elt F))).Forall fun op => op.writes ⊆ (W_agg0.map (Proc.devRef (τ := τ) .tc)).toFinset := by writes_in
theorem c5_writes : (c5 : List (HloOp τ sig (Elt F))).Forall fun op => op.writes ⊆ (W_mlp1.map (Proc.devRef (τ := τ) .tc)).toFinset := by writes_in
theorem c6_writes : (c6 : List (HloOp τ sig (Elt F))).Forall fun op => op.writes ⊆ (W_bn1.map (Proc.devRef (τ := τ) .tc)).toFinset := by writes_in
theorem c7_writes : (c7 : List (HloOp τ sig (Elt F))).Forall fun op => op.writes ⊆ (W_pool1.map (Proc.devRef (τ := τ) .tc)).toFinset := by writes_in
theorem c8_writes : (c8 : List (HloOp τ sig (Elt F))).Forall fun op => op.writes ⊆ (W_agg1.map (Proc.devRef (τ := τ) .tc)).toFinset := by writes_in
theorem c9_writes : (c9 : List (HloOp τ sig (Elt F))).Forall fun op => op.writes ⊆ (W_mlp2.map (Proc.devRef (τ := τ) .tc)).toFinset := by writes_in
theorem c10_writes : (c10 : List (HloOp τ sig (Elt F))).Forall fun op => op.writes ⊆ (W_bn2.map (Proc.devRef (τ := τ) .tc)).toFinset := by writes_in
theorem c11_writes : (c11 : List (HloOp τ sig (Elt F))).Forall fun op => op.writes ⊆ (W_pool2.map (Proc.devRef (τ := τ) .tc)).toFinset := by writes_in
theorem c12_writes : (c12 : List (HloOp τ sig (Elt F))).Forall fun op => op.writes ⊆ (W_pool2.map (Proc.devRef (τ := τ) .tc)).toFinset := by writes_in
theorem c13_writes : (c13 : List (HloOp τ sig (Elt F))).Forall fun op => op.writes ⊆ (W_agg2.map (Proc.devRef (τ := τ) .tc)).toFinset := by writes_in
theorem c14_writes : (c14 : List (HloOp τ sig (Elt F))).Forall fun op => op.writes ⊆ (W_mlp3.map (Proc.devRef (τ := τ) .tc)).toFinset := by writes_in
theorem c15_writes : (c15 : List (HloOp τ sig (Elt F))).Forall fun op => op.writes ⊆ (W_bn3.map (Proc.devRef (τ := τ) .tc)).toFinset := by writes_in
theorem c16_writes : (c16 : List (HloOp τ sig (Elt F))).Forall fun op => op.writes ⊆ (W_bn3.map (Proc.devRef (τ := τ) .tc)).toFinset := by writes_in
theorem c17_writes : (c17 : List (HloOp τ sig (Elt F))).Forall fun op => op.writes ⊆ (W_pool3.map (Proc.devRef (τ := τ) .tc)).toFinset := by writes_in
theorem c18_writes : (c18 : List (HloOp τ sig (Elt F))).Forall fun op => op.writes ⊆ (W_stack.map (Proc.devRef (τ := τ) .tc)).toFinset := by writes_in

def A_edges (V : Valuation τ sig (Elt F)) : Valuation τ sig (Elt F) := after c0 V
def A_lin (V : Valuation τ sig (Elt F)) : Valuation τ sig (Elt F) := after c1 V
def A_bn0 (V : Valuation τ sig (Elt F)) : Valuation τ sig (Elt F) := after c2 V
def A_pool0 (V : Valuation τ sig (Elt F)) : Valuation τ sig (Elt F) := after c3 V
def A_agg0 (V : Valuation τ sig (Elt F)) : Valuation τ sig (Elt F) := after c4 V
def A_mlp1 (V : Valuation τ sig (Elt F)) : Valuation τ sig (Elt F) := after c5 V
def A_bn1 (V : Valuation τ sig (Elt F)) : Valuation τ sig (Elt F) := after c6 V
def A_pool1 (V : Valuation τ sig (Elt F)) : Valuation τ sig (Elt F) := after c7 V
def A_agg1 (V : Valuation τ sig (Elt F)) : Valuation τ sig (Elt F) := after c8 V
def A_mlp2 (V : Valuation τ sig (Elt F)) : Valuation τ sig (Elt F) := after c9 V
def A_bn2 (V : Valuation τ sig (Elt F)) : Valuation τ sig (Elt F) := after c10 V
def A_pool2 (V : Valuation τ sig (Elt F)) : Valuation τ sig (Elt F) := after c12 (after c11 V)
def A_agg2 (V : Valuation τ sig (Elt F)) : Valuation τ sig (Elt F) := after c13 V
def A_mlp3 (V : Valuation τ sig (Elt F)) : Valuation τ sig (Elt F) := after c14 V
def A_bn3 (V : Valuation τ sig (Elt F)) : Valuation τ sig (Elt F) := after c16 (after c15 V)
def A_pool3 (V : Valuation τ sig (Elt F)) : Valuation τ sig (Elt F) := after c17 V
def A_stack (V : Valuation τ sig (Elt F)) : Valuation τ sig (Elt F) := after c18 V

theorem after_ops (V : Valuation τ sig (Elt F)) :
    after ops V = A_stack (A_pool3 (A_bn3 (A_mlp3 (A_agg2 (A_pool2 (A_bn2 (A_mlp2 (A_agg1 (A_pool1 (A_bn1 (A_mlp1
      (A_agg0 (A_pool0 (A_bn0 (A_lin (A_edges V)))))))))))))))) := by
  simp only [ops, w0, w1, w2, w3, w4, after_app]
  rfl

theorem A_edges_keep (V : Valuation τ sig (Elt F)) {r : Ref sig .tc} (h : r ∉ W_edges) :
    A_edges V (no_index (Proc.devRef .tc r)) = V (Proc.devRef .tc r) := after_of_writes_sub c0 V c0_writes h
theorem A_lin_keep (V : Valuation τ sig (Elt F)) {r : Ref sig .tc} (h : r ∉ W_lin) :
    A_lin V (no_index (Proc.devRef .tc r)) = V (Proc.devRef .tc r) := after_of_writes_sub c1 V c1_writes h
theorem A_bn0_keep (V : Valuation τ sig (Elt F)) {r : Ref sig .tc} (h : r ∉ W_bn0) :
    A_bn0 V (no_index (Proc.devRef .tc r)) = V (Proc.devRef .tc r) := after_of_writes_sub c2 V c2_writes h
theorem A_pool0_keep (V : Valuation τ sig (Elt F)) {r : Ref sig .tc} (h : r ∉ W_pool0) :
    A_pool0 V (no_index (Proc.devRef .tc r)) = V (Proc.devRef .tc r) := after_of_writes_sub c3 V c3_writes h
theorem A_agg0_keep (V : Valuation τ sig (Elt F)) {r : Ref sig .tc} (h : r ∉ W_agg0) :
    A_agg0 V (no_index (Proc.devRef .tc r)) = V (Proc.devRef .tc r) := after_of_writes_sub c4 V c4_writes h
theorem A_mlp1_keep (V : Valuation τ sig (Elt F)) {r : Ref sig .tc} (h : r ∉ W_mlp1) :
    A_mlp1 V (no_index (Proc.devRef .tc r)) = V (Proc.devRef .tc r) := after_of_writes_sub c5 V c5_writes h
theorem A_bn1_keep (V : Valuation τ sig (Elt F)) {r : Ref sig .tc} (h : r ∉ W_bn1) :
    A_bn1 V (no_index (Proc.devRef .tc r)) = V (Proc.devRef .tc r) := after_of_writes_sub c6 V c6_writes h
theorem A_pool1_keep (V : Valuation τ sig (Elt F)) {r : Ref sig .tc} (h : r ∉ W_pool1) :
    A_pool1 V (no_index (Proc.devRef .tc r)) = V (Proc.devRef .tc r) := after_of_writes_sub c7 V c7_writes h
theorem A_agg1_keep (V : Valuation τ sig (Elt F)) {r : Ref sig .tc} (h : r ∉ W_agg1) :
    A_agg1 V (no_index (Proc.devRef .tc r)) = V (Proc.devRef .tc r) := after_of_writes_sub c8 V c8_writes h
theorem A_mlp2_keep (V : Valuation τ sig (Elt F)) {r : Ref sig .tc} (h : r ∉ W_mlp2) :
    A_mlp2 V (no_index (Proc.devRef .tc r)) = V (Proc.devRef .tc r) := after_of_writes_sub c9 V c9_writes h
theorem A_bn2_keep (V : Valuation τ sig (Elt F)) {r : Ref sig .tc} (h : r ∉ W_bn2) :
    A_bn2 V (no_index (Proc.devRef .tc r)) = V (Proc.devRef .tc r) := after_of_writes_sub c10 V c10_writes h
theorem A_pool2_keep (V : Valuation τ sig (Elt F)) {r : Ref sig .tc} (h : r ∉ W_pool2) :
    A_pool2 V (no_index (Proc.devRef .tc r)) = V (Proc.devRef .tc r) :=
  (after_of_writes_sub c12 _ c12_writes h).trans (after_of_writes_sub c11 V c11_writes h)
theorem A_agg2_keep (V : Valuation τ sig (Elt F)) {r : Ref sig .tc} (h : r ∉ W_agg2) :
    A_agg2 V (no_index (Proc.devRef .tc r)) = V (Proc.devRef .tc r) := after_of_writes_sub c13 V c13_writes h
theorem A_mlp3_keep (V : Valuation τ sig (Elt F)) {r : Ref sig .tc} (h : r ∉ W_mlp3) :
    A_mlp3 V (no_index (Proc.devRef .tc r)) = V (Proc.devRef .tc r) := after_of_writes_sub c14 V c14_writes h
theorem A_bn3_keep (V : Valuation τ sig (Elt F)) {r : Ref sig .tc} (h : r ∉ W_bn3) :
    A_bn3 V (no_index (Proc.devRef .tc r)) = V (Proc.devRef .tc r) :=
  (after_of_writes_sub c16 _ c16_writes h).trans (after_of_writes_sub c15 V c15_writes h)
theorem A_pool3_keep (V : Valuation τ sig (Elt F)) {r : Ref sig .tc} (h : r ∉ W_pool3) :
    A_pool3 V (no_index (Proc.devRef .tc r)) = V (Proc.devRef .tc r) := after_of_writes_sub c17 V c17_writes h
theorem A_stack_keep (V : Valuation τ sig (Elt F)) {r : Ref sig .tc} (h : r ∉ W_stack) :
    A_stack V (no_index (Proc.devRef .tc r)) = V (Proc.devRef .tc r) := after_of_writes_sub c18 V c18_writes h

def aggOf (h : FVec F S50000x64 .f32) (s d : IVec S800000 32) : FVec F S50000x64 .f32 :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 d)
    (Host.gather gather_S50000x64_S800000x1_S800000x64_1_0_n_n_0_1_164 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32)))
          s)))

theorem aggOf_edges (h : FVec F S50000x64 .f32) (ei : IVec S2x800000 32) :
    aggOf h (Cert.Spec.src ei) (Cert.Spec.dst ei) = Cert.Spec.agg h ei := rfl

macro "read_layer" : tactic => `(tactic| (after_results_simp; (try simp only [StableHlo.TRef.ofBuf, StableHlo.TRef.toBuf, cast_eq]); rfl))

theorem A_edges_v1 (V : Valuation τ sig (Elt F)) :
    A_edges V (no_index (Proc.devRef .tc main_v1)) = Cert.Spec.src (V (Proc.devRef .tc main_arg1)) := by
  unfold A_edges; simp only [c0]; read_layer
theorem A_edges_v3 (V : Valuation τ sig (Elt F)) :
    A_edges V (no_index (Proc.devRef .tc main_v3)) = Cert.Spec.dst (V (Proc.devRef .tc main_arg1)) := by
  unfold A_edges; simp only [c0]; read_layer

theorem A_lin_v7 (V : Valuation τ sig (Elt F)) :
    A_lin V (no_index (Proc.devRef .tc main_v7))
      = Cert.Spec.lin (V (Proc.devRef .tc main_arg0)) (V (Proc.devRef .tc main_arg3)) (V (Proc.devRef .tc main_arg4)) := by
  unfold A_lin; simp only [c1]; read_layer

set_option maxHeartbeats 2000000 in
theorem A_bn0_v26 (V : Valuation τ sig (Elt F)) :
    A_bn0 V (no_index (Proc.devRef .tc main_v26))
      = Cert.Spec.bn (V (Proc.devRef .tc main_v7)) (V (Proc.devRef .tc main_arg5)) (V (Proc.devRef .tc main_arg6)) := by
  unfold A_bn0; simp only [c2]; read_layer

theorem A_pool0_v37 (V : Valuation τ sig (Elt F)) :
    A_pool0 V (no_index (Proc.devRef .tc main_v37))
      = Cert.Spec.pool (V (Proc.devRef .tc main_v26)) (V (Proc.devRef .tc main_arg2)) := by
  unfold A_pool0; simp only [c3]; read_layer

theorem A_agg0_v48 (V : Valuation τ sig (Elt F)) :
    A_agg0 V (no_index (Proc.devRef .tc main_v48))
      = addf (V (Proc.devRef .tc main_v26))
          (aggOf (V (Proc.devRef .tc main_v26)) (V (Proc.devRef .tc main_v1)) (V (Proc.devRef .tc main_v3))) := by
  unfold A_agg0; simp only [c4]; read_layer

theorem A_mlp1_v65 (V : Valuation τ sig (Elt F)) :
    A_mlp1 V (no_index (Proc.devRef .tc main_v65))
      = Cert.Spec.affine (Cert.Spec.relu (Cert.Spec.affine (V (Proc.devRef .tc main_v48))
            (Cert.Spec.mat0 (V (Proc.devRef .tc main_arg7))) (Cert.Spec.vec0 (V (Proc.devRef .tc main_arg8)))))
          (Cert.Spec.mat0 (V (Proc.devRef .tc main_arg9))) (Cert.Spec.vec0 (V (Proc.devRef .tc main_arg10))) := by
  unfold A_mlp1; simp only [c5]; read_layer
theorem A_mlp1_v67 (V : Valuation τ sig (Elt F)) :
    A_mlp1 V (no_index (Proc.devRef .tc main_v67)) = Cert.Spec.vec0 (V (Proc.devRef .tc main_arg11)) := by
  unfold A_mlp1; simp only [c5]; read_layer
theorem A_mlp1_v69 (V : Valuation τ sig (Elt F)) :
    A_mlp1 V (no_index (Proc.devRef .tc main_v69)) = Cert.Spec.vec0 (V (Proc.devRef .tc main_arg12)) := by
  unfold A_mlp1; simp only [c5]; read_layer

set_option maxHeartbeats 2000000 in
theorem A_bn1_v89 (V : Valuation τ sig (Elt F)) :
    A_bn1 V (no_index (Proc.devRef .tc main_v89))
      = Cert.Spec.relu (Cert.Spec.bn (V (Proc.devRef .tc main_v65)) (V (Proc.devRef .tc main_v67)) (V (Proc.devRef .tc main_v69))) := by
  unfold A_bn1; simp only [c6]; read_layer

theorem A_pool1_v100 (V : Valuation τ sig (Elt F)) :
    A_pool1 V (no_index (Proc.devRef .tc main_v100))
      = Cert.Spec.pool (V (Proc.devRef .tc main_v89)) (V (Proc.devRef .tc main_arg2)) := by
  unfold A_pool1; simp only [c7]; read_layer

theorem A_agg1_v111 (V : Valuation τ sig (Elt F)) :
    A_agg1 V (no_index (Proc.devRef .tc main_v111))
      = addf (V (Proc.devRef .tc main_v89))
          (aggOf (V (Proc.devRef .tc main_v89)) (V (Proc.devRef .tc main_v1)) (V (Proc.devRef .tc main_v3))) := by
  unfold A_agg1; simp only [c8]; read_layer

theorem A_mlp2_v128 (V : Valuation τ sig (Elt F)) :
    A_mlp2 V (no_index (Proc.devRef .tc main_v128))
      = Cert.Spec.affine (Cert.Spec.relu (Cert.Spec.affine (V (Proc.devRef .tc main_v111))
            (Cert.Spec.mat1 (V (Proc.devRef .tc main_arg7))) (Cert.Spec.vec1 (V (Proc.devRef .tc main_arg8)))))
          (Cert.Spec.mat1 (V (Proc.devRef .tc main_arg9))) (Cert.Spec.vec1 (V (Proc.devRef .tc main_arg10))) := by
  unfold A_mlp2; simp only [c9]; read_layer
theorem A_mlp2_v130 (V : Valuation τ sig (Elt F)) :
    A_mlp2 V (no_index (Proc.devRef .tc main_v130)) = Cert.Spec.vec1 (V (Proc.devRef .tc main_arg11)) := by
  unfold A_mlp2; simp only [c9]; read_layer
theorem A_mlp2_v132 (V : Valuation τ sig (Elt F)) :
    A_mlp2 V (no_index (Proc.devRef .tc main_v132)) = Cert.Spec.vec1 (V (Proc.devRef .tc main_arg12)) := by
  unfold A_mlp2; simp only [c9]; read_layer

set_option maxHeartbeats 2000000 in
theorem A_bn2_v152 (V : Valuation τ sig (Elt F)) :
    A_bn2 V (no_index (Proc.devRef .tc main_v152))
      = Cert.Spec.relu (Cert.Spec.bn (V (Proc.devRef .tc main_v128)) (V (Proc.devRef .tc main_v130)) (V (Proc.devRef .tc main_v132))) := by
  unfold A_bn2; simp only [c10]; read_layer

theorem A_pool2_v163 (V : Valuation τ sig (Elt F)) :
    A_pool2 V (no_index (Proc.devRef .tc main_v163))
      = Cert.Spec.pool (V (Proc.devRef .tc main_v152)) (V (Proc.devRef .tc main_arg2)) := by
  unfold A_pool2; rw [← after_app]; simp only [c11, c12, List.cons_append, List.nil_append]; read_layer

theorem A_agg2_v174 (V : Valuation τ sig (Elt F)) :
    A_agg2 V (no_index (Proc.devRef .tc main_v174))
      = addf (V (Proc.devRef .tc main_v152))
          (aggOf (V (Proc.devRef .tc main_v152)) (V (Proc.devRef .tc main_v1)) (V (Proc.devRef .tc main_v3))) := by
  unfold A_agg2; simp only [c13]; read_layer

theorem A_mlp3_v191 (V : Valuation τ sig (Elt F)) :
    A_mlp3 V (no_index (Proc.devRef .tc main_v191))
      = Cert.Spec.affine (Cert.Spec.relu (Cert.Spec.affine (V (Proc.devRef .tc main_v174))
            (Cert.Spec.mat2 (V (Proc.devRef .tc main_arg7))) (Cert.Spec.vec2 (V (Proc.devRef .tc main_arg8)))))
          (Cert.Spec.mat2 (V (Proc.devRef .tc main_arg9))) (Cert.Spec.vec2 (V (Proc.devRef .tc main_arg10))) := by
  unfold A_mlp3; simp only [c14]; read_layer
theorem A_mlp3_v193 (V : Valuation τ sig (Elt F)) :
    A_mlp3 V (no_index (Proc.devRef .tc main_v193)) = Cert.Spec.vec2 (V (Proc.devRef .tc main_arg11)) := by
  unfold A_mlp3; simp only [c14]; read_layer
theorem A_mlp3_v195 (V : Valuation τ sig (Elt F)) :
    A_mlp3 V (no_index (Proc.devRef .tc main_v195)) = Cert.Spec.vec2 (V (Proc.devRef .tc main_arg12)) := by
  unfold A_mlp3; simp only [c14]; read_layer

set_option maxHeartbeats 2000000 in
theorem A_bn3_v215 (V : Valuation τ sig (Elt F)) :
    A_bn3 V (no_index (Proc.devRef .tc main_v215))
      = Cert.Spec.relu (Cert.Spec.bn (V (Proc.devRef .tc main_v191)) (V (Proc.devRef .tc main_v193)) (V (Proc.devRef .tc main_v195))) := by
  unfold A_bn3; rw [← after_app]; simp only [c15, c16, List.cons_append, List.nil_append]; read_layer

theorem A_pool3_v226 (V : Valuation τ sig (Elt F)) :
    A_pool3 V (no_index (Proc.devRef .tc main_v226))
      = Cert.Spec.pool (V (Proc.devRef .tc main_v215)) (V (Proc.devRef .tc main_arg2)) := by
  unfold A_pool3; simp only [c17]; read_layer

theorem A_stack_v231 (V : Valuation τ sig (Elt F)) :
    A_stack V (no_index (Proc.devRef .tc main_v231))
      = Cert.Spec.stack (V (Proc.devRef .tc main_v37)) (V (Proc.devRef .tc main_v100)) (V (Proc.devRef .tc main_v163))
          (V (Proc.devRef .tc main_v226)) := by
  unfold A_stack; simp only [c18]; after_results; rfl

macro "read_layers" : tactic => `(tactic| simp (disch := decide) only [
    A_stack_v231, A_pool3_v226, A_bn3_v215, A_mlp3_v191, A_mlp3_v193, A_mlp3_v195, A_agg2_v174, A_pool2_v163,
    A_bn2_v152, A_mlp2_v128, A_mlp2_v130, A_mlp2_v132, A_agg1_v111, A_pool1_v100, A_bn1_v89, A_mlp1_v65, A_mlp1_v67,
    A_mlp1_v69, A_agg0_v48, A_pool0_v37, A_bn0_v26, A_lin_v7, A_edges_v1, A_edges_v3,
    A_stack_keep, A_pool3_keep, A_bn3_keep, A_mlp3_keep, A_agg2_keep, A_pool2_keep, A_bn2_keep, A_mlp2_keep,
    A_agg1_keep, A_pool1_keep, A_bn1_keep, A_mlp1_keep, A_agg0_keep, A_pool0_keep, A_bn0_keep, A_lin_keep, A_edges_keep,
    aggOf_edges])

set_option maxHeartbeats 4000000 in
set_option maxRecDepth 4096 in

theorem out_eq (V : Valuation τ sig (Elt F)) :
    after ops V (Proc.devRef .tc main_v231)
      = Cert.Spec.out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) := by
  rw [after_ops]
  read_layers
  rfl

theorem arg0_eq (V : Valuation τ sig (Elt F)) : after ops V (Proc.devRef .tc main_arg0) = V (Proc.devRef .tc main_arg0) := by
  rw [after_ops]; read_layers
theorem arg1_eq (V : Valuation τ sig (Elt F)) : after ops V (Proc.devRef .tc main_arg1) = V (Proc.devRef .tc main_arg1) := by
  rw [after_ops]; read_layers
theorem arg2_eq (V : Valuation τ sig (Elt F)) : after ops V (Proc.devRef .tc main_arg2) = V (Proc.devRef .tc main_arg2) := by
  rw [after_ops]; read_layers
theorem arg3_eq (V : Valuation τ sig (Elt F)) : after ops V (Proc.devRef .tc main_arg3) = V (Proc.devRef .tc main_arg3) := by
  rw [after_ops]; read_layers
theorem arg4_eq (V : Valuation τ sig (Elt F)) : after ops V (Proc.devRef .tc main_arg4) = V (Proc.devRef .tc main_arg4) := by
  rw [after_ops]; read_layers
theorem arg5_eq (V : Valuation τ sig (Elt F)) : after ops V (Proc.devRef .tc main_arg5) = V (Proc.devRef .tc main_arg5) := by
  rw [after_ops]; read_layers
theorem arg6_eq (V : Valuation τ sig (Elt F)) : after ops V (Proc.devRef .tc main_arg6) = V (Proc.devRef .tc main_arg6) := by
  rw [after_ops]; read_layers
theorem arg7_eq (V : Valuation τ sig (Elt F)) : after ops V (Proc.devRef .tc main_arg7) = V (Proc.devRef .tc main_arg7) := by
  rw [after_ops]; read_layers
theorem arg8_eq (V : Valuation τ sig (Elt F)) : after ops V (Proc.devRef .tc main_arg8) = V (Proc.devRef .tc main_arg8) := by
  rw [after_ops]; read_layers
theorem arg9_eq (V : Valuation τ sig (Elt F)) : after ops V (Proc.devRef .tc main_arg9) = V (Proc.devRef .tc main_arg9) := by
  rw [after_ops]; read_layers
theorem arg10_eq (V : Valuation τ sig (Elt F)) : after ops V (Proc.devRef .tc main_arg10) = V (Proc.devRef .tc main_arg10) := by
  rw [after_ops]; read_layers
theorem arg11_eq (V : Valuation τ sig (Elt F)) : after ops V (Proc.devRef .tc main_arg11) = V (Proc.devRef .tc main_arg11) := by
  rw [after_ops]; read_layers
theorem arg12_eq (V : Valuation τ sig (Elt F)) : after ops V (Proc.devRef .tc main_arg12) = V (Proc.devRef .tc main_arg12) := by
  rw [after_ops]; read_layers

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v231)
        = Cert.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun _ h c => ⟨(h c main_v231).trans (out_eq (launchContents m c)),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _)⟩)
    (run_seq scopedRefs_eq scopedSems_eq defs main (fun _ => ops) main_eq (fun _ => ops_sub) m ρ
      (fun _ => List.forall_iff_forall_mem.mp ops_fresh))

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun _ h c => (h c).2) (run m ρ)

end Cert.ReferenceIdeal.Hand

end
-- ==== Proof.lean ====
/-
  A graph network computed in row blocks (a linear input layer; three rounds of neighbourhood sum, two-layer perceptron and
  batch normalisation; the per-graph mean of the node states after every stage) against the same network on whole arrays.
  Over the extended reals each region's result is the whole-array layer of what the region reads: a row block of a matrix
  product, of a column-wise normalisation or of a row-wise perceptron is the rows of the whole, and the ten row blocks'
  one-hot pools add up to the sum of the rows by graph. The host operations in between are the reference's own, so both
  results are one function of the thirteen arguments.
-/
import proofs.«421327_j56599079026905_1_alg».proof.Defs
import proofs.«421327_j56599079026905_1_alg».proof.Proof.K.Run
import proofs.«421327_j56599079026905_1_alg».proof.Proof.KI.Run
import proofs.«421327_j56599079026905_1_alg».proof.Proof.KI.ValChain
import proofs.«421327_j56599079026905_1_alg».proof.Proof.Ref.Run
import proofs.«421327_j56599079026905_1_alg».proof.Proof.Gen.Kernel
import proofs.«421327_j56599079026905_1_alg».proof.Proof.Gen.KernelIdeal
import proofs.«421327_j56599079026905_1_alg».proof.Proof.Gen.ReferenceIdeal
import proofs.«421327_j56599079026905_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ => Cert.ReferenceIdeal.Hand.frame m ρ

theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run _ _ _).mono (fun r h c => ⟨(h c).1.trans (Cert.KernelIdeal.Val.result m c), (h c).2⟩)
      (Cert.KernelIdeal.Hand.run_result m ρ)
  · refine (θ_run _ _ _).mono (fun r h c => ⟨(h c).1.trans ?_, (h c).2⟩) (Cert.ReferenceIdeal.Hand.run m' ρ')
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
